-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v193)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v193) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v223) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S4x128x128 : Shape := ⟨3, ![4, 128, 128]⟩
abbrev S4x128 : Shape := ⟨2, ![4, 128]⟩
abbrev S128x128 : Shape := ⟨2, ![128, 128]⟩
abbrev S128 : Shape := ⟨1, ![128]⟩
abbrev S128x32 : Shape := ⟨2, ![128, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_

variable [Facts]

def fn_part3 {F : FTy → Type} [FloatOps F] (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  main_v53

def fn_part2 {F : FTy → Type} [FloatOps F] (main_arg9 : FVec F S128x128 .f32) (main_arg10 : FVec F S128 .f32) (main_arg11 : FVec F S128x32 .f32) (main_arg12 : FVec F S32 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x32 .f32 := Host.absf main_arg11
  let main_cst_16 : FVec F S_ .f32 := constant S_ .f32 0x7F800000#32
  let main_v45 : FVec F S128x32 .f32 := broadcastInDim S128x32 ![] bcast_S_S128x32 main_cst_16
  let main_v46 : IVec S128x32 1 := cmpf .olt main_v44 main_v45
  let main_c_17 : IVec S_ 1 := constantI S_ 1 1#1
  let main_v47 : IVec S_ 1 := (fun x v => Host.reduce IntOp.andi x v reducesTo_S128x32_S_d0_1 h_S_) main_v46 main_c_17
  let main_v48 : IVec S_ 1 := andi main_v43 main_v47
  let main_v49 : FVec F S32 .f32 := Host.absf main_arg12
  let main_cst_18 : FVec F S_ .f32 := constant S_ .f32 0x7F800000#32
  let main_v50 : FVec F S32 .f32 := broadcastInDim S32 ![] bcast_S_S32 main_cst_18
  fn_part3 (F := F) main_v48 main_v49 main_v50

def fn_part1 {F : FTy → Type} [FloatOps F] (main_arg6 : FVec F S4x128 .f32) (main_arg7 : FVec F S4x128x128 .f32) (main_arg8 : FVec F S4x128 .f32) (main_arg9 : FVec F S128x128 .f32) (main_arg10 : FVec F S128 .f32) (main_arg11 : FVec F S128x32 .f32) (main_arg12 : FVec F S32 .f32) (main_v13 : IVec S_ 1) (main_v16 : IVec S4x128 1) : IVec S_ 1 :=
  let main_c_5 : IVec S_ 1 := constantI S_ 1 1#1
  let main_v17 : IVec S_ 1 := (fun x v => Host.reduce IntOp.andi x v reducesTo_S4x128_S_d0_1 h_S_) main_v16 main_c_5
  let main_v18 : IVec S_ 1 := andi main_v13 main_v17
  let main_v19 : FVec F S4x128 .f32 := Host.absf main_arg6
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  let main_v24 : FVec F S4x128x128 .f32 := Host.absf main_arg7
  let main_cst_8 : FVec F S_ .f32 := constant S_ .f32 0x7F800000#32
  let main_v25 : FVec F S4x128x128 .f32 := broadcastInDim S4x128x128 ![] bcast_S_S4x128x128 main_cst_8
  let main_v26 : IVec S4x128x128 1 := cmpf .olt main_v24 main_v25
  let main_c_9 : IVec S_ 1 := constantI S_ 1 1#1
  let main_v27 : IVec S_ 1 := (fun x v => Host.reduce IntOp.andi x v reducesTo_S4x128x128_S_d0_1_2 h_S_) main_v26 main_c_9
  let main_v28 : IVec S_ 1 := andi main_v23 main_v27
  let main_v29 : FVec F S4x128 .f32 := Host.absf main_arg8
  let main_cst_10 : FVec F S_ .f32 := constant S_ .f32 0x7F800000#32
  let main_v30 : FVec F S4x128 .f32 := broadcastInDim S4x128 ![] bcast_S_S4x128 main_cst_10
  let main_v31 : IVec S4x128 1 := cmpf .olt main_v29 main_v30
  let main_c_11 : IVec S_ 1 := constantI S_ 1 1#1
  let main_v32 : IVec S_ 1 := (fun x v => Host.reduce IntOp.andi x v reducesTo_S4x128_S_d0_1 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x128 .f32) (main_arg1 : IVec S2x1600000 32) (main_arg2 : IVec S100000 32) (main_arg3 : FVec F S4x128x128 .f32) (main_arg4 : FVec F S4x128 .f32) (main_arg5 : FVec F S4x128 .f32) (main_arg6 : FVec F S4x128 .f32) (main_arg7 : FVec F S4x128x128 .f32) (main_arg8 : FVec F S4x128 .f32) (main_arg9 : FVec F S128x128 .f32) (main_arg10 : FVec F S128 .f32) (main_arg11 : FVec F S128x32 .f32) (main_arg12 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S4x128x128 .f32 := Host.absf main_arg3
  let main_cst_0 : FVec F S_ .f32 := constant S_ .f32 0x7F800000#32
  let main_v5 : FVec F S4x128x128 .f32 := broadcastInDim S4x128x128 ![] bcast_S_S4x128x128 main_cst_0
  let main_v6 : IVec S4x128x128 1 := cmpf .olt main_v4 main_v5
  let main_c_1 : IVec S_ 1 := constantI S_ 1 1#1
  let main_v7 : IVec S_ 1 := (fun x v => Host.reduce IntOp.andi x v reducesTo_S4x128x128_S_d0_1_2 h_S_) main_v6 main_c_1
  let main_v8 : IVec S_ 1 := andi main_v3 main_v7
  let main_v9 : FVec F S4x128 .f32 := Host.absf main_arg4
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  let main_c_3 : IVec S_ 1 := constantI S_ 1 1#1
  let main_v12 : IVec S_ 1 := (fun x v => Host.reduce IntOp.andi x v reducesTo_S4x128_S_d0_1 h_S_) main_v11 main_c_3
  let main_v13 : IVec S_ 1 := andi main_v8 main_v12
  let main_v14 : FVec F S4x128 .f32 := Host.absf main_arg5
  let main_cst_4 : FVec F S_ .f32 := constant S_ .f32 0x7F800000#32
  let main_v15 : FVec F S4x128 .f32 := broadcastInDim S4x128 ![] bcast_S_S4x128 main_cst_4
  let main_v16 : IVec S4x128 1 := cmpf .olt main_v14 main_v15
  fn_part1 (F := F) main_arg6 main_arg7 main_arg8 main_arg9 main_arg10 main_arg11 main_arg12 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S4x128x128 : Shape := ⟨3, ![4, 128, 128]⟩
abbrev S4x128 : Shape := ⟨2, ![4, 128]⟩
abbrev S128x128 : Shape := ⟨2, ![128, 128]⟩
abbrev S128 : Shape := ⟨1, ![128]⟩
abbrev S128x32 : Shape := ⟨2, ![128, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128x128 : Shape := ⟨3, ![1, 128, 128]⟩
abbrev S1x128 : Shape := ⟨2, ![1, 128]⟩
abbrev S20x8x128 : Shape := ⟨3, ![20, 8, 128]⟩
abbrev S5000x128 : Shape := ⟨2, ![5000, 128]⟩
abbrev S1x8x128 : Shape := ⟨3, ![1, 8, 128]⟩
abbrev S1x1x128 : Shape := ⟨3, ![1, 1, 128]⟩
abbrev S20x1x128 : Shape := ⟨3, ![20, 1, 128]⟩
abbrev S20x128 : Shape := ⟨2, ![20, 128]⟩
abbrev S102400x128 : Shape := ⟨2, ![102400, 128]⟩
abbrev S102400 : Shape := ⟨1, ![102400]⟩
abbrev S1x102400 : Shape := ⟨2, ![1, 102400]⟩
abbrev S1x32 : Shape := ⟨2, ![1, 32]⟩
abbrev S12800x128 : Shape := ⟨2, ![12800, 128]⟩
abbrev S1x12800 : Shape := ⟨2, ![1, 12800]⟩
abbrev S128x12800 : Shape := ⟨2, ![128, 12800]⟩

abbrev nBuf : Space → Nat
  | .hbm => 251
  | .vmem => 90
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S4x128x128, .f32⟩
  | 4 => ⟨S4x128, .f32⟩
  | 5 => ⟨S4x128, .f32⟩
  | 6 => ⟨S4x128, .f32⟩
  | 7 => ⟨S4x128x128, .f32⟩
  | 8 => ⟨S4x128, .f32⟩
  | 9 => ⟨S128x128, .f32⟩
  | 10 => ⟨S128, .f32⟩
  | 11 => ⟨S128x32, .f32⟩
  | 12 => ⟨S32, .f32⟩
  | 13 => ⟨S1x1600000, .i32⟩
  | 14 => ⟨S1600000, .i32⟩
  | 15 => ⟨S1x1600000, .i32⟩
  | 16 => ⟨S1600000, .i32⟩
  | 17 => ⟨S_, .i32⟩
  | 18 => ⟨S1600000, .i32⟩
  | 19 => ⟨S1600000, .i1⟩
  | 20 => ⟨S_, .i32⟩
  | 21 => ⟨S1600000, .i32⟩
  | 22 => ⟨S1600000, .i32⟩
  | 23 => ⟨S1600000, .i32⟩
  | 24 => ⟨S1600000x1, .i32⟩
  | 25 => ⟨S1600000x128, .f32⟩
  | 26 => ⟨S_, .f32⟩
  | 27 => ⟨S100000x128, .f32⟩
  | 28 => ⟨S1600000x1, .i32⟩
  | 29 => ⟨S100000x128, .f32⟩
  | 30 => ⟨S1x128x128, .f32⟩
  | 31 => ⟨S128x128, .f32⟩
  | 32 => ⟨S1x128, .f32⟩
  | 33 => ⟨S128, .f32⟩
  | 34 => ⟨S1x128, .f32⟩
  | 35 => ⟨S100000x128, .f32⟩
  | 36 => ⟨S20x8x128, .f32⟩
  | 37 => ⟨S20x8x128, .f32⟩
  | 38 => ⟨S20x1x128, .f32⟩
  | 39 => ⟨S20x128, .f32⟩
  | 40 => ⟨S_, .f32⟩
  | 41 => ⟨S128, .f32⟩
  | 42 => ⟨S20x1x128, .f32⟩
  | 43 => ⟨S20x128, .f32⟩
  | 44 => ⟨S_, .f32⟩
  | 45 => ⟨S128, .f32⟩
  | 46 => ⟨S_, .f32⟩
  | 47 => ⟨S128, .f32⟩
  | 48 => ⟨S128, .f32⟩
  | 49 => ⟨S_, .f32⟩
  | 50 => ⟨S128, .f32⟩
  | 51 => ⟨S128, .f32⟩
  | 52 => ⟨S128, .f32⟩
  | 53 => ⟨S128, .f32⟩
  | 54 => ⟨S1x128, .f32⟩
  | 55 => ⟨S128, .f32⟩
  | 56 => ⟨S_, .f32⟩
  | 57 => ⟨S128, .f32⟩
  | 58 => ⟨S128, .f32⟩
  | 59 => ⟨S128, .f32⟩
  | 60 => ⟨S128, .f32⟩
  | 61 => ⟨S1x128, .f32⟩
  | 62 => ⟨S128, .f32⟩
  | 63 => ⟨S128, .f32⟩
  | 64 => ⟨S128, .f32⟩
  | 65 => ⟨S1x128x128, .f32⟩
  | 66 => ⟨S128x128, .f32⟩
  | 67 => ⟨S1x128, .f32⟩
  | 68 => ⟨S128, .f32⟩
  | 69 => ⟨S1x128, .f32⟩
  | 70 => ⟨S1x128, .f32⟩
  | 71 => ⟨S1x128, .f32⟩
  | 72 => ⟨S100000x128, .f32⟩
  | 73 => ⟨S_, .i32⟩
  | 74 => ⟨S1600000, .i32⟩
  | 75 => ⟨S1600000, .i1⟩
  | 76 => ⟨S_, .i32⟩
  | 77 => ⟨S1600000, .i32⟩
  | 78 => ⟨S1600000, .i32⟩
  | 79 => ⟨S1600000, .i32⟩
  | 80 => ⟨S1600000x1, .i32⟩
  | 81 => ⟨S1600000x128, .f32⟩
  | 82 => ⟨S_, .f32⟩
  | 83 => ⟨S100000x128, .f32⟩
  | 84 => ⟨S1600000x1, .i32⟩
  | 85 => ⟨S100000x128, .f32⟩
  | 86 => ⟨S1x128x128, .f32⟩
  | 87 => ⟨S128x128, .f32⟩
  | 88 => ⟨S1x128, .f32⟩
  | 89 => ⟨S128, .f32⟩
  | 90 => ⟨S1x128, .f32⟩
  | 91 => ⟨S100000x128, .f32⟩
  | 92 => ⟨S20x8x128, .f32⟩
  | 93 => ⟨S20x8x128, .f32⟩
  | 94 => ⟨S20x1x128, .f32⟩
  | 95 => ⟨S20x128, .f32⟩
  | 96 => ⟨S_, .f32⟩
  | 97 => ⟨S128, .f32⟩
  | 98 => ⟨S20x1x128, .f32⟩
  | 99 => ⟨S20x128, .f32⟩
  | 100 => ⟨S_, .f32⟩
  | 101 => ⟨S128, .f32⟩
  | 102 => ⟨S_, .f32⟩
  | 103 => ⟨S128, .f32⟩
  | 104 => ⟨S128, .f32⟩
  | 105 => ⟨S_, .f32⟩
  | 106 => ⟨S128, .f32⟩
  | 107 => ⟨S128, .f32⟩
  | 108 => ⟨S128, .f32⟩
  | 109 => ⟨S128, .f32⟩
  | 110 => ⟨S1x128, .f32⟩
  | 111 => ⟨S128, .f32⟩
  | 112 => ⟨S_, .f32⟩
  | 113 => ⟨S128, .f32⟩
  | 114 => ⟨S128, .f32⟩
  | 115 => ⟨S128, .f32⟩
  | 116 => ⟨S128, .f32⟩
  | 117 => ⟨S1x128, .f32⟩
  | 118 => ⟨S128, .f32⟩
  | 119 => ⟨S128, .f32⟩
  | 120 => ⟨S128, .f32⟩
  | 121 => ⟨S1x128x128, .f32⟩
  | 122 => ⟨S128x128, .f32⟩
  | 123 => ⟨S1x128, .f32⟩
  | 124 => ⟨S128, .f32⟩
  | 125 => ⟨S1x128, .f32⟩
  | 126 => ⟨S1x128, .f32⟩
  | 127 => ⟨S1x128, .f32⟩
  | _ => ⟨S100000x128, .f32⟩

abbrev hbmTy0_1 (i : Nat) : BufTy := match i % 128 with
  | 0 => ⟨S100000x128, .f32⟩
  | 1 => ⟨S_, .i32⟩
  | 2 => ⟨S1600000, .i32⟩
  | 3 => ⟨S1600000, .i1⟩
  | 4 => ⟨S_, .i32⟩
  | 5 => ⟨S1600000, .i32⟩
  | 6 => ⟨S1600000, .i32⟩
  | 7 => ⟨S1600000, .i32⟩
  | 8 => ⟨S1600000x1, .i32⟩
  | 9 => ⟨S1600000x128, .f32⟩
  | 10 => ⟨S_, .f32⟩
  | 11 => ⟨S100000x128, .f32⟩
  | 12 => ⟨S1600000x1, .i32⟩
  | 13 => ⟨S100000x128, .f32⟩
  | 14 => ⟨S1x128x128, .f32⟩
  | 15 => ⟨S128x128, .f32⟩
  | 16 => ⟨S1x128, .f32⟩
  | 17 => ⟨S128, .f32⟩
  | 18 => ⟨S1x128, .f32⟩
  | 19 => ⟨S100000x128, .f32⟩
  | 20 => ⟨S20x8x128, .f32⟩
  | 21 => ⟨S20x8x128, .f32⟩
  | 22 => ⟨S20x1x128, .f32⟩
  | 23 => ⟨S20x128, .f32⟩
  | 24 => ⟨S_, .f32⟩
  | 25 => ⟨S128, .f32⟩
  | 26 => ⟨S20x1x128, .f32⟩
  | 27 => ⟨S20x128, .f32⟩
  | 28 => ⟨S_, .f32⟩
  | 29 => ⟨S128, .f32⟩
  | 30 => ⟨S_, .f32⟩
  | 31 => ⟨S128, .f32⟩
  | 32 => ⟨S128, .f32⟩
  | 33 => ⟨S_, .f32⟩
  | 34 => ⟨S128, .f32⟩
  | 35 => ⟨S128, .f32⟩
  | 36 => ⟨S128, .f32⟩
  | 37 => ⟨S128, .f32⟩
  | 38 => ⟨S1x128, .f32⟩
  | 39 => ⟨S128, .f32⟩
  | 40 => ⟨S_, .f32⟩
  | 41 => ⟨S128, .f32⟩
  | 42 => ⟨S128, .f32⟩
  | 43 => ⟨S128, .f32⟩
  | 44 => ⟨S128, .f32⟩
  | 45 => ⟨S1x128, .f32⟩
  | 46 => ⟨S128, .f32⟩
  | 47 => ⟨S128, .f32⟩
  | 48 => ⟨S128, .f32⟩
  | 49 => ⟨S1x128x128, .f32⟩
  | 50 => ⟨S128x128, .f32⟩
  | 51 => ⟨S1x128, .f32⟩
  | 52 => ⟨S128, .f32⟩
  | 53 => ⟨S1x128, .f32⟩
  | 54 => ⟨S1x128, .f32⟩
  | 55 => ⟨S1x128, .f32⟩
  | 56 => ⟨S100000x128, .f32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S1600000x128, .f32⟩
  | 66 => ⟨S_, .f32⟩
  | 67 => ⟨S100000x128, .f32⟩
  | 68 => ⟨S1600000x1, .i32⟩
  | 69 => ⟨S100000x128, .f32⟩
  | 70 => ⟨S1x128x128, .f32⟩
  | 71 => ⟨S128x128, .f32⟩
  | 72 => ⟨S1x128, .f32⟩
  | 73 => ⟨S128, .f32⟩
  | 74 => ⟨S1x128, .f32⟩
  | 75 => ⟨S100000x128, .f32⟩
  | 76 => ⟨S20x8x128, .f32⟩
  | 77 => ⟨S20x8x128, .f32⟩
  | 78 => ⟨S20x1x128, .f32⟩
  | 79 => ⟨S20x128, .f32⟩
  | 80 => ⟨S_, .f32⟩
  | 81 => ⟨S128, .f32⟩
  | 82 => ⟨S20x1x128, .f32⟩
  | 83 => ⟨S20x128, .f32⟩
  | 84 => ⟨S_, .f32⟩
  | 85 => ⟨S128, .f32⟩
  | 86 => ⟨S_, .f32⟩
  | 87 => ⟨S128, .f32⟩
  | 88 => ⟨S128, .f32⟩
  | 89 => ⟨S_, .f32⟩
  | 90 => ⟨S128, .f32⟩
  | 91 => ⟨S128, .f32⟩
  | 92 => ⟨S128, .f32⟩
  | 93 => ⟨S128, .f32⟩
  | 94 => ⟨S1x128, .f32⟩
  | 95 => ⟨S128, .f32⟩
  | 96 => ⟨S_, .f32⟩
  | 97 => ⟨S128, .f32⟩
  | 98 => ⟨S128, .f32⟩
  | 99 => ⟨S128, .f32⟩
  | 100 => ⟨S128, .f32⟩
  | 101 => ⟨S1x128, .f32⟩
  | 102 => ⟨S128, .f32⟩
  | 103 => ⟨S128, .f32⟩
  | 104 => ⟨S128, .f32⟩
  | 105 => ⟨S1x128x128, .f32⟩
  | 106 => ⟨S128x128, .f32⟩
  | 107 => ⟨S1x128, .f32⟩
  | 108 => ⟨S128, .f32⟩
  | 109 => ⟨S1x128, .f32⟩
  | 110 => ⟨S1x128, .f32⟩
  | 111 => ⟨S1x128, .f32⟩
  | 112 => ⟨S100000x128, .f32⟩
  | 113 => ⟨S_, .i32⟩
  | 114 => ⟨S_, .f32⟩
  | 115 => ⟨S102400x128, .f32⟩
  | 116 => ⟨S_, .i32⟩
  | 117 => ⟨S_, .i32⟩
  | 118 => ⟨S102400, .i32⟩
  | 119 => ⟨S1x102400, .i32⟩
  | 120 => ⟨S1x128, .f32⟩
  | 121 => ⟨S1x32, .f32⟩
  | 122 => ⟨S128x32, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S1x8x128, .f32⟩
  | .local _ .vmem, ⟨9, _⟩ => ⟨S1x8x128, .f32⟩
  | .local _ .vmem, ⟨10, _⟩ => ⟨S1x8x128, .f32⟩
  | .local _ .vmem, ⟨11, _⟩ => ⟨S1x8x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S1x8x128, .f32⟩
  | .local _ .vmem, ⟨29, _⟩ => ⟨S1x8x128, .f32⟩
  | .local _ .vmem, ⟨30, _⟩ => ⟨S1x8x128, .f32⟩
  | .local _ .vmem, ⟨31, _⟩ => ⟨S1x8x128, .f32⟩
  | .local _ .vmem, ⟨32, _⟩ => ⟨S5000x128, .f32⟩
  | .local _ .vmem, ⟨33, _⟩ => ⟨S5000x128, .f32⟩
  | .local _ .vmem, ⟨34, _⟩ => ⟨S1x128, .f32⟩
  | .local _ .vmem, ⟨35, _⟩ => ⟨S1x128, .f32⟩
  | .local _ .vmem, ⟨36, _⟩ => ⟨S128x128, .f32⟩
  | .local _ .vmem, ⟨37, _⟩ => ⟨S1x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S128x128, .f32⟩
  | .local _ .vmem, ⟨45, _⟩ => ⟨S1x128, .f32⟩
  | .local _ .vmem, ⟨46, _⟩ => ⟨S5000x128, .f32⟩
  | .local _ .vmem, ⟨47, _⟩ => ⟨S5000x128, .f32⟩
  | .local _ .vmem, ⟨48, _⟩ => ⟨S1x8x128, .f32⟩
  | .local _ .vmem, ⟨49, _⟩ => ⟨S1x8x128, .f32⟩
  | .local _ .vmem, ⟨50, _⟩ => ⟨S1x8x128, .f32⟩
  | .local _ .vmem, ⟨51, _⟩ => ⟨S1x8x128, .f32⟩
  | .local _ .vmem, ⟨52, _⟩ => ⟨S5000x128, .f32⟩
  | .local _ .vmem, ⟨53, _⟩ => ⟨S5000x128, .f32⟩
  | .local _ .vmem, ⟨54, _⟩ => ⟨S1x128, .f32⟩
  | .local _ .vmem, ⟨55, _⟩ => ⟨S1x128, .f32⟩
  | .local _ .vmem, ⟨56, _⟩ => ⟨S128x128, .f32⟩
  | .local _ .vmem, ⟨57, _⟩ => ⟨S1x128, .f32⟩
  | .local _ .vmem, ⟨58, _⟩ => ⟨S5000x128, .f32⟩
  | .local _ .vmem, ⟨59, _⟩ => ⟨S5000x128, .f32⟩
  | .local _ .vmem, ⟨60, _⟩ => ⟨S5000x128, .f32⟩
  | .local _ .vmem, ⟨61, _⟩ => ⟨S5000x128, .f32⟩
  | .local _ .vmem, ⟨62, _⟩ => ⟨S5000x128, .f32⟩
  | .local _ .vmem, ⟨63, _⟩ => ⟨S5000x128, .f32⟩
  | .local _ .vmem, ⟨64, _⟩ => ⟨S128x128, .f32⟩
  | .local _ .vmem, ⟨65, _⟩ => ⟨S1x128, .f32⟩
  | .local _ .vmem, ⟨66, _⟩ => ⟨S5000x128, .f32⟩
  | .local _ .vmem, ⟨67, _⟩ => ⟨S5000x128, .f32⟩
  | .local _ .vmem, ⟨68, _⟩ => ⟨S1x8x128, .f32⟩
  | .local _ .vmem, ⟨69, _⟩ => ⟨S1x8x128, .f32⟩
  | .local _ .vmem, ⟨70, _⟩ => ⟨S1x8x128, .f32⟩
  | .local _ .vmem, ⟨71, _⟩ => ⟨S1x8x128, .f32⟩
  | .local _ .vmem, ⟨72, _⟩ => ⟨S5000x128, .f32⟩
  | .local _ .vmem, ⟨73, _⟩ => ⟨S5000x128, .f32⟩
  | .local _ .vmem, ⟨74, _⟩ => ⟨S1x128, .f32⟩
  | .local _ .vmem, ⟨75, _⟩ => ⟨S1x128, .f32⟩
  | .local _ .vmem, ⟨76, _⟩ => ⟨S128x128, .f32⟩
  | .local _ .vmem, ⟨77, _⟩ => ⟨S1x128, .f32⟩
  | .local _ .vmem, ⟨78, _⟩ => ⟨S5000x128, .f32⟩
  | .local _ .vmem, ⟨79, _⟩ => ⟨S5000x128, .f32⟩
  | .local _ .vmem, ⟨80, _⟩ => ⟨S12800x128, .f32⟩
  | .local _ .vmem, ⟨81, _⟩ => ⟨S12800x128, .f32⟩
  | .local _ .vmem, ⟨82, _⟩ => ⟨S1x12800, .i32⟩
  | .local _ .vmem, ⟨83, _⟩ => ⟨S1x12800, .i32⟩
  | .local _ .vmem, ⟨84, _⟩ => ⟨S128x128, .f32⟩
  | .local _ .vmem, ⟨85, _⟩ => ⟨S1x128, .f32⟩
  | .local _ .vmem, ⟨86, _⟩ => ⟨S128x32, .f32⟩
  | .local _ .vmem, ⟨87, _⟩ => ⟨S1x32, .f32⟩
  | .local _ .vmem, ⟨88, _⟩ => ⟨S128x32, .f32⟩
  | .local _ .vmem, ⟨89, _⟩ => ⟨S128x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | _, _ => false

abbrev semScoped : Fin 0 → Bool
  | ⟨_, h⟩ => absurd h (Nat.not_lt_zero _)

abbrev dmaSemScoped : Fin 89 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | _ => false

abbrev sig : RefSig :=
  ofTc nBuf bufTy 0 89 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19_0 : Ref sig .tc := ⟨.hbm, 35, rfl⟩
abbrev main_v19_1 : Ref sig .tc := ⟨.hbm, 36, rfl⟩
abbrev main_v19_2 : Ref sig .tc := ⟨.hbm, 37, rfl⟩
abbrev main_v20 : Ref sig .tc := ⟨.hbm, 38, rfl⟩
abbrev main_v21 : Ref sig .tc := ⟨.hbm, 39, rfl⟩
abbrev main_cst_1 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_2 : Ref sig .tc := ⟨.hbm, 44, rfl⟩
abbrev main_v25 : Ref sig .tc := ⟨.hbm, 45, rfl⟩
abbrev main_cst_3 : Ref sig .tc := ⟨.hbm, 46, rfl⟩
abbrev main_v26 : Ref sig .tc := ⟨.hbm, 47, rfl⟩
abbrev main_v27 : Ref sig .tc := ⟨.hbm, 48, rfl⟩
abbrev main_cst_4 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_5 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_c_6 : Ref sig .tc := ⟨.hbm, 73, rfl⟩
abbrev main_v50 : Ref sig .tc := ⟨.hbm, 74, rfl⟩
abbrev main_v51 : Ref sig .tc := ⟨.hbm, 75, rfl⟩
abbrev main_c_7 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_8 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65_0 : Ref sig .tc := ⟨.hbm, 91, rfl⟩
abbrev main_v65_1 : Ref sig .tc := ⟨.hbm, 92, rfl⟩
abbrev main_v65_2 : Ref sig .tc := ⟨.hbm, 93, rfl⟩
abbrev main_v66 : Ref sig .tc := ⟨.hbm, 94, rfl⟩
abbrev main_v67 : Ref sig .tc := ⟨.hbm, 95, rfl⟩
abbrev main_cst_9 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_10 : Ref sig .tc := ⟨.hbm, 100, rfl⟩
abbrev main_v71 : Ref sig .tc := ⟨.hbm, 101, rfl⟩
abbrev main_cst_11 : Ref sig .tc := ⟨.hbm, 102, rfl⟩
abbrev main_v72 : Ref sig .tc := ⟨.hbm, 103, rfl⟩
abbrev main_v73 : Ref sig .tc := ⟨.hbm, 104, rfl⟩
abbrev main_cst_12 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_13 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_c_14 : Ref sig .tc := ⟨.hbm, 129, rfl⟩
abbrev main_v96 : Ref sig .tc := ⟨.hbm, 130, rfl⟩
abbrev main_v97 : Ref sig .tc := ⟨.hbm, 131, rfl⟩
abbrev main_c_15 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_cst_16 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111_0 : Ref sig .tc := ⟨.hbm, 147, rfl⟩
abbrev main_v111_1 : Ref sig .tc := ⟨.hbm, 148, rfl⟩
abbrev main_v111_2 : Ref sig .tc := ⟨.hbm, 149, rfl⟩
abbrev main_v112 : Ref sig .tc := ⟨.hbm, 150, rfl⟩
abbrev main_v113 : Ref sig .tc := ⟨.hbm, 151, rfl⟩
abbrev main_cst_17 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_cst_18 : Ref sig .tc := ⟨.hbm, 156, rfl⟩
abbrev main_v117 : Ref sig .tc := ⟨.hbm, 157, rfl⟩
abbrev main_cst_19 : Ref sig .tc := ⟨.hbm, 158, rfl⟩
abbrev main_v118 : Ref sig .tc := ⟨.hbm, 159, rfl⟩
abbrev main_v119 : Ref sig .tc := ⟨.hbm, 160, rfl⟩
abbrev main_cst_20 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_cst_21 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_c_22 : Ref sig .tc := ⟨.hbm, 185, rfl⟩
abbrev main_v142 : Ref sig .tc := ⟨.hbm, 186, rfl⟩
abbrev main_v143 : Ref sig .tc := ⟨.hbm, 187, rfl⟩
abbrev main_c_23 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_cst_24 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157_0 : Ref sig .tc := ⟨.hbm, 203, rfl⟩
abbrev main_v157_1 : Ref sig .tc := ⟨.hbm, 204, rfl⟩
abbrev main_v157_2 : Ref sig .tc := ⟨.hbm, 205, rfl⟩
abbrev main_v158 : Ref sig .tc := ⟨.hbm, 206, rfl⟩
abbrev main_v159 : Ref sig .tc := ⟨.hbm, 207, rfl⟩
abbrev main_cst_25 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩
abbrev main_cst_26 : Ref sig .tc := ⟨.hbm, 212, rfl⟩
abbrev main_v163 : Ref sig .tc := ⟨.hbm, 213, rfl⟩
abbrev main_cst_27 : Ref sig .tc := ⟨.hbm, 214, rfl⟩
abbrev main_v164 : Ref sig .tc := ⟨.hbm, 215, rfl⟩
abbrev main_v165 : Ref sig .tc := ⟨.hbm, 216, rfl⟩
abbrev main_cst_28 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_cst_29 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩
abbrev main_v175 : Ref sig .tc := ⟨.hbm, 228, rfl⟩
abbrev main_v176 : Ref sig .tc := ⟨.hbm, 229, rfl⟩
abbrev main_v177 : Ref sig .tc := ⟨.hbm, 230, rfl⟩
abbrev main_v178 : Ref sig .tc := ⟨.hbm, 231, rfl⟩
abbrev main_v179 : Ref sig .tc := ⟨.hbm, 232, rfl⟩
abbrev main_v180 : Ref sig .tc := ⟨.hbm, 233, rfl⟩
abbrev main_v181 : Ref sig .tc := ⟨.hbm, 234, rfl⟩
abbrev main_v182 : Ref sig .tc := ⟨.hbm, 235, rfl⟩
abbrev main_v183 : Ref sig .tc := ⟨.hbm, 236, rfl⟩
abbrev main_v184 : Ref sig .tc := ⟨.hbm, 237, rfl⟩
abbrev main_v185 : Ref sig .tc := ⟨.hbm, 238, rfl⟩
abbrev main_v186 : Ref sig .tc := ⟨.hbm, 239, rfl⟩
abbrev main_v187 : Ref sig .tc := ⟨.hbm, 240, rfl⟩
abbrev main_c_30 : Ref sig .tc := ⟨.hbm, 241, rfl⟩
abbrev main_call0_v0 : Ref sig .tc := ⟨.hbm, 242, rfl⟩
abbrev main_v188 : Ref sig .tc := ⟨.hbm, 243, rfl⟩
abbrev main_c_31 : Ref sig .tc := ⟨.hbm, 244, rfl⟩
abbrev main_call1_v0 : Ref sig .tc := ⟨.hbm, 245, rfl⟩
abbrev main_v189 : Ref sig .tc := ⟨.hbm, 246, rfl⟩
abbrev main_v190 : Ref sig .tc := ⟨.hbm, 247, rfl⟩
abbrev main_v191 : Ref sig .tc := ⟨.hbm, 248, rfl⟩
abbrev main_v192 : Ref sig .tc := ⟨.hbm, 249, rfl⟩
abbrev main_v193 : Ref sig .tc := ⟨.hbm, 250, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg5_1 : Ref sig .tc := ⟨.vmem, 29, rfl⟩
abbrev cc2_stg6_0 : Ref sig .tc := ⟨.vmem, 30, rfl⟩
abbrev cc2_stg6_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg5_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg4_1 : Ref sig .tc := ⟨.vmem, 47, rfl⟩
abbrev cc4_stg5_0 : Ref sig .tc := ⟨.vmem, 48, rfl⟩
abbrev cc4_stg5_1 : Ref sig .tc := ⟨.vmem, 49, rfl⟩
abbrev cc4_stg6_0 : Ref sig .tc := ⟨.vmem, 50, rfl⟩
abbrev cc4_stg6_1 : Ref sig .tc := ⟨.vmem, 51, rfl⟩
abbrev cc5_stg0_0 : Ref sig .tc := ⟨.vmem, 52, rfl⟩
abbrev cc5_stg0_1 : Ref sig .tc := ⟨.vmem, 53, rfl⟩
abbrev cc5_stg1_0 : Ref sig .tc := ⟨.vmem, 54, rfl⟩
abbrev cc5_stg2_0 : Ref sig .tc := ⟨.vmem, 55, rfl⟩
abbrev cc5_stg3_0 : Ref sig .tc := ⟨.vmem, 56, rfl⟩
abbrev cc5_stg4_0 : Ref sig .tc := ⟨.vmem, 57, rfl⟩
abbrev cc5_stg5_0 : Ref sig .tc := ⟨.vmem, 58, rfl⟩
abbrev cc5_stg5_1 : Ref sig .tc := ⟨.vmem, 59, rfl⟩
abbrev cc6_stg0_0 : Ref sig .tc := ⟨.vmem, 60, rfl⟩
abbrev cc6_stg0_1 : Ref sig .tc := ⟨.vmem, 61, rfl⟩
abbrev cc6_stg1_0 : Ref sig .tc := ⟨.vmem, 62, rfl⟩
abbrev cc6_stg1_1 : Ref sig .tc := ⟨.vmem, 63, rfl⟩
abbrev cc6_stg2_0 : Ref sig .tc := ⟨.vmem, 64, rfl⟩
abbrev cc6_stg3_0 : Ref sig .tc := ⟨.vmem, 65, rfl⟩
abbrev cc6_stg4_0 : Ref sig .tc := ⟨.vmem, 66, rfl⟩
abbrev cc6_stg4_1 : Ref sig .tc := ⟨.vmem, 67, rfl⟩
abbrev cc6_stg5_0 : Ref sig .tc := ⟨.vmem, 68, rfl⟩
abbrev cc6_stg5_1 : Ref sig .tc := ⟨.vmem, 69, rfl⟩
abbrev cc6_stg6_0 : Ref sig .tc := ⟨.vmem, 70, rfl⟩
abbrev cc6_stg6_1 : Ref sig .tc := ⟨.vmem, 71, rfl⟩
abbrev cc7_stg0_0 : Ref sig .tc := ⟨.vmem, 72, rfl⟩
abbrev cc7_stg0_1 : Ref sig .tc := ⟨.vmem, 73, rfl⟩
abbrev cc7_stg1_0 : Ref sig .tc := ⟨.vmem, 74, rfl⟩
abbrev cc7_stg2_0 : Ref sig .tc := ⟨.vmem, 75, rfl⟩
abbrev cc7_stg3_0 : Ref sig .tc := ⟨.vmem, 76, rfl⟩
abbrev cc7_stg4_0 : Ref sig .tc := ⟨.vmem, 77, rfl⟩
abbrev cc7_stg5_0 : Ref sig .tc := ⟨.vmem, 78, rfl⟩
abbrev cc7_stg5_1 : Ref sig .tc := ⟨.vmem, 79, rfl⟩
abbrev cc8_stg0_0 : Ref sig .tc := ⟨.vmem, 80, rfl⟩
abbrev cc8_stg0_1 : Ref sig .tc := ⟨.vmem, 81, rfl⟩
abbrev cc8_stg1_0 : Ref sig .tc := ⟨.vmem, 82, rfl⟩
abbrev cc8_stg1_1 : Ref sig .tc := ⟨.vmem, 83, rfl⟩
abbrev cc8_stg2_0 : Ref sig .tc := ⟨.vmem, 84, rfl⟩
abbrev cc8_stg3_0 : Ref sig .tc := ⟨.vmem, 85, rfl⟩
abbrev cc8_stg4_0 : Ref sig .tc := ⟨.vmem, 86, rfl⟩
abbrev cc8_stg5_0 : Ref sig .tc := ⟨.vmem, 87, rfl⟩
abbrev cc8_stg6_0 : Ref sig .tc := ⟨.vmem, 88, rfl⟩
abbrev cc8_scratch0 : Ref sig .tc := ⟨.vmem, 89, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem4_1 : DmaSem sig := 27
abbrev cc2_sem5_0 : DmaSem sig := 28
abbrev cc2_sem5_1 : DmaSem sig := 29
abbrev cc2_sem6_0 : DmaSem sig := 30
abbrev cc2_sem6_1 : DmaSem sig := 31
abbrev cc3_sem0_0 : DmaSem sig := 32
abbrev cc3_sem0_1 : DmaSem sig := 33
abbrev cc3_sem1_0 : DmaSem sig := 34
abbrev cc3_sem2_0 : DmaSem sig := 35
abbrev cc3_sem3_0 : DmaSem sig := 36
abbrev cc3_sem4_0 : DmaSem sig := 37
abbrev cc3_sem5_0 : DmaSem sig := 38
abbrev cc3_sem5_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem3_0 : DmaSem sig := 45
abbrev cc4_sem4_0 : DmaSem sig := 46
abbrev cc4_sem4_1 : DmaSem sig := 47
abbrev cc4_sem5_0 : DmaSem sig := 48
abbrev cc4_sem5_1 : DmaSem sig := 49
abbrev cc4_sem6_0 : DmaSem sig := 50
abbrev cc4_sem6_1 : DmaSem sig := 51
abbrev cc5_sem0_0 : DmaSem sig := 52
abbrev cc5_sem0_1 : DmaSem sig := 53
abbrev cc5_sem1_0 : DmaSem sig := 54
abbrev cc5_sem2_0 : DmaSem sig := 55
abbrev cc5_sem3_0 : DmaSem sig := 56
abbrev cc5_sem4_0 : DmaSem sig := 57
abbrev cc5_sem5_0 : DmaSem sig := 58
abbrev cc5_sem5_1 : DmaSem sig := 59
abbrev cc6_sem0_0 : DmaSem sig := 60
abbrev cc6_sem0_1 : DmaSem sig := 61
abbrev cc6_sem1_0 : DmaSem sig := 62
abbrev cc6_sem1_1 : DmaSem sig := 63
abbrev cc6_sem2_0 : DmaSem sig := 64
abbrev cc6_sem3_0 : DmaSem sig := 65
abbrev cc6_sem4_0 : DmaSem sig := 66
abbrev cc6_sem4_1 : DmaSem sig := 67
abbrev cc6_sem5_0 : DmaSem sig := 68
abbrev cc6_sem5_1 : DmaSem sig := 69
abbrev cc6_sem6_0 : DmaSem sig := 70
abbrev cc6_sem6_1 : DmaSem sig := 71
abbrev cc7_sem0_0 : DmaSem sig := 72
abbrev cc7_sem0_1 : DmaSem sig := 73
abbrev cc7_sem1_0 : DmaSem sig := 74
abbrev cc7_sem2_0 : DmaSem sig := 75
abbrev cc7_sem3_0 : DmaSem sig := 76
abbrev cc7_sem4_0 : DmaSem sig := 77
abbrev cc7_sem5_0 : DmaSem sig := 78
abbrev cc7_sem5_1 : DmaSem sig := 79
abbrev cc8_sem0_0 : DmaSem sig := 80
abbrev cc8_sem0_1 : DmaSem sig := 81
abbrev cc8_sem1_0 : DmaSem sig := 82
abbrev cc8_sem1_1 : DmaSem sig := 83
abbrev cc8_sem2_0 : DmaSem sig := 84
abbrev cc8_sem3_0 : DmaSem sig := 85
abbrev cc8_sem4_0 : DmaSem sig := 86
abbrev cc8_sem5_0 : DmaSem sig := 87
abbrev cc8_sem6_0 : DmaSem sig := 88

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x8x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x8x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_6 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S1x8x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S1x8x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_6 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S5000x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 2 → Memref sig .tc .vmem S1x8x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S1x8x128 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S128x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![8], ![false]⟩

def k8_cond2 (i : grid8.Coords) : BitVec 1 :=
  let arg0 : BitVec 32 := BitVec.ofNat 32 (i 0).val
  let c7_i32 : BitVec 32 := 7#32
  let v21 : BitVec 1 := Scalar.cmpi .eq arg0 c7_i32
  let v22 : BitVec 32 := Scalar.extui v21
  let c0_i32_8 : BitVec 32 := 0#32
  let v23 : BitVec 1 := Scalar.cmpi .ne v22 c0_i32_8
  v23

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![c0_i32.toNat, arg0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S12800x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S1x12800 .i32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S128x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S128x32 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x32 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S128x32 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S128 : S5000x128.Reduces [0] S128
  shapeCasts_S1x128_S1x1x128 : S1x128.ShapeCasts S1x1x128
  shapeCasts_S1x1x128_S1x1x128 : S1x1x128.ShapeCasts S1x1x128
  broadcasts_S1x1x128_S1x8x128 : S1x1x128.Broadcasts S1x8x128
  inb_S1x8x128_S1x8x128_0_0_0 : ∀ a, (![0, 0, 0] : Fin 3 → Nat) a + S1x8x128.size a ≤ S1x8x128.size a
  h_S1x8x128 : 0 < S1x8x128.numel
  slices_S20x8x128_S20x1x128_0_0_0 : S20x8x128.Slices ![0, 0, 0] S20x1x128
  shapeCasts_S20x1x128_S20x128 : S20x1x128.ShapeCasts S20x128
  reducesTo_S20x128_S128_d0 : S20x128.ReducesTo [0] S128
  h_S_ : 0 < S_.numel
  bcast_S_S128 : S_.BroadcastsInDim S128 (![] : Fin 0 → Fin S128.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  pads_S100000x128_S102400x128_024000_000 : S100000x128.Pads (![0, 0] : Fin 2 → Nat) ![2400, 0] ![0, 0] S102400x128
  pads_S100000_S102400_024000 : S100000.Pads (![0] : Fin 1 → Nat) ![2400] ![0] S102400
  shapeCasts_S102400_S1x102400 : S102400.ShapeCasts S1x102400
  shapeCasts_S32_S1x32 : S32.ShapeCasts S1x32
  iota_S128x12800_d0_w32 : S128x12800.Iotas .tc 32 [0]
  inb_S1x12800_S1x12800_0_0 : ∀ a, (![0, 0] : Fin 2 → Nat) a + S1x12800.size a ≤ S1x12800.size a
  h_S1x12800 : 0 < S1x12800.numel
  shapeCasts_S1x12800_S1x12800 : S1x12800.ShapeCasts S1x12800
  broadcasts_S1x12800_S128x12800 : S1x12800.Broadcasts S128x12800
  natLt_1_32 : 1 < 32
  inb_S12800x128_S12800x128_0_0 : ∀ a, (![0, 0] : Fin 2 → Nat) a + S12800x128.size a ≤ S12800x128.size a
  h_S12800x128 : 0 < S12800x128.numel
  shapeCasts_S12800x128_S12800x128 : S12800x128.ShapeCasts S12800x128
  broadcasts_S1x128_S128x128 : S1x128.Broadcasts S128x128
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S128x32 : S1x32.Broadcasts S128x32
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S128x12800_S12800x128_S128x128_1_0_0_1_n_n_wf : DotDims.WF S128x12800 S12800x128 S128x128 [1] [0] [0] [1] [] []
  dot_S128x128_S128x128_S128x128_1_0_0_1_n_n_wf : DotDims.WF S128x128 S128x128 S128x128 [1] [0] [0] [1] [] []
  dot_S128x128_S128x32_S128x32_1_0_0_1_n_n_wf : DotDims.WF S128x128 S128x32 S128x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8x128.size a ≤ S20x8x128.size a
  hwx0_5 : ∀ i : grid0.Coords, EltTy.bits .f32 = 32 ∨ (Rect.block (s := S20x8x128) S1x8x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x8x128.size a ≤ S20x8x128.size a
  hwx0_6 : ∀ i : grid0.Coords, EltTy.bits .f32 = 32 ∨ (Rect.block (s := S20x8x128) S1x8x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S100000x128.size a
  hwx2_4 : ∀ i : grid2.Coords, EltTy.bits .f32 = 32 ∨ (Rect.block (s := S100000x128) S5000x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x8x128.size a ≤ S20x8x128.size a
  hwx2_5 : ∀ i : grid2.Coords, EltTy.bits .f32 = 32 ∨ (Rect.block (s := S20x8x128) S1x8x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x8x128.size a ≤ S20x8x128.size a
  hwx2_6 : ∀ i : grid2.Coords, EltTy.bits .f32 = 32 ∨ (Rect.block (s := S20x8x128) S1x8x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S100000x128.size a
  hwx4_4 : ∀ i : grid4.Coords, EltTy.bits .f32 = 32 ∨ (Rect.block (s := S100000x128) S5000x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S1x8x128.size a ≤ S20x8x128.size a
  hwx4_5 : ∀ i : grid4.Coords, EltTy.bits .f32 = 32 ∨ (Rect.block (s := S20x8x128) S1x8x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S1x8x128.size a ≤ S20x8x128.size a
  hwx4_6 : ∀ i : grid4.Coords, EltTy.bits .f32 = 32 ∨ (Rect.block (s := S20x8x128) S1x8x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S100000x128.size a
  hwx5_5 : ∀ i : grid5.Coords, EltTy.bits .f32 = 32 ∨ (Rect.block (s := S100000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S100000x128.size a
  hwx6_1 : ∀ i : grid6.Coords, EltTy.bits .f32 = 32 ∨ (Rect.block (s := S100000x128) S5000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x128.size a ≤ S128x128.size a
  hwx6_2 : ∀ i : grid6.Coords, EltTy.bits .f32 = 32 ∨ (Rect.block (s := S128x128) S128x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S5000x128.size a ≤ S100000x128.size a
  hwx6_4 : ∀ i : grid6.Coords, EltTy.bits .f32 = 32 ∨ (Rect.block (s := S100000x128) S5000x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S1x8x128.size a ≤ S20x8x128.size a
  hwx6_5 : ∀ i : grid6.Coords, EltTy.bits .f32 = 32 ∨ (Rect.block (s := S20x8x128) S1x8x128.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S1x8x128.size a ≤ S20x8x128.size a
  hwx6_6 : ∀ i : grid6.Coords, EltTy.bits .f32 = 32 ∨ (Rect.block (s := S20x8x128) S1x8x128.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128x128.size a ≤ S128x128.size a
  hwx7_3 : ∀ i : grid7.Coords, EltTy.bits .f32 = 32 ∨ (Rect.block (s := S128x128) S128x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x128.size a ≤ S100000x128.size a
  hwx7_5 : ∀ i : grid7.Coords, EltTy.bits .f32 = 32 ∨ (Rect.block (s := S100000x128) S5000x128.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S12800x128.size a ≤ S102400x128.size a
  hwx8_0 : ∀ i : grid8.Coords, EltTy.bits .f32 = 32 ∨ (Rect.block (s := S102400x128) S12800x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S1x12800.size a ≤ S1x102400.size a
  hwx8_1 : ∀ i : grid8.Coords, EltTy.bits .i32 = 32 ∨ (Rect.block (s := S1x102400) S1x12800.size (cc8_transform_1 i) (hinb8_1 i)).WholeWords (EltTy.packing .i32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S128x128.size a ≤ S128x128.size a
  hwx8_2 : ∀ i : grid8.Coords, EltTy.bits .f32 = 32 ∨ (Rect.block (s := S128x128) S128x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S128x32.size a ≤ S128x32.size a
  hwx8_4 : ∀ i : grid8.Coords, EltTy.bits .f32 = 32 ∨ (Rect.block (s := S128x32) S128x32.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x32.size a ≤ S1x32.size a
  hwx8_5 : ∀ i : grid8.Coords, EltTy.bits .f32 = 32 ∨ (Rect.block (s := S1x32) S1x32.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S128x32.size a ≤ S128x32.size a
  hwx8_6 : ∀ i : grid8.Coords, EltTy.bits .f32 = 32 ∨ (Rect.block (s := S128x32) S128x32.size (cc8_transform_6 i) (hinb8_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S128x12800_S12800x128_S128x128_1_0_0_1_n_n : DotDims S128x12800 S12800x128 S128x128 where
  lhsContracting := [1]
  rhsContracting := [0]
  lhsNonContracting := [0]
  rhsNonContracting := [1]
  lhsBatch := []
  rhsBatch := []
  wf := dot_S128x12800_S12800x128_S128x128_1_0_0_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S128x128_S128x32_S128x32_1_0_0_1_n_n : DotDims S128x128 S128x32 S128x32 where
  lhsContracting := [1]
  rhsContracting := [0]
  lhsNonContracting := [0]
  rhsNonContracting := [1]
  lhsBatch := []
  rhsBatch := []
  wf := dot_S128x128_S128x32_S128x32_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19_0) S5000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v19_1) S1x8x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v19_2) S1x8x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v19_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v49) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v61) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v64) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v65_0) S5000x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v65_1) S1x8x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v65_2) S1x8x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v65_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v92) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v93) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v89) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v94) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v95) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v95) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v105) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v107) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v110) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v111_0) S5000x128.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v111_1) S1x8x128.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v111_2) S1x8x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v111_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v138) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v139) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v135) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v140) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v141) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v141) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v151) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v153) S128x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v156) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v157_0) S5000x128.size cc6_transform_4 reads6_4 true false 2 stage6_4 sem6_4
    hrank6 hreads6_4 hinb6_4 nbuf6_4 (Memref.isWhole_whole _) hwx6_4 hstage6_4

abbrev win6_5 : Pipeline.Window sig grid6 :=
  Pipeline.Window.ofSpec (Memref.whole main_v157_1) S1x8x128.size cc6_transform_5 reads6_5 true false 2 stage6_5 sem6_5
    hrank6 hreads6_5 hinb6_5 nbuf6_5 (Memref.isWhole_whole _) hwx6_5 hstage6_5

abbrev win6_6 : Pipeline.Window sig grid6 :=
  Pipeline.Window.ofSpec (Memref.whole main_v157_2) S1x8x128.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v157_0) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v184) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v185) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v181) S128x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v186) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v187) S5000x128.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v188) S12800x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v190) S1x12800.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_arg9) S128x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v191) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_arg11) S128x32.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v192) S1x32.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v193) S128x32.size cc8_transform_6 reads8_6 true true 1 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

abbrev idle8 : Fin 7 → grid8.Coords → Bool := fun | 0 => fun _ => false | 1 => fun _ => false | 2 => fun _ => false | 3 => fun _ => false | 4 => fun _ => false | 5 => fun _ => false | 6 => fun i => !(k8_cond2 i == 1#1) | ⟨_ + 7, h⟩ => absurd h (Nat.not_lt.2 (Nat.le_add_left _ _))

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S4x128x128 : Shape := ⟨3, ![4, 128, 128]⟩
abbrev S4x128 : Shape := ⟨2, ![4, 128]⟩
abbrev S128x128 : Shape := ⟨2, ![128, 128]⟩
abbrev S128 : Shape := ⟨1, ![128]⟩
abbrev S128x32 : Shape := ⟨2, ![128, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128x128 : Shape := ⟨3, ![1, 128, 128]⟩
abbrev S1x128 : Shape := ⟨2, ![1, 128]⟩
abbrev S100000x1 : Shape := ⟨2, ![100000, 1]⟩
abbrev S1x32 : Shape := ⟨2, ![1, 32]⟩

abbrev nBuf : Space → Nat
  | .hbm => 368
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S4x128x128, .f32⟩
  | 4 => ⟨S4x128, .f32⟩
  | 5 => ⟨S4x128, .f32⟩
  | 6 => ⟨S4x128, .f32⟩
  | 7 => ⟨S4x128x128, .f32⟩
  | 8 => ⟨S4x128, .f32⟩
  | 9 => ⟨S128x128, .f32⟩
  | 10 => ⟨S128, .f32⟩
  | 11 => ⟨S128x32, .f32⟩
  | 12 => ⟨S32, .f32⟩
  | 13 => ⟨S1x1600000, .i32⟩
  | 14 => ⟨S1600000, .i32⟩
  | 15 => ⟨S1x1600000, .i32⟩
  | 16 => ⟨S1600000, .i32⟩
  | 17 => ⟨S_, .i32⟩
  | 18 => ⟨S1600000, .i32⟩
  | 19 => ⟨S1600000, .i1⟩
  | 20 => ⟨S_, .i32⟩
  | 21 => ⟨S1600000, .i32⟩
  | 22 => ⟨S1600000, .i32⟩
  | 23 => ⟨S1600000, .i32⟩
  | 24 => ⟨S1600000x1, .i32⟩
  | 25 => ⟨S1600000x128, .f32⟩
  | 26 => ⟨S_, .f32⟩
  | 27 => ⟨S100000x128, .f32⟩
  | 28 => ⟨S1600000x1, .i32⟩
  | 29 => ⟨S100000x128, .f32⟩
  | 30 => ⟨S100000x128, .f32⟩
  | 31 => ⟨S1x128x128, .f32⟩
  | 32 => ⟨S128x128, .f32⟩
  | 33 => ⟨S100000x128, .f32⟩
  | 34 => ⟨S1x128, .f32⟩
  | 35 => ⟨S128, .f32⟩
  | 36 => ⟨S1x128, .f32⟩
  | 37 => ⟨S100000x128, .f32⟩
  | 38 => ⟨S100000x128, .f32⟩
  | 39 => ⟨S1x128, .f32⟩
  | 40 => ⟨S128, .f32⟩
  | 41 => ⟨S1x128, .f32⟩
  | 42 => ⟨S128, .f32⟩
  | 43 => ⟨S_, .f32⟩
  | 44 => ⟨S128, .f32⟩
  | 45 => ⟨S_, .f32⟩
  | 46 => ⟨S128, .f32⟩
  | 47 => ⟨S128, .f32⟩
  | 48 => ⟨S_, .i32⟩
  | 49 => ⟨S_, .f32⟩
  | 50 => ⟨S128, .f32⟩
  | 51 => ⟨S1x128, .f32⟩
  | 52 => ⟨S_, .f32⟩
  | 53 => ⟨S1x128, .f32⟩
  | 54 => ⟨S1x128, .f32⟩
  | 55 => ⟨S100000x128, .f32⟩
  | 56 => ⟨S100000x128, .f32⟩
  | 57 => ⟨S100000x128, .f32⟩
  | 58 => ⟨S_, .f32⟩
  | 59 => ⟨S_, .f32⟩
  | 60 => ⟨S_, .f32⟩
  | 61 => ⟨S_, .f32⟩
  | 62 => ⟨S128, .f32⟩
  | 63 => ⟨S128, .f32⟩
  | 64 => ⟨S128, .f32⟩
  | 65 => ⟨S_, .f32⟩
  | 66 => ⟨S_, .i1⟩
  | 67 => ⟨S_, .f32⟩
  | 68 => ⟨S_, .f32⟩
  | 69 => ⟨S128, .f32⟩
  | 70 => ⟨S128, .f32⟩
  | 71 => ⟨S1x128, .f32⟩
  | 72 => ⟨S100000x128, .f32⟩
  | 73 => ⟨S100000x128, .f32⟩
  | 74 => ⟨S_, .f32⟩
  | 75 => ⟨S128, .f32⟩
  | 76 => ⟨S128, .f32⟩
  | 77 => ⟨S128, .f32⟩
  | 78 => ⟨S1x128, .f32⟩
  | 79 => ⟨S100000x128, .f32⟩
  | 80 => ⟨S100000x128, .f32⟩
  | 81 => ⟨S1x128, .f32⟩
  | 82 => ⟨S100000x128, .f32⟩
  | 83 => ⟨S100000x128, .f32⟩
  | 84 => ⟨S1x128, .f32⟩
  | 85 => ⟨S100000x128, .f32⟩
  | 86 => ⟨S100000x128, .f32⟩
  | 87 => ⟨S_, .f32⟩
  | 88 => ⟨S100000x128, .f32⟩
  | 89 => ⟨S100000x128, .f32⟩
  | 90 => ⟨S1x128x128, .f32⟩
  | 91 => ⟨S128x128, .f32⟩
  | 92 => ⟨S100000x128, .f32⟩
  | 93 => ⟨S1x128, .f32⟩
  | 94 => ⟨S128, .f32⟩
  | 95 => ⟨S1x128, .f32⟩
  | 96 => ⟨S100000x128, .f32⟩
  | 97 => ⟨S100000x128, .f32⟩
  | 98 => ⟨S_, .f32⟩
  | 99 => ⟨S100000x128, .f32⟩
  | 100 => ⟨S100000x128, .f32⟩
  | 101 => ⟨S_, .i32⟩
  | 102 => ⟨S1600000, .i32⟩
  | 103 => ⟨S1600000, .i1⟩
  | 104 => ⟨S_, .i32⟩
  | 105 => ⟨S1600000, .i32⟩
  | 106 => ⟨S1600000, .i32⟩
  | 107 => ⟨S1600000, .i32⟩
  | 108 => ⟨S1600000x1, .i32⟩
  | 109 => ⟨S1600000x128, .f32⟩
  | 110 => ⟨S_, .f32⟩
  | 111 => ⟨S100000x128, .f32⟩
  | 112 => ⟨S1600000x1, .i32⟩
  | 113 => ⟨S100000x128, .f32⟩
  | 114 => ⟨S100000x128, .f32⟩
  | 115 => ⟨S1x128x128, .f32⟩
  | 116 => ⟨S128x128, .f32⟩
  | 117 => ⟨S100000x128, .f32⟩
  | 118 => ⟨S1x128, .f32⟩
  | 119 => ⟨S128, .f32⟩
  | 120 => ⟨S1x128, .f32⟩
  | 121 => ⟨S100000x128, .f32⟩
  | 122 => ⟨S100000x128, .f32⟩
  | 123 => ⟨S1x128, .f32⟩
  | 124 => ⟨S128, .f32⟩
  | 125 => ⟨S1x128, .f32⟩
  | 126 => ⟨S128, .f32⟩
  | 127 => ⟨S_, .f32⟩
  | _ => ⟨S100000x128, .f32⟩

abbrev hbmTy0_1 (i : Nat) : BufTy := match i % 128 with
  | 0 => ⟨S128, .f32⟩
  | 1 => ⟨S_, .f32⟩
  | 2 => ⟨S128, .f32⟩
  | 3 => ⟨S128, .f32⟩
  | 4 => ⟨S_, .i32⟩
  | 5 => ⟨S_, .f32⟩
  | 6 => ⟨S128, .f32⟩
  | 7 => ⟨S1x128, .f32⟩
  | 8 => ⟨S_, .f32⟩
  | 9 => ⟨S1x128, .f32⟩
  | 10 => ⟨S1x128, .f32⟩
  | 11 => ⟨S100000x128, .f32⟩
  | 12 => ⟨S100000x128, .f32⟩
  | 13 => ⟨S100000x128, .f32⟩
  | 14 => ⟨S_, .f32⟩
  | 15 => ⟨S_, .f32⟩
  | 16 => ⟨S_, .f32⟩
  | 17 => ⟨S_, .f32⟩
  | 18 => ⟨S128, .f32⟩
  | 19 => ⟨S128, .f32⟩
  | 20 => ⟨S128, .f32⟩
  | 21 => ⟨S_, .f32⟩
  | 22 => ⟨S_, .i1⟩
  | 23 => ⟨S_, .f32⟩
  | 24 => ⟨S_, .f32⟩
  | 25 => ⟨S128, .f32⟩
  | 26 => ⟨S128, .f32⟩
  | 27 => ⟨S1x128, .f32⟩
  | 28 => ⟨S100000x128, .f32⟩
  | 29 => ⟨S100000x128, .f32⟩
  | 30 => ⟨S_, .f32⟩
  | 31 => ⟨S128, .f32⟩
  | 32 => ⟨S128, .f32⟩
  | 33 => ⟨S128, .f32⟩
  | 34 => ⟨S1x128, .f32⟩
  | 35 => ⟨S100000x128, .f32⟩
  | 36 => ⟨S100000x128, .f32⟩
  | 37 => ⟨S1x128, .f32⟩
  | 38 => ⟨S100000x128, .f32⟩
  | 39 => ⟨S100000x128, .f32⟩
  | 40 => ⟨S1x128, .f32⟩
  | 41 => ⟨S100000x128, .f32⟩
  | 42 => ⟨S100000x128, .f32⟩
  | 43 => ⟨S_, .f32⟩
  | 44 => ⟨S100000x128, .f32⟩
  | 45 => ⟨S100000x128, .f32⟩
  | 46 => ⟨S1x128x128, .f32⟩
  | 47 => ⟨S128x128, .f32⟩
  | 48 => ⟨S100000x128, .f32⟩
  | 49 => ⟨S1x128, .f32⟩
  | 50 => ⟨S128, .f32⟩
  | 51 => ⟨S1x128, .f32⟩
  | 52 => ⟨S100000x128, .f32⟩
  | 53 => ⟨S100000x128, .f32⟩
  | 54 => ⟨S_, .f32⟩
  | 55 => ⟨S100000x128, .f32⟩
  | 56 => ⟨S100000x128, .f32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S1600000x128, .f32⟩
  | 66 => ⟨S_, .f32⟩
  | 67 => ⟨S100000x128, .f32⟩
  | 68 => ⟨S1600000x1, .i32⟩
  | 69 => ⟨S100000x128, .f32⟩
  | 70 => ⟨S100000x128, .f32⟩
  | 71 => ⟨S1x128x128, .f32⟩
  | 72 => ⟨S128x128, .f32⟩
  | 73 => ⟨S100000x128, .f32⟩
  | 74 => ⟨S1x128, .f32⟩
  | 75 => ⟨S128, .f32⟩
  | 76 => ⟨S1x128, .f32⟩
  | 77 => ⟨S100000x128, .f32⟩
  | 78 => ⟨S100000x128, .f32⟩
  | 79 => ⟨S1x128, .f32⟩
  | 80 => ⟨S128, .f32⟩
  | 81 => ⟨S1x128, .f32⟩
  | 82 => ⟨S128, .f32⟩
  | 83 => ⟨S_, .f32⟩
  | 84 => ⟨S128, .f32⟩
  | 85 => ⟨S_, .f32⟩
  | 86 => ⟨S128, .f32⟩
  | 87 => ⟨S128, .f32⟩
  | 88 => ⟨S_, .i32⟩
  | 89 => ⟨S_, .f32⟩
  | 90 => ⟨S128, .f32⟩
  | 91 => ⟨S1x128, .f32⟩
  | 92 => ⟨S_, .f32⟩
  | 93 => ⟨S1x128, .f32⟩
  | 94 => ⟨S1x128, .f32⟩
  | 95 => ⟨S100000x128, .f32⟩
  | 96 => ⟨S100000x128, .f32⟩
  | 97 => ⟨S100000x128, .f32⟩
  | 98 => ⟨S_, .f32⟩
  | 99 => ⟨S_, .f32⟩
  | 100 => ⟨S_, .f32⟩
  | 101 => ⟨S_, .f32⟩
  | 102 => ⟨S128, .f32⟩
  | 103 => ⟨S128, .f32⟩
  | 104 => ⟨S128, .f32⟩
  | 105 => ⟨S_, .f32⟩
  | 106 => ⟨S_, .i1⟩
  | 107 => ⟨S_, .f32⟩
  | 108 => ⟨S_, .f32⟩
  | 109 => ⟨S128, .f32⟩
  | 110 => ⟨S128, .f32⟩
  | 111 => ⟨S1x128, .f32⟩
  | 112 => ⟨S100000x128, .f32⟩
  | 113 => ⟨S100000x128, .f32⟩
  | 114 => ⟨S_, .f32⟩
  | 115 => ⟨S128, .f32⟩
  | 116 => ⟨S128, .f32⟩
  | 117 => ⟨S128, .f32⟩
  | 118 => ⟨S1x128, .f32⟩
  | 119 => ⟨S100000x128, .f32⟩
  | 120 => ⟨S100000x128, .f32⟩
  | 121 => ⟨S1x128, .f32⟩
  | 122 => ⟨S100000x128, .f32⟩
  | 123 => ⟨S100000x128, .f32⟩
  | 124 => ⟨S1x128, .f32⟩
  | 125 => ⟨S100000x128, .f32⟩
  | 126 => ⟨S100000x128, .f32⟩
  | 127 => ⟨S_, .f32⟩
  | _ => ⟨S100000x128, .f32⟩

abbrev hbmTy0_2 (i : Nat) : BufTy := match i % 128 with
  | 0 => ⟨S100000x128, .f32⟩
  | 1 => ⟨S100000x128, .f32⟩
  | 2 => ⟨S1x128x128, .f32⟩
  | 3 => ⟨S128x128, .f32⟩
  | 4 => ⟨S100000x128, .f32⟩
  | 5 => ⟨S1x128, .f32⟩
  | 6 => ⟨S128, .f32⟩
  | 7 => ⟨S1x128, .f32⟩
  | 8 => ⟨S100000x128, .f32⟩
  | 9 => ⟨S100000x128, .f32⟩
  | 10 => ⟨S_, .f32⟩
  | 11 => ⟨S100000x128, .f32⟩
  | 12 => ⟨S100000x128, .f32⟩
  | 13 => ⟨S_, .i32⟩
  | 14 => ⟨S1600000, .i32⟩
  | 15 => ⟨S1600000, .i1⟩
  | 16 => ⟨S_, .i32⟩
  | 17 => ⟨S1600000, .i32⟩
  | 18 => ⟨S1600000, .i32⟩
  | 19 => ⟨S1600000, .i32⟩
  | 20 => ⟨S1600000x1, .i32⟩
  | 21 => ⟨S1600000x128, .f32⟩
  | 22 => ⟨S_, .f32⟩
  | 23 => ⟨S100000x128, .f32⟩
  | 24 => ⟨S1600000x1, .i32⟩
  | 25 => ⟨S100000x128, .f32⟩
  | 26 => ⟨S100000x128, .f32⟩
  | 27 => ⟨S1x128x128, .f32⟩
  | 28 => ⟨S128x128, .f32⟩
  | 29 => ⟨S100000x128, .f32⟩
  | 30 => ⟨S1x128, .f32⟩
  | 31 => ⟨S128, .f32⟩
  | 32 => ⟨S1x128, .f32⟩
  | 33 => ⟨S100000x128, .f32⟩
  | 34 => ⟨S100000x128, .f32⟩
  | 35 => ⟨S1x128, .f32⟩
  | 36 => ⟨S128, .f32⟩
  | 37 => ⟨S1x128, .f32⟩
  | 38 => ⟨S128, .f32⟩
  | 39 => ⟨S_, .f32⟩
  | 40 => ⟨S128, .f32⟩
  | 41 => ⟨S_, .f32⟩
  | 42 => ⟨S128, .f32⟩
  | 43 => ⟨S128, .f32⟩
  | 44 => ⟨S_, .i32⟩
  | 45 => ⟨S_, .f32⟩
  | 46 => ⟨S128, .f32⟩
  | 47 => ⟨S1x128, .f32⟩
  | 48 => ⟨S_, .f32⟩
  | 49 => ⟨S1x128, .f32⟩
  | 50 => ⟨S1x128, .f32⟩
  | 51 => ⟨S100000x128, .f32⟩
  | 52 => ⟨S100000x128, .f32⟩
  | 53 => ⟨S100000x128, .f32⟩
  | 54 => ⟨S_, .f32⟩
  | 55 => ⟨S_, .f32⟩
  | 56 => ⟨S_, .f32⟩
  | 57 => ⟨S_, .f32⟩
  | 58 => ⟨S128, .f32⟩
  | 59 => ⟨S128, .f32⟩
  | 60 => ⟨S128, .f32⟩
  | 61 => ⟨S_, .f32⟩
  | 62 => ⟨S_, .i1⟩
  | 63 => ⟨S_, .f32⟩
  | 64 => ⟨S_, .f32⟩
  | 65 => ⟨S128, .f32⟩
  | 66 => ⟨S128, .f32⟩
  | 67 => ⟨S1x128, .f32⟩
  | 68 => ⟨S100000x128, .f32⟩
  | 69 => ⟨S100000x128, .f32⟩
  | 70 => ⟨S_, .f32⟩
  | 71 => ⟨S128, .f32⟩
  | 72 => ⟨S128, .f32⟩
  | 73 => ⟨S128, .f32⟩
  | 74 => ⟨S1x128, .f32⟩
  | 75 => ⟨S100000x128, .f32⟩
  | 76 => ⟨S100000x128, .f32⟩
  | 77 => ⟨S1x128, .f32⟩
  | 78 => ⟨S100000x128, .f32⟩
  | 79 => ⟨S100000x128, .f32⟩
  | 80 => ⟨S1x128, .f32⟩
  | 81 => ⟨S100000x128, .f32⟩
  | 82 => ⟨S100000x128, .f32⟩
  | 83 => ⟨S_, .f32⟩
  | 84 => ⟨S100000x128, .f32⟩
  | 85 => ⟨S100000x128, .f32⟩
  | 86 => ⟨S1x128x128, .f32⟩
  | 87 => ⟨S128x128, .f32⟩
  | 88 => ⟨S100000x128, .f32⟩
  | 89 => ⟨S1x128, .f32⟩
  | 90 => ⟨S128, .f32⟩
  | 91 => ⟨S1x128, .f32⟩
  | 92 => ⟨S100000x128, .f32⟩
  | 93 => ⟨S100000x128, .f32⟩
  | 94 => ⟨S_, .f32⟩
  | 95 => ⟨S100000x128, .f32⟩
  | 96 => ⟨S100000x128, .f32⟩
  | 97 => ⟨S_, .f32⟩
  | 98 => ⟨S128x128, .f32⟩
  | 99 => ⟨S100000x1, .i32⟩
  | 100 => ⟨S128x128, .f32⟩
  | 101 => ⟨S128x128, .f32⟩
  | 102 => ⟨S1x128, .f32⟩
  | 103 => ⟨S128x128, .f32⟩
  | 104 => ⟨S128x128, .f32⟩
  | 105 => ⟨S_, .f32⟩
  | 106 => ⟨S128x128, .f32⟩
  | 107 => ⟨S128x128, .f32⟩
  | 108 => ⟨S128x32, .f32⟩
  | 109 => ⟨S1x32, .f32⟩
  | 110 => ⟨S128x32, .f32⟩
  | 111 => ⟨S128x32, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_1 : Ref sig .tc := ⟨.hbm, 43, rfl⟩
abbrev main_v27 : Ref sig .tc := ⟨.hbm, 44, rfl⟩
abbrev main_cst_2 : Ref sig .tc := ⟨.hbm, 45, rfl⟩
abbrev main_v28 : Ref sig .tc := ⟨.hbm, 46, rfl⟩
abbrev main_v29 : Ref sig .tc := ⟨.hbm, 47, rfl⟩
abbrev main_c_3 : Ref sig .tc := ⟨.hbm, 48, rfl⟩
abbrev main_call0_cst : Ref sig .tc := ⟨.hbm, 49, rfl⟩
abbrev main_call0_v0 : Ref sig .tc := ⟨.hbm, 50, rfl⟩
abbrev main_call0_v1 : Ref sig .tc := ⟨.hbm, 51, rfl⟩
abbrev main_call0_cst_0 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_call0_v5 : Ref sig .tc := ⟨.hbm, 56, rfl⟩
abbrev main_call0_v6 : Ref sig .tc := ⟨.hbm, 57, rfl⟩
abbrev main_call0_v7 : Ref sig .tc := ⟨.hbm, 58, rfl⟩
abbrev main_call0_cst_1 : Ref sig .tc := ⟨.hbm, 59, rfl⟩
abbrev main_call0_v8 : Ref sig .tc := ⟨.hbm, 60, rfl⟩
abbrev main_call0_cst_2 : Ref sig .tc := ⟨.hbm, 61, rfl⟩
abbrev main_call0_v9 : Ref sig .tc := ⟨.hbm, 62, rfl⟩
abbrev main_call0_v10 : Ref sig .tc := ⟨.hbm, 63, rfl⟩
abbrev main_call0_v11 : Ref sig .tc := ⟨.hbm, 64, rfl⟩
abbrev main_call0_cst_3 : Ref sig .tc := ⟨.hbm, 65, rfl⟩
abbrev main_call0_v12 : Ref sig .tc := ⟨.hbm, 66, rfl⟩
abbrev main_call0_cst_4 : Ref sig .tc := ⟨.hbm, 67, rfl⟩
abbrev main_call0_call0_v0 : Ref sig .tc := ⟨.hbm, 68, rfl⟩
abbrev main_call0_call0_v1 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_cst_4 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_call1_cst : Ref sig .tc := ⟨.hbm, 87, rfl⟩
abbrev main_call1_v0 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_call2_cst : Ref sig .tc := ⟨.hbm, 98, rfl⟩
abbrev main_call2_v0 : Ref sig .tc := ⟨.hbm, 99, rfl⟩
abbrev main_v55 : Ref sig .tc := ⟨.hbm, 100, rfl⟩
abbrev main_c_5 : Ref sig .tc := ⟨.hbm, 101, rfl⟩
abbrev main_v56 : Ref sig .tc := ⟨.hbm, 102, rfl⟩
abbrev main_v57 : Ref sig .tc := ⟨.hbm, 103, rfl⟩
abbrev main_c_6 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_cst_7 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_cst_8 : Ref sig .tc := ⟨.hbm, 127, rfl⟩
abbrev main_v79 : Ref sig .tc := ⟨.hbm, 128, rfl⟩
abbrev main_cst_9 : Ref sig .tc := ⟨.hbm, 129, rfl⟩
abbrev main_v80 : Ref sig .tc := ⟨.hbm, 130, rfl⟩
abbrev main_v81 : Ref sig .tc := ⟨.hbm, 131, rfl⟩
abbrev main_c_10 : Ref sig .tc := ⟨.hbm, 132, rfl⟩
abbrev main_call3_cst : Ref sig .tc := ⟨.hbm, 133, rfl⟩
abbrev main_call3_v0 : Ref sig .tc := ⟨.hbm, 134, rfl⟩
abbrev main_call3_v1 : Ref sig .tc := ⟨.hbm, 135, rfl⟩
abbrev main_call3_cst_0 : Ref sig .tc := ⟨.hbm, 136, rfl⟩
abbrev main_call3_v2 : Ref sig .tc := ⟨.hbm, 137, rfl⟩
abbrev main_call3_v3 : Ref sig .tc := ⟨.hbm, 138, rfl⟩
abbrev main_call3_v4 : Ref sig .tc := ⟨.hbm, 139, rfl⟩
abbrev main_call3_v5 : Ref sig .tc := ⟨.hbm, 140, rfl⟩
abbrev main_call3_v6 : Ref sig .tc := ⟨.hbm, 141, rfl⟩
abbrev main_call3_v7 : Ref sig .tc := ⟨.hbm, 142, rfl⟩
abbrev main_call3_cst_1 : Ref sig .tc := ⟨.hbm, 143, rfl⟩
abbrev main_call3_v8 : Ref sig .tc := ⟨.hbm, 144, rfl⟩
abbrev main_call3_cst_2 : Ref sig .tc := ⟨.hbm, 145, rfl⟩
abbrev main_call3_v9 : Ref sig .tc := ⟨.hbm, 146, rfl⟩
abbrev main_call3_v10 : Ref sig .tc := ⟨.hbm, 147, rfl⟩
abbrev main_call3_v11 : Ref sig .tc := ⟨.hbm, 148, rfl⟩
abbrev main_call3_cst_3 : Ref sig .tc := ⟨.hbm, 149, rfl⟩
abbrev main_call3_v12 : Ref sig .tc := ⟨.hbm, 150, rfl⟩
abbrev main_call3_cst_4 : Ref sig .tc := ⟨.hbm, 151, rfl⟩
abbrev main_call3_call0_v0 : Ref sig .tc := ⟨.hbm, 152, rfl⟩
abbrev main_call3_call0_v1 : Ref sig .tc := ⟨.hbm, 153, rfl⟩
abbrev main_v82 : Ref sig .tc := ⟨.hbm, 154, rfl⟩
abbrev main_v83 : Ref sig .tc := ⟨.hbm, 155, rfl⟩
abbrev main_v84 : Ref sig .tc := ⟨.hbm, 156, rfl⟩
abbrev main_v85 : Ref sig .tc := ⟨.hbm, 157, rfl⟩
abbrev main_cst_11 : Ref sig .tc := ⟨.hbm, 158, rfl⟩
abbrev main_v86 : Ref sig .tc := ⟨.hbm, 159, rfl⟩
abbrev main_v87 : Ref sig .tc := ⟨.hbm, 160, rfl⟩
abbrev main_v88 : Ref sig .tc := ⟨.hbm, 161, rfl⟩
abbrev main_v89 : Ref sig .tc := ⟨.hbm, 162, rfl⟩
abbrev main_v90 : Ref sig .tc := ⟨.hbm, 163, rfl⟩
abbrev main_v91 : Ref sig .tc := ⟨.hbm, 164, rfl⟩
abbrev main_v92 : Ref sig .tc := ⟨.hbm, 165, rfl⟩
abbrev main_v93 : Ref sig .tc := ⟨.hbm, 166, rfl⟩
abbrev main_v94 : Ref sig .tc := ⟨.hbm, 167, rfl⟩
abbrev main_v95 : Ref sig .tc := ⟨.hbm, 168, rfl⟩
abbrev main_v96 : Ref sig .tc := ⟨.hbm, 169, rfl⟩
abbrev main_v97 : Ref sig .tc := ⟨.hbm, 170, rfl⟩
abbrev main_call4_cst : Ref sig .tc := ⟨.hbm, 171, rfl⟩
abbrev main_call4_v0 : Ref sig .tc := ⟨.hbm, 172, rfl⟩
abbrev main_v98 : Ref sig .tc := ⟨.hbm, 173, rfl⟩
abbrev main_v99 : Ref sig .tc := ⟨.hbm, 174, rfl⟩
abbrev main_v100 : Ref sig .tc := ⟨.hbm, 175, rfl⟩
abbrev main_v101 : Ref sig .tc := ⟨.hbm, 176, rfl⟩
abbrev main_v102 : Ref sig .tc := ⟨.hbm, 177, rfl⟩
abbrev main_v103 : Ref sig .tc := ⟨.hbm, 178, rfl⟩
abbrev main_v104 : Ref sig .tc := ⟨.hbm, 179, rfl⟩
abbrev main_v105 : Ref sig .tc := ⟨.hbm, 180, rfl⟩
abbrev main_v106 : Ref sig .tc := ⟨.hbm, 181, rfl⟩
abbrev main_call5_cst : Ref sig .tc := ⟨.hbm, 182, rfl⟩
abbrev main_call5_v0 : Ref sig .tc := ⟨.hbm, 183, rfl⟩
abbrev main_v107 : Ref sig .tc := ⟨.hbm, 184, rfl⟩
abbrev main_c_12 : Ref sig .tc := ⟨.hbm, 185, rfl⟩
abbrev main_v108 : Ref sig .tc := ⟨.hbm, 186, rfl⟩
abbrev main_v109 : Ref sig .tc := ⟨.hbm, 187, rfl⟩
abbrev main_c_13 : Ref sig .tc := ⟨.hbm, 188, rfl⟩
abbrev main_v110 : Ref sig .tc := ⟨.hbm, 189, rfl⟩
abbrev main_v111 : Ref sig .tc := ⟨.hbm, 190, rfl⟩
abbrev main_v112 : Ref sig .tc := ⟨.hbm, 191, rfl⟩
abbrev main_v113 : Ref sig .tc := ⟨.hbm, 192, rfl⟩
abbrev main_v114 : Ref sig .tc := ⟨.hbm, 193, rfl⟩
abbrev main_cst_14 : Ref sig .tc := ⟨.hbm, 194, rfl⟩
abbrev main_v115 : Ref sig .tc := ⟨.hbm, 195, rfl⟩
abbrev main_v116 : Ref sig .tc := ⟨.hbm, 196, rfl⟩
abbrev main_v117 : Ref sig .tc := ⟨.hbm, 197, rfl⟩
abbrev main_v118 : Ref sig .tc := ⟨.hbm, 198, rfl⟩
abbrev main_v119 : Ref sig .tc := ⟨.hbm, 199, rfl⟩
abbrev main_v120 : Ref sig .tc := ⟨.hbm, 200, rfl⟩
abbrev main_v121 : Ref sig .tc := ⟨.hbm, 201, rfl⟩
abbrev main_v122 : Ref sig .tc := ⟨.hbm, 202, rfl⟩
abbrev main_v123 : Ref sig .tc := ⟨.hbm, 203, rfl⟩
abbrev main_v124 : Ref sig .tc := ⟨.hbm, 204, rfl⟩
abbrev main_v125 : Ref sig .tc := ⟨.hbm, 205, rfl⟩
abbrev main_v126 : Ref sig .tc := ⟨.hbm, 206, rfl⟩
abbrev main_v127 : Ref sig .tc := ⟨.hbm, 207, rfl⟩
abbrev main_v128 : Ref sig .tc := ⟨.hbm, 208, rfl⟩
abbrev main_v129 : Ref sig .tc := ⟨.hbm, 209, rfl⟩
abbrev main_v130 : Ref sig .tc := ⟨.hbm, 210, rfl⟩
abbrev main_cst_15 : Ref sig .tc := ⟨.hbm, 211, rfl⟩
abbrev main_v131 : Ref sig .tc := ⟨.hbm, 212, rfl⟩
abbrev main_cst_16 : Ref sig .tc := ⟨.hbm, 213, rfl⟩
abbrev main_v132 : Ref sig .tc := ⟨.hbm, 214, rfl⟩
abbrev main_v133 : Ref sig .tc := ⟨.hbm, 215, rfl⟩
abbrev main_c_17 : Ref sig .tc := ⟨.hbm, 216, rfl⟩
abbrev main_call6_cst : Ref sig .tc := ⟨.hbm, 217, rfl⟩
abbrev main_call6_v0 : Ref sig .tc := ⟨.hbm, 218, rfl⟩
abbrev main_call6_v1 : Ref sig .tc := ⟨.hbm, 219, rfl⟩
abbrev main_call6_cst_0 : Ref sig .tc := ⟨.hbm, 220, rfl⟩
abbrev main_call6_v2 : Ref sig .tc := ⟨.hbm, 221, rfl⟩
abbrev main_call6_v3 : Ref sig .tc := ⟨.hbm, 222, rfl⟩
abbrev main_call6_v4 : Ref sig .tc := ⟨.hbm, 223, rfl⟩
abbrev main_call6_v5 : Ref sig .tc := ⟨.hbm, 224, rfl⟩
abbrev main_call6_v6 : Ref sig .tc := ⟨.hbm, 225, rfl⟩
abbrev main_call6_v7 : Ref sig .tc := ⟨.hbm, 226, rfl⟩
abbrev main_call6_cst_1 : Ref sig .tc := ⟨.hbm, 227, rfl⟩
abbrev main_call6_v8 : Ref sig .tc := ⟨.hbm, 228, rfl⟩
abbrev main_call6_cst_2 : Ref sig .tc := ⟨.hbm, 229, rfl⟩
abbrev main_call6_v9 : Ref sig .tc := ⟨.hbm, 230, rfl⟩
abbrev main_call6_v10 : Ref sig .tc := ⟨.hbm, 231, rfl⟩
abbrev main_call6_v11 : Ref sig .tc := ⟨.hbm, 232, rfl⟩
abbrev main_call6_cst_3 : Ref sig .tc := ⟨.hbm, 233, rfl⟩
abbrev main_call6_v12 : Ref sig .tc := ⟨.hbm, 234, rfl⟩
abbrev main_call6_cst_4 : Ref sig .tc := ⟨.hbm, 235, rfl⟩
abbrev main_call6_call0_v0 : Ref sig .tc := ⟨.hbm, 236, rfl⟩
abbrev main_call6_call0_v1 : Ref sig .tc := ⟨.hbm, 237, rfl⟩
abbrev main_v134 : Ref sig .tc := ⟨.hbm, 238, rfl⟩
abbrev main_v135 : Ref sig .tc := ⟨.hbm, 239, rfl⟩
abbrev main_v136 : Ref sig .tc := ⟨.hbm, 240, rfl⟩
abbrev main_v137 : Ref sig .tc := ⟨.hbm, 241, rfl⟩
abbrev main_cst_18 : Ref sig .tc := ⟨.hbm, 242, rfl⟩
abbrev main_v138 : Ref sig .tc := ⟨.hbm, 243, rfl⟩
abbrev main_v139 : Ref sig .tc := ⟨.hbm, 244, rfl⟩
abbrev main_v140 : Ref sig .tc := ⟨.hbm, 245, rfl⟩
abbrev main_v141 : Ref sig .tc := ⟨.hbm, 246, rfl⟩
abbrev main_v142 : Ref sig .tc := ⟨.hbm, 247, rfl⟩
abbrev main_v143 : Ref sig .tc := ⟨.hbm, 248, rfl⟩
abbrev main_v144 : Ref sig .tc := ⟨.hbm, 249, rfl⟩
abbrev main_v145 : Ref sig .tc := ⟨.hbm, 250, rfl⟩
abbrev main_v146 : Ref sig .tc := ⟨.hbm, 251, rfl⟩
abbrev main_v147 : Ref sig .tc := ⟨.hbm, 252, rfl⟩
abbrev main_v148 : Ref sig .tc := ⟨.hbm, 253, rfl⟩
abbrev main_v149 : Ref sig .tc := ⟨.hbm, 254, rfl⟩
abbrev main_call7_cst : Ref sig .tc := ⟨.hbm, 255, rfl⟩
abbrev main_call7_v0 : Ref sig .tc := ⟨.hbm, 256, rfl⟩
abbrev main_v150 : Ref sig .tc := ⟨.hbm, 257, rfl⟩
abbrev main_v151 : Ref sig .tc := ⟨.hbm, 258, rfl⟩
abbrev main_v152 : Ref sig .tc := ⟨.hbm, 259, rfl⟩
abbrev main_v153 : Ref sig .tc := ⟨.hbm, 260, rfl⟩
abbrev main_v154 : Ref sig .tc := ⟨.hbm, 261, rfl⟩
abbrev main_v155 : Ref sig .tc := ⟨.hbm, 262, rfl⟩
abbrev main_v156 : Ref sig .tc := ⟨.hbm, 263, rfl⟩
abbrev main_v157 : Ref sig .tc := ⟨.hbm, 264, rfl⟩
abbrev main_v158 : Ref sig .tc := ⟨.hbm, 265, rfl⟩
abbrev main_call8_cst : Ref sig .tc := ⟨.hbm, 266, rfl⟩
abbrev main_call8_v0 : Ref sig .tc := ⟨.hbm, 267, rfl⟩
abbrev main_v159 : Ref sig .tc := ⟨.hbm, 268, rfl⟩
abbrev main_c_19 : Ref sig .tc := ⟨.hbm, 269, rfl⟩
abbrev main_v160 : Ref sig .tc := ⟨.hbm, 270, rfl⟩
abbrev main_v161 : Ref sig .tc := ⟨.hbm, 271, rfl⟩
abbrev main_c_20 : Ref sig .tc := ⟨.hbm, 272, rfl⟩
abbrev main_v162 : Ref sig .tc := ⟨.hbm, 273, rfl⟩
abbrev main_v163 : Ref sig .tc := ⟨.hbm, 274, rfl⟩
abbrev main_v164 : Ref sig .tc := ⟨.hbm, 275, rfl⟩
abbrev main_v165 : Ref sig .tc := ⟨.hbm, 276, rfl⟩
abbrev main_v166 : Ref sig .tc := ⟨.hbm, 277, rfl⟩
abbrev main_cst_21 : Ref sig .tc := ⟨.hbm, 278, rfl⟩
abbrev main_v167 : Ref sig .tc := ⟨.hbm, 279, rfl⟩
abbrev main_v168 : Ref sig .tc := ⟨.hbm, 280, rfl⟩
abbrev main_v169 : Ref sig .tc := ⟨.hbm, 281, rfl⟩
abbrev main_v170 : Ref sig .tc := ⟨.hbm, 282, rfl⟩
abbrev main_v171 : Ref sig .tc := ⟨.hbm, 283, rfl⟩
abbrev main_v172 : Ref sig .tc := ⟨.hbm, 284, rfl⟩
abbrev main_v173 : Ref sig .tc := ⟨.hbm, 285, rfl⟩
abbrev main_v174 : Ref sig .tc := ⟨.hbm, 286, rfl⟩
abbrev main_v175 : Ref sig .tc := ⟨.hbm, 287, rfl⟩
abbrev main_v176 : Ref sig .tc := ⟨.hbm, 288, rfl⟩
abbrev main_v177 : Ref sig .tc := ⟨.hbm, 289, rfl⟩
abbrev main_v178 : Ref sig .tc := ⟨.hbm, 290, rfl⟩
abbrev main_v179 : Ref sig .tc := ⟨.hbm, 291, rfl⟩
abbrev main_v180 : Ref sig .tc := ⟨.hbm, 292, rfl⟩
abbrev main_v181 : Ref sig .tc := ⟨.hbm, 293, rfl⟩
abbrev main_v182 : Ref sig .tc := ⟨.hbm, 294, rfl⟩
abbrev main_cst_22 : Ref sig .tc := ⟨.hbm, 295, rfl⟩
abbrev main_v183 : Ref sig .tc := ⟨.hbm, 296, rfl⟩
abbrev main_cst_23 : Ref sig .tc := ⟨.hbm, 297, rfl⟩
abbrev main_v184 : Ref sig .tc := ⟨.hbm, 298, rfl⟩
abbrev main_v185 : Ref sig .tc := ⟨.hbm, 299, rfl⟩
abbrev main_c_24 : Ref sig .tc := ⟨.hbm, 300, rfl⟩
abbrev main_call9_cst : Ref sig .tc := ⟨.hbm, 301, rfl⟩
abbrev main_call9_v0 : Ref sig .tc := ⟨.hbm, 302, rfl⟩
abbrev main_call9_v1 : Ref sig .tc := ⟨.hbm, 303, rfl⟩
abbrev main_call9_cst_0 : Ref sig .tc := ⟨.hbm, 304, rfl⟩
abbrev main_call9_v2 : Ref sig .tc := ⟨.hbm, 305, rfl⟩
abbrev main_call9_v3 : Ref sig .tc := ⟨.hbm, 306, rfl⟩
abbrev main_call9_v4 : Ref sig .tc := ⟨.hbm, 307, rfl⟩
abbrev main_call9_v5 : Ref sig .tc := ⟨.hbm, 308, rfl⟩
abbrev main_call9_v6 : Ref sig .tc := ⟨.hbm, 309, rfl⟩
abbrev main_call9_v7 : Ref sig .tc := ⟨.hbm, 310, rfl⟩
abbrev main_call9_cst_1 : Ref sig .tc := ⟨.hbm, 311, rfl⟩
abbrev main_call9_v8 : Ref sig .tc := ⟨.hbm, 312, rfl⟩
abbrev main_call9_cst_2 : Ref sig .tc := ⟨.hbm, 313, rfl⟩
abbrev main_call9_v9 : Ref sig .tc := ⟨.hbm, 314, rfl⟩
abbrev main_call9_v10 : Ref sig .tc := ⟨.hbm, 315, rfl⟩
abbrev main_call9_v11 : Ref sig .tc := ⟨.hbm, 316, rfl⟩
abbrev main_call9_cst_3 : Ref sig .tc := ⟨.hbm, 317, rfl⟩
abbrev main_call9_v12 : Ref sig .tc := ⟨.hbm, 318, rfl⟩
abbrev main_call9_cst_4 : Ref sig .tc := ⟨.hbm, 319, rfl⟩
abbrev main_call9_call0_v0 : Ref sig .tc := ⟨.hbm, 320, rfl⟩
abbrev main_call9_call0_v1 : Ref sig .tc := ⟨.hbm, 321, rfl⟩
abbrev main_v186 : Ref sig .tc := ⟨.hbm, 322, rfl⟩
abbrev main_v187 : Ref sig .tc := ⟨.hbm, 323, rfl⟩
abbrev main_v188 : Ref sig .tc := ⟨.hbm, 324, rfl⟩
abbrev main_v189 : Ref sig .tc := ⟨.hbm, 325, rfl⟩
abbrev main_cst_25 : Ref sig .tc := ⟨.hbm, 326, rfl⟩
abbrev main_v190 : Ref sig .tc := ⟨.hbm, 327, rfl⟩
abbrev main_v191 : Ref sig .tc := ⟨.hbm, 328, rfl⟩
abbrev main_v192 : Ref sig .tc := ⟨.hbm, 329, rfl⟩
abbrev main_v193 : Ref sig .tc := ⟨.hbm, 330, rfl⟩
abbrev main_v194 : Ref sig .tc := ⟨.hbm, 331, rfl⟩
abbrev main_v195 : Ref sig .tc := ⟨.hbm, 332, rfl⟩
abbrev main_v196 : Ref sig .tc := ⟨.hbm, 333, rfl⟩
abbrev main_v197 : Ref sig .tc := ⟨.hbm, 334, rfl⟩
abbrev main_v198 : Ref sig .tc := ⟨.hbm, 335, rfl⟩
abbrev main_v199 : Ref sig .tc := ⟨.hbm, 336, rfl⟩
abbrev main_v200 : Ref sig .tc := ⟨.hbm, 337, rfl⟩
abbrev main_v201 : Ref sig .tc := ⟨.hbm, 338, rfl⟩
abbrev main_call10_cst : Ref sig .tc := ⟨.hbm, 339, rfl⟩
abbrev main_call10_v0 : Ref sig .tc := ⟨.hbm, 340, rfl⟩
abbrev main_v202 : Ref sig .tc := ⟨.hbm, 341, rfl⟩
abbrev main_v203 : Ref sig .tc := ⟨.hbm, 342, rfl⟩
abbrev main_v204 : Ref sig .tc := ⟨.hbm, 343, rfl⟩
abbrev main_v205 : Ref sig .tc := ⟨.hbm, 344, rfl⟩
abbrev main_v206 : Ref sig .tc := ⟨.hbm, 345, rfl⟩
abbrev main_v207 : Ref sig .tc := ⟨.hbm, 346, rfl⟩
abbrev main_v208 : Ref sig .tc := ⟨.hbm, 347, rfl⟩
abbrev main_v209 : Ref sig .tc := ⟨.hbm, 348, rfl⟩
abbrev main_v210 : Ref sig .tc := ⟨.hbm, 349, rfl⟩
abbrev main_call11_cst : Ref sig .tc := ⟨.hbm, 350, rfl⟩
abbrev main_call11_v0 : Ref sig .tc := ⟨.hbm, 351, rfl⟩
abbrev main_v211 : Ref sig .tc := ⟨.hbm, 352, rfl⟩
abbrev main_cst_26 : Ref sig .tc := ⟨.hbm, 353, rfl⟩
abbrev main_v212 : Ref sig .tc := ⟨.hbm, 354, rfl⟩
abbrev main_v213 : Ref sig .tc := ⟨.hbm, 355, rfl⟩
abbrev main_v214 : Ref sig .tc := ⟨.hbm, 356, rfl⟩
abbrev main_v215 : Ref sig .tc := ⟨.hbm, 357, rfl⟩
abbrev main_v216 : Ref sig .tc := ⟨.hbm, 358, rfl⟩
abbrev main_v217 : Ref sig .tc := ⟨.hbm, 359, rfl⟩
abbrev main_v218 : Ref sig .tc := ⟨.hbm, 360, rfl⟩
abbrev main_call12_cst : Ref sig .tc := ⟨.hbm, 361, rfl⟩
abbrev main_call12_v0 : Ref sig .tc := ⟨.hbm, 362, rfl⟩
abbrev main_v219 : Ref sig .tc := ⟨.hbm, 363, rfl⟩
abbrev main_v220 : Ref sig .tc := ⟨.hbm, 364, rfl⟩
abbrev main_v221 : Ref sig .tc := ⟨.hbm, 365, rfl⟩
abbrev main_v222 : Ref sig .tc := ⟨.hbm, 366, rfl⟩
abbrev main_v223 : Ref sig .tc := ⟨.hbm, 367, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S_S128x128 : S_.BroadcastsInDim S128x128 (![] : Fin 0 → Fin S128x128.rank)
  bcast_S100000_S100000x1_0 : S100000.BroadcastsInDim S100000x1 (![0] : Fin 1 → Fin S100000x1.rank)
  bcast_S1x128_S128x128_0_1 : S1x128.BroadcastsInDim S128x128 (![0, 1] : Fin 2 → Fin S128x128.rank)
  bcast_S32_S1x32_1 : S32.BroadcastsInDim S1x32 (![1] : Fin 1 → Fin S1x32.rank)
  bcast_S1x32_S128x32_0_1 : S1x32.BroadcastsInDim S128x32 (![0, 1] : Fin 2 → Fin S128x32.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S128x128_S100000x1_S100000x128_1_0_0_1_wf : ScatterDims.WF S128x128 S100000x1 S100000x128 [1] [0] [0] 1
  dot_S128x128_S128x128_S128x128_1_0_0_1_n_n_wf : DotDims.WF S128x128 S128x128 S128x128 [1] [0] [0] [1] [] []
  dot_S128x128_S128x32_S128x32_1_0_0_1_n_n_wf : DotDims.WF S128x128 S128x32 S128x32 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S128x128_S100000x1_S100000x128_1_0_0_1 : ScatterDims S128x128 S100000x1 S100000x128 where
  updateWindowDims := [1]
  insertedWindowDims := [0]
  scatterDimsToOperandDims := [0]
  indexVectorDim := 1
  wf := scatter_S128x128_S100000x1_S100000x128_1_0_0_1_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S128x128_S128x32_S128x32_1_0_0_1_n_n : DotDims S128x128 S128x32 S128x32 where
  lhsContracting := [1]
  rhsContracting := [0]
  lhsNonContracting := [0]
  rhsNonContracting := [1]
  lhsBatch := []
  rhsBatch := []
  wf := dot_S128x128_S128x32_S128x32_1_0_0_1_n_n_wf

class Facts : Prop extends Facts₀ where

variable [Facts]
-- ==== Proof.K.RunCond.lean ====
import proofs.«404458_j53163105190632_2_alg».proof.Proof.Gen.Kernel.Regions

set_option maxRecDepth 1876

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ) (outs : Outs (F := F))

set_option backward.isDefEq.respectTransparency.types false in
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 9) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 10 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE9 : ∀ c : Dev nD, E 9 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V7 m outs c) ∗ E 3 c) ⊢ R3.pre c)
    (hpost3 : ∀ c : Dev nD, R3.post c ⊢ iprop(StableHlo.held (c : Thread nD τ) (Pipeline.ucRefs τ sig) (V8 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V9 m outs c) ∗ E 4 c) ⊢ R4.pre c)
    (hpost4 : ∀ c : Dev nD, R4.post c ⊢ iprop(StableHlo.held (c : Thread nD τ) (Pipeline.ucRefs τ sig) (V10 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V11 m outs c) ∗ E 5 c) ⊢ R5.pre c)
    (hpost5 : ∀ c : Dev nD, R5.post c ⊢ iprop(StableHlo.held (c : Thread nD τ) (Pipeline.ucRefs τ sig) (V12 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V13 m outs c) ∗ E 6 c) ⊢ R6.pre c)
    (hpost6 : ∀ c : Dev nD, R6.post c ⊢ iprop(StableHlo.held (c : Thread nD τ) (Pipeline.ucRefs τ sig) (V14 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V15 m outs c) ∗ E 7 c) ⊢ R7.pre c)
    (hpost7 : ∀ c : Dev nD, R7.post c ⊢ iprop(StableHlo.held (c : Thread nD τ) (Pipeline.ucRefs τ sig) (V16 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V21 m outs c) ∗ E 8 c) ⊢ R8.pre c)
    (hpost8 : ∀ c : Dev nD, R8.post c ⊢ iprop(StableHlo.held (c : Thread nD τ) (Pipeline.ucRefs τ sig) (V22 m outs c) ∗ E 9 c)) :
    θ_run defs (onTc (τ := τ) (main (F := F))) ⟨m, fun _ => 0, ρ⟩ (fun r => ∀ c : Dev nD,
      r.2.mem ((c.tc : Thread nD τ).loc main_v193) = V22 m outs c main_v193
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8)
    (fun c Q => by rw [main_chain c, Seg.run_eq_chain]; exact .of_eq (by congr 3))
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V22 m outs c))
    (hch := fun c => ⟨.rfl, hpre0 c, hpost0 c, hpre1 c, hpost1 c, hpre2 c, hpost2 c, hpre3 c, hpost3 c, hpre4 c, hpost4 c, hpre5 c, hpost5 c, hpre6 c, hpost6 c, hpre7 c, hpost7 c, .rfl, .rfl, .rfl, .rfl, hpre8 c, (hpost8 c).trans (sep_mono .rfl (hE9 c))⟩)
    (hinit := ?_) (QY := _)
    (hfin := fun c s' => ?_) (hQ := fun _ h => h)
  · rw [bigSep_sep', show (fun c : Dev nD => unscopedBufs c fun b => m ((c.tc : Thread nD τ).loc b))
        = fun c : Dev nD => StableHlo.held (c : Thread nD τ) (Pipeline.ucRefs τ sig) (V0 m c)
      from funext fun c => Pipeline.unscopedBufs_held (Ix := Ix) (Name := ℕ) (U := U) (Lvl := Lvl) c (V0 m c)]
    iintro ⟨⟨Hh, Hr⟩, Hla⟩
    imod hE0 $$ [Hr Hla] with HE
    · isplitl [Hr] <;> iassumption
    imodintro
    rw [bigSep_sep']
    isplitl [Hh] <;> iassumption
  · unfold StableHlo.held
    iintro ⟨Hh, HSI⟩
    ihave Hr := (pointsTo_read_all (Pipeline.ucRefs τ sig) (fun b => ((c : Thread nD τ).1, b)) (V22 m outs c) s') $$ [Hh HSI]
    · isplitl [Hh] <;> iassumption
    icases Hr with ⟨%h, HSI⟩
    imodintro
    isplitr
    · ipureintro
      have h' := fun (b : Ref sig .tc) hb => h (Proc.devRef .tc b) (Finset.mem_filter.mpr ⟨StableHlo.devRef_mem_tcRefs b, hb⟩)
      exact ⟨h' main_v193 (by decide),
        (h' main_arg0 (by decide)).trans (V22_main_arg0 m outs c),
        (h' main_arg1 (by decide)).trans (V22_main_arg1 m outs c),
        (h' main_arg2 (by decide)).trans (V22_main_arg2 m outs c),
        (h' main_arg3 (by decide)).trans (V22_main_arg3 m outs c),
        (h' main_arg4 (by decide)).trans (V22_main_arg4 m outs c),
        (h' main_arg5 (by decide)).trans (V22_main_arg5 m outs c),
        (h' main_arg6 (by decide)).trans (V22_main_arg6 m outs c),
        (h' main_arg7 (by decide)).trans (V22_main_arg7 m outs c),
        (h' main_arg8 (by decide)).trans (V22_main_arg8 m outs c),
        (h' main_arg9 (by decide)).trans (V22_main_arg9 m outs c),
        (h' main_arg10 (by decide)).trans (V22_main_arg10 m outs c),
        (h' main_arg11 (by decide)).trans (V22_main_arg11 m outs c),
        (h' main_arg12 (by decide)).trans (V22_main_arg12 m outs c)⟩
    · iexact HSI

end Cert.Kernel.Hand

end
-- ==== Proof.K.R0.lean ====
import proofs.«404458_j53163105190632_2_alg».proof.Proof.Gen.Kernel.Launch
import proofs.«404458_j53163105190632_2_alg».proof.Proof.Gen.Kernel.Skeleton
import proofs.«404458_j53163105190632_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-- The rectangles the body reads and writes: each is a whole block, its extents at offset zero. -/
theorem zeros0_2 : (![0, 0] : Fin 2 → Nat) = fun _ => 0 := by decide

theorem zeros0_3 : (![0, 0, 0] : Fin 3 → Nat) = fun _ => 0 := by decide

abbrev r0_0 : Rect S5000x128 := Rect.unit (s := S5000x128) ![0, 0] S5000x128.size inb_S5000x128_S5000x128_0_0

abbrev r0_1 : Rect S128x128 := Rect.unit (s := S128x128) ![0, 0] S128x128.size inb_S128x128_S128x128_0_0

abbrev r0_2 : Rect S1x128 := Rect.unit (s := S1x128) ![0, 0] S1x128.size inb_S1x128_S1x128_0_0

abbrev r0_3 : Rect S1x8x128 := Rect.unit (s := S1x8x128) ![0, 0, 0] S1x8x128.size inb_S1x8x128_S1x8x128_0_0_0

/-- The value the body stores to each output block, as a function of the four input blocks. -/
def out0_4 (x0 x1 : Vec F S5000x128 .f32) (x2 : Vec F S128x128 .f32) (x3 : Vec F S1x128 .f32) : Vec F S5000x128 .f32 :=
  View.canon [⟨r0_0, k0_pay1 (View.ld x0 r0_0) (View.ld x1 r0_0) (View.ld x2 r0_1) (View.ld x3 r0_2)⟩]

def out0_5 (x0 x1 : Vec F S5000x128 .f32) (x2 : Vec F S128x128 .f32) (x3 : Vec F S1x128 .f32) : Vec F S1x8x128 .f32 :=
  View.canon [⟨r0_3, k0_pay2 (View.ld x0 r0_0) (View.ld x1 r0_0) (View.ld x2 r0_1) (View.ld x3 r0_2)⟩]

def out0_6 (x0 x1 : Vec F S5000x128 .f32) (x2 : Vec F S128x128 .f32) (x3 : Vec F S1x128 .f32) : Vec F S1x8x128 .f32 :=
  View.canon [⟨r0_3, k0_pay3 (View.ld x0 r0_0) (View.ld x1 r0_0) (View.ld x2 r0_1) (View.ld x3 r0_2)⟩]

/-- Writing a whole block leaves the written value, and reading a whole block reads it. -/
theorem out0_4_eq (x0 x1 : Vec F S5000x128 .f32) (x2 : Vec F S128x128 .f32) (x3 : Vec F S1x128 .f32) :
    out0_4 x0 x1 x2 x3 = k0_pay1 x0 x1 x2 x3 := by
  unfold out0_4
  rw [View.canon_unit_zero zeros0_2]
  simp only [View.ld_unit_zero (S := S5000x128) zeros0_2, View.ld_unit_zero (S := S128x128) zeros0_2, View.ld_unit_zero (S := S1x128) zeros0_2]

theorem out0_5_eq (x0 x1 : Vec F S5000x128 .f32) (x2 : Vec F S128x128 .f32) (x3 : Vec F S1x128 .f32) :
    out0_5 x0 x1 x2 x3 = k0_pay2 x0 x1 x2 x3 := by
  unfold out0_5
  rw [View.canon_unit_zero zeros0_3]
  simp only [View.ld_unit_zero (S := S5000x128) zeros0_2, View.ld_unit_zero (S := S128x128) zeros0_2, View.ld_unit_zero (S := S1x128) zeros0_2]

theorem out0_6_eq (x0 x1 : Vec F S5000x128 .f32) (x2 : Vec F S128x128 .f32) (x3 : Vec F S1x128 .f32) :
    out0_6 x0 x1 x2 x3 = k0_pay3 x0 x1 x2 x3 := by
  unfold out0_6
  rw [View.canon_unit_zero zeros0_3]
  simp only [View.ld_unit_zero (S := S5000x128) zeros0_2, View.ld_unit_zero (S := S128x128) zeros0_2, View.ld_unit_zero (S := S1x128) zeros0_2]

/-- The whole-block rectangle covers every index. -/
theorem cover0_4 (p0 : Vec F S5000x128 .f32) (y : S5000x128.Idx) :
    ∃ pc ∈ ([⟨r0_0, p0⟩] : List (View.Piece (Elt F) S5000x128 .f32)), y ∈ pc.1.set :=
  ⟨_, List.mem_singleton_self _, View.mem_set_unit_zero zeros0_2 inb_S5000x128_S5000x128_0_0 y⟩

theorem cover0_5 (p0 : Vec F S1x8x128 .f32) (y : S1x8x128.Idx) :
    ∃ pc ∈ ([⟨r0_3, p0⟩] : List (View.Piece (Elt F) S1x8x128 .f32)), y ∈ pc.1.set :=
  ⟨_, List.mem_singleton_self _, View.mem_set_unit_zero zeros0_3 inb_S1x8x128_S1x8x128_0_0_0 y⟩

set_option maxHeartbeats 1000000 in

theorem sound_kernel0 (c : Dev nD) (E : Set ℕ) (i : grid0.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S5000x128 .f32) (harg5 : arg5.IsWhole) (arg6 : Memref sig .tc .vmem S1x8x128 .f32) (harg6 : arg6.IsWhole)
    (arg7 : Memref sig .tc .vmem S1x8x128 .f32) (harg7 : arg7.IsWhole)
    (x0 x1 : Vec F S5000x128 .f32) (x2 : Vec F S128x128 .f32) (x3 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1 x2 x3)
            ∗ owns (c : Thread nD τ) arg6 fullShare (out0_5 x0 x1 x2 x3)
            ∗ owns (c : Thread nD τ) arg7 fullShare (out0_6 x0 x1 x2 x3)) -∗ K ⟨⟩))
      ⊢ wp frame (wpE (defs₀ (F := F)) Variants.none c none) E
          (cc0__lin1_kernel i arg1 harg1 arg2 harg2 arg3 harg3 arg4 harg4 arg5 harg5 arg6 harg6 arg7 harg7) K := by
  simp only [cc0__lin1_kernel_eq_skeleton]; unfold cc0__lin1_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_5 _)

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The region's proof data: the entry arrays; after each point the input blocks unchanged and each output block at the body's value of them. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
    | ⟨5, _⟩ => out0_5 (iblk0 V c 0 t) (iblk0 V c 1 t) (iblk0 V c 2 t) (iblk0 V c 3 t)
    | ⟨6, _⟩ => out0_6 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]
theorem after0_5 (c : Dev nD) (t : Fin cfg0.N) : (dat0 V c).after 5 t = out0_5 (iblk0 V c 0 t) (iblk0 V c 1 t) (iblk0 V c 2 t) (iblk0 V c 3 t) := by dsimp only [dat0]
theorem after0_6 (c : Dev nD) (t : Fin cfg0.N) : (dat0 V c).after 6 t = out0_6 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl
theorem before0_3 (c : Dev nD) (t : Fin cfg0.N) (d) : (dat0 V c).before 3 t d = iblk0 V c 3 t :=
  ((dat0 V c).before_in_eq_fetched 3 rfl (fun _ => rfl) (fun _ _ _ => rfl) (fun _ => rfl) t d).trans rfl

set_option maxHeartbeats 1000000 in
/-- At every grid point the body is the kernel at that point's input blocks; the invariant passes through untouched. -/
theorem body_obligation0 (c : Dev nD) : BodyObligation (dat0 (F := F) V c) (defs₀ (F := F)) Variants.none () Set.univ := fun t => by
  rw [bigSep_W0, bigSep_W0]
  show _ ⊢ wp frame (wpE (defs₀ (F := F)) Variants.none c none) Set.univ (bodyAt0 t) _
  simp only [before0_0, before0_1, before0_2, before0_3]
  rw [show (dat0 V c).Φ t.succ = (dat0 V c).Φ t.castSucc from rfl,
    show (dat0 V c).owesAt () t.succ = (dat0 V c).owesAt () t.castSucc from rfl, after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  unfold bodyAt0
  iapply (sound_kernel0 c Set.univ _ _ _ _ _ _ _ _ _ _ _ _ _ _ _ (iblk0 V c 0 t) (iblk0 V c 1 t) (iblk0 V c 2 t) (iblk0 V c 3 t) _)
  iframe H0 H1 H2 H3
  isplitl [H4]; · iexists _; iexact H4
  isplitl [H5]; · iexists _; iexact H5
  isplitl [H6]; · iexists _; iexact H6
  iintro ⟨H0, H1, H2, H3, H4, H5, H6⟩
  iframe HΦ Ho H0 H1 H2 H3 H4 H5 H6

end Cert.Kernel.Hand

end
-- ==== Proof.K.R1.lean ====
import proofs.«404458_j53163105190632_2_alg».proof.Proof.Gen.Kernel.Launch
import proofs.«404458_j53163105190632_2_alg».proof.Proof.Gen.Kernel.Skeleton
import proofs.«404458_j53163105190632_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-- The rectangles the body reads and writes: each is a whole block, its extents at offset zero. -/
abbrev r1_0 : Rect S5000x128 := Rect.unit (s := S5000x128) ![0, 0] S5000x128.size inb_S5000x128_S5000x128_0_0

abbrev r1_1 : Rect S1x128 := Rect.unit (s := S1x128) ![0, 0] S1x128.size inb_S1x128_S1x128_0_0

abbrev r1_2 : Rect S128x128 := Rect.unit (s := S128x128) ![0, 0] S128x128.size inb_S128x128_S128x128_0_0

theorem hz1 : (![0, 0] : Fin 2 → Nat) = fun _ => 0 := funext fun a => by fin_cases a <;> rfl

/-- The value the body stores to the output block, as a function of the five input blocks. -/
def out1_5 (x0 : Vec F S5000x128 .f32) (x1 x2 : Vec F S1x128 .f32) (x3 : Vec F S128x128 .f32) (x4 : Vec F S1x128 .f32) : Vec F S5000x128 .f32 :=
  View.canon [⟨r1_0, k1_pay1 (View.ld x0 r1_0) (View.ld x1 r1_1) (View.ld x2 r1_1) (View.ld x3 r1_2) (View.ld x4 r1_1)⟩]

theorem cover1_5 (p0 : Vec F S5000x128 .f32) (y : S5000x128.Idx) :
    ∃ pc ∈ ([⟨r1_0, p0⟩] : List (View.Piece (Elt F) S5000x128 .f32)), y ∈ pc.1.set :=
  ⟨⟨r1_0, p0⟩, List.mem_singleton_self _, View.mem_set_unit_zero hz1 inb_S5000x128_S5000x128_0_0 y⟩

theorem out1_5_eq (x0 : Vec F S5000x128 .f32) (x1 x2 : Vec F S1x128 .f32) (x3 : Vec F S128x128 .f32) (x4 : Vec F S1x128 .f32) :
    out1_5 x0 x1 x2 x3 x4 = k1_pay1 x0 x1 x2 x3 x4 := by
  unfold out1_5
  rw [View.canon_unit_zero hz1]
  simp only [View.ld_unit_zero (S := S5000x128) hz1, View.ld_unit_zero (S := S1x128) hz1, View.ld_unit_zero (S := S128x128) hz1]

set_option maxHeartbeats 1000000 in
/-- The kernel's triple: the input blocks are kept and the output block ends at `out1_5` of them. -/
theorem sound_kernel1 (c : Dev nD) (E : Set ℕ) (i : grid1.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (x0 : Vec F S5000x128 .f32) (x1 x2 : Vec F S1x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E
          (cc1__lin2_kernel i arg1 harg1 arg2 harg2 arg3 harg3 arg4 harg4 arg5 harg5 arg6 harg6) K := by
  simp only [cc1__lin2_kernel_eq_skeleton]; unfold cc1__lin2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The region's proof data: the entry arrays; after each point the input blocks unchanged and the output block at the body's value of them. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl
theorem before1_4 (c : Dev nD) (t : Fin cfg1.N) (d) : (dat1 V c).before 4 t d = iblk1 V c 4 t :=
  ((dat1 V c).before_in_eq_fetched 4 rfl (fun _ => rfl) (fun _ _ _ => rfl) (fun _ => rfl) t d).trans rfl

set_option maxHeartbeats 1000000 in
/-- At every grid point the body is the kernel at that point's input blocks; the invariant passes through untouched. -/
theorem body_obligation1 (c : Dev nD) : BodyObligation (dat1 (F := F) V c) (defs₀ (F := F)) Variants.none () Set.univ := fun t => by
  rw [bigSep_W1, bigSep_W1]
  show _ ⊢ wp frame (wpE (defs₀ (F := F)) Variants.none c none) Set.univ (bodyAt1 t) _
  simp only [before1_0, before1_1, before1_2, before1_3, before1_4]
  rw [show (dat1 V c).Φ t.succ = (dat1 V c).Φ t.castSucc from rfl,
    show (dat1 V c).owesAt () t.succ = (dat1 V c).owesAt () t.castSucc from rfl, after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  unfold bodyAt1
  iapply (sound_kernel1 c Set.univ _ _ _ _ _ _ _ _ _ _ _ _ _
    (iblk1 V c 0 t) (iblk1 V c 1 t) (iblk1 V c 2 t) (iblk1 V c 3 t) (iblk1 V c 4 t) _)
  iframe H0 H1 H2 H3 H4
  isplitl [H5]; · iexists _; iexact H5
  iintro ⟨H0, H1, H2, H3, H4, H5⟩
  iframe HΦ Ho H0 H1 H2 H3 H4 H5

end Cert.Kernel.Hand

end
-- ==== Proof.K.R2.lean ====
import proofs.«404458_j53163105190632_2_alg».proof.Proof.Gen.Kernel.Launch
import proofs.«404458_j53163105190632_2_alg».proof.Proof.Gen.Kernel.Skeleton
import proofs.«404458_j53163105190632_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-- The rectangles the body reads and writes: each is a whole block, its extents at offset zero. -/
theorem zeros2_2 : (![0, 0] : Fin 2 → Nat) = fun _ => 0 := by decide

theorem zeros2_3 : (![0, 0, 0] : Fin 3 → Nat) = fun _ => 0 := by decide

abbrev r2_0 : Rect S5000x128 := Rect.unit (s := S5000x128) ![0, 0] S5000x128.size inb_S5000x128_S5000x128_0_0

abbrev r2_1 : Rect S128x128 := Rect.unit (s := S128x128) ![0, 0] S128x128.size inb_S128x128_S128x128_0_0

abbrev r2_2 : Rect S1x128 := Rect.unit (s := S1x128) ![0, 0] S1x128.size inb_S1x128_S1x128_0_0

abbrev r2_3 : Rect S1x8x128 := Rect.unit (s := S1x8x128) ![0, 0, 0] S1x8x128.size inb_S1x8x128_S1x8x128_0_0_0

/-- The value the body stores to each output block, as a function of the four input blocks. -/
def out2_4 (x0 x1 : Vec F S5000x128 .f32) (x2 : Vec F S128x128 .f32) (x3 : Vec F S1x128 .f32) : Vec F S5000x128 .f32 :=
  View.canon [⟨r2_0, k2_pay1 (View.ld x0 r2_0) (View.ld x1 r2_0) (View.ld x2 r2_1) (View.ld x3 r2_2)⟩]

def out2_5 (x0 x1 : Vec F S5000x128 .f32) (x2 : Vec F S128x128 .f32) (x3 : Vec F S1x128 .f32) : Vec F S1x8x128 .f32 :=
  View.canon [⟨r2_3, k2_pay2 (View.ld x0 r2_0) (View.ld x1 r2_0) (View.ld x2 r2_1) (View.ld x3 r2_2)⟩]

def out2_6 (x0 x1 : Vec F S5000x128 .f32) (x2 : Vec F S128x128 .f32) (x3 : Vec F S1x128 .f32) : Vec F S1x8x128 .f32 :=
  View.canon [⟨r2_3, k2_pay3 (View.ld x0 r2_0) (View.ld x1 r2_0) (View.ld x2 r2_1) (View.ld x3 r2_2)⟩]

/-- Writing a whole block leaves the written value, and reading a whole block reads it. -/
theorem out2_4_eq (x0 x1 : Vec F S5000x128 .f32) (x2 : Vec F S128x128 .f32) (x3 : Vec F S1x128 .f32) :
    out2_4 x0 x1 x2 x3 = k2_pay1 x0 x1 x2 x3 := by
  unfold out2_4
  rw [View.canon_unit_zero zeros2_2]
  simp only [View.ld_unit_zero (S := S5000x128) zeros2_2, View.ld_unit_zero (S := S128x128) zeros2_2, View.ld_unit_zero (S := S1x128) zeros2_2]

theorem out2_5_eq (x0 x1 : Vec F S5000x128 .f32) (x2 : Vec F S128x128 .f32) (x3 : Vec F S1x128 .f32) :
    out2_5 x0 x1 x2 x3 = k2_pay2 x0 x1 x2 x3 := by
  unfold out2_5
  rw [View.canon_unit_zero zeros2_3]
  simp only [View.ld_unit_zero (S := S5000x128) zeros2_2, View.ld_unit_zero (S := S128x128) zeros2_2, View.ld_unit_zero (S := S1x128) zeros2_2]

theorem out2_6_eq (x0 x1 : Vec F S5000x128 .f32) (x2 : Vec F S128x128 .f32) (x3 : Vec F S1x128 .f32) :
    out2_6 x0 x1 x2 x3 = k2_pay3 x0 x1 x2 x3 := by
  unfold out2_6
  rw [View.canon_unit_zero zeros2_3]
  simp only [View.ld_unit_zero (S := S5000x128) zeros2_2, View.ld_unit_zero (S := S128x128) zeros2_2, View.ld_unit_zero (S := S1x128) zeros2_2]

/-- The whole-block rectangle covers every index. -/
theorem cover2_4 (p0 : Vec F S5000x128 .f32) (y : S5000x128.Idx) :
    ∃ pc ∈ ([⟨r2_0, p0⟩] : List (View.Piece (Elt F) S5000x128 .f32)), y ∈ pc.1.set :=
  ⟨_, List.mem_singleton_self _, View.mem_set_unit_zero zeros2_2 inb_S5000x128_S5000x128_0_0 y⟩

theorem cover2_5 (p0 : Vec F S1x8x128 .f32) (y : S1x8x128.Idx) :
    ∃ pc ∈ ([⟨r2_3, p0⟩] : List (View.Piece (Elt F) S1x8x128 .f32)), y ∈ pc.1.set :=
  ⟨_, List.mem_singleton_self _, View.mem_set_unit_zero zeros2_3 inb_S1x8x128_S1x8x128_0_0_0 y⟩

set_option maxHeartbeats 1000000 in

theorem sound_kernel2 (c : Dev nD) (E : Set ℕ) (i : grid2.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S5000x128 .f32) (harg5 : arg5.IsWhole) (arg6 : Memref sig .tc .vmem S1x8x128 .f32) (harg6 : arg6.IsWhole)
    (arg7 : Memref sig .tc .vmem S1x8x128 .f32) (harg7 : arg7.IsWhole)
    (x0 x1 : Vec F S5000x128 .f32) (x2 : Vec F S128x128 .f32) (x3 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out2_4 x0 x1 x2 x3)
            ∗ owns (c : Thread nD τ) arg6 fullShare (out2_5 x0 x1 x2 x3)
            ∗ owns (c : Thread nD τ) arg7 fullShare (out2_6 x0 x1 x2 x3)) -∗ K ⟨⟩))
      ⊢ wp frame (wpE (defs₀ (F := F)) Variants.none c none) E
          (cc2__lin1_kernel i arg1 harg1 arg2 harg2 arg3 harg3 arg4 harg4 arg5 harg5 arg6 harg6 arg7 harg7) K := by
  simp only [cc2__lin1_kernel_eq_skeleton]; unfold cc2__lin1_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover2_4 _)
  isplitl [H5]
  · iexists _; isplitr
    swap; · iexact H5
    ipureintro
    exact View.read_writes_eq_canon _ _ _ (cover2_5 _)
  iexists _; isplitr
  swap; · iexact H6
  ipureintro
  exact View.read_writes_eq_canon _ _ _ (cover2_5 _)

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The region's proof data: the entry arrays; after each point the input blocks unchanged and each output block at the body's value of them. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
    | ⟨5, _⟩ => out2_5 (iblk2 V c 0 t) (iblk2 V c 1 t) (iblk2 V c 2 t) (iblk2 V c 3 t)
    | ⟨6, _⟩ => out2_6 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]
theorem after2_5 (c : Dev nD) (t : Fin cfg2.N) : (dat2 V c).after 5 t = out2_5 (iblk2 V c 0 t) (iblk2 V c 1 t) (iblk2 V c 2 t) (iblk2 V c 3 t) := by dsimp only [dat2]
theorem after2_6 (c : Dev nD) (t : Fin cfg2.N) : (dat2 V c).after 6 t = out2_6 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl
theorem before2_3 (c : Dev nD) (t : Fin cfg2.N) (d) : (dat2 V c).before 3 t d = iblk2 V c 3 t :=
  ((dat2 V c).before_in_eq_fetched 3 rfl (fun _ => rfl) (fun _ _ _ => rfl) (fun _ => rfl) t d).trans rfl

set_option maxHeartbeats 1000000 in
/-- At every grid point the body is the kernel at that point's input blocks; the invariant passes through untouched. -/
theorem body_obligation2 (c : Dev nD) : BodyObligation (dat2 (F := F) V c) (defs₀ (F := F)) Variants.none () Set.univ := fun t => by
  rw [bigSep_W2, bigSep_W2]
  show _ ⊢ wp frame (wpE (defs₀ (F := F)) Variants.none c none) Set.univ (bodyAt2 t) _
  simp only [before2_0, before2_1, before2_2, before2_3]
  rw [show (dat2 V c).Φ t.succ = (dat2 V c).Φ t.castSucc from rfl,
    show (dat2 V c).owesAt () t.succ = (dat2 V c).owesAt () t.castSucc from rfl, after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  unfold bodyAt2
  iapply (sound_kernel2 c Set.univ _ _ _ _ _ _ _ _ _ _ _ _ _ _ _ (iblk2 V c 0 t) (iblk2 V c 1 t) (iblk2 V c 2 t) (iblk2 V c 3 t) _)
  iframe H0 H1 H2 H3
  isplitl [H4]; · iexists _; iexact H4
  isplitl [H5]; · iexists _; iexact H5
  isplitl [H6]; · iexists _; iexact H6
  iintro ⟨H0, H1, H2, H3, H4, H5, H6⟩
  iframe HΦ Ho H0 H1 H2 H3 H4 H5 H6

end Cert.Kernel.Hand

end
-- ==== Proof.K.R3.lean ====
import proofs.«404458_j53163105190632_2_alg».proof.Proof.Gen.Kernel.Launch
import proofs.«404458_j53163105190632_2_alg».proof.Proof.Gen.Kernel.Skeleton
import proofs.«404458_j53163105190632_2_alg».proof.Proof.Gen.Kernel.Points
import proofs.«404458_j53163105190632_2_alg».proof.Proof.K.R1
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-- This region runs the same kernel as region 1. -/
theorem lin2_3 : @cc3__lin2_kernel F _ = @cc1__lin2_kernel F _ := rfl

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The region's proof data: the entry arrays; after each point the input blocks unchanged and the output block at the body's value of them. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out1_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) :
    (dat3 V c).after 5 t = out1_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl
theorem before3_2 (c : Dev nD) (t : Fin cfg3.N) (d) : (dat3 V c).before 2 t d = iblk3 V c 2 t :=
  ((dat3 V c).before_in_eq_fetched 2 rfl (fun _ => rfl) (fun _ _ _ => rfl) (fun _ => rfl) t d).trans rfl
theorem before3_3 (c : Dev nD) (t : Fin cfg3.N) (d) : (dat3 V c).before 3 t d = iblk3 V c 3 t :=
  ((dat3 V c).before_in_eq_fetched 3 rfl (fun _ => rfl) (fun _ _ _ => rfl) (fun _ => rfl) t d).trans rfl
theorem before3_4 (c : Dev nD) (t : Fin cfg3.N) (d) : (dat3 V c).before 4 t d = iblk3 V c 4 t :=
  ((dat3 V c).before_in_eq_fetched 4 rfl (fun _ => rfl) (fun _ _ _ => rfl) (fun _ => rfl) t d).trans rfl

set_option maxHeartbeats 1000000 in
/-- At every grid point the body is the kernel at that point's input blocks; the invariant passes through untouched. -/
theorem body_obligation3 (c : Dev nD) : BodyObligation (dat3 (F := F) V c) (defs₀ (F := F)) Variants.none () Set.univ := fun t => by
  rw [bigSep_W3, bigSep_W3]
  show _ ⊢ wp frame (wpE (defs₀ (F := F)) Variants.none c none) Set.univ (bodyAt3 t) _
  simp only [before3_0, before3_1, before3_2, before3_3, before3_4]
  rw [show (dat3 V c).Φ t.succ = (dat3 V c).Φ t.castSucc from rfl,
    show (dat3 V c).owesAt () t.succ = (dat3 V c).owesAt () t.castSucc from rfl, after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  unfold bodyAt3; rw [lin2_3]
  iapply (sound_kernel1 c Set.univ _ _ _ _ _ _ _ _ _ _ _ _ _
    (iblk3 V c 0 t) (iblk3 V c 1 t) (iblk3 V c 2 t) (iblk3 V c 3 t) (iblk3 V c 4 t) _)
  iframe H0 H1 H2 H3 H4
  isplitl [H5]; · iexists _; iexact H5
  iintro ⟨H0, H1, H2, H3, H4, H5⟩
  iframe HΦ Ho H0 H1 H2 H3 H4 H5

end Cert.Kernel.Hand

end
-- ==== Proof.K.R4.lean ====
import proofs.«404458_j53163105190632_2_alg».proof.Proof.Gen.Kernel.Launch
import proofs.«404458_j53163105190632_2_alg».proof.Proof.Gen.Kernel.Skeleton
import proofs.«404458_j53163105190632_2_alg».proof.Proof.Gen.Kernel.Points
import proofs.«404458_j53163105190632_2_alg».proof.Proof.K.R2
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-- This region runs the same kernel as region 2. -/
theorem lin1_4 : @cc4__lin1_kernel F _ = @cc2__lin1_kernel F _ := rfl

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The region's proof data: the entry arrays; after each point the input blocks unchanged and each output block at the body's value of them. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out2_4 (iblk4 V c 0 t) (iblk4 V c 1 t) (iblk4 V c 2 t) (iblk4 V c 3 t)
    | ⟨5, _⟩ => out2_5 (iblk4 V c 0 t) (iblk4 V c 1 t) (iblk4 V c 2 t) (iblk4 V c 3 t)
    | ⟨6, _⟩ => out2_6 (iblk4 V c 0 t) (iblk4 V c 1 t) (iblk4 V c 2 t) (iblk4 V c 3 t)
  Φ _ := Pipeline.ΦA spec4 c
  q _ := fullShare
  owed _ := 0

theorem A_eq4 (c : Dev nD) (w : Fin cfg4.W) : (dat4 V c).A w = V c (Pipeline.arrRef spec4 w) := by dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = out2_4 (iblk4 V c 0 t) (iblk4 V c 1 t) (iblk4 V c 2 t) (iblk4 V c 3 t) := by dsimp only [dat4]
theorem after4_5 (c : Dev nD) (t : Fin cfg4.N) : (dat4 V c).after 5 t = out2_5 (iblk4 V c 0 t) (iblk4 V c 1 t) (iblk4 V c 2 t) (iblk4 V c 3 t) := by dsimp only [dat4]
theorem after4_6 (c : Dev nD) (t : Fin cfg4.N) : (dat4 V c).after 6 t = out2_6 (iblk4 V c 0 t) (iblk4 V c 1 t) (iblk4 V c 2 t) (iblk4 V c 3 t) := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun _ => rfl) t d).trans rfl
theorem before4_1 (c : Dev nD) (t : Fin cfg4.N) (d) : (dat4 V c).before 1 t d = iblk4 V c 1 t :=
  ((dat4 V c).before_in_eq_fetched 1 rfl (fun _ => rfl) (fun _ _ _ => rfl) (fun _ => rfl) t d).trans rfl
theorem before4_2 (c : Dev nD) (t : Fin cfg4.N) (d) : (dat4 V c).before 2 t d = iblk4 V c 2 t :=
  ((dat4 V c).before_in_eq_fetched 2 rfl (fun _ => rfl) (fun _ _ _ => rfl) (fun _ => rfl) t d).trans rfl
theorem before4_3 (c : Dev nD) (t : Fin cfg4.N) (d) : (dat4 V c).before 3 t d = iblk4 V c 3 t :=
  ((dat4 V c).before_in_eq_fetched 3 rfl (fun _ => rfl) (fun _ _ _ => rfl) (fun _ => rfl) t d).trans rfl

set_option maxHeartbeats 1000000 in
/-- At every grid point the body is the kernel at that point's input blocks; the invariant passes through untouched. -/
theorem body_obligation4 (c : Dev nD) : BodyObligation (dat4 (F := F) V c) (defs₀ (F := F)) Variants.none () Set.univ := fun t => by
  rw [bigSep_W4, bigSep_W4]
  show _ ⊢ wp frame (wpE (defs₀ (F := F)) Variants.none c none) Set.univ (bodyAt4 t) _
  simp only [before4_0, before4_1, before4_2, before4_3]
  rw [show (dat4 V c).Φ t.succ = (dat4 V c).Φ t.castSucc from rfl,
    show (dat4 V c).owesAt () t.succ = (dat4 V c).owesAt () t.castSucc from rfl, after4_0, after4_1, after4_2, after4_3, after4_4, after4_5, after4_6]
  iintro ⟨HΦ, Ho, ⟨%d0, H0⟩, ⟨%d1, H1⟩, ⟨%d2, H2⟩, ⟨%d3, H3⟩, ⟨%d4, H4⟩, ⟨%d5, H5⟩, ⟨%d6, H6⟩⟩
  unfold bodyAt4; rw [lin1_4]
  iapply (sound_kernel2 c Set.univ _ _ _ _ _ _ _ _ _ _ _ _ _ _ _ (iblk4 V c 0 t) (iblk4 V c 1 t) (iblk4 V c 2 t) (iblk4 V c 3 t) _)
  iframe H0 H1 H2 H3
  isplitl [H4]; · iexists _; iexact H4
  isplitl [H5]; · iexists _; iexact H5
  isplitl [H6]; · iexists _; iexact H6
  iintro ⟨H0, H1, H2, H3, H4, H5, H6⟩
  iframe HΦ Ho H0 H1 H2 H3 H4 H5 H6

end Cert.Kernel.Hand

end
-- ==== Proof.K.R5.lean ====
import proofs.«404458_j53163105190632_2_alg».proof.Proof.Gen.Kernel.Launch
import proofs.«404458_j53163105190632_2_alg».proof.Proof.Gen.Kernel.Skeleton
import proofs.«404458_j53163105190632_2_alg».proof.Proof.Gen.Kernel.Points
import proofs.«404458_j53163105190632_2_alg».proof.Proof.K.R1
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-- This region runs the same kernel as region 1. -/
theorem lin2_5 : @cc5__lin2_kernel F _ = @cc1__lin2_kernel F _ := rfl

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The region's proof data: the entry arrays; after each point the input blocks unchanged and the output block at the body's value of them. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out1_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by dsimp only [dat5]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) :
    (dat5 V c).after 5 t = out1_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl) (fun _ => rfl) t d).trans rfl
theorem before5_1 (c : Dev nD) (t : Fin cfg5.N) (d) : (dat5 V c).before 1 t d = iblk5 V c 1 t :=
  ((dat5 V c).before_in_eq_fetched 1 rfl (fun _ => rfl) (fun _ _ _ => rfl) (fun _ => rfl) t d).trans rfl
theorem before5_2 (c : Dev nD) (t : Fin cfg5.N) (d) : (dat5 V c).before 2 t d = iblk5 V c 2 t :=
  ((dat5 V c).before_in_eq_fetched 2 rfl (fun _ => rfl) (fun _ _ _ => rfl) (fun _ => rfl) t d).trans rfl
theorem before5_3 (c : Dev nD) (t : Fin cfg5.N) (d) : (dat5 V c).before 3 t d = iblk5 V c 3 t :=
  ((dat5 V c).before_in_eq_fetched 3 rfl (fun _ => rfl) (fun _ _ _ => rfl) (fun _ => rfl) t d).trans rfl
theorem before5_4 (c : Dev nD) (t : Fin cfg5.N) (d) : (dat5 V c).before 4 t d = iblk5 V c 4 t :=
  ((dat5 V c).before_in_eq_fetched 4 rfl (fun _ => rfl) (fun _ _ _ => rfl) (fun _ => rfl) t d).trans rfl

set_option maxHeartbeats 1000000 in
/-- At every grid point the body is the kernel at that point's input blocks; the invariant passes through untouched. -/
theorem body_obligation5 (c : Dev nD) : BodyObligation (dat5 (F := F) V c) (defs₀ (F := F)) Variants.none () Set.univ := fun t => by
  rw [bigSep_W5, bigSep_W5]
  show _ ⊢ wp frame (wpE (defs₀ (F := F)) Variants.none c none) Set.univ (bodyAt5 t) _
  simp only [before5_0, before5_1, before5_2, before5_3, before5_4]
  rw [show (dat5 V c).Φ t.succ = (dat5 V c).Φ t.castSucc from rfl,
    show (dat5 V c).owesAt () t.succ = (dat5 V c).owesAt () t.castSucc from rfl, after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  unfold bodyAt5; rw [lin2_5]
  iapply (sound_kernel1 c Set.univ _ _ _ _ _ _ _ _ _ _ _ _ _
    (iblk5 V c 0 t) (iblk5 V c 1 t) (iblk5 V c 2 t) (iblk5 V c 3 t) (iblk5 V c 4 t) _)
  iframe H0 H1 H2 H3 H4
  isplitl [H5]; · iexists _; iexact H5
  iintro ⟨H0, H1, H2, H3, H4, H5⟩
  iframe HΦ Ho H0 H1 H2 H3 H4 H5

end Cert.Kernel.Hand

end
-- ==== Proof.K.R6.lean ====
import proofs.«404458_j53163105190632_2_alg».proof.Proof.Gen.Kernel.Launch
import proofs.«404458_j53163105190632_2_alg».proof.Proof.Gen.Kernel.Skeleton
import proofs.«404458_j53163105190632_2_alg».proof.Proof.Gen.Kernel.Points
import proofs.«404458_j53163105190632_2_alg».proof.Proof.K.R2
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-- This region runs the same kernel as region 2. -/
theorem lin1_6 : @cc6__lin1_kernel F _ = @cc2__lin1_kernel F _ := rfl

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The region's proof data: the entry arrays; after each point the input blocks unchanged and each output block at the body's value of them. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => out2_4 (iblk6 V c 0 t) (iblk6 V c 1 t) (iblk6 V c 2 t) (iblk6 V c 3 t)
    | ⟨5, _⟩ => out2_5 (iblk6 V c 0 t) (iblk6 V c 1 t) (iblk6 V c 2 t) (iblk6 V c 3 t)
    | ⟨6, _⟩ => out2_6 (iblk6 V c 0 t) (iblk6 V c 1 t) (iblk6 V c 2 t) (iblk6 V c 3 t)
  Φ _ := Pipeline.ΦA spec6 c
  q _ := fullShare
  owed _ := 0

theorem A_eq6 (c : Dev nD) (w : Fin cfg6.W) : (dat6 V c).A w = V c (Pipeline.arrRef spec6 w) := by dsimp only [dat6]
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = out2_4 (iblk6 V c 0 t) (iblk6 V c 1 t) (iblk6 V c 2 t) (iblk6 V c 3 t) := by dsimp only [dat6]
theorem after6_5 (c : Dev nD) (t : Fin cfg6.N) : (dat6 V c).after 5 t = out2_5 (iblk6 V c 0 t) (iblk6 V c 1 t) (iblk6 V c 2 t) (iblk6 V c 3 t) := by dsimp only [dat6]
theorem after6_6 (c : Dev nD) (t : Fin cfg6.N) : (dat6 V c).after 6 t = out2_6 (iblk6 V c 0 t) (iblk6 V c 1 t) (iblk6 V c 2 t) (iblk6 V c 3 t) := by dsimp only [dat6]

theorem before6_0 (c : Dev nD) (t : Fin cfg6.N) (d) : (dat6 V c).before 0 t d = iblk6 V c 0 t :=
  ((dat6 V c).before_in_eq_fetched 0 rfl (fun _ => rfl) (fun _ _ _ => rfl) (fun _ => rfl) t d).trans rfl
theorem before6_1 (c : Dev nD) (t : Fin cfg6.N) (d) : (dat6 V c).before 1 t d = iblk6 V c 1 t :=
  ((dat6 V c).before_in_eq_fetched 1 rfl (fun _ => rfl) (fun _ _ _ => rfl) (fun _ => rfl) t d).trans rfl
theorem before6_2 (c : Dev nD) (t : Fin cfg6.N) (d) : (dat6 V c).before 2 t d = iblk6 V c 2 t :=
  ((dat6 V c).before_in_eq_fetched 2 rfl (fun _ => rfl) (fun _ _ _ => rfl) (fun _ => rfl) t d).trans rfl
theorem before6_3 (c : Dev nD) (t : Fin cfg6.N) (d) : (dat6 V c).before 3 t d = iblk6 V c 3 t :=
  ((dat6 V c).before_in_eq_fetched 3 rfl (fun _ => rfl) (fun _ _ _ => rfl) (fun _ => rfl) t d).trans rfl

set_option maxHeartbeats 1000000 in
/-- At every grid point the body is the kernel at that point's input blocks; the invariant passes through untouched. -/
theorem body_obligation6 (c : Dev nD) : BodyObligation (dat6 (F := F) V c) (defs₀ (F := F)) Variants.none () Set.univ := fun t => by
  rw [bigSep_W6, bigSep_W6]
  show _ ⊢ wp frame (wpE (defs₀ (F := F)) Variants.none c none) Set.univ (bodyAt6 t) _
  simp only [before6_0, before6_1, before6_2, before6_3]
  rw [show (dat6 V c).Φ t.succ = (dat6 V c).Φ t.castSucc from rfl,
    show (dat6 V c).owesAt () t.succ = (dat6 V c).owesAt () t.castSucc from rfl, after6_0, after6_1, after6_2, after6_3, after6_4, after6_5, after6_6]
  iintro ⟨HΦ, Ho, ⟨%d0, H0⟩, ⟨%d1, H1⟩, ⟨%d2, H2⟩, ⟨%d3, H3⟩, ⟨%d4, H4⟩, ⟨%d5, H5⟩, ⟨%d6, H6⟩⟩
  unfold bodyAt6; rw [lin1_6]
  iapply (sound_kernel2 c Set.univ _ _ _ _ _ _ _ _ _ _ _ _ _ _ _ (iblk6 V c 0 t) (iblk6 V c 1 t) (iblk6 V c 2 t) (iblk6 V c 3 t) _)
  iframe H0 H1 H2 H3
  isplitl [H4]; · iexists _; iexact H4
  isplitl [H5]; · iexists _; iexact H5
  isplitl [H6]; · iexists _; iexact H6
  iintro ⟨H0, H1, H2, H3, H4, H5, H6⟩
  iframe HΦ Ho H0 H1 H2 H3 H4 H5 H6

end Cert.Kernel.Hand

end
-- ==== Proof.K.R7.lean ====
import proofs.«404458_j53163105190632_2_alg».proof.Proof.Gen.Kernel.Launch
import proofs.«404458_j53163105190632_2_alg».proof.Proof.Gen.Kernel.Skeleton
import proofs.«404458_j53163105190632_2_alg».proof.Proof.Gen.Kernel.Points
import proofs.«404458_j53163105190632_2_alg».proof.Proof.K.R1
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-- This region runs the same kernel as region 1. -/
theorem lin2_7 : @cc7__lin2_kernel F _ = @cc1__lin2_kernel F _ := rfl

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The region's proof data: the entry arrays; after each point the input blocks unchanged and the output block at the body's value of them. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out1_5 (iblk7 V c 0 t) (iblk7 V c 1 t) (iblk7 V c 2 t) (iblk7 V c 3 t) (iblk7 V c 4 t)
  Φ _ := Pipeline.ΦA spec7 c
  q _ := fullShare
  owed _ := 0

theorem A_eq7 (c : Dev nD) (w : Fin cfg7.W) : (dat7 V c).A w = V c (Pipeline.arrRef spec7 w) := by dsimp only [dat7]
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) :
    (dat7 V c).after 5 t = out1_5 (iblk7 V c 0 t) (iblk7 V c 1 t) (iblk7 V c 2 t) (iblk7 V c 3 t) (iblk7 V c 4 t) := by dsimp only [dat7]

theorem before7_0 (c : Dev nD) (t : Fin cfg7.N) (d) : (dat7 V c).before 0 t d = iblk7 V c 0 t :=
  ((dat7 V c).before_in_eq_fetched 0 rfl (fun _ => rfl) (fun _ _ _ => rfl) (fun _ => rfl) t d).trans rfl
theorem before7_1 (c : Dev nD) (t : Fin cfg7.N) (d) : (dat7 V c).before 1 t d = iblk7 V c 1 t :=
  ((dat7 V c).before_in_eq_fetched 1 rfl (fun _ => rfl) (fun _ _ _ => rfl) (fun _ => rfl) t d).trans rfl
theorem before7_2 (c : Dev nD) (t : Fin cfg7.N) (d) : (dat7 V c).before 2 t d = iblk7 V c 2 t :=
  ((dat7 V c).before_in_eq_fetched 2 rfl (fun _ => rfl) (fun _ _ _ => rfl) (fun _ => rfl) t d).trans rfl
theorem before7_3 (c : Dev nD) (t : Fin cfg7.N) (d) : (dat7 V c).before 3 t d = iblk7 V c 3 t :=
  ((dat7 V c).before_in_eq_fetched 3 rfl (fun _ => rfl) (fun _ _ _ => rfl) (fun _ => rfl) t d).trans rfl
theorem before7_4 (c : Dev nD) (t : Fin cfg7.N) (d) : (dat7 V c).before 4 t d = iblk7 V c 4 t :=
  ((dat7 V c).before_in_eq_fetched 4 rfl (fun _ => rfl) (fun _ _ _ => rfl) (fun _ => rfl) t d).trans rfl

set_option maxHeartbeats 1000000 in
/-- At every grid point the body is the kernel at that point's input blocks; the invariant passes through untouched. -/
theorem body_obligation7 (c : Dev nD) : BodyObligation (dat7 (F := F) V c) (defs₀ (F := F)) Variants.none () Set.univ := fun t => by
  rw [bigSep_W7, bigSep_W7]
  show _ ⊢ wp frame (wpE (defs₀ (F := F)) Variants.none c none) Set.univ (bodyAt7 t) _
  simp only [before7_0, before7_1, before7_2, before7_3, before7_4]
  rw [show (dat7 V c).Φ t.succ = (dat7 V c).Φ t.castSucc from rfl,
    show (dat7 V c).owesAt () t.succ = (dat7 V c).owesAt () t.castSucc from rfl, after7_0, after7_1, after7_2, after7_3, after7_4, after7_5]
  iintro ⟨HΦ, Ho, ⟨%d0, H0⟩, ⟨%d1, H1⟩, ⟨%d2, H2⟩, ⟨%d3, H3⟩, ⟨%d4, H4⟩, ⟨%d5, H5⟩⟩
  unfold bodyAt7; rw [lin2_7]
  iapply (sound_kernel1 c Set.univ _ _ _ _ _ _ _ _ _ _ _ _ _
    (iblk7 V c 0 t) (iblk7 V c 1 t) (iblk7 V c 2 t) (iblk7 V c 3 t) (iblk7 V c 4 t) _)
  iframe H0 H1 H2 H3 H4
  isplitl [H5]; · iexists _; iexact H5
  iintro ⟨H0, H1, H2, H3, H4, H5⟩
  iframe HΦ Ho H0 H1 H2 H3 H4 H5

end Cert.Kernel.Hand

end
-- ==== Proof.K.R8a.lean ====
import proofs.«404458_j53163105190632_2_alg».proof.Proof.Gen.Kernel.Launch
import proofs.«404458_j53163105190632_2_alg».proof.Proof.Gen.Kernel.Skeleton
import proofs.«404458_j53163105190632_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond8_1 (i : grid8.Coords) : Prop := (Scalar.cmpi .ne (Scalar.extui (Scalar.cmpi .eq (BitVec.ofNat 32 (i 0).val) 0#32)) 0#32) = 1#1
abbrev cond8_2 (i : grid8.Coords) : Prop := k8_cond2 i = 1#1

theorem zeros2 : (![0, 0] : Fin 2 → Nat) = fun _ => 0 := by funext a; fin_cases a <;> rfl

theorem readAt_full {sp : Space} {S : Shape} {e : EltTy} (v : View sig .tc sp S e) (f : v.ty.Contents (Elt F))
    {off : Fin S.rank → Nat} (h : off = fun _ => 0) (inb : ∀ a, off a + S.size a ≤ S.size a) :
    v.readAt (Elt F) (Rect.unit off S.size inb).toLoadRect f = v.read (Elt F) f :=
  View.ld_unit_zero h inb _

theorem read_writes_full {sp : Space} {S : Shape} {e : EltTy} (v : View sig .tc sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w :=
  (View.read_writes_eq_canon v f (⟨Rect.unit off S.size inb, w⟩ :: L)
    (fun y => ⟨⟨Rect.unit off S.size inb, w⟩, List.mem_cons_self, View.mem_set_unit_zero (S := S) h inb y⟩)).trans
    (View.canon_cons_unit_zero h inb w L)

variable (c : Dev nD) (E : Set ℕ) (i : grid8.Coords)
    (arg1 : Memref sig .tc .vmem S12800x128 .f32) (harg1 : arg1.IsWhole) (arg2 : Memref sig .tc .vmem S1x12800 .i32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x32 .f32) (harg5 : arg5.IsWhole) (arg6 : Memref sig .tc .vmem S1x32 .f32) (harg6 : arg6.IsWhole)
    (arg7 : Memref sig .tc .vmem S128x32 .f32) (harg7 : arg7.IsWhole) (arg8 : Memref sig .tc .vmem S128x128 .f32) (harg8 : arg8.IsWhole)

set_option maxHeartbeats 1000000 in
theorem sound_first8 (hc1 : cond8_1 i) (hc2 : ¬cond8_2 i)
    (x0 : Vec F S12800x128 .f32) (x1 : Vec F S1x12800 .i32) (K : PUnit → sProp 𝕄) :
    iprop(owns (c : Thread nD τ) arg1 fullShare x0 ∗ owns (c : Thread nD τ) arg2 fullShare x1 ∗ (∃ a, owns (c : Thread nD τ) arg8 fullShare a)
        ∗ (iprop(owns (c : Thread nD τ) arg1 fullShare x0 ∗ owns (c : Thread nD τ) arg2 fullShare x1
            ∗ owns (c : Thread nD τ) arg8 fullShare (k8_pay2 x1 x0 (k8_pay1 (F := F)))) -∗ K ⟨⟩))
      ⊢ wp frame (wpE (defs₀ (F := F)) Variants.none c none) E (cc8__pool_mlp_kernel i arg1 harg1 arg2 harg2 arg3 harg3 arg4 harg4 arg5 harg5 arg6 harg6 arg7 harg7 arg8 harg8) K := by
  simp only [cc8__pool_mlp_kernel_eq_skeleton]; unfold cc8__pool_mlp_kernel_skel
  unfold owns
  iintro ⟨⟨%f1, %hf1, H1⟩, ⟨%f2, %hf2, H2⟩, ⟨%a, %f8, -, H8⟩, Hk⟩
  subst hf1; subst hf2
  sl_exec (disch := first | exact hc1 | exact hc2)
  sl_step
  iapply Hk
  isplitl [H1]
  · iexists f1; isplitr; · ipureintro; rfl
    iexact H1
  isplitl [H2]
  · iexists f2; isplitr; · ipureintro; rfl
    iexact H2
  iexists _; isplitr
  swap; · iexact H8
  ipureintro
  sl_unfold_words
  rw [read_writes_full (S := S128x128) _ _ zeros2, readAt_full (S := S1x12800) _ _ zeros2, readAt_full (S := S12800x128) _ _ zeros2,
    View.readCov_unit_zero (S := S128x128) _ zeros2]

set_option maxHeartbeats 1000000 in
theorem sound_mid8 (hc1 : ¬cond8_1 i) (hc2 : ¬cond8_2 i)
    (x0 : Vec F S12800x128 .f32) (x1 : Vec F S1x12800 .i32) (a : Vec F S128x128 .f32) (K : PUnit → sProp 𝕄) :
    iprop(owns (c : Thread nD τ) arg1 fullShare x0 ∗ owns (c : Thread nD τ) arg2 fullShare x1 ∗ owns (c : Thread nD τ) arg8 fullShare a
        ∗ (iprop(owns (c : Thread nD τ) arg1 fullShare x0 ∗ owns (c : Thread nD τ) arg2 fullShare x1
            ∗ owns (c : Thread nD τ) arg8 fullShare (k8_pay2 x1 x0 a)) -∗ K ⟨⟩))
      ⊢ wp frame (wpE (defs₀ (F := F)) Variants.none c none) E (cc8__pool_mlp_kernel i arg1 harg1 arg2 harg2 arg3 harg3 arg4 harg4 arg5 harg5 arg6 harg6 arg7 harg7 arg8 harg8) K := by
  simp only [cc8__pool_mlp_kernel_eq_skeleton]; unfold cc8__pool_mlp_kernel_skel
  unfold owns
  iintro ⟨⟨%f1, %hf1, H1⟩, ⟨%f2, %hf2, H2⟩, ⟨%f8, %hf8, H8⟩, Hk⟩
  subst hf1; subst hf2; subst hf8
  sl_exec (disch := first | exact hc1 | exact hc2)
  sl_step
  iapply Hk
  isplitl [H1]
  · iexists f1; isplitr; · ipureintro; rfl
    iexact H1
  isplitl [H2]
  · iexists f2; isplitr; · ipureintro; rfl
    iexact H2
  iexists _; isplitr
  swap; · iexact H8
  ipureintro
  rw [read_writes_full (S := S128x128) _ _ zeros2, readAt_full (S := S1x12800) _ _ zeros2, readAt_full (S := S12800x128) _ _ zeros2,
    readAt_full (S := S128x128) _ _ zeros2]

set_option maxHeartbeats 1000000 in
theorem sound_last8 (hc1 : ¬cond8_1 i) (hc2 : cond8_2 i)
    (x0 : Vec F S12800x128 .f32) (x1 : Vec F S1x12800 .i32) (x2 : Vec F S128x128 .f32) (x3 : Vec F S1x128 .f32)
    (x4 : Vec F S128x32 .f32) (x5 : Vec F S1x32 .f32) (a : Vec F S128x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d) ∗ owns (c : Thread nD τ) arg8 fullShare a
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (k8_pay3 (k8_pay2 x1 x0 a) x2 x3 x4 x5)
            ∗ owns (c : Thread nD τ) arg8 fullShare (k8_pay2 x1 x0 a)) -∗ K ⟨⟩))
      ⊢ wp frame (wpE (defs₀ (F := F)) Variants.none c none) E (cc8__pool_mlp_kernel i arg1 harg1 arg2 harg2 arg3 harg3 arg4 harg4 arg5 harg5 arg6 harg6 arg7 harg7 arg8 harg8) K := by
  simp only [cc8__pool_mlp_kernel_eq_skeleton]; unfold cc8__pool_mlp_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
  subst hf1; subst hf2; subst hf3; subst hf4; subst hf5; subst hf6; subst hf8
  sl_exec (disch := first | exact hc1 | exact hc2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    sl_unfold_words
    rw [read_writes_full (S := S128x32) _ _ zeros2, View.readCov_unit_zero (S := S128x128) _ zeros2,
      readAt_full (S := S1x12800) _ _ zeros2, readAt_full (S := S12800x128) _ _ zeros2,
      readAt_full (S := S128x128) arg8.view _ zeros2, readAt_full (S := S128x128) arg3.view _ zeros2,
      readAt_full (S := S1x128) _ _ zeros2, readAt_full (S := S128x32) _ _ zeros2, readAt_full (S := S1x32) _ _ zeros2]
  iexists _; isplitr
  swap; · iexact H8
  ipureintro
  sl_unfold_words
  rw [read_writes_full (S := S128x128) _ _ zeros2, readAt_full (S := S1x12800) _ _ zeros2, readAt_full (S := S12800x128) _ _ zeros2,
    readAt_full (S := S128x128) _ _ zeros2]

end Cert.Kernel.Hand

end
-- ==== Proof.K.R8b.lean ====
import proofs.«404458_j53163105190632_2_alg».proof.Proof.K.R8a

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hcond8_1 : ∀ t : Fin cfg8.N, cond8_1 (grid8.coords t) ↔ t.val = 0 := by decide +kernel
theorem hcond8_2 : ∀ t : Fin cfg8.N, cond8_2 (grid8.coords t) ↔ t.val = 7 := by decide +kernel
/-- No window but the output's is idle at any point. -/
theorem liveAt8 : ∀ w : Fin cfg8.W, w ≠ 6 → ∀ t : Fin cfg8.N, cfg8.idle w (grid8.coords t) = false := by decide +kernel
theorem idleAt8_6 : ∀ t : Fin cfg8.N, ¬cond8_2 (grid8.coords t) → idle8 6 (grid8.coords t) = true := by decide +kernel
theorem noFlush8_6 : ∀ t : Fin cfg8.N, ¬cond8_2 (grid8.coords t) → (cfg8.win 6).flush t = false := by decide +kernel
theorem liveAt8_6 : ∀ t : Fin cfg8.N, cond8_2 (grid8.coords t) → idle8 6 (grid8.coords t) = false := by decide +kernel

section Region8

variable (V : (c : Dev nD) → (b : Ref sig .tc) → Buf (Elt F) ((c : Thread nD τ).loc b))

noncomputable def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

noncomputable def acc8 (c : Dev nD) : ℕ → Vec F S128x128 .f32
  | 0 => k8_pay1
  | n + 1 => if h : n < cfg8.N then k8_pay2 (iblk8 V c 1 ⟨n, h⟩) (iblk8 V c 0 ⟨n, h⟩) (acc8 c n) else acc8 c n

theorem acc8_zero (c : Dev nD) : acc8 V c 0 = k8_pay1 (F := F) := rfl

theorem acc8_succ (c : Dev nD) (t : Fin cfg8.N) :
    acc8 V c (t.val + 1) = k8_pay2 (iblk8 V c 1 t) (iblk8 V c 0 t) (acc8 V c t.val) := by
  show (if h : t.val < cfg8.N then k8_pay2 (iblk8 V c 1 ⟨t.val, h⟩) (iblk8 V c 0 ⟨t.val, h⟩) (acc8 V c t.val) else acc8 V c t.val) = _
  rw [dif_pos t.isLt]

noncomputable def out8_6 (a : Vec F S128x128 .f32) (x2 : Vec F S128x128 .f32) (x3 : Vec F S1x128 .f32) (x4 : Vec F S128x32 .f32)
    (x5 : Vec F S1x32 .f32) : Vec F S128x32 .f32 :=
  k8_pay3 a x2 x3 x4 x5

theorem out8_6_eq (a : Vec F S128x128 .f32) (x2 : Vec F S128x128 .f32) (x3 : Vec F S1x128 .f32) (x4 : Vec F S128x32 .f32)
    (x5 : Vec F S1x32 .f32) : out8_6 a x2 x3 x4 x5 = k8_pay3 a x2 x3 x4 x5 := rfl

noncomputable abbrev scM8 : Memref sig .tc .vmem S128x128 .f32 := Memref.whole cc8_scratch0

noncomputable def Phi8 (c : Dev nD) (n : ℕ) : sProp 𝕄 :=
  iprop(iprop((∃ X : Vec F S128x128 .f32, ⌜0 < n → X = acc8 V c n⌝ ∗ owns (c : Thread nD τ) scM8 fullShare X))
    ∗ Pipeline.scopedRestBut (Ix := Unit) (Name := ℕ) (U := UR sig nD τ) (Lvl := ℕ) (Val := Elt F) spec8 c [cc8_scratch0]
    ∗ (∃ r, prngReg c r))

noncomputable def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => out8_6 (acc8 V c (t.val + 1)) (iblk8 V c 2 t) (iblk8 V c 3 t) (iblk8 V c 4 t) (iblk8 V c 5 t)
  Φ t := Phi8 V c t.val
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) :
    (dat8 V c).after 6 t = out8_6 (acc8 V c (t.val + 1)) (iblk8 V c 2 t) (iblk8 V c 3 t) (iblk8 V c 4 t) (iblk8 V c 5 t) := by
  dsimp only [dat8]

theorem Phi_eq8 (c : Dev nD) (t : Fin (cfg8.N + 1)) : (dat8 V c).Φ t = Phi8 V c t.val := by dsimp only [dat8]

theorem before8_0 (c : Dev nD) (t : Fin cfg8.N) (d) : (dat8 V c).before 0 t d = iblk8 V c 0 t :=
  ((dat8 V c).before_in_eq_fetched 0 rfl (fun _ => rfl) (fun _ _ _ => rfl) (fun _ => rfl) t d).trans rfl
theorem before8_1 (c : Dev nD) (t : Fin cfg8.N) (d) : (dat8 V c).before 1 t d = iblk8 V c 1 t :=
  ((dat8 V c).before_in_eq_fetched 1 rfl (fun _ => rfl) (fun _ _ _ => rfl) (fun _ => rfl) t d).trans rfl
theorem before8_2 (c : Dev nD) (t : Fin cfg8.N) (d) : (dat8 V c).before 2 t d = iblk8 V c 2 t :=
  ((dat8 V c).before_in_eq_fetched 2 rfl (fun _ => rfl) (fun _ _ _ => rfl) (fun _ => rfl) t d).trans rfl
theorem before8_3 (c : Dev nD) (t : Fin cfg8.N) (d) : (dat8 V c).before 3 t d = iblk8 V c 3 t :=
  ((dat8 V c).before_in_eq_fetched 3 rfl (fun _ => rfl) (fun _ _ _ => rfl) (fun _ => rfl) t d).trans rfl
theorem before8_4 (c : Dev nD) (t : Fin cfg8.N) (d) : (dat8 V c).before 4 t d = iblk8 V c 4 t :=
  ((dat8 V c).before_in_eq_fetched 4 rfl (fun _ => rfl) (fun _ _ _ => rfl) (fun _ => rfl) t d).trans rfl
theorem before8_5 (c : Dev nD) (t : Fin cfg8.N) (d) : (dat8 V c).before 5 t d = iblk8 V c 5 t :=
  ((dat8 V c).before_in_eq_fetched 5 rfl (fun _ => rfl) (fun _ _ _ => rfl) (fun _ => rfl) t d).trans rfl

theorem hin8 (c : Dev nD) :
    (iprop((∃ r, prngReg c r) ∗ Pipeline.scopedRest (Ix := Unit) (Name := ℕ) (U := UR sig nD τ) (Lvl := ℕ) (Val := Elt F) spec8 c) : sProp 𝕄)
      ⊢ (dat8 V c).Φ 0 := by
  rw [Phi_eq8, scopedRest8_split]
  unfold Phi8
  simp only [scM8, owns_whole]
  iintro ⟨Hg, ⟨%f, HS⟩, HR⟩
  iframe HR Hg
  iexists f; iframe HS
  ipureintro; exact fun h => absurd h (Nat.lt_irrefl 0)

theorem hout8 (c : Dev nD) :
    (dat8 V c).Φ (Fin.last cfg8.N)
      ⊢ (iprop((∃ r, prngReg c r) ∗ Pipeline.scopedRest (Ix := Unit) (Name := ℕ) (U := UR sig nD τ) (Lvl := ℕ) (Val := Elt F) spec8 c) : sProp 𝕄) := by
  rw [Phi_eq8, scopedRest8_split]
  unfold Phi8
  simp only [scM8, owns_whole]
  iintro ⟨⟨%X, -, HS⟩, HR, Hg⟩
  iframe HR Hg
  iexists X; iexact HS

end Region8

section Body8

variable (V : (c : Dev nD) → (b : Ref sig .tc) → Buf (Elt F) ((c : Thread nD τ).loc b))

set_option maxHeartbeats 4800000 in
/-- The body at a point is the kernel at the first, a middle or the last point: the accumulator goes in at the sums so far and comes back with this block's added; the output's buffer changes at the last point only. -/
theorem body_obligation8 (c : Dev nD) : BodyObligation (dat8 (F := F) V c) (defs₀ (F := F)) Variants.none () Set.univ := fun t => by
  rw [bigSep_W8, bigSep_W8]
  show _ ⊢ wp frame (wpE (defs₀ (F := F)) Variants.none c none) Set.univ (bodyAt8 t) _
  simp only [before8_0, before8_1, before8_2, before8_3, before8_4, before8_5, liveAt8 0 (by decide) t, liveAt8 1 (by decide) t,
    liveAt8 2 (by decide) t, liveAt8 3 (by decide) t, liveAt8 4 (by decide) t, liveAt8 5 (by decide) t, after8_0, after8_1, after8_2,
    after8_3, after8_4, after8_5]
  rw [show (dat8 V c).owesAt () t.succ = (dat8 V c).owesAt () t.castSucc from rfl, Phi_eq8, Phi_eq8]
  simp only [Fin.coe_castSucc, Fin.val_succ]
  unfold Phi8
  by_cases h0 : t.val = 0
  · have hc1 : cond8_1 (grid8.coords t) := (hcond8_1 t).mpr h0
    have hc2 : ¬cond8_2 (grid8.coords t) := fun h => by have := (hcond8_2 t).mp h; omega
    simp only [idleAt8_6 t hc2, noFlush8_6 t hc2]
    rw [acc8_succ V c t, show acc8 V c t.val = k8_pay1 (F := F) from by rw [h0]; rfl]
    iintro ⟨⟨⟨%X, -, HS⟩, HR, Hg⟩, Ho, ⟨%d0, H0⟩, ⟨%d1, H1⟩, ⟨%d2, H2⟩, ⟨%d3, H3⟩, ⟨%d4, H4⟩, ⟨%d5, H5⟩, H6⟩
    iapply (sound_first8 c Set.univ (grid8.coords t) _ _ _ _ _ _ _ _ _ _ _ _ _ _ _ _ hc1 hc2 (iblk8 V c 0 t) (iblk8 V c 1 t) _)
    iframe H0 H1
    isplitl [HS]; · iexists X; iexact HS
    iintro ⟨H0, H1, HS⟩
    iframe H0 H1 H2 H3 H4 H5 HR Hg Ho
    isplitl [HS]
    · iexists _; iframe HS
      ipureintro; intro _; rfl
    iexact H6
  · have hc1 : ¬cond8_1 (grid8.coords t) := fun h => h0 ((hcond8_1 t).mp h)
    by_cases h7 : t.val = 7
    · have hc2 : cond8_2 (grid8.coords t) := (hcond8_2 t).mpr h7
      simp only [liveAt8_6 t hc2, after8_6, out8_6_eq]
      rw [acc8_succ V c t]
      iintro ⟨⟨⟨%X, %hX, HS⟩, HR, Hg⟩, Ho, ⟨%d0, H0⟩, ⟨%d1, H1⟩, ⟨%d2, H2⟩, ⟨%d3, H3⟩, ⟨%d4, H4⟩, ⟨%d5, H5⟩, ⟨%d6, H6⟩⟩
      obtain rfl := hX (Nat.pos_of_ne_zero h0)
      iapply (sound_last8 c Set.univ (grid8.coords t) _ _ _ _ _ _ _ _ _ _ _ _ _ _ _ _ hc1 hc2 (iblk8 V c 0 t) (iblk8 V c 1 t)
        (iblk8 V c 2 t) (iblk8 V c 3 t) (iblk8 V c 4 t) (iblk8 V c 5 t) (acc8 V c t.val) _)
      iframe H0 H1 H2 H3 H4 H5 HS
      isplitl [H6]; · iexists _; iexact H6
      iintro ⟨H0, H1, H2, H3, H4, H5, H6, HS⟩
      iframe H0 H1 H2 H3 H4 H5 HR Hg Ho
      isplitl [HS]
      · iexists _; iframe HS
        ipureintro; intro _; rfl
      iexact H6
    · have hc2 : ¬cond8_2 (grid8.coords t) := fun h => h7 ((hcond8_2 t).mp h)
      simp only [idleAt8_6 t hc2, noFlush8_6 t hc2]
      rw [acc8_succ V c t]
      iintro ⟨⟨⟨%X, %hX, HS⟩, HR, Hg⟩, Ho, ⟨%d0, H0⟩, ⟨%d1, H1⟩, ⟨%d2, H2⟩, ⟨%d3, H3⟩, ⟨%d4, H4⟩, ⟨%d5, H5⟩, H6⟩
      obtain rfl := hX (Nat.pos_of_ne_zero h0)
      iapply (sound_mid8 c Set.univ (grid8.coords t) _ _ _ _ _ _ _ _ _ _ _ _ _ _ _ _ hc1 hc2 (iblk8 V c 0 t) (iblk8 V c 1 t)
        (acc8 V c t.val) _)
      iframe H0 H1 HS
      iintro ⟨H0, H1, HS⟩
      iframe H0 H1 H2 H3 H4 H5 HR Hg Ho
      isplitl [HS]
      · iexists _; iframe HS
        ipureintro; intro _; rfl
      iexact H6

end Body8

end Cert.Kernel.Hand

end
-- ==== Proof.K.R8.lean ====
import proofs.«404458_j53163105190632_2_alg».proof.Proof.K.R8b
-- ==== Proof.K.RunW.lean ====
import proofs.«404458_j53163105190632_2_alg».proof.Proof.K.RunCond
import proofs.«404458_j53163105190632_2_alg».proof.Proof.K.R0
import proofs.«404458_j53163105190632_2_alg».proof.Proof.K.R1
import proofs.«404458_j53163105190632_2_alg».proof.Proof.K.R2
import proofs.«404458_j53163105190632_2_alg».proof.Proof.K.R3
import proofs.«404458_j53163105190632_2_alg».proof.Proof.K.R4
import proofs.«404458_j53163105190632_2_alg».proof.Proof.K.R5
import proofs.«404458_j53163105190632_2_alg».proof.Proof.K.R6
import proofs.«404458_j53163105190632_2_alg».proof.Proof.K.R7
import proofs.«404458_j53163105190632_2_alg».proof.Proof.K.R8

set_option maxRecDepth 16384

noncomputable section

namespace Cert.Kernel.Hand

open Cert.Kernel Cert.Kernel.Gen
open Idealize.ShloMosaic Idealize.ShloMosaic.TcCoe

variable {F : FTy → Type} [FloatOps F]

variable (m : (ℓ : Loc nD τ sig) → Buf (Elt F) ℓ)

def W0 (c : Dev nD) : Valuation τ sig (Elt F) := fun b => m (c, b)
def W1 (c : Dev nD) : Valuation τ sig (Elt F) := StableHlo.after hostOps0 (W0 m c)
abbrev Vr1 : (c : Dev nD) → (b : Ref sig .tc) → Buf (Elt F) ((c : Thread nD τ).loc b) := fun c b => W1 m c b
def o2 (c : Dev nD) : Valuation τ sig (Elt F) := Pipeline.withArrays spec0 c (W1 m c) fun w => (dat0 (Vr1 m) c).arrAt w cfg0.N
def W2 (c : Dev nD) : Valuation τ sig (Elt F) := Function.update (Function.update (Function.update (W1 m c) main_v19_0 (o2 m c main_v19_0)) main_v19_1 (o2 m c main_v19_1)) main_v19_2 (o2 m c main_v19_2)
def W3 (c : Dev nD) : Valuation τ sig (Elt F) := StableHlo.after hostOps1 (W2 m c)
abbrev Vr3 : (c : Dev nD) → (b : Ref sig .tc) → Buf (Elt F) ((c : Thread nD τ).loc b) := fun c b => W3 m c b
def o4 (c : Dev nD) : Valuation τ sig (Elt F) := Pipeline.withArrays spec1 c (W3 m c) fun w => (dat1 (Vr3 m) c).arrAt w cfg1.N
def W4 (c : Dev nD) : Valuation τ sig (Elt F) := Function.update (W3 m c) main_v49 (o4 m c main_v49)
def W5 (c : Dev nD) : Valuation τ sig (Elt F) := StableHlo.after hostOps2 (W4 m c)
abbrev Vr5 : (c : Dev nD) → (b : Ref sig .tc) → Buf (Elt F) ((c : Thread nD τ).loc b) := fun c b => W5 m c b
def o6 (c : Dev nD) : Valuation τ sig (Elt F) := Pipeline.withArrays spec2 c (W5 m c) fun w => (dat2 (Vr5 m) c).arrAt w cfg2.N
def W6 (c : Dev nD) : Valuation τ sig (Elt F) := Function.update (Function.update (Function.update (W5 m c) main_v65_0 (o6 m c main_v65_0)) main_v65_1 (o6 m c main_v65_1)) main_v65_2 (o6 m c main_v65_2)
def W7 (c : Dev nD) : Valuation τ sig (Elt F) := StableHlo.after hostOps3 (W6 m c)
abbrev Vr7 : (c : Dev nD) → (b : Ref sig .tc) → Buf (Elt F) ((c : Thread nD τ).loc b) := fun c b => W7 m c b
def o8 (c : Dev nD) : Valuation τ sig (Elt F) := Pipeline.withArrays spec3 c (W7 m c) fun w => (dat3 (Vr7 m) c).arrAt w cfg3.N
def W8 (c : Dev nD) : Valuation τ sig (Elt F) := Function.update (W7 m c) main_v95 (o8 m c main_v95)
def W9 (c : Dev nD) : Valuation τ sig (Elt F) := StableHlo.after hostOps4 (W8 m c)
abbrev Vr9 : (c : Dev nD) → (b : Ref sig .tc) → Buf (Elt F) ((c : Thread nD τ).loc b) := fun c b => W9 m c b
def o10 (c : Dev nD) : Valuation τ sig (Elt F) := Pipeline.withArrays spec4 c (W9 m c) fun w => (dat4 (Vr9 m) c).arrAt w cfg4.N
def W10 (c : Dev nD) : Valuation τ sig (Elt F) := Function.update (Function.update (Function.update (W9 m c) main_v111_0 (o10 m c main_v111_0)) main_v111_1 (o10 m c main_v111_1)) main_v111_2 (o10 m c main_v111_2)
def W11 (c : Dev nD) : Valuation τ sig (Elt F) := StableHlo.after hostOps5 (W10 m c)
abbrev Vr11 : (c : Dev nD) → (b : Ref sig .tc) → Buf (Elt F) ((c : Thread nD τ).loc b) := fun c b => W11 m c b
def o12 (c : Dev nD) : Valuation τ sig (Elt F) := Pipeline.withArrays spec5 c (W11 m c) fun w => (dat5 (Vr11 m) c).arrAt w cfg5.N
def W12 (c : Dev nD) : Valuation τ sig (Elt F) := Function.update (W11 m c) main_v141 (o12 m c main_v141)
def W13 (c : Dev nD) : Valuation τ sig (Elt F) := StableHlo.after hostOps6 (W12 m c)
abbrev Vr13 : (c : Dev nD) → (b : Ref sig .tc) → Buf (Elt F) ((c : Thread nD τ).loc b) := fun c b => W13 m c b
def o14 (c : Dev nD) : Valuation τ sig (Elt F) := Pipeline.withArrays spec6 c (W13 m c) fun w => (dat6 (Vr13 m) c).arrAt w cfg6.N
def W14 (c : Dev nD) : Valuation τ sig (Elt F) := Function.update (Function.update (Function.update (W13 m c) main_v157_0 (o14 m c main_v157_0)) main_v157_1 (o14 m c main_v157_1)) main_v157_2 (o14 m c main_v157_2)
def W15 (c : Dev nD) : Valuation τ sig (Elt F) := StableHlo.after hostOps7 (W14 m c)
abbrev Vr15 : (c : Dev nD) → (b : Ref sig .tc) → Buf (Elt F) ((c : Thread nD τ).loc b) := fun c b => W15 m c b
def o16 (c : Dev nD) : Valuation τ sig (Elt F) := Pipeline.withArrays spec7 c (W15 m c) fun w => (dat7 (Vr15 m) c).arrAt w cfg7.N
def W16 (c : Dev nD) : Valuation τ sig (Elt F) := Function.update (W15 m c) main_v187 (o16 m c main_v187)
def W17 (c : Dev nD) : Valuation τ sig (Elt F) := StableHlo.after hostOps8 (W16 m c)
def W18 (c : Dev nD) : Valuation τ sig (Elt F) := StableHlo.after hostOps8_1 (W17 m c)
def W19 (c : Dev nD) : Valuation τ sig (Elt F) := StableHlo.after hostOps8_2 (W18 m c)
def W20 (c : Dev nD) : Valuation τ sig (Elt F) := StableHlo.after hostOps8_3 (W19 m c)
def W21 (c : Dev nD) : Valuation τ sig (Elt F) := StableHlo.after hostOps8_4 (W20 m c)
abbrev Vr21 : (c : Dev nD) → (b : Ref sig .tc) → Buf (Elt F) ((c : Thread nD τ).loc b) := fun c b => W21 m c b
def o22 (c : Dev nD) : Valuation τ sig (Elt F) := Pipeline.withArrays spec8 c (W21 m c) fun w => (dat8 (Vr21 m) c).arrAt w cfg8.N
def W22 (c : Dev nD) : Valuation τ sig (Elt F) := Function.update (W21 m c) main_v193 (o22 m c main_v193)

abbrev Vr2 : (c : Dev nD) → (b : Ref sig .tc) → Buf (Elt F) ((c : Thread nD τ).loc b) := fun c b => W2 m c b
abbrev Vr4 : (c : Dev nD) → (b : Ref sig .tc) → Buf (Elt F) ((c : Thread nD τ).loc b) := fun c b => W4 m c b
abbrev Vr6 : (c : Dev nD) → (b : Ref sig .tc) → Buf (Elt F) ((c : Thread nD τ).loc b) := fun c b => W6 m c b
abbrev Vr8 : (c : Dev nD) → (b : Ref sig .tc) → Buf (Elt F) ((c : Thread nD τ).loc b) := fun c b => W8 m c b
abbrev Vr10 : (c : Dev nD) → (b : Ref sig .tc) → Buf (Elt F) ((c : Thread nD τ).loc b) := fun c b => W10 m c b
abbrev Vr12 : (c : Dev nD) → (b : Ref sig .tc) → Buf (Elt F) ((c : Thread nD τ).loc b) := fun c b => W12 m c b
abbrev Vr14 : (c : Dev nD) → (b : Ref sig .tc) → Buf (Elt F) ((c : Thread nD τ).loc b) := fun c b => W14 m c b
abbrev Vr16 : (c : Dev nD) → (b : Ref sig .tc) → Buf (Elt F) ((c : Thread nD τ).loc b) := fun c b => W16 m c b
abbrev Vr22x : (c : Dev nD) → (b : Ref sig .tc) → Buf (Elt F) ((c : Thread nD τ).loc b) := fun c b => W22 m c b

def outs : Outs (F := F) := fun J r c =>
  match J with
  | 2 => o2 m c r
  | 4 => o4 m c r
  | 6 => o6 m c r
  | 8 => o8 m c r
  | 10 => o10 m c r
  | 12 => o12 m c r
  | 14 => o14 m c r
  | 16 => o16 m c r
  | 22 => o22 m c r
  | _ => W0 m c r

theorem V1_eq (c : Dev nD) : V1 m c = W1 m c := rfl
theorem V2_eq (c : Dev nD) : V2 m (outs m) c = W2 m c := rfl
theorem V3_eq (c : Dev nD) : V3 m (outs m) c = W3 m c := rfl
theorem V4_eq (c : Dev nD) : V4 m (outs m) c = W4 m c := rfl
theorem V5_eq (c : Dev nD) : V5 m (outs m) c = W5 m c := rfl
theorem V6_eq (c : Dev nD) : V6 m (outs m) c = W6 m c := rfl
theorem V7_eq (c : Dev nD) : V7 m (outs m) c = W7 m c := rfl
theorem V8_eq (c : Dev nD) : V8 m (outs m) c = W8 m c := rfl
theorem V9_eq (c : Dev nD) : V9 m (outs m) c = W9 m c := rfl
theorem V10_eq (c : Dev nD) : V10 m (outs m) c = W10 m c := rfl
theorem V11_eq (c : Dev nD) : V11 m (outs m) c = W11 m c := rfl
theorem V12_eq (c : Dev nD) : V12 m (outs m) c = W12 m c := rfl
theorem V13_eq (c : Dev nD) : V13 m (outs m) c = W13 m c := rfl
theorem V14_eq (c : Dev nD) : V14 m (outs m) c = W14 m c := rfl
theorem V15_eq (c : Dev nD) : V15 m (outs m) c = W15 m c := rfl
theorem V16_eq (c : Dev nD) : V16 m (outs m) c = W16 m c := rfl
theorem V21_eq (c : Dev nD) : V21 m (outs m) c = W21 m c := rfl
theorem V22_eq (c : Dev nD) : V22 m (outs m) c = W22 m c := rfl

/-- A write to one buffer leaves every other buffer as it was. -/
private theorem upd_ne {r s : Ref sig .tc} (h : r ≠ s) (V : Valuation τ sig (Elt F)) (x) : Function.update V s x r = V r :=
  Function.update_of_ne (StableHlo.devRef_ne_of_ne h) ..

theorem o2_arr (c : Dev nD) (w : Fin cfg0.W) : o2 m c (Proc.devRef .tc (Pipeline.arrRef spec0 w)) = (dat0 (Vr1 m) c).arrAt w cfg0.N :=
  Pipeline.withArrays_arr spec0 launch0.win.arr_inj c _ _ w
theorem W2_main_v19_0 (c : Dev nD) : W2 m c main_v19_0 = (dat0 (Vr1 m) c).arrAt 4 cfg0.N :=
  (upd_ne (by decide) _ _).trans <| (upd_ne (by decide) _ _).trans <| (Function.update_self ..).trans (o2_arr m c 4)
theorem W2_main_v19_1 (c : Dev nD) : W2 m c main_v19_1 = (dat0 (Vr1 m) c).arrAt 5 cfg0.N :=
  (upd_ne (by decide) _ _).trans <| (Function.update_self ..).trans (o2_arr m c 5)
theorem W2_main_v19_2 (c : Dev nD) : W2 m c main_v19_2 = (dat0 (Vr1 m) c).arrAt 6 cfg0.N :=
  (Function.update_self ..).trans (o2_arr m c 6)
theorem o4_arr (c : Dev nD) (w : Fin cfg1.W) : o4 m c (Proc.devRef .tc (Pipeline.arrRef spec1 w)) = (dat1 (Vr3 m) c).arrAt w cfg1.N :=
  Pipeline.withArrays_arr spec1 launch1.win.arr_inj c _ _ w
theorem W4_main_v49 (c : Dev nD) : W4 m c main_v49 = (dat1 (Vr3 m) c).arrAt 5 cfg1.N :=
  (Function.update_self ..).trans (o4_arr m c 5)
theorem o6_arr (c : Dev nD) (w : Fin cfg2.W) : o6 m c (Proc.devRef .tc (Pipeline.arrRef spec2 w)) = (dat2 (Vr5 m) c).arrAt w cfg2.N :=
  Pipeline.withArrays_arr spec2 launch2.win.arr_inj c _ _ w
theorem W6_main_v65_0 (c : Dev nD) : W6 m c main_v65_0 = (dat2 (Vr5 m) c).arrAt 4 cfg2.N :=
  (upd_ne (by decide) _ _).trans <| (upd_ne (by decide) _ _).trans <| (Function.update_self ..).trans (o6_arr m c 4)
theorem W6_main_v65_1 (c : Dev nD) : W6 m c main_v65_1 = (dat2 (Vr5 m) c).arrAt 5 cfg2.N :=
  (upd_ne (by decide) _ _).trans <| (Function.update_self ..).trans (o6_arr m c 5)
theorem W6_main_v65_2 (c : Dev nD) : W6 m c main_v65_2 = (dat2 (Vr5 m) c).arrAt 6 cfg2.N :=
  (Function.update_self ..).trans (o6_arr m c 6)
theorem o8_arr (c : Dev nD) (w : Fin cfg3.W) : o8 m c (Proc.devRef .tc (Pipeline.arrRef spec3 w)) = (dat3 (Vr7 m) c).arrAt w cfg3.N :=
  Pipeline.withArrays_arr spec3 launch3.win.arr_inj c _ _ w
theorem W8_main_v95 (c : Dev nD) : W8 m c main_v95 = (dat3 (Vr7 m) c).arrAt 5 cfg3.N :=
  (Function.update_self ..).trans (o8_arr m c 5)
theorem o10_arr (c : Dev nD) (w : Fin cfg4.W) : o10 m c (Proc.devRef .tc (Pipeline.arrRef spec4 w)) = (dat4 (Vr9 m) c).arrAt w cfg4.N :=
  Pipeline.withArrays_arr spec4 launch4.win.arr_inj c _ _ w
theorem W10_main_v111_0 (c : Dev nD) : W10 m c main_v111_0 = (dat4 (Vr9 m) c).arrAt 4 cfg4.N :=
  (upd_ne (by decide) _ _).trans <| (upd_ne (by decide) _ _).trans <| (Function.update_self ..).trans (o10_arr m c 4)
theorem W10_main_v111_1 (c : Dev nD) : W10 m c main_v111_1 = (dat4 (Vr9 m) c).arrAt 5 cfg4.N :=
  (upd_ne (by decide) _ _).trans <| (Function.update_self ..).trans (o10_arr m c 5)
theorem W10_main_v111_2 (c : Dev nD) : W10 m c main_v111_2 = (dat4 (Vr9 m) c).arrAt 6 cfg4.N :=
  (Function.update_self ..).trans (o10_arr m c 6)
theorem o12_arr (c : Dev nD) (w : Fin cfg5.W) : o12 m c (Proc.devRef .tc (Pipeline.arrRef spec5 w)) = (dat5 (Vr11 m) c).arrAt w cfg5.N :=
  Pipeline.withArrays_arr spec5 launch5.win.arr_inj c _ _ w
theorem W12_main_v141 (c : Dev nD) : W12 m c main_v141 = (dat5 (Vr11 m) c).arrAt 5 cfg5.N :=
  (Function.update_self ..).trans (o12_arr m c 5)
theorem o14_arr (c : Dev nD) (w : Fin cfg6.W) : o14 m c (Proc.devRef .tc (Pipeline.arrRef spec6 w)) = (dat6 (Vr13 m) c).arrAt w cfg6.N :=
  Pipeline.withArrays_arr spec6 launch6.win.arr_inj c _ _ w
theorem W14_main_v157_0 (c : Dev nD) : W14 m c main_v157_0 = (dat6 (Vr13 m) c).arrAt 4 cfg6.N :=
  (upd_ne (by decide) _ _).trans <| (upd_ne (by decide) _ _).trans <| (Function.update_self ..).trans (o14_arr m c 4)
theorem W14_main_v157_1 (c : Dev nD) : W14 m c main_v157_1 = (dat6 (Vr13 m) c).arrAt 5 cfg6.N :=
  (upd_ne (by decide) _ _).trans <| (Function.update_self ..).trans (o14_arr m c 5)
theorem W14_main_v157_2 (c : Dev nD) : W14 m c main_v157_2 = (dat6 (Vr13 m) c).arrAt 6 cfg6.N :=
  (Function.update_self ..).trans (o14_arr m c 6)
theorem o16_arr (c : Dev nD) (w : Fin cfg7.W) : o16 m c (Proc.devRef .tc (Pipeline.arrRef spec7 w)) = (dat7 (Vr15 m) c).arrAt w cfg7.N :=
  Pipeline.withArrays_arr spec7 launch7.win.arr_inj c _ _ w
theorem W16_main_v187 (c : Dev nD) : W16 m c main_v187 = (dat7 (Vr15 m) c).arrAt 5 cfg7.N :=
  (Function.update_self ..).trans (o16_arr m c 5)
theorem o22_arr (c : Dev nD) (w : Fin cfg8.W) : o22 m c (Proc.devRef .tc (Pipeline.arrRef spec8 w)) = (dat8 (Vr21 m) c).arrAt w cfg8.N :=
  Pipeline.withArrays_arr spec8 launch8.win.arr_inj c _ _ w
theorem W22_main_v193 (c : Dev nD) : W22 m c main_v193 = (dat8 (Vr21 m) c).arrAt 6 cfg8.N :=
  (Function.update_self ..).trans (o22_arr m c 6)

end Cert.Kernel.Hand

end
-- ==== Proof.K.RunF.lean ====
import proofs.«404458_j53163105190632_2_alg».proof.Proof.K.RunW

set_option maxRecDepth 16384

noncomputable section

namespace Cert.Kernel.Hand

open Cert.Kernel Cert.Kernel.Gen
open Idealize.ShloMosaic Idealize.ShloMosaic.TcCoe
open Idealize.ShloMosaic.Pipeline (Dat Cfg)

variable {F : FTy → Type} [FloatOps F]

variable (m : (ℓ : Loc nD τ sig) → Buf (Elt F) ℓ)

/-- Writing `o r` at each `r` of a list leaves `o r` at every one of them, in whatever order the writes come. -/
theorem foldl_update_mem (o : Valuation τ sig (Elt F)) {r : Ref sig .tc} : ∀ (L : List (Ref sig .tc)) (V : Valuation τ sig (Elt F)),
    r ∈ L ∨ V r = o r → L.foldl (fun V s => Function.update V s (o s)) V r = o r
  | [], _, h => h.resolve_left List.not_mem_nil
  | s :: L, V, h => foldl_update_mem o L _ <| by
    by_cases e : r = s
    · exact .inr (e ▸ Function.update_self ..)
    · exact h.imp (List.mem_of_ne_of_mem e) ((Function.update_of_ne (StableHlo.devRef_ne_of_ne e) ..).trans ·)

/-- In the boundary after a region each of its arrays holds the region's final contents: a result array by the update, an input array because its final contents are its entry contents, which the boundary keeps. -/
theorem exit_arr {cfg : Cfg sig Λ₀} {c : Dev nD} (d : Dat τ (Elt F) Unit ℕ (UR sig nD τ) ℕ cfg c) {V V' o : Valuation τ sig (Elt F)}
    {L : List (Ref sig .tc)} (ho : ∀ w, o (Pipeline.arrRef cfg.spec w) = d.arrAt w cfg.N) (hA : ∀ w, d.A w = V (Pipeline.arrRef cfg.spec w))
    (hV : ∀ r : Ref sig .tc, r ∉ L → V' r = V r) (hin : ∀ w, Pipeline.arrRef cfg.spec w ∉ L → (cfg.win w).isOut = false)
    (hV' : V' = L.foldl (fun V s => Function.update V s (o s)) V) (w : Fin cfg.W) : d.arrAt w cfg.N = V' (Pipeline.arrRef cfg.spec w) := by
  by_cases h : Pipeline.arrRef cfg.spec w ∈ L
  · exact ((hV' ▸ foldl_update_mem o L V (.inl h)).trans (ho w)).symm
  · exact ((d.arrAt_in w (hin w h) _).trans (hA w)).trans (hV _ h).symm

/-- A boundary that keeps every buffer off a region's result arrays keeps every buffer off all its arrays. -/
theorem exit_rest {V V' : Valuation τ sig (Elt F)} {L : List (Ref sig .tc)} (hV : ∀ r : Ref sig .tc, r ∉ L → V' r = V r) {W : ℕ}
    {f : Fin W → Ref sig .tc} (hL : ∀ r ∈ L, r ∈ Finset.univ.image f) (b : Ref sig .tc) (hb : b ∉ Finset.univ.image f) : V' b = V b :=
  hV b fun h => hb (hL b h)

theorem hF0 (c : Dev nD) (w : Fin cfg0.W) : (dat0 (Vr1 m) c).arrAt w cfg0.N = Vr2 m c (Pipeline.arrRef spec0 w) :=
  exit_arr _ (o2_arr m c) (A_eq0 _ c) (V2_of m (outs m) c) (by decide) rfl w
theorem hrest0 (c : Dev nD) : ∀ b, b ∉ Finset.univ.image (Pipeline.arrRef spec0) → Vr2 m c b = Vr1 m c b :=
  exit_rest (V2_of m (outs m) c) (by decide)
theorem hF1 (c : Dev nD) (w : Fin cfg1.W) : (dat1 (Vr3 m) c).arrAt w cfg1.N = Vr4 m c (Pipeline.arrRef spec1 w) :=
  exit_arr _ (o4_arr m c) (A_eq1 _ c) (V4_of m (outs m) c) (by decide) rfl w
theorem hrest1 (c : Dev nD) : ∀ b, b ∉ Finset.univ.image (Pipeline.arrRef spec1) → Vr4 m c b = Vr3 m c b :=
  exit_rest (V4_of m (outs m) c) (by decide)
theorem hF2 (c : Dev nD) (w : Fin cfg2.W) : (dat2 (Vr5 m) c).arrAt w cfg2.N = Vr6 m c (Pipeline.arrRef spec2 w) :=
  exit_arr _ (o6_arr m c) (A_eq2 _ c) (V6_of m (outs m) c) (by decide) rfl w
theorem hrest2 (c : Dev nD) : ∀ b, b ∉ Finset.univ.image (Pipeline.arrRef spec2) → Vr6 m c b = Vr5 m c b :=
  exit_rest (V6_of m (outs m) c) (by decide)
theorem hF3 (c : Dev nD) (w : Fin cfg3.W) : (dat3 (Vr7 m) c).arrAt w cfg3.N = Vr8 m c (Pipeline.arrRef spec3 w) :=
  exit_arr _ (o8_arr m c) (A_eq3 _ c) (V8_of m (outs m) c) (by decide) rfl w
theorem hrest3 (c : Dev nD) : ∀ b, b ∉ Finset.univ.image (Pipeline.arrRef spec3) → Vr8 m c b = Vr7 m c b :=
  exit_rest (V8_of m (outs m) c) (by decide)
theorem hF4 (c : Dev nD) (w : Fin cfg4.W) : (dat4 (Vr9 m) c).arrAt w cfg4.N = Vr10 m c (Pipeline.arrRef spec4 w) :=
  exit_arr _ (o10_arr m c) (A_eq4 _ c) (V10_of m (outs m) c) (by decide) rfl w
theorem hrest4 (c : Dev nD) : ∀ b, b ∉ Finset.univ.image (Pipeline.arrRef spec4) → Vr10 m c b = Vr9 m c b :=
  exit_rest (V10_of m (outs m) c) (by decide)
theorem hF5 (c : Dev nD) (w : Fin cfg5.W) : (dat5 (Vr11 m) c).arrAt w cfg5.N = Vr12 m c (Pipeline.arrRef spec5 w) :=
  exit_arr _ (o12_arr m c) (A_eq5 _ c) (V12_of m (outs m) c) (by decide) rfl w
theorem hrest5 (c : Dev nD) : ∀ b, b ∉ Finset.univ.image (Pipeline.arrRef spec5) → Vr12 m c b = Vr11 m c b :=
  exit_rest (V12_of m (outs m) c) (by decide)
theorem hF6 (c : Dev nD) (w : Fin cfg6.W) : (dat6 (Vr13 m) c).arrAt w cfg6.N = Vr14 m c (Pipeline.arrRef spec6 w) :=
  exit_arr _ (o14_arr m c) (A_eq6 _ c) (V14_of m (outs m) c) (by decide) rfl w
theorem hrest6 (c : Dev nD) : ∀ b, b ∉ Finset.univ.image (Pipeline.arrRef spec6) → Vr14 m c b = Vr13 m c b :=
  exit_rest (V14_of m (outs m) c) (by decide)
theorem hF7 (c : Dev nD) (w : Fin cfg7.W) : (dat7 (Vr15 m) c).arrAt w cfg7.N = Vr16 m c (Pipeline.arrRef spec7 w) :=
  exit_arr _ (o16_arr m c) (A_eq7 _ c) (V16_of m (outs m) c) (by decide) rfl w
theorem hrest7 (c : Dev nD) : ∀ b, b ∉ Finset.univ.image (Pipeline.arrRef spec7) → Vr16 m c b = Vr15 m c b :=
  exit_rest (V16_of m (outs m) c) (by decide)
theorem hF8 (c : Dev nD) (w : Fin cfg8.W) : (dat8 (Vr21 m) c).arrAt w cfg8.N = Vr22x m c (Pipeline.arrRef spec8 w) :=
  exit_arr _ (o22_arr m c) (A_eq8 _ c) (V22_of m (outs m) c) (by decide) rfl w
theorem hrest8 (c : Dev nD) : ∀ b, b ∉ Finset.univ.image (Pipeline.arrRef spec8) → Vr22x m c b = Vr21 m c b :=
  exit_rest (V22_of m (outs m) c) (by decide)

end Cert.Kernel.Hand

end
-- ==== Proof.K.RunSeg.lean ====
import proofs.«404458_j53163105190632_2_alg».proof.Proof.K.RunF
import Idealize.ShloMosaic.Lib.Pipeline.Kit

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode

variable {F : FTy → Type} [FloatOps F]

local notation "𝕄" => MT nD τ sig Unit (Elt F) ℕ (UR sig nD τ) ℕ
variable (m : (ℓ : Loc nD τ sig) → Buf (Elt F) ℓ)

/-- The nine pipelines' proof data as one family. -/
def pdats : (p : Fin 9) → (c : Dev nD) → Pipeline.Dat τ (Elt F) Unit ℕ (UR sig nD τ) ℕ (cfgs p) c
  | ⟨0, _⟩ => dat0 (Vr1 m)
  | ⟨1, _⟩ => dat1 (Vr3 m)
  | ⟨2, _⟩ => dat2 (Vr5 m)
  | ⟨3, _⟩ => dat3 (Vr7 m)
  | ⟨4, _⟩ => dat4 (Vr9 m)
  | ⟨5, _⟩ => dat5 (Vr11 m)
  | ⟨6, _⟩ => dat6 (Vr13 m)
  | ⟨7, _⟩ => dat7 (Vr15 m)
  | ⟨8, _⟩ => dat8 (Vr21 m)

abbrev 𝒱₀ : Variants := Variants.none
abbrev L : GSem nD τ sig → Finset Unit := fun _ => ∅
abbrev lv : GSem nD τ sig → Unit → ℕ := fun _ _ => 0
/-- Carried along every segment: the generator register in some state and a debt of nothing. -/
abbrev R (c : Dev nD) : sProp 𝕄 := iprop((∃ r, prngReg c r) ∗ ∃ W, owes (c : Thread nD τ) (0 : CellTallies nD τ sig Unit) W)

/-- What the segment proofs use of every pipeline's proof data; each holds by computation, pipeline by pipeline. -/
theorem pdats_plain (p : Fin 9) (c : Dev nD) : (∀ t, (pdats m p c).owed t = 0) ∧ (∀ w, (pdats m p c).q w = fullShare)
    ∧ ∀ t x, x ∈ (pdats m p c).recorded t := by
  fin_cases p <;> exact ⟨fun _ => rfl, fun _ => rfl, fun _ _ => trivial⟩

/-- A kernel region as a segment from the unscoped buffers at `W` to those at `W'`: its arrays are split out and put back, nothing is owed. -/
def regOf {p : Fin 9} (kit : Pipeline.LaunchFacts (nD := nD) (τ := τ) cfgs p) (W W' : Dev nD → Valuation τ sig (Elt F))
    (hbody : ∀ c, Pipeline.BodyObligation (pdats m p c) (defs₀ (F := F)) 𝒱₀ () Set.univ)
    (hA : ∀ c w, (pdats m p c).A w = W c (Pipeline.arrRef (cfgs p).spec w))
    (hin : ∀ c, iprop((∃ r, prngReg c r) ∗ Pipeline.scopedRest (cfgs p).spec c) ⊢ (pdats m p c).Φ 0)
    (hout : ∀ c, (pdats m p c).Φ (Fin.last _) ⊢ iprop((∃ r, prngReg c r) ∗ Pipeline.scopedRest (cfgs p).spec c))
    (hF : ∀ c w, (pdats m p c).arrAt w (cfgs p).N = W' c (Pipeline.arrRef (cfgs p).spec w))
    (hrest : ∀ c, ∀ b, b ∉ Finset.univ.image (Pipeline.arrRef (cfgs p).spec) → W' c b = W c b) :
    Pipeline.RegionSeg (pcfgs (F := F)) adm (pdats m) () defs₀ 𝒱₀ L lv p where
  win := kit.win.to₀
  block_pos := kit.block_pos
  stage_whole := kit.stage_whole
  K := PEmpty
  osem k := k.elim
  ho := Pipeline.OwnSemFacts.none _
  hbody c := (hbody c).loose
  hwaits := Pipeline.hwaits_of_owed_zero _ _ _ _ L lv p fun c => (pdats_plain m p c).1
  pre c := iprop(StableHlo.held (c : Thread nD τ) (Pipeline.ucRefs τ sig) (W c) ∗ R c)
  post c := iprop(StableHlo.held (c : Thread nD τ) (Pipeline.ucRefs τ sig) (W' c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => W c b
  hentry c := by
    have hsplit := Pipeline.arrays_of_unscopedBufs (pcfgs (F := F)) adm (pdats m) kit.win kit.arr_whole c
      ((pdats m p c).share_full (pdats_plain m p c).2.1) (fun b => W c b) (hA c)
    rw [Pipeline.unscopedBufs_held] at hsplit
    rw [Pipeline.ownSems0_none]
    unfold Pipeline.Dat.owesAt Pipeline.owesWithin Pipeline.prefHeld
    rw [(pdats_plain m p c).1, show (Finset.univ : Finset (Fin 0)) = ∅ from rfl, BI.bigSep_empty]
    iintro ⟨⟨Hub, Hp, %T, HO⟩, -, -⟩
    ihave H := hsplit $$ Hub
    icases H with ⟨Ha, Hrest⟩
    imodintro
    isplitl [Ha]; · iexact Ha
    isplitr; · iempintro
    isplitl [HO]
    · iexists T; isplitr; · ipureintro; exact fun x _ => Or.inl ((pdats_plain m p c).2.2 0 x)
      iexact HO
    isplitl [Hp]; · iexact Hp
    iexact Hrest
  hin c := by iintro ⟨Hp, -, Hr⟩; iapply hin c; isplitl [Hp] <;> iassumption
  hout c := by rw [Pipeline.ownSems0_none]; exact (hout c).trans (sep_mono .rfl emp_sep_intro)
  hexit c := by
    have hjoin := Pipeline.unscopedBufs_of_arrays (pcfgs (F := F)) adm (Ix := Unit) (Name := ℕ) (U := UR sig nD τ) (Lvl := ℕ)
      kit.win kit.arr_whole c (pdats m) ((pdats m p c).share_full (pdats_plain m p c).2.1)
      (fun b => W c b) (fun b => W' c b) ((pdats m p c).arrAt · (cfgs p).N) (hF c) (hrest c)
    rw [Pipeline.unscopedBufs_held] at hjoin
    unfold Pipeline.Dat.owesAt Pipeline.owesWithin
    rw [(pdats_plain m p c).1]
    iintro ⟨Ha, ⟨%T, -, HO⟩, HY, Hrest⟩
    imodintro
    isplitl [Ha Hrest]
    · iapply hjoin; isplitl [Ha] <;> iassumption
    isplitl [HY]; · iexact HY
    iexists T; iexact HO

/-- `ΦA` is the generator register beside the rest of the scoped buffers, in either order. -/
theorem ΦA_in {gr W : ℕ} (win : Fin W → Pipeline.WinSpec sig gr) (c : Dev nD) :
    iprop((∃ r, prngReg c r) ∗ Pipeline.scopedRest win c) ⊢ (Pipeline.ΦA win c : sProp 𝕄) := sep_comm
theorem ΦA_out {gr W : ℕ} (win : Fin W → Pipeline.WinSpec sig gr) (c : Dev nD) :
    (Pipeline.ΦA win c : sProp 𝕄) ⊢ iprop((∃ r, prngReg c r) ∗ Pipeline.scopedRest win c) := sep_comm

def reg0 :=
  regOf m launch0 (W1 m) (W2 m) (body_obligation0 (Vr1 m)) (fun _ _ => rfl) (ΦA_in spec0) (ΦA_out spec0) (hF0 m) (hrest0 m)

def reg1 :=
  regOf m launch1 (W3 m) (W4 m) (body_obligation1 (Vr3 m)) (fun _ _ => rfl) (ΦA_in spec1) (ΦA_out spec1) (hF1 m) (hrest1 m)

def reg2 :=
  regOf m launch2 (W5 m) (W6 m) (body_obligation2 (Vr5 m)) (fun _ _ => rfl) (ΦA_in spec2) (ΦA_out spec2) (hF2 m) (hrest2 m)

def reg3 :=
  regOf m launch3 (W7 m) (W8 m) (body_obligation3 (Vr7 m)) (fun _ _ => rfl) (ΦA_in spec3) (ΦA_out spec3) (hF3 m) (hrest3 m)

def reg4 :=
  regOf m launch4 (W9 m) (W10 m) (body_obligation4 (Vr9 m)) (fun _ _ => rfl) (ΦA_in spec4) (ΦA_out spec4) (hF4 m) (hrest4 m)

def reg5 :=
  regOf m launch5 (W11 m) (W12 m) (body_obligation5 (Vr11 m)) (fun _ _ => rfl) (ΦA_in spec5) (ΦA_out spec5) (hF5 m) (hrest5 m)

def reg6 :=
  regOf m launch6 (W13 m) (W14 m) (body_obligation6 (Vr13 m)) (fun _ _ => rfl) (ΦA_in spec6) (ΦA_out spec6) (hF6 m) (hrest6 m)

def reg7 :=
  regOf m launch7 (W15 m) (W16 m) (body_obligation7 (Vr15 m)) (fun _ _ => rfl) (ΦA_in spec7) (ΦA_out spec7) (hF7 m) (hrest7 m)

def reg8 :=
  regOf m launch8 (W21 m) (W22 m) (body_obligation8 (Vr21 m)) (fun _ _ => rfl) (hin8 (Vr21 m)) (hout8 (Vr21 m)) (hF8 m) (hrest8 m)

end Cert.Kernel.Hand

end
-- ==== Proof.K.Run.lean ====
import proofs.«404458_j53163105190632_2_alg».proof.Proof.K.RunSeg

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (m : (ℓ : Loc nD τ sig) → Buf (Elt F) ℓ)

theorem result_eq (c : Dev nD) : V22 m (outs m) c main_v193 = (dat8 (Vr21 m) c).arrAt 6 cfg8.N :=
  (congrFun (V22_eq m c) _).trans (W22_main_v193 m c)

set_option backward.isDefEq.respectTransparency.types false in

theorem run_raw (ρ : Dev nD → PrngReg) : θ_run defs (onTc (τ := τ) (main (F := F))) ⟨m, fun _ => 0, ρ⟩ (fun r => ∀ c : Dev nD,
      r.2.mem ((c.tc : Thread nD τ).loc main_v193) = V22 m (outs m) c main_v193
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) := by
  refine run_cond m emb₁ () 𝒱₀ L lv (fun _ _ => rfl) ρ (outs m) (pdats m) (O₀ := 0) (G := fun _ => iprop(emp))
    (u₀ := initOf (Pipeline.cells cfgs cellOf_inj) (Pipeline.launchToks cfgs cellOf_inj))
    (hu₀ := ?_) (E := fun _ c => R c) (hE0 := ?_) (hE9 := fun c => ?_)
    (R0 := reg0 m) (hpre0 := fun c => Entails.of_eq (by rw [V1_eq]; rfl)) (hpost0 := fun c => Entails.of_eq (by rw [V2_eq]; rfl))
    (R1 := reg1 m) (hpre1 := fun c => Entails.of_eq (by rw [V3_eq]; rfl)) (hpost1 := fun c => Entails.of_eq (by rw [V4_eq]; rfl))
    (R2 := reg2 m) (hpre2 := fun c => Entails.of_eq (by rw [V5_eq]; rfl)) (hpost2 := fun c => Entails.of_eq (by rw [V6_eq]; rfl))
    (R3 := reg3 m) (hpre3 := fun c => Entails.of_eq (by rw [V7_eq]; rfl)) (hpost3 := fun c => Entails.of_eq (by rw [V8_eq]; rfl))
    (R4 := reg4 m) (hpre4 := fun c => Entails.of_eq (by rw [V9_eq]; rfl)) (hpost4 := fun c => Entails.of_eq (by rw [V10_eq]; rfl))
    (R5 := reg5 m) (hpre5 := fun c => Entails.of_eq (by rw [V11_eq]; rfl)) (hpost5 := fun c => Entails.of_eq (by rw [V12_eq]; rfl))
    (R6 := reg6 m) (hpre6 := fun c => Entails.of_eq (by rw [V13_eq]; rfl)) (hpost6 := fun c => Entails.of_eq (by rw [V14_eq]; rfl))
    (R7 := reg7 m) (hpre7 := fun c => Entails.of_eq (by rw [V15_eq]; rfl)) (hpost7 := fun c => Entails.of_eq (by rw [V16_eq]; rfl))
    (R8 := reg8 m) (hpre8 := fun c => Entails.of_eq (by rw [V21_eq]; rfl)) (hpost8 := fun c => Entails.of_eq (by rw [V22_eq]; rfl))
  · iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · refine Pipeline.initEach L lv fun c => ?_
    iintro ⟨⟨-, HO, -, Hp, -⟩, -⟩
    imodintro
    isplitl [Hp]; · iexists _; iexact Hp
    iexists ∅; iexact HO
  · iintro ⟨-, HO⟩; iexact HO

theorem run (ρ : Dev nD → PrngReg) : θ_run defs (onTc (τ := τ) (main (F := F))) ⟨m, fun _ => 0, ρ⟩ (fun r => ∀ c : Dev nD,
      r.2.mem ((c.tc : Thread nD τ).loc main_v193) = (dat8 (Vr21 m) c).arrAt 6 cfg8.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c).1.trans (result_eq m c), (h c).2⟩) (run_raw m ρ)

end Cert.Kernel.Hand

end
-- ==== Proof.KI.RunCond.lean ====
import proofs.«404458_j53163105190632_2_alg».proof.Proof.Gen.KernelIdeal.Regions

set_option maxRecDepth 1876

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ) (outs : Outs (F := F))

set_option backward.isDefEq.respectTransparency.types false in
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 9) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 10 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE9 : ∀ c : Dev nD, E 9 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V7 m outs c) ∗ E 3 c) ⊢ R3.pre c)
    (hpost3 : ∀ c : Dev nD, R3.post c ⊢ iprop(StableHlo.held (c : Thread nD τ) (Pipeline.ucRefs τ sig) (V8 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V9 m outs c) ∗ E 4 c) ⊢ R4.pre c)
    (hpost4 : ∀ c : Dev nD, R4.post c ⊢ iprop(StableHlo.held (c : Thread nD τ) (Pipeline.ucRefs τ sig) (V10 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V11 m outs c) ∗ E 5 c) ⊢ R5.pre c)
    (hpost5 : ∀ c : Dev nD, R5.post c ⊢ iprop(StableHlo.held (c : Thread nD τ) (Pipeline.ucRefs τ sig) (V12 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V13 m outs c) ∗ E 6 c) ⊢ R6.pre c)
    (hpost6 : ∀ c : Dev nD, R6.post c ⊢ iprop(StableHlo.held (c : Thread nD τ) (Pipeline.ucRefs τ sig) (V14 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V15 m outs c) ∗ E 7 c) ⊢ R7.pre c)
    (hpost7 : ∀ c : Dev nD, R7.post c ⊢ iprop(StableHlo.held (c : Thread nD τ) (Pipeline.ucRefs τ sig) (V16 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V21 m outs c) ∗ E 8 c) ⊢ R8.pre c)
    (hpost8 : ∀ c : Dev nD, R8.post c ⊢ iprop(StableHlo.held (c : Thread nD τ) (Pipeline.ucRefs τ sig) (V22 m outs c) ∗ E 9 c)) :
    θ_run defs (onTc (τ := τ) (main (F := F))) ⟨m, fun _ => 0, ρ⟩ (fun r => ∀ c : Dev nD,
      r.2.mem ((c.tc : Thread nD τ).loc main_v193) = V22 m outs c main_v193
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8)
    (fun c Q => by rw [main_chain c, Seg.run_eq_chain]; exact .of_eq (by congr 3))
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V22 m outs c))
    (hch := fun c => ⟨.rfl, hpre0 c, hpost0 c, hpre1 c, hpost1 c, hpre2 c, hpost2 c, hpre3 c, hpost3 c, hpre4 c, hpost4 c, hpre5 c, hpost5 c, hpre6 c, hpost6 c, hpre7 c, hpost7 c, .rfl, .rfl, .rfl, .rfl, hpre8 c, (hpost8 c).trans (sep_mono .rfl (hE9 c))⟩)
    (hinit := ?_) (QY := _)
    (hfin := fun c s' => ?_) (hQ := fun _ h => h)
  · rw [bigSep_sep', show (fun c : Dev nD => unscopedBufs c fun b => m ((c.tc : Thread nD τ).loc b))
        = fun c : Dev nD => StableHlo.held (c : Thread nD τ) (Pipeline.ucRefs τ sig) (V0 m c)
      from funext fun c => Pipeline.unscopedBufs_held (Ix := Ix) (Name := ℕ) (U := U) (Lvl := Lvl) c (V0 m c)]
    iintro ⟨⟨Hh, Hr⟩, Hla⟩
    imod hE0 $$ [Hr Hla] with HE
    · isplitl [Hr] <;> iassumption
    imodintro
    rw [bigSep_sep']
    isplitl [Hh] <;> iassumption
  · unfold StableHlo.held
    iintro ⟨Hh, HSI⟩
    ihave Hr := (pointsTo_read_all (Pipeline.ucRefs τ sig) (fun b => ((c : Thread nD τ).1, b)) (V22 m outs c) s') $$ [Hh HSI]
    · isplitl [Hh] <;> iassumption
    icases Hr with ⟨%h, HSI⟩
    imodintro
    isplitr
    · ipureintro
      have h' := fun (b : Ref sig .tc) hb => h (Proc.devRef .tc b) (Finset.mem_filter.mpr ⟨StableHlo.devRef_mem_tcRefs b, hb⟩)
      exact ⟨h' main_v193 (by decide),
        (h' main_arg0 (by decide)).trans (V22_main_arg0 m outs c),
        (h' main_arg1 (by decide)).trans (V22_main_arg1 m outs c),
        (h' main_arg2 (by decide)).trans (V22_main_arg2 m outs c),
        (h' main_arg3 (by decide)).trans (V22_main_arg3 m outs c),
        (h' main_arg4 (by decide)).trans (V22_main_arg4 m outs c),
        (h' main_arg5 (by decide)).trans (V22_main_arg5 m outs c),
        (h' main_arg6 (by decide)).trans (V22_main_arg6 m outs c),
        (h' main_arg7 (by decide)).trans (V22_main_arg7 m outs c),
        (h' main_arg8 (by decide)).trans (V22_main_arg8 m outs c),
        (h' main_arg9 (by decide)).trans (V22_main_arg9 m outs c),
        (h' main_arg10 (by decide)).trans (V22_main_arg10 m outs c),
        (h' main_arg11 (by decide)).trans (V22_main_arg11 m outs c),
        (h' main_arg12 (by decide)).trans (V22_main_arg12 m outs c)⟩
    · iexact HSI

end Cert.KernelIdeal.Hand

end
-- ==== Proof.KI.R0.lean ====
import proofs.«404458_j53163105190632_2_alg».proof.Proof.Gen.KernelIdeal.Launch
import proofs.«404458_j53163105190632_2_alg».proof.Proof.Gen.KernelIdeal.Skeleton
import proofs.«404458_j53163105190632_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-- The rectangles the body reads and writes: each is a whole block, its extents at offset zero. -/
theorem zeros0_2 : (![0, 0] : Fin 2 → Nat) = fun _ => 0 := by decide

theorem zeros0_3 : (![0, 0, 0] : Fin 3 → Nat) = fun _ => 0 := by decide

abbrev r0_0 : Rect S5000x128 := Rect.unit (s := S5000x128) ![0, 0] S5000x128.size inb_S5000x128_S5000x128_0_0

abbrev r0_1 : Rect S128x128 := Rect.unit (s := S128x128) ![0, 0] S128x128.size inb_S128x128_S128x128_0_0

abbrev r0_2 : Rect S1x128 := Rect.unit (s := S1x128) ![0, 0] S1x128.size inb_S1x128_S1x128_0_0

abbrev r0_3 : Rect S1x8x128 := Rect.unit (s := S1x8x128) ![0, 0, 0] S1x8x128.size inb_S1x8x128_S1x8x128_0_0_0

/-- The value the body stores to each output block, as a function of the four input blocks. -/
def out0_4 (x0 x1 : Vec F S5000x128 .f32) (x2 : Vec F S128x128 .f32) (x3 : Vec F S1x128 .f32) : Vec F S5000x128 .f32 :=
  View.canon [⟨r0_0, k0_pay1 (View.ld x0 r0_0) (View.ld x1 r0_0) (View.ld x2 r0_1) (View.ld x3 r0_2)⟩]

def out0_5 (x0 x1 : Vec F S5000x128 .f32) (x2 : Vec F S128x128 .f32) (x3 : Vec F S1x128 .f32) : Vec F S1x8x128 .f32 :=
  View.canon [⟨r0_3, k0_pay2 (View.ld x0 r0_0) (View.ld x1 r0_0) (View.ld x2 r0_1) (View.ld x3 r0_2)⟩]

def out0_6 (x0 x1 : Vec F S5000x128 .f32) (x2 : Vec F S128x128 .f32) (x3 : Vec F S1x128 .f32) : Vec F S1x8x128 .f32 :=
  View.canon [⟨r0_3, k0_pay3 (View.ld x0 r0_0) (View.ld x1 r0_0) (View.ld x2 r0_1) (View.ld x3 r0_2)⟩]

/-- Writing a whole block leaves the written value, and reading a whole block reads it. -/
theorem out0_4_eq (x0 x1 : Vec F S5000x128 .f32) (x2 : Vec F S128x128 .f32) (x3 : Vec F S1x128 .f32) :
    out0_4 x0 x1 x2 x3 = k0_pay1 x0 x1 x2 x3 := by
  unfold out0_4
  rw [View.canon_unit_zero zeros0_2]
  simp only [View.ld_unit_zero (S := S5000x128) zeros0_2, View.ld_unit_zero (S := S128x128) zeros0_2, View.ld_unit_zero (S := S1x128) zeros0_2]

theorem out0_5_eq (x0 x1 : Vec F S5000x128 .f32) (x2 : Vec F S128x128 .f32) (x3 : Vec F S1x128 .f32) :
    out0_5 x0 x1 x2 x3 = k0_pay2 x0 x1 x2 x3 := by
  unfold out0_5
  rw [View.canon_unit_zero zeros0_3]
  simp only [View.ld_unit_zero (S := S5000x128) zeros0_2, View.ld_unit_zero (S := S128x128) zeros0_2, View.ld_unit_zero (S := S1x128) zeros0_2]

theorem out0_6_eq (x0 x1 : Vec F S5000x128 .f32) (x2 : Vec F S128x128 .f32) (x3 : Vec F S1x128 .f32) :
    out0_6 x0 x1 x2 x3 = k0_pay3 x0 x1 x2 x3 := by
  unfold out0_6
  rw [View.canon_unit_zero zeros0_3]
  simp only [View.ld_unit_zero (S := S5000x128) zeros0_2, View.ld_unit_zero (S := S128x128) zeros0_2, View.ld_unit_zero (S := S1x128) zeros0_2]

/-- The whole-block rectangle covers every index. -/
theorem cover0_4 (p0 : Vec F S5000x128 .f32) (y : S5000x128.Idx) :
    ∃ pc ∈ ([⟨r0_0, p0⟩] : List (View.Piece (Elt F) S5000x128 .f32)), y ∈ pc.1.set :=
  ⟨_, List.mem_singleton_self _, View.mem_set_unit_zero zeros0_2 inb_S5000x128_S5000x128_0_0 y⟩

theorem cover0_5 (p0 : Vec F S1x8x128 .f32) (y : S1x8x128.Idx) :
    ∃ pc ∈ ([⟨r0_3, p0⟩] : List (View.Piece (Elt F) S1x8x128 .f32)), y ∈ pc.1.set :=
  ⟨_, List.mem_singleton_self _, View.mem_set_unit_zero zeros0_3 inb_S1x8x128_S1x8x128_0_0_0 y⟩

set_option maxHeartbeats 1000000 in

theorem sound_kernel0 (c : Dev nD) (E : Set ℕ) (i : grid0.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S5000x128 .f32) (harg5 : arg5.IsWhole) (arg6 : Memref sig .tc .vmem S1x8x128 .f32) (harg6 : arg6.IsWhole)
    (arg7 : Memref sig .tc .vmem S1x8x128 .f32) (harg7 : arg7.IsWhole)
    (x0 x1 : Vec F S5000x128 .f32) (x2 : Vec F S128x128 .f32) (x3 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1 x2 x3)
            ∗ owns (c : Thread nD τ) arg6 fullShare (out0_5 x0 x1 x2 x3)
            ∗ owns (c : Thread nD τ) arg7 fullShare (out0_6 x0 x1 x2 x3)) -∗ K ⟨⟩))
      ⊢ wp frame (wpE (defs₀ (F := F)) Variants.none c none) E
          (cc0__lin1_kernel i arg1 harg1 arg2 harg2 arg3 harg3 arg4 harg4 arg5 harg5 arg6 harg6 arg7 harg7) K := by
  simp only [cc0__lin1_kernel_eq_skeleton]; unfold cc0__lin1_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_5 _)

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The region's proof data: the entry arrays; after each point the input blocks unchanged and each output block at the body's value of them. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
    | ⟨5, _⟩ => out0_5 (iblk0 V c 0 t) (iblk0 V c 1 t) (iblk0 V c 2 t) (iblk0 V c 3 t)
    | ⟨6, _⟩ => out0_6 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]
theorem after0_5 (c : Dev nD) (t : Fin cfg0.N) : (dat0 V c).after 5 t = out0_5 (iblk0 V c 0 t) (iblk0 V c 1 t) (iblk0 V c 2 t) (iblk0 V c 3 t) := by dsimp only [dat0]
theorem after0_6 (c : Dev nD) (t : Fin cfg0.N) : (dat0 V c).after 6 t = out0_6 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl
theorem before0_3 (c : Dev nD) (t : Fin cfg0.N) (d) : (dat0 V c).before 3 t d = iblk0 V c 3 t :=
  ((dat0 V c).before_in_eq_fetched 3 rfl (fun _ => rfl) (fun _ _ _ => rfl) (fun _ => rfl) t d).trans rfl

set_option maxHeartbeats 1000000 in
/-- At every grid point the body is the kernel at that point's input blocks; the invariant passes through untouched. -/
theorem body_obligation0 (c : Dev nD) : BodyObligation (dat0 (F := F) V c) (defs₀ (F := F)) Variants.none () Set.univ := fun t => by
  rw [bigSep_W0, bigSep_W0]
  show _ ⊢ wp frame (wpE (defs₀ (F := F)) Variants.none c none) Set.univ (bodyAt0 t) _
  simp only [before0_0, before0_1, before0_2, before0_3]
  rw [show (dat0 V c).Φ t.succ = (dat0 V c).Φ t.castSucc from rfl,
    show (dat0 V c).owesAt () t.succ = (dat0 V c).owesAt () t.castSucc from rfl, after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  unfold bodyAt0
  iapply (sound_kernel0 c Set.univ _ _ _ _ _ _ _ _ _ _ _ _ _ _ _ (iblk0 V c 0 t) (iblk0 V c 1 t) (iblk0 V c 2 t) (iblk0 V c 3 t) _)
  iframe H0 H1 H2 H3
  isplitl [H4]; · iexists _; iexact H4
  isplitl [H5]; · iexists _; iexact H5
  isplitl [H6]; · iexists _; iexact H6
  iintro ⟨H0, H1, H2, H3, H4, H5, H6⟩
  iframe HΦ Ho H0 H1 H2 H3 H4 H5 H6

end Cert.KernelIdeal.Hand

end
-- ==== Proof.KI.R1.lean ====
import proofs.«404458_j53163105190632_2_alg».proof.Proof.Gen.KernelIdeal.Launch
import proofs.«404458_j53163105190632_2_alg».proof.Proof.Gen.KernelIdeal.Skeleton
import proofs.«404458_j53163105190632_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-- The rectangles the body reads and writes: each is a whole block, its extents at offset zero. -/
abbrev r1_0 : Rect S5000x128 := Rect.unit (s := S5000x128) ![0, 0] S5000x128.size inb_S5000x128_S5000x128_0_0

abbrev r1_1 : Rect S1x128 := Rect.unit (s := S1x128) ![0, 0] S1x128.size inb_S1x128_S1x128_0_0

abbrev r1_2 : Rect S128x128 := Rect.unit (s := S128x128) ![0, 0] S128x128.size inb_S128x128_S128x128_0_0

theorem hz1 : (![0, 0] : Fin 2 → Nat) = fun _ => 0 := funext fun a => by fin_cases a <;> rfl

/-- The value the body stores to the output block, as a function of the five input blocks. -/
def out1_5 (x0 : Vec F S5000x128 .f32) (x1 x2 : Vec F S1x128 .f32) (x3 : Vec F S128x128 .f32) (x4 : Vec F S1x128 .f32) : Vec F S5000x128 .f32 :=
  View.canon [⟨r1_0, k1_pay1 (View.ld x0 r1_0) (View.ld x1 r1_1) (View.ld x2 r1_1) (View.ld x3 r1_2) (View.ld x4 r1_1)⟩]

theorem cover1_5 (p0 : Vec F S5000x128 .f32) (y : S5000x128.Idx) :
    ∃ pc ∈ ([⟨r1_0, p0⟩] : List (View.Piece (Elt F) S5000x128 .f32)), y ∈ pc.1.set :=
  ⟨⟨r1_0, p0⟩, List.mem_singleton_self _, View.mem_set_unit_zero hz1 inb_S5000x128_S5000x128_0_0 y⟩

theorem out1_5_eq (x0 : Vec F S5000x128 .f32) (x1 x2 : Vec F S1x128 .f32) (x3 : Vec F S128x128 .f32) (x4 : Vec F S1x128 .f32) :
    out1_5 x0 x1 x2 x3 x4 = k1_pay1 x0 x1 x2 x3 x4 := by
  unfold out1_5
  rw [View.canon_unit_zero hz1]
  simp only [View.ld_unit_zero (S := S5000x128) hz1, View.ld_unit_zero (S := S1x128) hz1, View.ld_unit_zero (S := S128x128) hz1]

set_option maxHeartbeats 1000000 in
/-- The kernel's triple: the input blocks are kept and the output block ends at `out1_5` of them. -/
theorem sound_kernel1 (c : Dev nD) (E : Set ℕ) (i : grid1.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (x0 : Vec F S5000x128 .f32) (x1 x2 : Vec F S1x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E
          (cc1__lin2_kernel i arg1 harg1 arg2 harg2 arg3 harg3 arg4 harg4 arg5 harg5 arg6 harg6) K := by
  simp only [cc1__lin2_kernel_eq_skeleton]; unfold cc1__lin2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The region's proof data: the entry arrays; after each point the input blocks unchanged and the output block at the body's value of them. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl
theorem before1_4 (c : Dev nD) (t : Fin cfg1.N) (d) : (dat1 V c).before 4 t d = iblk1 V c 4 t :=
  ((dat1 V c).before_in_eq_fetched 4 rfl (fun _ => rfl) (fun _ _ _ => rfl) (fun _ => rfl) t d).trans rfl

set_option maxHeartbeats 1000000 in
/-- At every grid point the body is the kernel at that point's input blocks; the invariant passes through untouched. -/
theorem body_obligation1 (c : Dev nD) : BodyObligation (dat1 (F := F) V c) (defs₀ (F := F)) Variants.none () Set.univ := fun t => by
  rw [bigSep_W1, bigSep_W1]
  show _ ⊢ wp frame (wpE (defs₀ (F := F)) Variants.none c none) Set.univ (bodyAt1 t) _
  simp only [before1_0, before1_1, before1_2, before1_3, before1_4]
  rw [show (dat1 V c).Φ t.succ = (dat1 V c).Φ t.castSucc from rfl,
    show (dat1 V c).owesAt () t.succ = (dat1 V c).owesAt () t.castSucc from rfl, after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  unfold bodyAt1
  iapply (sound_kernel1 c Set.univ _ _ _ _ _ _ _ _ _ _ _ _ _
    (iblk1 V c 0 t) (iblk1 V c 1 t) (iblk1 V c 2 t) (iblk1 V c 3 t) (iblk1 V c 4 t) _)
  iframe H0 H1 H2 H3 H4
  isplitl [H5]; · iexists _; iexact H5
  iintro ⟨H0, H1, H2, H3, H4, H5⟩
  iframe HΦ Ho H0 H1 H2 H3 H4 H5

end Cert.KernelIdeal.Hand

end
-- ==== Proof.KI.R2.lean ====
import proofs.«404458_j53163105190632_2_alg».proof.Proof.Gen.KernelIdeal.Launch
import proofs.«404458_j53163105190632_2_alg».proof.Proof.Gen.KernelIdeal.Skeleton
import proofs.«404458_j53163105190632_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-- The rectangles the body reads and writes: each is a whole block, its extents at offset zero. -/
theorem zeros2_2 : (![0, 0] : Fin 2 → Nat) = fun _ => 0 := by decide

theorem zeros2_3 : (![0, 0, 0] : Fin 3 → Nat) = fun _ => 0 := by decide

abbrev r2_0 : Rect S5000x128 := Rect.unit (s := S5000x128) ![0, 0] S5000x128.size inb_S5000x128_S5000x128_0_0

abbrev r2_1 : Rect S128x128 := Rect.unit (s := S128x128) ![0, 0] S128x128.size inb_S128x128_S128x128_0_0

abbrev r2_2 : Rect S1x128 := Rect.unit (s := S1x128) ![0, 0] S1x128.size inb_S1x128_S1x128_0_0

abbrev r2_3 : Rect S1x8x128 := Rect.unit (s := S1x8x128) ![0, 0, 0] S1x8x128.size inb_S1x8x128_S1x8x128_0_0_0

/-- The value the body stores to each output block, as a function of the four input blocks. -/
def out2_4 (x0 x1 : Vec F S5000x128 .f32) (x2 : Vec F S128x128 .f32) (x3 : Vec F S1x128 .f32) : Vec F S5000x128 .f32 :=
  View.canon [⟨r2_0, k2_pay1 (View.ld x0 r2_0) (View.ld x1 r2_0) (View.ld x2 r2_1) (View.ld x3 r2_2)⟩]

def out2_5 (x0 x1 : Vec F S5000x128 .f32) (x2 : Vec F S128x128 .f32) (x3 : Vec F S1x128 .f32) : Vec F S1x8x128 .f32 :=
  View.canon [⟨r2_3, k2_pay2 (View.ld x0 r2_0) (View.ld x1 r2_0) (View.ld x2 r2_1) (View.ld x3 r2_2)⟩]

def out2_6 (x0 x1 : Vec F S5000x128 .f32) (x2 : Vec F S128x128 .f32) (x3 : Vec F S1x128 .f32) : Vec F S1x8x128 .f32 :=
  View.canon [⟨r2_3, k2_pay3 (View.ld x0 r2_0) (View.ld x1 r2_0) (View.ld x2 r2_1) (View.ld x3 r2_2)⟩]

/-- Writing a whole block leaves the written value, and reading a whole block reads it. -/
theorem out2_4_eq (x0 x1 : Vec F S5000x128 .f32) (x2 : Vec F S128x128 .f32) (x3 : Vec F S1x128 .f32) :
    out2_4 x0 x1 x2 x3 = k2_pay1 x0 x1 x2 x3 := by
  unfold out2_4
  rw [View.canon_unit_zero zeros2_2]
  simp only [View.ld_unit_zero (S := S5000x128) zeros2_2, View.ld_unit_zero (S := S128x128) zeros2_2, View.ld_unit_zero (S := S1x128) zeros2_2]

theorem out2_5_eq (x0 x1 : Vec F S5000x128 .f32) (x2 : Vec F S128x128 .f32) (x3 : Vec F S1x128 .f32) :
    out2_5 x0 x1 x2 x3 = k2_pay2 x0 x1 x2 x3 := by
  unfold out2_5
  rw [View.canon_unit_zero zeros2_3]
  simp only [View.ld_unit_zero (S := S5000x128) zeros2_2, View.ld_unit_zero (S := S128x128) zeros2_2, View.ld_unit_zero (S := S1x128) zeros2_2]

theorem out2_6_eq (x0 x1 : Vec F S5000x128 .f32) (x2 : Vec F S128x128 .f32) (x3 : Vec F S1x128 .f32) :
    out2_6 x0 x1 x2 x3 = k2_pay3 x0 x1 x2 x3 := by
  unfold out2_6
  rw [View.canon_unit_zero zeros2_3]
  simp only [View.ld_unit_zero (S := S5000x128) zeros2_2, View.ld_unit_zero (S := S128x128) zeros2_2, View.ld_unit_zero (S := S1x128) zeros2_2]

/-- The whole-block rectangle covers every index. -/
theorem cover2_4 (p0 : Vec F S5000x128 .f32) (y : S5000x128.Idx) :
    ∃ pc ∈ ([⟨r2_0, p0⟩] : List (View.Piece (Elt F) S5000x128 .f32)), y ∈ pc.1.set :=
  ⟨_, List.mem_singleton_self _, View.mem_set_unit_zero zeros2_2 inb_S5000x128_S5000x128_0_0 y⟩

theorem cover2_5 (p0 : Vec F S1x8x128 .f32) (y : S1x8x128.Idx) :
    ∃ pc ∈ ([⟨r2_3, p0⟩] : List (View.Piece (Elt F) S1x8x128 .f32)), y ∈ pc.1.set :=
  ⟨_, List.mem_singleton_self _, View.mem_set_unit_zero zeros2_3 inb_S1x8x128_S1x8x128_0_0_0 y⟩

set_option maxHeartbeats 1000000 in

theorem sound_kernel2 (c : Dev nD) (E : Set ℕ) (i : grid2.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S5000x128 .f32) (harg5 : arg5.IsWhole) (arg6 : Memref sig .tc .vmem S1x8x128 .f32) (harg6 : arg6.IsWhole)
    (arg7 : Memref sig .tc .vmem S1x8x128 .f32) (harg7 : arg7.IsWhole)
    (x0 x1 : Vec F S5000x128 .f32) (x2 : Vec F S128x128 .f32) (x3 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out2_4 x0 x1 x2 x3)
            ∗ owns (c : Thread nD τ) arg6 fullShare (out2_5 x0 x1 x2 x3)
            ∗ owns (c : Thread nD τ) arg7 fullShare (out2_6 x0 x1 x2 x3)) -∗ K ⟨⟩))
      ⊢ wp frame (wpE (defs₀ (F := F)) Variants.none c none) E
          (cc2__lin1_kernel i arg1 harg1 arg2 harg2 arg3 harg3 arg4 harg4 arg5 harg5 arg6 harg6 arg7 harg7) K := by
  simp only [cc2__lin1_kernel_eq_skeleton]; unfold cc2__lin1_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover2_4 _)
  isplitl [H5]
  · iexists _; isplitr
    swap; · iexact H5
    ipureintro
    exact View.read_writes_eq_canon _ _ _ (cover2_5 _)
  iexists _; isplitr
  swap; · iexact H6
  ipureintro
  exact View.read_writes_eq_canon _ _ _ (cover2_5 _)

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The region's proof data: the entry arrays; after each point the input blocks unchanged and each output block at the body's value of them. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
    | ⟨5, _⟩ => out2_5 (iblk2 V c 0 t) (iblk2 V c 1 t) (iblk2 V c 2 t) (iblk2 V c 3 t)
    | ⟨6, _⟩ => out2_6 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]
theorem after2_5 (c : Dev nD) (t : Fin cfg2.N) : (dat2 V c).after 5 t = out2_5 (iblk2 V c 0 t) (iblk2 V c 1 t) (iblk2 V c 2 t) (iblk2 V c 3 t) := by dsimp only [dat2]
theorem after2_6 (c : Dev nD) (t : Fin cfg2.N) : (dat2 V c).after 6 t = out2_6 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl
theorem before2_3 (c : Dev nD) (t : Fin cfg2.N) (d) : (dat2 V c).before 3 t d = iblk2 V c 3 t :=
  ((dat2 V c).before_in_eq_fetched 3 rfl (fun _ => rfl) (fun _ _ _ => rfl) (fun _ => rfl) t d).trans rfl

set_option maxHeartbeats 1000000 in
/-- At every grid point the body is the kernel at that point's input blocks; the invariant passes through untouched. -/
theorem body_obligation2 (c : Dev nD) : BodyObligation (dat2 (F := F) V c) (defs₀ (F := F)) Variants.none () Set.univ := fun t => by
  rw [bigSep_W2, bigSep_W2]
  show _ ⊢ wp frame (wpE (defs₀ (F := F)) Variants.none c none) Set.univ (bodyAt2 t) _
  simp only [before2_0, before2_1, before2_2, before2_3]
  rw [show (dat2 V c).Φ t.succ = (dat2 V c).Φ t.castSucc from rfl,
    show (dat2 V c).owesAt () t.succ = (dat2 V c).owesAt () t.castSucc from rfl, after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  unfold bodyAt2
  iapply (sound_kernel2 c Set.univ _ _ _ _ _ _ _ _ _ _ _ _ _ _ _ (iblk2 V c 0 t) (iblk2 V c 1 t) (iblk2 V c 2 t) (iblk2 V c 3 t) _)
  iframe H0 H1 H2 H3
  isplitl [H4]; · iexists _; iexact H4
  isplitl [H5]; · iexists _; iexact H5
  isplitl [H6]; · iexists _; iexact H6
  iintro ⟨H0, H1, H2, H3, H4, H5, H6⟩
  iframe HΦ Ho H0 H1 H2 H3 H4 H5 H6

end Cert.KernelIdeal.Hand

end
-- ==== Proof.KI.R3.lean ====
import proofs.«404458_j53163105190632_2_alg».proof.Proof.Gen.KernelIdeal.Launch
import proofs.«404458_j53163105190632_2_alg».proof.Proof.Gen.KernelIdeal.Skeleton
import proofs.«404458_j53163105190632_2_alg».proof.Proof.Gen.KernelIdeal.Points
import proofs.«404458_j53163105190632_2_alg».proof.Proof.KI.R1
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-- This region runs the same kernel as region 1. -/
theorem lin2_3 : @cc3__lin2_kernel F _ = @cc1__lin2_kernel F _ := rfl

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The region's proof data: the entry arrays; after each point the input blocks unchanged and the output block at the body's value of them. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out1_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) :
    (dat3 V c).after 5 t = out1_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl
theorem before3_2 (c : Dev nD) (t : Fin cfg3.N) (d) : (dat3 V c).before 2 t d = iblk3 V c 2 t :=
  ((dat3 V c).before_in_eq_fetched 2 rfl (fun _ => rfl) (fun _ _ _ => rfl) (fun _ => rfl) t d).trans rfl
theorem before3_3 (c : Dev nD) (t : Fin cfg3.N) (d) : (dat3 V c).before 3 t d = iblk3 V c 3 t :=
  ((dat3 V c).before_in_eq_fetched 3 rfl (fun _ => rfl) (fun _ _ _ => rfl) (fun _ => rfl) t d).trans rfl
theorem before3_4 (c : Dev nD) (t : Fin cfg3.N) (d) : (dat3 V c).before 4 t d = iblk3 V c 4 t :=
  ((dat3 V c).before_in_eq_fetched 4 rfl (fun _ => rfl) (fun _ _ _ => rfl) (fun _ => rfl) t d).trans rfl

set_option maxHeartbeats 1000000 in
/-- At every grid point the body is the kernel at that point's input blocks; the invariant passes through untouched. -/
theorem body_obligation3 (c : Dev nD) : BodyObligation (dat3 (F := F) V c) (defs₀ (F := F)) Variants.none () Set.univ := fun t => by
  rw [bigSep_W3, bigSep_W3]
  show _ ⊢ wp frame (wpE (defs₀ (F := F)) Variants.none c none) Set.univ (bodyAt3 t) _
  simp only [before3_0, before3_1, before3_2, before3_3, before3_4]
  rw [show (dat3 V c).Φ t.succ = (dat3 V c).Φ t.castSucc from rfl,
    show (dat3 V c).owesAt () t.succ = (dat3 V c).owesAt () t.castSucc from rfl, after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  unfold bodyAt3; rw [lin2_3]
  iapply (sound_kernel1 c Set.univ _ _ _ _ _ _ _ _ _ _ _ _ _
    (iblk3 V c 0 t) (iblk3 V c 1 t) (iblk3 V c 2 t) (iblk3 V c 3 t) (iblk3 V c 4 t) _)
  iframe H0 H1 H2 H3 H4
  isplitl [H5]; · iexists _; iexact H5
  iintro ⟨H0, H1, H2, H3, H4, H5⟩
  iframe HΦ Ho H0 H1 H2 H3 H4 H5

end Cert.KernelIdeal.Hand

end
-- ==== Proof.KI.R4.lean ====
import proofs.«404458_j53163105190632_2_alg».proof.Proof.Gen.KernelIdeal.Launch
import proofs.«404458_j53163105190632_2_alg».proof.Proof.Gen.KernelIdeal.Skeleton
import proofs.«404458_j53163105190632_2_alg».proof.Proof.Gen.KernelIdeal.Points
import proofs.«404458_j53163105190632_2_alg».proof.Proof.KI.R2
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-- This region runs the same kernel as region 2. -/
theorem lin1_4 : @cc4__lin1_kernel F _ = @cc2__lin1_kernel F _ := rfl

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The region's proof data: the entry arrays; after each point the input blocks unchanged and each output block at the body's value of them. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out2_4 (iblk4 V c 0 t) (iblk4 V c 1 t) (iblk4 V c 2 t) (iblk4 V c 3 t)
    | ⟨5, _⟩ => out2_5 (iblk4 V c 0 t) (iblk4 V c 1 t) (iblk4 V c 2 t) (iblk4 V c 3 t)
    | ⟨6, _⟩ => out2_6 (iblk4 V c 0 t) (iblk4 V c 1 t) (iblk4 V c 2 t) (iblk4 V c 3 t)
  Φ _ := Pipeline.ΦA spec4 c
  q _ := fullShare
  owed _ := 0

theorem A_eq4 (c : Dev nD) (w : Fin cfg4.W) : (dat4 V c).A w = V c (Pipeline.arrRef spec4 w) := by dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = out2_4 (iblk4 V c 0 t) (iblk4 V c 1 t) (iblk4 V c 2 t) (iblk4 V c 3 t) := by dsimp only [dat4]
theorem after4_5 (c : Dev nD) (t : Fin cfg4.N) : (dat4 V c).after 5 t = out2_5 (iblk4 V c 0 t) (iblk4 V c 1 t) (iblk4 V c 2 t) (iblk4 V c 3 t) := by dsimp only [dat4]
theorem after4_6 (c : Dev nD) (t : Fin cfg4.N) : (dat4 V c).after 6 t = out2_6 (iblk4 V c 0 t) (iblk4 V c 1 t) (iblk4 V c 2 t) (iblk4 V c 3 t) := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun _ => rfl) t d).trans rfl
theorem before4_1 (c : Dev nD) (t : Fin cfg4.N) (d) : (dat4 V c).before 1 t d = iblk4 V c 1 t :=
  ((dat4 V c).before_in_eq_fetched 1 rfl (fun _ => rfl) (fun _ _ _ => rfl) (fun _ => rfl) t d).trans rfl
theorem before4_2 (c : Dev nD) (t : Fin cfg4.N) (d) : (dat4 V c).before 2 t d = iblk4 V c 2 t :=
  ((dat4 V c).before_in_eq_fetched 2 rfl (fun _ => rfl) (fun _ _ _ => rfl) (fun _ => rfl) t d).trans rfl
theorem before4_3 (c : Dev nD) (t : Fin cfg4.N) (d) : (dat4 V c).before 3 t d = iblk4 V c 3 t :=
  ((dat4 V c).before_in_eq_fetched 3 rfl (fun _ => rfl) (fun _ _ _ => rfl) (fun _ => rfl) t d).trans rfl

set_option maxHeartbeats 1000000 in
/-- At every grid point the body is the kernel at that point's input blocks; the invariant passes through untouched. -/
theorem body_obligation4 (c : Dev nD) : BodyObligation (dat4 (F := F) V c) (defs₀ (F := F)) Variants.none () Set.univ := fun t => by
  rw [bigSep_W4, bigSep_W4]
  show _ ⊢ wp frame (wpE (defs₀ (F := F)) Variants.none c none) Set.univ (bodyAt4 t) _
  simp only [before4_0, before4_1, before4_2, before4_3]
  rw [show (dat4 V c).Φ t.succ = (dat4 V c).Φ t.castSucc from rfl,
    show (dat4 V c).owesAt () t.succ = (dat4 V c).owesAt () t.castSucc from rfl, after4_0, after4_1, after4_2, after4_3, after4_4, after4_5, after4_6]
  iintro ⟨HΦ, Ho, ⟨%d0, H0⟩, ⟨%d1, H1⟩, ⟨%d2, H2⟩, ⟨%d3, H3⟩, ⟨%d4, H4⟩, ⟨%d5, H5⟩, ⟨%d6, H6⟩⟩
  unfold bodyAt4; rw [lin1_4]
  iapply (sound_kernel2 c Set.univ _ _ _ _ _ _ _ _ _ _ _ _ _ _ _ (iblk4 V c 0 t) (iblk4 V c 1 t) (iblk4 V c 2 t) (iblk4 V c 3 t) _)
  iframe H0 H1 H2 H3
  isplitl [H4]; · iexists _; iexact H4
  isplitl [H5]; · iexists _; iexact H5
  isplitl [H6]; · iexists _; iexact H6
  iintro ⟨H0, H1, H2, H3, H4, H5, H6⟩
  iframe HΦ Ho H0 H1 H2 H3 H4 H5 H6

end Cert.KernelIdeal.Hand

end
-- ==== Proof.KI.R5.lean ====
import proofs.«404458_j53163105190632_2_alg».proof.Proof.Gen.KernelIdeal.Launch
import proofs.«404458_j53163105190632_2_alg».proof.Proof.Gen.KernelIdeal.Skeleton
import proofs.«404458_j53163105190632_2_alg».proof.Proof.Gen.KernelIdeal.Points
import proofs.«404458_j53163105190632_2_alg».proof.Proof.KI.R1
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-- This region runs the same kernel as region 1. -/
theorem lin2_5 : @cc5__lin2_kernel F _ = @cc1__lin2_kernel F _ := rfl

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The region's proof data: the entry arrays; after each point the input blocks unchanged and the output block at the body's value of them. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out1_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by dsimp only [dat5]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) :
    (dat5 V c).after 5 t = out1_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl) (fun _ => rfl) t d).trans rfl
theorem before5_1 (c : Dev nD) (t : Fin cfg5.N) (d) : (dat5 V c).before 1 t d = iblk5 V c 1 t :=
  ((dat5 V c).before_in_eq_fetched 1 rfl (fun _ => rfl) (fun _ _ _ => rfl) (fun _ => rfl) t d).trans rfl
theorem before5_2 (c : Dev nD) (t : Fin cfg5.N) (d) : (dat5 V c).before 2 t d = iblk5 V c 2 t :=
  ((dat5 V c).before_in_eq_fetched 2 rfl (fun _ => rfl) (fun _ _ _ => rfl) (fun _ => rfl) t d).trans rfl
theorem before5_3 (c : Dev nD) (t : Fin cfg5.N) (d) : (dat5 V c).before 3 t d = iblk5 V c 3 t :=
  ((dat5 V c).before_in_eq_fetched 3 rfl (fun _ => rfl) (fun _ _ _ => rfl) (fun _ => rfl) t d).trans rfl
theorem before5_4 (c : Dev nD) (t : Fin cfg5.N) (d) : (dat5 V c).before 4 t d = iblk5 V c 4 t :=
  ((dat5 V c).before_in_eq_fetched 4 rfl (fun _ => rfl) (fun _ _ _ => rfl) (fun _ => rfl) t d).trans rfl

set_option maxHeartbeats 1000000 in
/-- At every grid point the body is the kernel at that point's input blocks; the invariant passes through untouched. -/
theorem body_obligation5 (c : Dev nD) : BodyObligation (dat5 (F := F) V c) (defs₀ (F := F)) Variants.none () Set.univ := fun t => by
  rw [bigSep_W5, bigSep_W5]
  show _ ⊢ wp frame (wpE (defs₀ (F := F)) Variants.none c none) Set.univ (bodyAt5 t) _
  simp only [before5_0, before5_1, before5_2, before5_3, before5_4]
  rw [show (dat5 V c).Φ t.succ = (dat5 V c).Φ t.castSucc from rfl,
    show (dat5 V c).owesAt () t.succ = (dat5 V c).owesAt () t.castSucc from rfl, after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  unfold bodyAt5; rw [lin2_5]
  iapply (sound_kernel1 c Set.univ _ _ _ _ _ _ _ _ _ _ _ _ _
    (iblk5 V c 0 t) (iblk5 V c 1 t) (iblk5 V c 2 t) (iblk5 V c 3 t) (iblk5 V c 4 t) _)
  iframe H0 H1 H2 H3 H4
  isplitl [H5]; · iexists _; iexact H5
  iintro ⟨H0, H1, H2, H3, H4, H5⟩
  iframe HΦ Ho H0 H1 H2 H3 H4 H5

end Cert.KernelIdeal.Hand

end
-- ==== Proof.KI.R6.lean ====
import proofs.«404458_j53163105190632_2_alg».proof.Proof.Gen.KernelIdeal.Launch
import proofs.«404458_j53163105190632_2_alg».proof.Proof.Gen.KernelIdeal.Skeleton
import proofs.«404458_j53163105190632_2_alg».proof.Proof.Gen.KernelIdeal.Points
import proofs.«404458_j53163105190632_2_alg».proof.Proof.KI.R2
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-- This region runs the same kernel as region 2. -/
theorem lin1_6 : @cc6__lin1_kernel F _ = @cc2__lin1_kernel F _ := rfl

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The region's proof data: the entry arrays; after each point the input blocks unchanged and each output block at the body's value of them. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => out2_4 (iblk6 V c 0 t) (iblk6 V c 1 t) (iblk6 V c 2 t) (iblk6 V c 3 t)
    | ⟨5, _⟩ => out2_5 (iblk6 V c 0 t) (iblk6 V c 1 t) (iblk6 V c 2 t) (iblk6 V c 3 t)
    | ⟨6, _⟩ => out2_6 (iblk6 V c 0 t) (iblk6 V c 1 t) (iblk6 V c 2 t) (iblk6 V c 3 t)
  Φ _ := Pipeline.ΦA spec6 c
  q _ := fullShare
  owed _ := 0

theorem A_eq6 (c : Dev nD) (w : Fin cfg6.W) : (dat6 V c).A w = V c (Pipeline.arrRef spec6 w) := by dsimp only [dat6]
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = out2_4 (iblk6 V c 0 t) (iblk6 V c 1 t) (iblk6 V c 2 t) (iblk6 V c 3 t) := by dsimp only [dat6]
theorem after6_5 (c : Dev nD) (t : Fin cfg6.N) : (dat6 V c).after 5 t = out2_5 (iblk6 V c 0 t) (iblk6 V c 1 t) (iblk6 V c 2 t) (iblk6 V c 3 t) := by dsimp only [dat6]
theorem after6_6 (c : Dev nD) (t : Fin cfg6.N) : (dat6 V c).after 6 t = out2_6 (iblk6 V c 0 t) (iblk6 V c 1 t) (iblk6 V c 2 t) (iblk6 V c 3 t) := by dsimp only [dat6]

theorem before6_0 (c : Dev nD) (t : Fin cfg6.N) (d) : (dat6 V c).before 0 t d = iblk6 V c 0 t :=
  ((dat6 V c).before_in_eq_fetched 0 rfl (fun _ => rfl) (fun _ _ _ => rfl) (fun _ => rfl) t d).trans rfl
theorem before6_1 (c : Dev nD) (t : Fin cfg6.N) (d) : (dat6 V c).before 1 t d = iblk6 V c 1 t :=
  ((dat6 V c).before_in_eq_fetched 1 rfl (fun _ => rfl) (fun _ _ _ => rfl) (fun _ => rfl) t d).trans rfl
theorem before6_2 (c : Dev nD) (t : Fin cfg6.N) (d) : (dat6 V c).before 2 t d = iblk6 V c 2 t :=
  ((dat6 V c).before_in_eq_fetched 2 rfl (fun _ => rfl) (fun _ _ _ => rfl) (fun _ => rfl) t d).trans rfl
theorem before6_3 (c : Dev nD) (t : Fin cfg6.N) (d) : (dat6 V c).before 3 t d = iblk6 V c 3 t :=
  ((dat6 V c).before_in_eq_fetched 3 rfl (fun _ => rfl) (fun _ _ _ => rfl) (fun _ => rfl) t d).trans rfl

set_option maxHeartbeats 1000000 in
/-- At every grid point the body is the kernel at that point's input blocks; the invariant passes through untouched. -/
theorem body_obligation6 (c : Dev nD) : BodyObligation (dat6 (F := F) V c) (defs₀ (F := F)) Variants.none () Set.univ := fun t => by
  rw [bigSep_W6, bigSep_W6]
  show _ ⊢ wp frame (wpE (defs₀ (F := F)) Variants.none c none) Set.univ (bodyAt6 t) _
  simp only [before6_0, before6_1, before6_2, before6_3]
  rw [show (dat6 V c).Φ t.succ = (dat6 V c).Φ t.castSucc from rfl,
    show (dat6 V c).owesAt () t.succ = (dat6 V c).owesAt () t.castSucc from rfl, after6_0, after6_1, after6_2, after6_3, after6_4, after6_5, after6_6]
  iintro ⟨HΦ, Ho, ⟨%d0, H0⟩, ⟨%d1, H1⟩, ⟨%d2, H2⟩, ⟨%d3, H3⟩, ⟨%d4, H4⟩, ⟨%d5, H5⟩, ⟨%d6, H6⟩⟩
  unfold bodyAt6; rw [lin1_6]
  iapply (sound_kernel2 c Set.univ _ _ _ _ _ _ _ _ _ _ _ _ _ _ _ (iblk6 V c 0 t) (iblk6 V c 1 t) (iblk6 V c 2 t) (iblk6 V c 3 t) _)
  iframe H0 H1 H2 H3
  isplitl [H4]; · iexists _; iexact H4
  isplitl [H5]; · iexists _; iexact H5
  isplitl [H6]; · iexists _; iexact H6
  iintro ⟨H0, H1, H2, H3, H4, H5, H6⟩
  iframe HΦ Ho H0 H1 H2 H3 H4 H5 H6

end Cert.KernelIdeal.Hand

end
-- ==== Proof.KI.R7.lean ====
import proofs.«404458_j53163105190632_2_alg».proof.Proof.Gen.KernelIdeal.Launch
import proofs.«404458_j53163105190632_2_alg».proof.Proof.Gen.KernelIdeal.Skeleton
import proofs.«404458_j53163105190632_2_alg».proof.Proof.Gen.KernelIdeal.Points
import proofs.«404458_j53163105190632_2_alg».proof.Proof.KI.R1
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-- This region runs the same kernel as region 1. -/
theorem lin2_7 : @cc7__lin2_kernel F _ = @cc1__lin2_kernel F _ := rfl

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The region's proof data: the entry arrays; after each point the input blocks unchanged and the output block at the body's value of them. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out1_5 (iblk7 V c 0 t) (iblk7 V c 1 t) (iblk7 V c 2 t) (iblk7 V c 3 t) (iblk7 V c 4 t)
  Φ _ := Pipeline.ΦA spec7 c
  q _ := fullShare
  owed _ := 0

theorem A_eq7 (c : Dev nD) (w : Fin cfg7.W) : (dat7 V c).A w = V c (Pipeline.arrRef spec7 w) := by dsimp only [dat7]
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) :
    (dat7 V c).after 5 t = out1_5 (iblk7 V c 0 t) (iblk7 V c 1 t) (iblk7 V c 2 t) (iblk7 V c 3 t) (iblk7 V c 4 t) := by dsimp only [dat7]

theorem before7_0 (c : Dev nD) (t : Fin cfg7.N) (d) : (dat7 V c).before 0 t d = iblk7 V c 0 t :=
  ((dat7 V c).before_in_eq_fetched 0 rfl (fun _ => rfl) (fun _ _ _ => rfl) (fun _ => rfl) t d).trans rfl
theorem before7_1 (c : Dev nD) (t : Fin cfg7.N) (d) : (dat7 V c).before 1 t d = iblk7 V c 1 t :=
  ((dat7 V c).before_in_eq_fetched 1 rfl (fun _ => rfl) (fun _ _ _ => rfl) (fun _ => rfl) t d).trans rfl
theorem before7_2 (c : Dev nD) (t : Fin cfg7.N) (d) : (dat7 V c).before 2 t d = iblk7 V c 2 t :=
  ((dat7 V c).before_in_eq_fetched 2 rfl (fun _ => rfl) (fun _ _ _ => rfl) (fun _ => rfl) t d).trans rfl
theorem before7_3 (c : Dev nD) (t : Fin cfg7.N) (d) : (dat7 V c).before 3 t d = iblk7 V c 3 t :=
  ((dat7 V c).before_in_eq_fetched 3 rfl (fun _ => rfl) (fun _ _ _ => rfl) (fun _ => rfl) t d).trans rfl
theorem before7_4 (c : Dev nD) (t : Fin cfg7.N) (d) : (dat7 V c).before 4 t d = iblk7 V c 4 t :=
  ((dat7 V c).before_in_eq_fetched 4 rfl (fun _ => rfl) (fun _ _ _ => rfl) (fun _ => rfl) t d).trans rfl

set_option maxHeartbeats 1000000 in
/-- At every grid point the body is the kernel at that point's input blocks; the invariant passes through untouched. -/
theorem body_obligation7 (c : Dev nD) : BodyObligation (dat7 (F := F) V c) (defs₀ (F := F)) Variants.none () Set.univ := fun t => by
  rw [bigSep_W7, bigSep_W7]
  show _ ⊢ wp frame (wpE (defs₀ (F := F)) Variants.none c none) Set.univ (bodyAt7 t) _
  simp only [before7_0, before7_1, before7_2, before7_3, before7_4]
  rw [show (dat7 V c).Φ t.succ = (dat7 V c).Φ t.castSucc from rfl,
    show (dat7 V c).owesAt () t.succ = (dat7 V c).owesAt () t.castSucc from rfl, after7_0, after7_1, after7_2, after7_3, after7_4, after7_5]
  iintro ⟨HΦ, Ho, ⟨%d0, H0⟩, ⟨%d1, H1⟩, ⟨%d2, H2⟩, ⟨%d3, H3⟩, ⟨%d4, H4⟩, ⟨%d5, H5⟩⟩
  unfold bodyAt7; rw [lin2_7]
  iapply (sound_kernel1 c Set.univ _ _ _ _ _ _ _ _ _ _ _ _ _
    (iblk7 V c 0 t) (iblk7 V c 1 t) (iblk7 V c 2 t) (iblk7 V c 3 t) (iblk7 V c 4 t) _)
  iframe H0 H1 H2 H3 H4
  isplitl [H5]; · iexists _; iexact H5
  iintro ⟨H0, H1, H2, H3, H4, H5⟩
  iframe HΦ Ho H0 H1 H2 H3 H4 H5

end Cert.KernelIdeal.Hand

end
-- ==== Proof.KI.R8a.lean ====
import proofs.«404458_j53163105190632_2_alg».proof.Proof.Gen.KernelIdeal.Launch
import proofs.«404458_j53163105190632_2_alg».proof.Proof.Gen.KernelIdeal.Skeleton
import proofs.«404458_j53163105190632_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond8_1 (i : grid8.Coords) : Prop := (Scalar.cmpi .ne (Scalar.extui (Scalar.cmpi .eq (BitVec.ofNat 32 (i 0).val) 0#32)) 0#32) = 1#1
abbrev cond8_2 (i : grid8.Coords) : Prop := k8_cond2 i = 1#1

theorem zeros2 : (![0, 0] : Fin 2 → Nat) = fun _ => 0 := by funext a; fin_cases a <;> rfl

theorem readAt_full {sp : Space} {S : Shape} {e : EltTy} (v : View sig .tc sp S e) (f : v.ty.Contents (Elt F))
    {off : Fin S.rank → Nat} (h : off = fun _ => 0) (inb : ∀ a, off a + S.size a ≤ S.size a) :
    v.readAt (Elt F) (Rect.unit off S.size inb).toLoadRect f = v.read (Elt F) f :=
  View.ld_unit_zero h inb _

theorem read_writes_full {sp : Space} {S : Shape} {e : EltTy} (v : View sig .tc sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w :=
  (View.read_writes_eq_canon v f (⟨Rect.unit off S.size inb, w⟩ :: L)
    (fun y => ⟨⟨Rect.unit off S.size inb, w⟩, List.mem_cons_self, View.mem_set_unit_zero (S := S) h inb y⟩)).trans
    (View.canon_cons_unit_zero h inb w L)

variable (c : Dev nD) (E : Set ℕ) (i : grid8.Coords)
    (arg1 : Memref sig .tc .vmem S12800x128 .f32) (harg1 : arg1.IsWhole) (arg2 : Memref sig .tc .vmem S1x12800 .i32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x32 .f32) (harg5 : arg5.IsWhole) (arg6 : Memref sig .tc .vmem S1x32 .f32) (harg6 : arg6.IsWhole)
    (arg7 : Memref sig .tc .vmem S128x32 .f32) (harg7 : arg7.IsWhole) (arg8 : Memref sig .tc .vmem S128x128 .f32) (harg8 : arg8.IsWhole)

set_option maxHeartbeats 1000000 in
theorem sound_first8 (hc1 : cond8_1 i) (hc2 : ¬cond8_2 i)
    (x0 : Vec F S12800x128 .f32) (x1 : Vec F S1x12800 .i32) (K : PUnit → sProp 𝕄) :
    iprop(owns (c : Thread nD τ) arg1 fullShare x0 ∗ owns (c : Thread nD τ) arg2 fullShare x1 ∗ (∃ a, owns (c : Thread nD τ) arg8 fullShare a)
        ∗ (iprop(owns (c : Thread nD τ) arg1 fullShare x0 ∗ owns (c : Thread nD τ) arg2 fullShare x1
            ∗ owns (c : Thread nD τ) arg8 fullShare (k8_pay2 x1 x0 (k8_pay1 (F := F)))) -∗ K ⟨⟩))
      ⊢ wp frame (wpE (defs₀ (F := F)) Variants.none c none) E (cc8__pool_mlp_kernel i arg1 harg1 arg2 harg2 arg3 harg3 arg4 harg4 arg5 harg5 arg6 harg6 arg7 harg7 arg8 harg8) K := by
  simp only [cc8__pool_mlp_kernel_eq_skeleton]; unfold cc8__pool_mlp_kernel_skel
  unfold owns
  iintro ⟨⟨%f1, %hf1, H1⟩, ⟨%f2, %hf2, H2⟩, ⟨%a, %f8, -, H8⟩, Hk⟩
  subst hf1; subst hf2
  sl_exec (disch := first | exact hc1 | exact hc2)
  sl_step
  iapply Hk
  isplitl [H1]
  · iexists f1; isplitr; · ipureintro; rfl
    iexact H1
  isplitl [H2]
  · iexists f2; isplitr; · ipureintro; rfl
    iexact H2
  iexists _; isplitr
  swap; · iexact H8
  ipureintro
  sl_unfold_words
  rw [read_writes_full (S := S128x128) _ _ zeros2, readAt_full (S := S1x12800) _ _ zeros2, readAt_full (S := S12800x128) _ _ zeros2,
    View.readCov_unit_zero (S := S128x128) _ zeros2]

set_option maxHeartbeats 1000000 in
theorem sound_mid8 (hc1 : ¬cond8_1 i) (hc2 : ¬cond8_2 i)
    (x0 : Vec F S12800x128 .f32) (x1 : Vec F S1x12800 .i32) (a : Vec F S128x128 .f32) (K : PUnit → sProp 𝕄) :
    iprop(owns (c : Thread nD τ) arg1 fullShare x0 ∗ owns (c : Thread nD τ) arg2 fullShare x1 ∗ owns (c : Thread nD τ) arg8 fullShare a
        ∗ (iprop(owns (c : Thread nD τ) arg1 fullShare x0 ∗ owns (c : Thread nD τ) arg2 fullShare x1
            ∗ owns (c : Thread nD τ) arg8 fullShare (k8_pay2 x1 x0 a)) -∗ K ⟨⟩))
      ⊢ wp frame (wpE (defs₀ (F := F)) Variants.none c none) E (cc8__pool_mlp_kernel i arg1 harg1 arg2 harg2 arg3 harg3 arg4 harg4 arg5 harg5 arg6 harg6 arg7 harg7 arg8 harg8) K := by
  simp only [cc8__pool_mlp_kernel_eq_skeleton]; unfold cc8__pool_mlp_kernel_skel
  unfold owns
  iintro ⟨⟨%f1, %hf1, H1⟩, ⟨%f2, %hf2, H2⟩, ⟨%f8, %hf8, H8⟩, Hk⟩
  subst hf1; subst hf2; subst hf8
  sl_exec (disch := first | exact hc1 | exact hc2)
  sl_step
  iapply Hk
  isplitl [H1]
  · iexists f1; isplitr; · ipureintro; rfl
    iexact H1
  isplitl [H2]
  · iexists f2; isplitr; · ipureintro; rfl
    iexact H2
  iexists _; isplitr
  swap; · iexact H8
  ipureintro
  rw [read_writes_full (S := S128x128) _ _ zeros2, readAt_full (S := S1x12800) _ _ zeros2, readAt_full (S := S12800x128) _ _ zeros2,
    readAt_full (S := S128x128) _ _ zeros2]

set_option maxHeartbeats 1000000 in
theorem sound_last8 (hc1 : ¬cond8_1 i) (hc2 : cond8_2 i)
    (x0 : Vec F S12800x128 .f32) (x1 : Vec F S1x12800 .i32) (x2 : Vec F S128x128 .f32) (x3 : Vec F S1x128 .f32)
    (x4 : Vec F S128x32 .f32) (x5 : Vec F S1x32 .f32) (a : Vec F S128x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d) ∗ owns (c : Thread nD τ) arg8 fullShare a
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (k8_pay3 (k8_pay2 x1 x0 a) x2 x3 x4 x5)
            ∗ owns (c : Thread nD τ) arg8 fullShare (k8_pay2 x1 x0 a)) -∗ K ⟨⟩))
      ⊢ wp frame (wpE (defs₀ (F := F)) Variants.none c none) E (cc8__pool_mlp_kernel i arg1 harg1 arg2 harg2 arg3 harg3 arg4 harg4 arg5 harg5 arg6 harg6 arg7 harg7 arg8 harg8) K := by
  simp only [cc8__pool_mlp_kernel_eq_skeleton]; unfold cc8__pool_mlp_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
  subst hf1; subst hf2; subst hf3; subst hf4; subst hf5; subst hf6; subst hf8
  sl_exec (disch := first | exact hc1 | exact hc2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    sl_unfold_words
    rw [read_writes_full (S := S128x32) _ _ zeros2, View.readCov_unit_zero (S := S128x128) _ zeros2,
      readAt_full (S := S1x12800) _ _ zeros2, readAt_full (S := S12800x128) _ _ zeros2,
      readAt_full (S := S128x128) arg8.view _ zeros2, readAt_full (S := S128x128) arg3.view _ zeros2,
      readAt_full (S := S1x128) _ _ zeros2, readAt_full (S := S128x32) _ _ zeros2, readAt_full (S := S1x32) _ _ zeros2]
  iexists _; isplitr
  swap; · iexact H8
  ipureintro
  sl_unfold_words
  rw [read_writes_full (S := S128x128) _ _ zeros2, readAt_full (S := S1x12800) _ _ zeros2, readAt_full (S := S12800x128) _ _ zeros2,
    readAt_full (S := S128x128) _ _ zeros2]

end Cert.KernelIdeal.Hand

end
-- ==== Proof.KI.R8b.lean ====
import proofs.«404458_j53163105190632_2_alg».proof.Proof.KI.R8a

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hcond8_1 : ∀ t : Fin cfg8.N, cond8_1 (grid8.coords t) ↔ t.val = 0 := by decide +kernel
theorem hcond8_2 : ∀ t : Fin cfg8.N, cond8_2 (grid8.coords t) ↔ t.val = 7 := by decide +kernel
/-- No window but the output's is idle at any point. -/
theorem liveAt8 : ∀ w : Fin cfg8.W, w ≠ 6 → ∀ t : Fin cfg8.N, cfg8.idle w (grid8.coords t) = false := by decide +kernel
theorem idleAt8_6 : ∀ t : Fin cfg8.N, ¬cond8_2 (grid8.coords t) → idle8 6 (grid8.coords t) = true := by decide +kernel
theorem noFlush8_6 : ∀ t : Fin cfg8.N, ¬cond8_2 (grid8.coords t) → (cfg8.win 6).flush t = false := by decide +kernel
theorem liveAt8_6 : ∀ t : Fin cfg8.N, cond8_2 (grid8.coords t) → idle8 6 (grid8.coords t) = false := by decide +kernel

section Region8

variable (V : (c : Dev nD) → (b : Ref sig .tc) → Buf (Elt F) ((c : Thread nD τ).loc b))

noncomputable def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

noncomputable def acc8 (c : Dev nD) : ℕ → Vec F S128x128 .f32
  | 0 => k8_pay1
  | n + 1 => if h : n < cfg8.N then k8_pay2 (iblk8 V c 1 ⟨n, h⟩) (iblk8 V c 0 ⟨n, h⟩) (acc8 c n) else acc8 c n

theorem acc8_zero (c : Dev nD) : acc8 V c 0 = k8_pay1 (F := F) := rfl

theorem acc8_succ (c : Dev nD) (t : Fin cfg8.N) :
    acc8 V c (t.val + 1) = k8_pay2 (iblk8 V c 1 t) (iblk8 V c 0 t) (acc8 V c t.val) := by
  show (if h : t.val < cfg8.N then k8_pay2 (iblk8 V c 1 ⟨t.val, h⟩) (iblk8 V c 0 ⟨t.val, h⟩) (acc8 V c t.val) else acc8 V c t.val) = _
  rw [dif_pos t.isLt]

noncomputable def out8_6 (a : Vec F S128x128 .f32) (x2 : Vec F S128x128 .f32) (x3 : Vec F S1x128 .f32) (x4 : Vec F S128x32 .f32)
    (x5 : Vec F S1x32 .f32) : Vec F S128x32 .f32 :=
  k8_pay3 a x2 x3 x4 x5

theorem out8_6_eq (a : Vec F S128x128 .f32) (x2 : Vec F S128x128 .f32) (x3 : Vec F S1x128 .f32) (x4 : Vec F S128x32 .f32)
    (x5 : Vec F S1x32 .f32) : out8_6 a x2 x3 x4 x5 = k8_pay3 a x2 x3 x4 x5 := rfl

noncomputable abbrev scM8 : Memref sig .tc .vmem S128x128 .f32 := Memref.whole cc8_scratch0

noncomputable def Phi8 (c : Dev nD) (n : ℕ) : sProp 𝕄 :=
  iprop(iprop((∃ X : Vec F S128x128 .f32, ⌜0 < n → X = acc8 V c n⌝ ∗ owns (c : Thread nD τ) scM8 fullShare X))
    ∗ Pipeline.scopedRestBut (Ix := Unit) (Name := ℕ) (U := UR sig nD τ) (Lvl := ℕ) (Val := Elt F) spec8 c [cc8_scratch0]
    ∗ (∃ r, prngReg c r))

noncomputable def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => out8_6 (acc8 V c (t.val + 1)) (iblk8 V c 2 t) (iblk8 V c 3 t) (iblk8 V c 4 t) (iblk8 V c 5 t)
  Φ t := Phi8 V c t.val
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) :
    (dat8 V c).after 6 t = out8_6 (acc8 V c (t.val + 1)) (iblk8 V c 2 t) (iblk8 V c 3 t) (iblk8 V c 4 t) (iblk8 V c 5 t) := by
  dsimp only [dat8]

theorem Phi_eq8 (c : Dev nD) (t : Fin (cfg8.N + 1)) : (dat8 V c).Φ t = Phi8 V c t.val := by dsimp only [dat8]

theorem before8_0 (c : Dev nD) (t : Fin cfg8.N) (d) : (dat8 V c).before 0 t d = iblk8 V c 0 t :=
  ((dat8 V c).before_in_eq_fetched 0 rfl (fun _ => rfl) (fun _ _ _ => rfl) (fun _ => rfl) t d).trans rfl
theorem before8_1 (c : Dev nD) (t : Fin cfg8.N) (d) : (dat8 V c).before 1 t d = iblk8 V c 1 t :=
  ((dat8 V c).before_in_eq_fetched 1 rfl (fun _ => rfl) (fun _ _ _ => rfl) (fun _ => rfl) t d).trans rfl
theorem before8_2 (c : Dev nD) (t : Fin cfg8.N) (d) : (dat8 V c).before 2 t d = iblk8 V c 2 t :=
  ((dat8 V c).before_in_eq_fetched 2 rfl (fun _ => rfl) (fun _ _ _ => rfl) (fun _ => rfl) t d).trans rfl
theorem before8_3 (c : Dev nD) (t : Fin cfg8.N) (d) : (dat8 V c).before 3 t d = iblk8 V c 3 t :=
  ((dat8 V c).before_in_eq_fetched 3 rfl (fun _ => rfl) (fun _ _ _ => rfl) (fun _ => rfl) t d).trans rfl
theorem before8_4 (c : Dev nD) (t : Fin cfg8.N) (d) : (dat8 V c).before 4 t d = iblk8 V c 4 t :=
  ((dat8 V c).before_in_eq_fetched 4 rfl (fun _ => rfl) (fun _ _ _ => rfl) (fun _ => rfl) t d).trans rfl
theorem before8_5 (c : Dev nD) (t : Fin cfg8.N) (d) : (dat8 V c).before 5 t d = iblk8 V c 5 t :=
  ((dat8 V c).before_in_eq_fetched 5 rfl (fun _ => rfl) (fun _ _ _ => rfl) (fun _ => rfl) t d).trans rfl

theorem hin8 (c : Dev nD) :
    (iprop((∃ r, prngReg c r) ∗ Pipeline.scopedRest (Ix := Unit) (Name := ℕ) (U := UR sig nD τ) (Lvl := ℕ) (Val := Elt F) spec8 c) : sProp 𝕄)
      ⊢ (dat8 V c).Φ 0 := by
  rw [Phi_eq8, scopedRest8_split]
  unfold Phi8
  simp only [scM8, owns_whole]
  iintro ⟨Hg, ⟨%f, HS⟩, HR⟩
  iframe HR Hg
  iexists f; iframe HS
  ipureintro; exact fun h => absurd h (Nat.lt_irrefl 0)

theorem hout8 (c : Dev nD) :
    (dat8 V c).Φ (Fin.last cfg8.N)
      ⊢ (iprop((∃ r, prngReg c r) ∗ Pipeline.scopedRest (Ix := Unit) (Name := ℕ) (U := UR sig nD τ) (Lvl := ℕ) (Val := Elt F) spec8 c) : sProp 𝕄) := by
  rw [Phi_eq8, scopedRest8_split]
  unfold Phi8
  simp only [scM8, owns_whole]
  iintro ⟨⟨%X, -, HS⟩, HR, Hg⟩
  iframe HR Hg
  iexists X; iexact HS

end Region8

section Body8

variable (V : (c : Dev nD) → (b : Ref sig .tc) → Buf (Elt F) ((c : Thread nD τ).loc b))

set_option maxHeartbeats 4800000 in
/-- The body at a point is the kernel at the first, a middle or the last point: the accumulator goes in at the sums so far and comes back with this block's added; the output's buffer changes at the last point only. -/
theorem body_obligation8 (c : Dev nD) : BodyObligation (dat8 (F := F) V c) (defs₀ (F := F)) Variants.none () Set.univ := fun t => by
  rw [bigSep_W8, bigSep_W8]
  show _ ⊢ wp frame (wpE (defs₀ (F := F)) Variants.none c none) Set.univ (bodyAt8 t) _
  simp only [before8_0, before8_1, before8_2, before8_3, before8_4, before8_5, liveAt8 0 (by decide) t, liveAt8 1 (by decide) t,
    liveAt8 2 (by decide) t, liveAt8 3 (by decide) t, liveAt8 4 (by decide) t, liveAt8 5 (by decide) t, after8_0, after8_1, after8_2,
    after8_3, after8_4, after8_5]
  rw [show (dat8 V c).owesAt () t.succ = (dat8 V c).owesAt () t.castSucc from rfl, Phi_eq8, Phi_eq8]
  simp only [Fin.coe_castSucc, Fin.val_succ]
  unfold Phi8
  by_cases h0 : t.val = 0
  · have hc1 : cond8_1 (grid8.coords t) := (hcond8_1 t).mpr h0
    have hc2 : ¬cond8_2 (grid8.coords t) := fun h => by have := (hcond8_2 t).mp h; omega
    simp only [idleAt8_6 t hc2, noFlush8_6 t hc2]
    rw [acc8_succ V c t, show acc8 V c t.val = k8_pay1 (F := F) from by rw [h0]; rfl]
    iintro ⟨⟨⟨%X, -, HS⟩, HR, Hg⟩, Ho, ⟨%d0, H0⟩, ⟨%d1, H1⟩, ⟨%d2, H2⟩, ⟨%d3, H3⟩, ⟨%d4, H4⟩, ⟨%d5, H5⟩, H6⟩
    iapply (sound_first8 c Set.univ (grid8.coords t) _ _ _ _ _ _ _ _ _ _ _ _ _ _ _ _ hc1 hc2 (iblk8 V c 0 t) (iblk8 V c 1 t) _)
    iframe H0 H1
    isplitl [HS]; · iexists X; iexact HS
    iintro ⟨H0, H1, HS⟩
    iframe H0 H1 H2 H3 H4 H5 HR Hg Ho
    isplitl [HS]
    · iexists _; iframe HS
      ipureintro; intro _; rfl
    iexact H6
  · have hc1 : ¬cond8_1 (grid8.coords t) := fun h => h0 ((hcond8_1 t).mp h)
    by_cases h7 : t.val = 7
    · have hc2 : cond8_2 (grid8.coords t) := (hcond8_2 t).mpr h7
      simp only [liveAt8_6 t hc2, after8_6, out8_6_eq]
      rw [acc8_succ V c t]
      iintro ⟨⟨⟨%X, %hX, HS⟩, HR, Hg⟩, Ho, ⟨%d0, H0⟩, ⟨%d1, H1⟩, ⟨%d2, H2⟩, ⟨%d3, H3⟩, ⟨%d4, H4⟩, ⟨%d5, H5⟩, ⟨%d6, H6⟩⟩
      obtain rfl := hX (Nat.pos_of_ne_zero h0)
      iapply (sound_last8 c Set.univ (grid8.coords t) _ _ _ _ _ _ _ _ _ _ _ _ _ _ _ _ hc1 hc2 (iblk8 V c 0 t) (iblk8 V c 1 t)
        (iblk8 V c 2 t) (iblk8 V c 3 t) (iblk8 V c 4 t) (iblk8 V c 5 t) (acc8 V c t.val) _)
      iframe H0 H1 H2 H3 H4 H5 HS
      isplitl [H6]; · iexists _; iexact H6
      iintro ⟨H0, H1, H2, H3, H4, H5, H6, HS⟩
      iframe H0 H1 H2 H3 H4 H5 HR Hg Ho
      isplitl [HS]
      · iexists _; iframe HS
        ipureintro; intro _; rfl
      iexact H6
    · have hc2 : ¬cond8_2 (grid8.coords t) := fun h => h7 ((hcond8_2 t).mp h)
      simp only [idleAt8_6 t hc2, noFlush8_6 t hc2]
      rw [acc8_succ V c t]
      iintro ⟨⟨⟨%X, %hX, HS⟩, HR, Hg⟩, Ho, ⟨%d0, H0⟩, ⟨%d1, H1⟩, ⟨%d2, H2⟩, ⟨%d3, H3⟩, ⟨%d4, H4⟩, ⟨%d5, H5⟩, H6⟩
      obtain rfl := hX (Nat.pos_of_ne_zero h0)
      iapply (sound_mid8 c Set.univ (grid8.coords t) _ _ _ _ _ _ _ _ _ _ _ _ _ _ _ _ hc1 hc2 (iblk8 V c 0 t) (iblk8 V c 1 t)
        (acc8 V c t.val) _)
      iframe H0 H1 HS
      iintro ⟨H0, H1, HS⟩
      iframe H0 H1 H2 H3 H4 H5 HR Hg Ho
      isplitl [HS]
      · iexists _; iframe HS
        ipureintro; intro _; rfl
      iexact H6

end Body8

end Cert.KernelIdeal.Hand

end
-- ==== Proof.KI.R8.lean ====
import proofs.«404458_j53163105190632_2_alg».proof.Proof.KI.R8b
-- ==== Proof.KI.RunW.lean ====
import proofs.«404458_j53163105190632_2_alg».proof.Proof.KI.RunCond
import proofs.«404458_j53163105190632_2_alg».proof.Proof.KI.R0
import proofs.«404458_j53163105190632_2_alg».proof.Proof.KI.R1
import proofs.«404458_j53163105190632_2_alg».proof.Proof.KI.R2
import proofs.«404458_j53163105190632_2_alg».proof.Proof.KI.R3
import proofs.«404458_j53163105190632_2_alg».proof.Proof.KI.R4
import proofs.«404458_j53163105190632_2_alg».proof.Proof.KI.R5
import proofs.«404458_j53163105190632_2_alg».proof.Proof.KI.R6
import proofs.«404458_j53163105190632_2_alg».proof.Proof.KI.R7
import proofs.«404458_j53163105190632_2_alg».proof.Proof.KI.R8

set_option maxRecDepth 16384

noncomputable section

namespace Cert.KernelIdeal.Hand

open Cert.KernelIdeal Cert.KernelIdeal.Gen
open Idealize.ShloMosaic Idealize.ShloMosaic.TcCoe

variable {F : FTy → Type} [FloatOps F]

variable (m : (ℓ : Loc nD τ sig) → Buf (Elt F) ℓ)

def W0 (c : Dev nD) : Valuation τ sig (Elt F) := fun b => m (c, b)
def W1 (c : Dev nD) : Valuation τ sig (Elt F) := StableHlo.after hostOps0 (W0 m c)
abbrev Vr1 : (c : Dev nD) → (b : Ref sig .tc) → Buf (Elt F) ((c : Thread nD τ).loc b) := fun c b => W1 m c b
def o2 (c : Dev nD) : Valuation τ sig (Elt F) := Pipeline.withArrays spec0 c (W1 m c) fun w => (dat0 (Vr1 m) c).arrAt w cfg0.N
def W2 (c : Dev nD) : Valuation τ sig (Elt F) := Function.update (Function.update (Function.update (W1 m c) main_v19_0 (o2 m c main_v19_0)) main_v19_1 (o2 m c main_v19_1)) main_v19_2 (o2 m c main_v19_2)
def W3 (c : Dev nD) : Valuation τ sig (Elt F) := StableHlo.after hostOps1 (W2 m c)
abbrev Vr3 : (c : Dev nD) → (b : Ref sig .tc) → Buf (Elt F) ((c : Thread nD τ).loc b) := fun c b => W3 m c b
def o4 (c : Dev nD) : Valuation τ sig (Elt F) := Pipeline.withArrays spec1 c (W3 m c) fun w => (dat1 (Vr3 m) c).arrAt w cfg1.N
def W4 (c : Dev nD) : Valuation τ sig (Elt F) := Function.update (W3 m c) main_v49 (o4 m c main_v49)
def W5 (c : Dev nD) : Valuation τ sig (Elt F) := StableHlo.after hostOps2 (W4 m c)
abbrev Vr5 : (c : Dev nD) → (b : Ref sig .tc) → Buf (Elt F) ((c : Thread nD τ).loc b) := fun c b => W5 m c b
def o6 (c : Dev nD) : Valuation τ sig (Elt F) := Pipeline.withArrays spec2 c (W5 m c) fun w => (dat2 (Vr5 m) c).arrAt w cfg2.N
def W6 (c : Dev nD) : Valuation τ sig (Elt F) := Function.update (Function.update (Function.update (W5 m c) main_v65_0 (o6 m c main_v65_0)) main_v65_1 (o6 m c main_v65_1)) main_v65_2 (o6 m c main_v65_2)
def W7 (c : Dev nD) : Valuation τ sig (Elt F) := StableHlo.after hostOps3 (W6 m c)
abbrev Vr7 : (c : Dev nD) → (b : Ref sig .tc) → Buf (Elt F) ((c : Thread nD τ).loc b) := fun c b => W7 m c b
def o8 (c : Dev nD) : Valuation τ sig (Elt F) := Pipeline.withArrays spec3 c (W7 m c) fun w => (dat3 (Vr7 m) c).arrAt w cfg3.N
def W8 (c : Dev nD) : Valuation τ sig (Elt F) := Function.update (W7 m c) main_v95 (o8 m c main_v95)
def W9 (c : Dev nD) : Valuation τ sig (Elt F) := StableHlo.after hostOps4 (W8 m c)
abbrev Vr9 : (c : Dev nD) → (b : Ref sig .tc) → Buf (Elt F) ((c : Thread nD τ).loc b) := fun c b => W9 m c b
def o10 (c : Dev nD) : Valuation τ sig (Elt F) := Pipeline.withArrays spec4 c (W9 m c) fun w => (dat4 (Vr9 m) c).arrAt w cfg4.N
def W10 (c : Dev nD) : Valuation τ sig (Elt F) := Function.update (Function.update (Function.update (W9 m c) main_v111_0 (o10 m c main_v111_0)) main_v111_1 (o10 m c main_v111_1)) main_v111_2 (o10 m c main_v111_2)
def W11 (c : Dev nD) : Valuation τ sig (Elt F) := StableHlo.after hostOps5 (W10 m c)
abbrev Vr11 : (c : Dev nD) → (b : Ref sig .tc) → Buf (Elt F) ((c : Thread nD τ).loc b) := fun c b => W11 m c b
def o12 (c : Dev nD) : Valuation τ sig (Elt F) := Pipeline.withArrays spec5 c (W11 m c) fun w => (dat5 (Vr11 m) c).arrAt w cfg5.N
def W12 (c : Dev nD) : Valuation τ sig (Elt F) := Function.update (W11 m c) main_v141 (o12 m c main_v141)
def W13 (c : Dev nD) : Valuation τ sig (Elt F) := StableHlo.after hostOps6 (W12 m c)
abbrev Vr13 : (c : Dev nD) → (b : Ref sig .tc) → Buf (Elt F) ((c : Thread nD τ).loc b) := fun c b => W13 m c b
def o14 (c : Dev nD) : Valuation τ sig (Elt F) := Pipeline.withArrays spec6 c (W13 m c) fun w => (dat6 (Vr13 m) c).arrAt w cfg6.N
def W14 (c : Dev nD) : Valuation τ sig (Elt F) := Function.update (Function.update (Function.update (W13 m c) main_v157_0 (o14 m c main_v157_0)) main_v157_1 (o14 m c main_v157_1)) main_v157_2 (o14 m c main_v157_2)
def W15 (c : Dev nD) : Valuation τ sig (Elt F) := StableHlo.after hostOps7 (W14 m c)
abbrev Vr15 : (c : Dev nD) → (b : Ref sig .tc) → Buf (Elt F) ((c : Thread nD τ).loc b) := fun c b => W15 m c b
def o16 (c : Dev nD) : Valuation τ sig (Elt F) := Pipeline.withArrays spec7 c (W15 m c) fun w => (dat7 (Vr15 m) c).arrAt w cfg7.N
def W16 (c : Dev nD) : Valuation τ sig (Elt F) := Function.update (W15 m c) main_v187 (o16 m c main_v187)
def W17 (c : Dev nD) : Valuation τ sig (Elt F) := StableHlo.after hostOps8 (W16 m c)
def W18 (c : Dev nD) : Valuation τ sig (Elt F) := StableHlo.after hostOps8_1 (W17 m c)
def W19 (c : Dev nD) : Valuation τ sig (Elt F) := StableHlo.after hostOps8_2 (W18 m c)
def W20 (c : Dev nD) : Valuation τ sig (Elt F) := StableHlo.after hostOps8_3 (W19 m c)
def W21 (c : Dev nD) : Valuation τ sig (Elt F) := StableHlo.after hostOps8_4 (W20 m c)
abbrev Vr21 : (c : Dev nD) → (b : Ref sig .tc) → Buf (Elt F) ((c : Thread nD τ).loc b) := fun c b => W21 m c b
def o22 (c : Dev nD) : Valuation τ sig (Elt F) := Pipeline.withArrays spec8 c (W21 m c) fun w => (dat8 (Vr21 m) c).arrAt w cfg8.N
def W22 (c : Dev nD) : Valuation τ sig (Elt F) := Function.update (W21 m c) main_v193 (o22 m c main_v193)

abbrev Vr2 : (c : Dev nD) → (b : Ref sig .tc) → Buf (Elt F) ((c : Thread nD τ).loc b) := fun c b => W2 m c b
abbrev Vr4 : (c : Dev nD) → (b : Ref sig .tc) → Buf (Elt F) ((c : Thread nD τ).loc b) := fun c b => W4 m c b
abbrev Vr6 : (c : Dev nD) → (b : Ref sig .tc) → Buf (Elt F) ((c : Thread nD τ).loc b) := fun c b => W6 m c b
abbrev Vr8 : (c : Dev nD) → (b : Ref sig .tc) → Buf (Elt F) ((c : Thread nD τ).loc b) := fun c b => W8 m c b
abbrev Vr10 : (c : Dev nD) → (b : Ref sig .tc) → Buf (Elt F) ((c : Thread nD τ).loc b) := fun c b => W10 m c b
abbrev Vr12 : (c : Dev nD) → (b : Ref sig .tc) → Buf (Elt F) ((c : Thread nD τ).loc b) := fun c b => W12 m c b
abbrev Vr14 : (c : Dev nD) → (b : Ref sig .tc) → Buf (Elt F) ((c : Thread nD τ).loc b) := fun c b => W14 m c b
abbrev Vr16 : (c : Dev nD) → (b : Ref sig .tc) → Buf (Elt F) ((c : Thread nD τ).loc b) := fun c b => W16 m c b
abbrev Vr22x : (c : Dev nD) → (b : Ref sig .tc) → Buf (Elt F) ((c : Thread nD τ).loc b) := fun c b => W22 m c b

def outs : Outs (F := F) := fun J r c =>
  match J with
  | 2 => o2 m c r
  | 4 => o4 m c r
  | 6 => o6 m c r
  | 8 => o8 m c r
  | 10 => o10 m c r
  | 12 => o12 m c r
  | 14 => o14 m c r
  | 16 => o16 m c r
  | 22 => o22 m c r
  | _ => W0 m c r

theorem V1_eq (c : Dev nD) : V1 m c = W1 m c := rfl
theorem V2_eq (c : Dev nD) : V2 m (outs m) c = W2 m c := rfl
theorem V3_eq (c : Dev nD) : V3 m (outs m) c = W3 m c := rfl
theorem V4_eq (c : Dev nD) : V4 m (outs m) c = W4 m c := rfl
theorem V5_eq (c : Dev nD) : V5 m (outs m) c = W5 m c := rfl
theorem V6_eq (c : Dev nD) : V6 m (outs m) c = W6 m c := rfl
theorem V7_eq (c : Dev nD) : V7 m (outs m) c = W7 m c := rfl
theorem V8_eq (c : Dev nD) : V8 m (outs m) c = W8 m c := rfl
theorem V9_eq (c : Dev nD) : V9 m (outs m) c = W9 m c := rfl
theorem V10_eq (c : Dev nD) : V10 m (outs m) c = W10 m c := rfl
theorem V11_eq (c : Dev nD) : V11 m (outs m) c = W11 m c := rfl
theorem V12_eq (c : Dev nD) : V12 m (outs m) c = W12 m c := rfl
theorem V13_eq (c : Dev nD) : V13 m (outs m) c = W13 m c := rfl
theorem V14_eq (c : Dev nD) : V14 m (outs m) c = W14 m c := rfl
theorem V15_eq (c : Dev nD) : V15 m (outs m) c = W15 m c := rfl
theorem V16_eq (c : Dev nD) : V16 m (outs m) c = W16 m c := rfl
theorem V21_eq (c : Dev nD) : V21 m (outs m) c = W21 m c := rfl
theorem V22_eq (c : Dev nD) : V22 m (outs m) c = W22 m c := rfl

/-- A write to one buffer leaves every other buffer as it was. -/
private theorem upd_ne {r s : Ref sig .tc} (h : r ≠ s) (V : Valuation τ sig (Elt F)) (x) : Function.update V s x r = V r :=
  Function.update_of_ne (StableHlo.devRef_ne_of_ne h) ..

theorem o2_arr (c : Dev nD) (w : Fin cfg0.W) : o2 m c (Proc.devRef .tc (Pipeline.arrRef spec0 w)) = (dat0 (Vr1 m) c).arrAt w cfg0.N :=
  Pipeline.withArrays_arr spec0 launch0.win.arr_inj c _ _ w
theorem W2_main_v19_0 (c : Dev nD) : W2 m c main_v19_0 = (dat0 (Vr1 m) c).arrAt 4 cfg0.N :=
  (upd_ne (by decide) _ _).trans <| (upd_ne (by decide) _ _).trans <| (Function.update_self ..).trans (o2_arr m c 4)
theorem W2_main_v19_1 (c : Dev nD) : W2 m c main_v19_1 = (dat0 (Vr1 m) c).arrAt 5 cfg0.N :=
  (upd_ne (by decide) _ _).trans <| (Function.update_self ..).trans (o2_arr m c 5)
theorem W2_main_v19_2 (c : Dev nD) : W2 m c main_v19_2 = (dat0 (Vr1 m) c).arrAt 6 cfg0.N :=
  (Function.update_self ..).trans (o2_arr m c 6)
theorem o4_arr (c : Dev nD) (w : Fin cfg1.W) : o4 m c (Proc.devRef .tc (Pipeline.arrRef spec1 w)) = (dat1 (Vr3 m) c).arrAt w cfg1.N :=
  Pipeline.withArrays_arr spec1 launch1.win.arr_inj c _ _ w
theorem W4_main_v49 (c : Dev nD) : W4 m c main_v49 = (dat1 (Vr3 m) c).arrAt 5 cfg1.N :=
  (Function.update_self ..).trans (o4_arr m c 5)
theorem o6_arr (c : Dev nD) (w : Fin cfg2.W) : o6 m c (Proc.devRef .tc (Pipeline.arrRef spec2 w)) = (dat2 (Vr5 m) c).arrAt w cfg2.N :=
  Pipeline.withArrays_arr spec2 launch2.win.arr_inj c _ _ w
theorem W6_main_v65_0 (c : Dev nD) : W6 m c main_v65_0 = (dat2 (Vr5 m) c).arrAt 4 cfg2.N :=
  (upd_ne (by decide) _ _).trans <| (upd_ne (by decide) _ _).trans <| (Function.update_self ..).trans (o6_arr m c 4)
theorem W6_main_v65_1 (c : Dev nD) : W6 m c main_v65_1 = (dat2 (Vr5 m) c).arrAt 5 cfg2.N :=
  (upd_ne (by decide) _ _).trans <| (Function.update_self ..).trans (o6_arr m c 5)
theorem W6_main_v65_2 (c : Dev nD) : W6 m c main_v65_2 = (dat2 (Vr5 m) c).arrAt 6 cfg2.N :=
  (Function.update_self ..).trans (o6_arr m c 6)
theorem o8_arr (c : Dev nD) (w : Fin cfg3.W) : o8 m c (Proc.devRef .tc (Pipeline.arrRef spec3 w)) = (dat3 (Vr7 m) c).arrAt w cfg3.N :=
  Pipeline.withArrays_arr spec3 launch3.win.arr_inj c _ _ w
theorem W8_main_v95 (c : Dev nD) : W8 m c main_v95 = (dat3 (Vr7 m) c).arrAt 5 cfg3.N :=
  (Function.update_self ..).trans (o8_arr m c 5)
theorem o10_arr (c : Dev nD) (w : Fin cfg4.W) : o10 m c (Proc.devRef .tc (Pipeline.arrRef spec4 w)) = (dat4 (Vr9 m) c).arrAt w cfg4.N :=
  Pipeline.withArrays_arr spec4 launch4.win.arr_inj c _ _ w
theorem W10_main_v111_0 (c : Dev nD) : W10 m c main_v111_0 = (dat4 (Vr9 m) c).arrAt 4 cfg4.N :=
  (upd_ne (by decide) _ _).trans <| (upd_ne (by decide) _ _).trans <| (Function.update_self ..).trans (o10_arr m c 4)
theorem W10_main_v111_1 (c : Dev nD) : W10 m c main_v111_1 = (dat4 (Vr9 m) c).arrAt 5 cfg4.N :=
  (upd_ne (by decide) _ _).trans <| (Function.update_self ..).trans (o10_arr m c 5)
theorem W10_main_v111_2 (c : Dev nD) : W10 m c main_v111_2 = (dat4 (Vr9 m) c).arrAt 6 cfg4.N :=
  (Function.update_self ..).trans (o10_arr m c 6)
theorem o12_arr (c : Dev nD) (w : Fin cfg5.W) : o12 m c (Proc.devRef .tc (Pipeline.arrRef spec5 w)) = (dat5 (Vr11 m) c).arrAt w cfg5.N :=
  Pipeline.withArrays_arr spec5 launch5.win.arr_inj c _ _ w
theorem W12_main_v141 (c : Dev nD) : W12 m c main_v141 = (dat5 (Vr11 m) c).arrAt 5 cfg5.N :=
  (Function.update_self ..).trans (o12_arr m c 5)
theorem o14_arr (c : Dev nD) (w : Fin cfg6.W) : o14 m c (Proc.devRef .tc (Pipeline.arrRef spec6 w)) = (dat6 (Vr13 m) c).arrAt w cfg6.N :=
  Pipeline.withArrays_arr spec6 launch6.win.arr_inj c _ _ w
theorem W14_main_v157_0 (c : Dev nD) : W14 m c main_v157_0 = (dat6 (Vr13 m) c).arrAt 4 cfg6.N :=
  (upd_ne (by decide) _ _).trans <| (upd_ne (by decide) _ _).trans <| (Function.update_self ..).trans (o14_arr m c 4)
theorem W14_main_v157_1 (c : Dev nD) : W14 m c main_v157_1 = (dat6 (Vr13 m) c).arrAt 5 cfg6.N :=
  (upd_ne (by decide) _ _).trans <| (Function.update_self ..).trans (o14_arr m c 5)
theorem W14_main_v157_2 (c : Dev nD) : W14 m c main_v157_2 = (dat6 (Vr13 m) c).arrAt 6 cfg6.N :=
  (Function.update_self ..).trans (o14_arr m c 6)
theorem o16_arr (c : Dev nD) (w : Fin cfg7.W) : o16 m c (Proc.devRef .tc (Pipeline.arrRef spec7 w)) = (dat7 (Vr15 m) c).arrAt w cfg7.N :=
  Pipeline.withArrays_arr spec7 launch7.win.arr_inj c _ _ w
theorem W16_main_v187 (c : Dev nD) : W16 m c main_v187 = (dat7 (Vr15 m) c).arrAt 5 cfg7.N :=
  (Function.update_self ..).trans (o16_arr m c 5)
theorem o22_arr (c : Dev nD) (w : Fin cfg8.W) : o22 m c (Proc.devRef .tc (Pipeline.arrRef spec8 w)) = (dat8 (Vr21 m) c).arrAt w cfg8.N :=
  Pipeline.withArrays_arr spec8 launch8.win.arr_inj c _ _ w
theorem W22_main_v193 (c : Dev nD) : W22 m c main_v193 = (dat8 (Vr21 m) c).arrAt 6 cfg8.N :=
  (Function.update_self ..).trans (o22_arr m c 6)

end Cert.KernelIdeal.Hand

end
-- ==== Proof.KI.RunF.lean ====
import proofs.«404458_j53163105190632_2_alg».proof.Proof.KI.RunW

set_option maxRecDepth 16384

noncomputable section

namespace Cert.KernelIdeal.Hand

open Cert.KernelIdeal Cert.KernelIdeal.Gen
open Idealize.ShloMosaic Idealize.ShloMosaic.TcCoe
open Idealize.ShloMosaic.Pipeline (Dat Cfg)

variable {F : FTy → Type} [FloatOps F]

variable (m : (ℓ : Loc nD τ sig) → Buf (Elt F) ℓ)

/-- Writing `o r` at each `r` of a list leaves `o r` at every one of them, in whatever order the writes come. -/
theorem foldl_update_mem (o : Valuation τ sig (Elt F)) {r : Ref sig .tc} : ∀ (L : List (Ref sig .tc)) (V : Valuation τ sig (Elt F)),
    r ∈ L ∨ V r = o r → L.foldl (fun V s => Function.update V s (o s)) V r = o r
  | [], _, h => h.resolve_left List.not_mem_nil
  | s :: L, V, h => foldl_update_mem o L _ <| by
    by_cases e : r = s
    · exact .inr (e ▸ Function.update_self ..)
    · exact h.imp (List.mem_of_ne_of_mem e) ((Function.update_of_ne (StableHlo.devRef_ne_of_ne e) ..).trans ·)

/-- In the boundary after a region each of its arrays holds the region's final contents: a result array by the update, an input array because its final contents are its entry contents, which the boundary keeps. -/
theorem exit_arr {cfg : Cfg sig Λ₀} {c : Dev nD} (d : Dat τ (Elt F) Unit ℕ (UR sig nD τ) ℕ cfg c) {V V' o : Valuation τ sig (Elt F)}
    {L : List (Ref sig .tc)} (ho : ∀ w, o (Pipeline.arrRef cfg.spec w) = d.arrAt w cfg.N) (hA : ∀ w, d.A w = V (Pipeline.arrRef cfg.spec w))
    (hV : ∀ r : Ref sig .tc, r ∉ L → V' r = V r) (hin : ∀ w, Pipeline.arrRef cfg.spec w ∉ L → (cfg.win w).isOut = false)
    (hV' : V' = L.foldl (fun V s => Function.update V s (o s)) V) (w : Fin cfg.W) : d.arrAt w cfg.N = V' (Pipeline.arrRef cfg.spec w) := by
  by_cases h : Pipeline.arrRef cfg.spec w ∈ L
  · exact ((hV' ▸ foldl_update_mem o L V (.inl h)).trans (ho w)).symm
  · exact ((d.arrAt_in w (hin w h) _).trans (hA w)).trans (hV _ h).symm

/-- A boundary that keeps every buffer off a region's result arrays keeps every buffer off all its arrays. -/
theorem exit_rest {V V' : Valuation τ sig (Elt F)} {L : List (Ref sig .tc)} (hV : ∀ r : Ref sig .tc, r ∉ L → V' r = V r) {W : ℕ}
    {f : Fin W → Ref sig .tc} (hL : ∀ r ∈ L, r ∈ Finset.univ.image f) (b : Ref sig .tc) (hb : b ∉ Finset.univ.image f) : V' b = V b :=
  hV b fun h => hb (hL b h)

theorem hF0 (c : Dev nD) (w : Fin cfg0.W) : (dat0 (Vr1 m) c).arrAt w cfg0.N = Vr2 m c (Pipeline.arrRef spec0 w) :=
  exit_arr _ (o2_arr m c) (A_eq0 _ c) (V2_of m (outs m) c) (by decide) rfl w
theorem hrest0 (c : Dev nD) : ∀ b, b ∉ Finset.univ.image (Pipeline.arrRef spec0) → Vr2 m c b = Vr1 m c b :=
  exit_rest (V2_of m (outs m) c) (by decide)
theorem hF1 (c : Dev nD) (w : Fin cfg1.W) : (dat1 (Vr3 m) c).arrAt w cfg1.N = Vr4 m c (Pipeline.arrRef spec1 w) :=
  exit_arr _ (o4_arr m c) (A_eq1 _ c) (V4_of m (outs m) c) (by decide) rfl w
theorem hrest1 (c : Dev nD) : ∀ b, b ∉ Finset.univ.image (Pipeline.arrRef spec1) → Vr4 m c b = Vr3 m c b :=
  exit_rest (V4_of m (outs m) c) (by decide)
theorem hF2 (c : Dev nD) (w : Fin cfg2.W) : (dat2 (Vr5 m) c).arrAt w cfg2.N = Vr6 m c (Pipeline.arrRef spec2 w) :=
  exit_arr _ (o6_arr m c) (A_eq2 _ c) (V6_of m (outs m) c) (by decide) rfl w
theorem hrest2 (c : Dev nD) : ∀ b, b ∉ Finset.univ.image (Pipeline.arrRef spec2) → Vr6 m c b = Vr5 m c b :=
  exit_rest (V6_of m (outs m) c) (by decide)
theorem hF3 (c : Dev nD) (w : Fin cfg3.W) : (dat3 (Vr7 m) c).arrAt w cfg3.N = Vr8 m c (Pipeline.arrRef spec3 w) :=
  exit_arr _ (o8_arr m c) (A_eq3 _ c) (V8_of m (outs m) c) (by decide) rfl w
theorem hrest3 (c : Dev nD) : ∀ b, b ∉ Finset.univ.image (Pipeline.arrRef spec3) → Vr8 m c b = Vr7 m c b :=
  exit_rest (V8_of m (outs m) c) (by decide)
theorem hF4 (c : Dev nD) (w : Fin cfg4.W) : (dat4 (Vr9 m) c).arrAt w cfg4.N = Vr10 m c (Pipeline.arrRef spec4 w) :=
  exit_arr _ (o10_arr m c) (A_eq4 _ c) (V10_of m (outs m) c) (by decide) rfl w
theorem hrest4 (c : Dev nD) : ∀ b, b ∉ Finset.univ.image (Pipeline.arrRef spec4) → Vr10 m c b = Vr9 m c b :=
  exit_rest (V10_of m (outs m) c) (by decide)
theorem hF5 (c : Dev nD) (w : Fin cfg5.W) : (dat5 (Vr11 m) c).arrAt w cfg5.N = Vr12 m c (Pipeline.arrRef spec5 w) :=
  exit_arr _ (o12_arr m c) (A_eq5 _ c) (V12_of m (outs m) c) (by decide) rfl w
theorem hrest5 (c : Dev nD) : ∀ b, b ∉ Finset.univ.image (Pipeline.arrRef spec5) → Vr12 m c b = Vr11 m c b :=
  exit_rest (V12_of m (outs m) c) (by decide)
theorem hF6 (c : Dev nD) (w : Fin cfg6.W) : (dat6 (Vr13 m) c).arrAt w cfg6.N = Vr14 m c (Pipeline.arrRef spec6 w) :=
  exit_arr _ (o14_arr m c) (A_eq6 _ c) (V14_of m (outs m) c) (by decide) rfl w
theorem hrest6 (c : Dev nD) : ∀ b, b ∉ Finset.univ.image (Pipeline.arrRef spec6) → Vr14 m c b = Vr13 m c b :=
  exit_rest (V14_of m (outs m) c) (by decide)
theorem hF7 (c : Dev nD) (w : Fin cfg7.W) : (dat7 (Vr15 m) c).arrAt w cfg7.N = Vr16 m c (Pipeline.arrRef spec7 w) :=
  exit_arr _ (o16_arr m c) (A_eq7 _ c) (V16_of m (outs m) c) (by decide) rfl w
theorem hrest7 (c : Dev nD) : ∀ b, b ∉ Finset.univ.image (Pipeline.arrRef spec7) → Vr16 m c b = Vr15 m c b :=
  exit_rest (V16_of m (outs m) c) (by decide)
theorem hF8 (c : Dev nD) (w : Fin cfg8.W) : (dat8 (Vr21 m) c).arrAt w cfg8.N = Vr22x m c (Pipeline.arrRef spec8 w) :=
  exit_arr _ (o22_arr m c) (A_eq8 _ c) (V22_of m (outs m) c) (by decide) rfl w
theorem hrest8 (c : Dev nD) : ∀ b, b ∉ Finset.univ.image (Pipeline.arrRef spec8) → Vr22x m c b = Vr21 m c b :=
  exit_rest (V22_of m (outs m) c) (by decide)

end Cert.KernelIdeal.Hand

end
-- ==== Proof.KI.RunSeg.lean ====
import proofs.«404458_j53163105190632_2_alg».proof.Proof.KI.RunF
import Idealize.ShloMosaic.Lib.Pipeline.Kit

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode

variable {F : FTy → Type} [FloatOps F]

local notation "𝕄" => MT nD τ sig Unit (Elt F) ℕ (UR sig nD τ) ℕ
variable (m : (ℓ : Loc nD τ sig) → Buf (Elt F) ℓ)

/-- The nine pipelines' proof data as one family. -/
def pdats : (p : Fin 9) → (c : Dev nD) → Pipeline.Dat τ (Elt F) Unit ℕ (UR sig nD τ) ℕ (cfgs p) c
  | ⟨0, _⟩ => dat0 (Vr1 m)
  | ⟨1, _⟩ => dat1 (Vr3 m)
  | ⟨2, _⟩ => dat2 (Vr5 m)
  | ⟨3, _⟩ => dat3 (Vr7 m)
  | ⟨4, _⟩ => dat4 (Vr9 m)
  | ⟨5, _⟩ => dat5 (Vr11 m)
  | ⟨6, _⟩ => dat6 (Vr13 m)
  | ⟨7, _⟩ => dat7 (Vr15 m)
  | ⟨8, _⟩ => dat8 (Vr21 m)

abbrev 𝒱₀ : Variants := Variants.none
abbrev L : GSem nD τ sig → Finset Unit := fun _ => ∅
abbrev lv : GSem nD τ sig → Unit → ℕ := fun _ _ => 0
/-- Carried along every segment: the generator register in some state and a debt of nothing. -/
abbrev R (c : Dev nD) : sProp 𝕄 := iprop((∃ r, prngReg c r) ∗ ∃ W, owes (c : Thread nD τ) (0 : CellTallies nD τ sig Unit) W)

/-- What the segment proofs use of every pipeline's proof data; each holds by computation, pipeline by pipeline. -/
theorem pdats_plain (p : Fin 9) (c : Dev nD) : (∀ t, (pdats m p c).owed t = 0) ∧ (∀ w, (pdats m p c).q w = fullShare)
    ∧ ∀ t x, x ∈ (pdats m p c).recorded t := by
  fin_cases p <;> exact ⟨fun _ => rfl, fun _ => rfl, fun _ _ => trivial⟩

/-- A kernel region as a segment from the unscoped buffers at `W` to those at `W'`: its arrays are split out and put back, nothing is owed. -/
def regOf {p : Fin 9} (kit : Pipeline.LaunchFacts (nD := nD) (τ := τ) cfgs p) (W W' : Dev nD → Valuation τ sig (Elt F))
    (hbody : ∀ c, Pipeline.BodyObligation (pdats m p c) (defs₀ (F := F)) 𝒱₀ () Set.univ)
    (hA : ∀ c w, (pdats m p c).A w = W c (Pipeline.arrRef (cfgs p).spec w))
    (hin : ∀ c, iprop((∃ r, prngReg c r) ∗ Pipeline.scopedRest (cfgs p).spec c) ⊢ (pdats m p c).Φ 0)
    (hout : ∀ c, (pdats m p c).Φ (Fin.last _) ⊢ iprop((∃ r, prngReg c r) ∗ Pipeline.scopedRest (cfgs p).spec c))
    (hF : ∀ c w, (pdats m p c).arrAt w (cfgs p).N = W' c (Pipeline.arrRef (cfgs p).spec w))
    (hrest : ∀ c, ∀ b, b ∉ Finset.univ.image (Pipeline.arrRef (cfgs p).spec) → W' c b = W c b) :
    Pipeline.RegionSeg (pcfgs (F := F)) adm (pdats m) () defs₀ 𝒱₀ L lv p where
  win := kit.win.to₀
  block_pos := kit.block_pos
  stage_whole := kit.stage_whole
  K := PEmpty
  osem k := k.elim
  ho := Pipeline.OwnSemFacts.none _
  hbody c := (hbody c).loose
  hwaits := Pipeline.hwaits_of_owed_zero _ _ _ _ L lv p fun c => (pdats_plain m p c).1
  pre c := iprop(StableHlo.held (c : Thread nD τ) (Pipeline.ucRefs τ sig) (W c) ∗ R c)
  post c := iprop(StableHlo.held (c : Thread nD τ) (Pipeline.ucRefs τ sig) (W' c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => W c b
  hentry c := by
    have hsplit := Pipeline.arrays_of_unscopedBufs (pcfgs (F := F)) adm (pdats m) kit.win kit.arr_whole c
      ((pdats m p c).share_full (pdats_plain m p c).2.1) (fun b => W c b) (hA c)
    rw [Pipeline.unscopedBufs_held] at hsplit
    rw [Pipeline.ownSems0_none]
    unfold Pipeline.Dat.owesAt Pipeline.owesWithin Pipeline.prefHeld
    rw [(pdats_plain m p c).1, show (Finset.univ : Finset (Fin 0)) = ∅ from rfl, BI.bigSep_empty]
    iintro ⟨⟨Hub, Hp, %T, HO⟩, -, -⟩
    ihave H := hsplit $$ Hub
    icases H with ⟨Ha, Hrest⟩
    imodintro
    isplitl [Ha]; · iexact Ha
    isplitr; · iempintro
    isplitl [HO]
    · iexists T; isplitr; · ipureintro; exact fun x _ => Or.inl ((pdats_plain m p c).2.2 0 x)
      iexact HO
    isplitl [Hp]; · iexact Hp
    iexact Hrest
  hin c := by iintro ⟨Hp, -, Hr⟩; iapply hin c; isplitl [Hp] <;> iassumption
  hout c := by rw [Pipeline.ownSems0_none]; exact (hout c).trans (sep_mono .rfl emp_sep_intro)
  hexit c := by
    have hjoin := Pipeline.unscopedBufs_of_arrays (pcfgs (F := F)) adm (Ix := Unit) (Name := ℕ) (U := UR sig nD τ) (Lvl := ℕ)
      kit.win kit.arr_whole c (pdats m) ((pdats m p c).share_full (pdats_plain m p c).2.1)
      (fun b => W c b) (fun b => W' c b) ((pdats m p c).arrAt · (cfgs p).N) (hF c) (hrest c)
    rw [Pipeline.unscopedBufs_held] at hjoin
    unfold Pipeline.Dat.owesAt Pipeline.owesWithin
    rw [(pdats_plain m p c).1]
    iintro ⟨Ha, ⟨%T, -, HO⟩, HY, Hrest⟩
    imodintro
    isplitl [Ha Hrest]
    · iapply hjoin; isplitl [Ha] <;> iassumption
    isplitl [HY]; · iexact HY
    iexists T; iexact HO

/-- `ΦA` is the generator register beside the rest of the scoped buffers, in either order. -/
theorem ΦA_in {gr W : ℕ} (win : Fin W → Pipeline.WinSpec sig gr) (c : Dev nD) :
    iprop((∃ r, prngReg c r) ∗ Pipeline.scopedRest win c) ⊢ (Pipeline.ΦA win c : sProp 𝕄) := sep_comm
theorem ΦA_out {gr W : ℕ} (win : Fin W → Pipeline.WinSpec sig gr) (c : Dev nD) :
    (Pipeline.ΦA win c : sProp 𝕄) ⊢ iprop((∃ r, prngReg c r) ∗ Pipeline.scopedRest win c) := sep_comm

def reg0 :=
  regOf m launch0 (W1 m) (W2 m) (body_obligation0 (Vr1 m)) (fun _ _ => rfl) (ΦA_in spec0) (ΦA_out spec0) (hF0 m) (hrest0 m)

def reg1 :=
  regOf m launch1 (W3 m) (W4 m) (body_obligation1 (Vr3 m)) (fun _ _ => rfl) (ΦA_in spec1) (ΦA_out spec1) (hF1 m) (hrest1 m)

def reg2 :=
  regOf m launch2 (W5 m) (W6 m) (body_obligation2 (Vr5 m)) (fun _ _ => rfl) (ΦA_in spec2) (ΦA_out spec2) (hF2 m) (hrest2 m)

def reg3 :=
  regOf m launch3 (W7 m) (W8 m) (body_obligation3 (Vr7 m)) (fun _ _ => rfl) (ΦA_in spec3) (ΦA_out spec3) (hF3 m) (hrest3 m)

def reg4 :=
  regOf m launch4 (W9 m) (W10 m) (body_obligation4 (Vr9 m)) (fun _ _ => rfl) (ΦA_in spec4) (ΦA_out spec4) (hF4 m) (hrest4 m)

def reg5 :=
  regOf m launch5 (W11 m) (W12 m) (body_obligation5 (Vr11 m)) (fun _ _ => rfl) (ΦA_in spec5) (ΦA_out spec5) (hF5 m) (hrest5 m)

def reg6 :=
  regOf m launch6 (W13 m) (W14 m) (body_obligation6 (Vr13 m)) (fun _ _ => rfl) (ΦA_in spec6) (ΦA_out spec6) (hF6 m) (hrest6 m)

def reg7 :=
  regOf m launch7 (W15 m) (W16 m) (body_obligation7 (Vr15 m)) (fun _ _ => rfl) (ΦA_in spec7) (ΦA_out spec7) (hF7 m) (hrest7 m)

def reg8 :=
  regOf m launch8 (W21 m) (W22 m) (body_obligation8 (Vr21 m)) (fun _ _ => rfl) (hin8 (Vr21 m)) (hout8 (Vr21 m)) (hF8 m) (hrest8 m)

end Cert.KernelIdeal.Hand

end
-- ==== Proof.KI.Run.lean ====
import proofs.«404458_j53163105190632_2_alg».proof.Proof.KI.RunSeg

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (m : (ℓ : Loc nD τ sig) → Buf (Elt F) ℓ)

theorem result_eq (c : Dev nD) : V22 m (outs m) c main_v193 = (dat8 (Vr21 m) c).arrAt 6 cfg8.N :=
  (congrFun (V22_eq m c) _).trans (W22_main_v193 m c)

set_option backward.isDefEq.respectTransparency.types false in

theorem run_raw (ρ : Dev nD → PrngReg) : θ_run defs (onTc (τ := τ) (main (F := F))) ⟨m, fun _ => 0, ρ⟩ (fun r => ∀ c : Dev nD,
      r.2.mem ((c.tc : Thread nD τ).loc main_v193) = V22 m (outs m) c main_v193
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) := by
  refine run_cond m emb₁ () 𝒱₀ L lv (fun _ _ => rfl) ρ (outs m) (pdats m) (O₀ := 0) (G := fun _ => iprop(emp))
    (u₀ := initOf (Pipeline.cells cfgs cellOf_inj) (Pipeline.launchToks cfgs cellOf_inj))
    (hu₀ := ?_) (E := fun _ c => R c) (hE0 := ?_) (hE9 := fun c => ?_)
    (R0 := reg0 m) (hpre0 := fun c => Entails.of_eq (by rw [V1_eq]; rfl)) (hpost0 := fun c => Entails.of_eq (by rw [V2_eq]; rfl))
    (R1 := reg1 m) (hpre1 := fun c => Entails.of_eq (by rw [V3_eq]; rfl)) (hpost1 := fun c => Entails.of_eq (by rw [V4_eq]; rfl))
    (R2 := reg2 m) (hpre2 := fun c => Entails.of_eq (by rw [V5_eq]; rfl)) (hpost2 := fun c => Entails.of_eq (by rw [V6_eq]; rfl))
    (R3 := reg3 m) (hpre3 := fun c => Entails.of_eq (by rw [V7_eq]; rfl)) (hpost3 := fun c => Entails.of_eq (by rw [V8_eq]; rfl))
    (R4 := reg4 m) (hpre4 := fun c => Entails.of_eq (by rw [V9_eq]; rfl)) (hpost4 := fun c => Entails.of_eq (by rw [V10_eq]; rfl))
    (R5 := reg5 m) (hpre5 := fun c => Entails.of_eq (by rw [V11_eq]; rfl)) (hpost5 := fun c => Entails.of_eq (by rw [V12_eq]; rfl))
    (R6 := reg6 m) (hpre6 := fun c => Entails.of_eq (by rw [V13_eq]; rfl)) (hpost6 := fun c => Entails.of_eq (by rw [V14_eq]; rfl))
    (R7 := reg7 m) (hpre7 := fun c => Entails.of_eq (by rw [V15_eq]; rfl)) (hpost7 := fun c => Entails.of_eq (by rw [V16_eq]; rfl))
    (R8 := reg8 m) (hpre8 := fun c => Entails.of_eq (by rw [V21_eq]; rfl)) (hpost8 := fun c => Entails.of_eq (by rw [V22_eq]; rfl))
  · iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · refine Pipeline.initEach L lv fun c => ?_
    iintro ⟨⟨-, HO, -, Hp, -⟩, -⟩
    imodintro
    isplitl [Hp]; · iexists _; iexact Hp
    iexists ∅; iexact HO
  · iintro ⟨-, HO⟩; iexact HO

theorem run (ρ : Dev nD → PrngReg) : θ_run defs (onTc (τ := τ) (main (F := F))) ⟨m, fun _ => 0, ρ⟩ (fun r => ∀ c : Dev nD,
      r.2.mem ((c.tc : Thread nD τ).loc main_v193) = (dat8 (Vr21 m) c).arrAt 6 cfg8.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c).1.trans (result_eq m c), (h c).2⟩) (run_raw m ρ)

end Cert.KernelIdeal.Hand

end
-- ==== Proof.Ref.Ops.lean ====
/-
  The reference program's @main as lists of host operations: each statement of the printed program one entry, in the
  program's order, an outlined function's operations written at its call site over that call's record of buffers.
  Nine consecutive lists, cut where a printed window ends and where a layer of the network ends, so that both the
  windows and the layers are concatenations of them.
-/
import proofs.«404458_j53163105190632_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- 4 operations: the two rows of the edge index (statements %0 … %3). -/
abbrev opsRows : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000 ]

/-- 79 operations: layer 0 up to the second dense layer's bias row (the rest of the first window). -/
abbrev opsL0a : List (HloOp τ sig (Elt F)) :=
  [ nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v1 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v6 (broadcastInDim S1600000 ![] bcast_S_S1600000 : (⟨S_, .i32⟩ : BufTy).Contents (Elt F) → (⟨S1600000, .i32⟩ : BufTy).Contents (Elt F)),
    binary main_v1 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_arg0 main_v9 main_v10 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst (constant S_ .f32 0x00000000#32),
    unary main_cst main_v11 (broadcastInDim S100000x128 ![] bcast_S_S100000x128 : (⟨S_, .f32⟩ : BufTy).Contents (Elt F) → (⟨S100000x128, .f32⟩ : BufTy).Contents (Elt F)),
    unary main_v3 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    binary main_arg0 main_v13 main_v14 (addf : (⟨S100000x128, .f32⟩ : BufTy).Contents (Elt F) → (⟨S100000x128, .f32⟩ : BufTy).Contents (Elt F) → (⟨S100000x128, .f32⟩ : BufTy).Contents (Elt F)),
    unary main_arg3 main_v15 ((extractStridedSlice S1x128x128 ![0, 0, 0] · slices_S4x128x128_S1x128x128_0_0_0) : (⟨S4x128x128, .f32⟩ : BufTy).Contents (Elt F) → (⟨S1x128x128, .f32⟩ : BufTy).Contents (Elt F)),
    reshape main_v15 main_v16 rfl shapeCasts_S1x128x128_S128x128,
    binary main_v14 main_v16 main_v17 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg4 main_v18 ((extractStridedSlice S1x128 ![0, 0] · slices_S4x128_S1x128_0_0) : (⟨S4x128, .f32⟩ : BufTy).Contents (Elt F) → (⟨S1x128, .f32⟩ : BufTy).Contents (Elt F)),
    reshape main_v18 main_v19 rfl shapeCasts_S1x128_S128,
    unary main_v19 main_v20 (broadcastInDim S1x128 ![1] bcast_S128_S1x128_1 : (⟨S128, .f32⟩ : BufTy).Contents (Elt F) → (⟨S1x128, .f32⟩ : BufTy).Contents (Elt F)),
    unary main_v20 main_v21 (broadcastInDim S100000x128 ![0, 1] bcast_S1x128_S100000x128_0_1 : (⟨S1x128, .f32⟩ : BufTy).Contents (Elt F) → (⟨S100000x128, .f32⟩ : BufTy).Contents (Elt F)),
    binary main_v17 main_v21 main_v22 (addf : (⟨S100000x128, .f32⟩ : BufTy).Contents (Elt F) → (⟨S100000x128, .f32⟩ : BufTy).Contents (Elt F) → (⟨S100000x128, .f32⟩ : BufTy).Contents (Elt F)),
    unary main_arg5 main_v23 ((extractStridedSlice S1x128 ![0, 0] · slices_S4x128_S1x128_0_0) : (⟨S4x128, .f32⟩ : BufTy).Contents (Elt F) → (⟨S1x128, .f32⟩ : BufTy).Contents (Elt F)),
    reshape main_v23 main_v24 rfl shapeCasts_S1x128_S128,
    unary main_arg6 main_v25 ((extractStridedSlice S1x128 ![0, 0] · slices_S4x128_S1x128_0_0) : (⟨S4x128, .f32⟩ : BufTy).Contents (Elt F) → (⟨S1x128, .f32⟩ : BufTy).Contents (Elt F)),
    reshape main_v25 main_v26 rfl shapeCasts_S1x128_S128,
    nullary main_cst_1 (constant S_ .f32 0x00000000#32),
    binary main_v22 main_cst_1 main_v27 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_2 (constant S_ .f32 0x47C35000#32),
    unary main_cst_2 main_v28 (broadcastInDim S128 ![] bcast_S_S128 : (⟨S_, .f32⟩ : BufTy).Contents (Elt F) → (⟨S128, .f32⟩ : BufTy).Contents (Elt F)),
    binary main_v27 main_v28 main_v29 (Host.divf : (⟨S128, .f32⟩ : BufTy).Contents (Elt F) → (⟨S128, .f32⟩ : BufTy).Contents (Elt F) → (⟨S128, .f32⟩ : BufTy).Contents (Elt F)),
    nullary main_c_3 (constantI S_ 32 0#32),
    TRef.nullary main_call0.cst (constant S_ .f32 0x00000000#32),
    TRef.binary (.of main_v22 : TRef sig ⟨S100000x128, .f32⟩) main_call0.cst main_call0.v0 (fun x v => Host.reduceAdd x v reducesTo_S100000x128_S128_d0 h_S_),
    TRef.unary main_call0.v0 main_call0.v1 (broadcastInDim S1x128 ![1] bcast_S128_S1x128_1),
    TRef.nullary main_call0.cst_0 (constant S_ .f32 0x47C35000#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S100000x128 ![0, 1] bcast_S1x128_S100000x128_0_1),
    TRef.binary (.of main_v22 : TRef sig ⟨S100000x128, .f32⟩) main_call0.v4 main_call0.v5 subf,
    TRef.binary main_call0.v5 main_call0.v5 main_call0.v6 mulf,
    TRef.unary (.of main_c_3 : TRef sig ⟨S_, .i32⟩) main_call0.v7 (sitofp .f32),
    TRef.nullary main_call0.cst_1 (constant S_ .f32 0x47C35000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S100000x128_S128_d0 h_S_),
    TRef.unary main_call0.v8 main_call0.v10 (broadcastInDim S128 ![] bcast_S_S128),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S128 ![] bcast_S_S128),
    TRef.ternary main_call0.v12 main_call0.v11 main_call0.call0.v1 main_call0.call0.v2 (fun p a b => select (broadcastInDim S128 ![] bcast_S_S128 p) a b),
    unary main_v29 main_v31 (broadcastInDim S1x128 ![1] bcast_S128_S1x128_1 : (⟨S128, .f32⟩ : BufTy).Contents (Elt F) → (⟨S1x128, .f32⟩ : BufTy).Contents (Elt F)),
    unary main_v31 main_v32 (broadcastInDim S100000x128 ![0, 1] bcast_S1x128_S100000x128_0_1 : (⟨S1x128, .f32⟩ : BufTy).Contents (Elt F) → (⟨S100000x128, .f32⟩ : BufTy).Contents (Elt F)),
    binary main_v22 main_v32 main_v33 (subf : (⟨S100000x128, .f32⟩ : BufTy).Contents (Elt F) → (⟨S100000x128, .f32⟩ : BufTy).Contents (Elt F) → (⟨S100000x128, .f32⟩ : BufTy).Contents (Elt F)),
    nullary main_cst_4 (constant S_ .f32 0x3727C5AC#32),
    unary main_cst_4 main_v34 (broadcastInDim S128 ![] bcast_S_S128 : (⟨S_, .f32⟩ : BufTy).Contents (Elt F) → (⟨S128, .f32⟩ : BufTy).Contents (Elt F)),
    binary main_v30 main_v34 main_v35 (addf : (⟨S128, .f32⟩ : BufTy).Contents (Elt F) → (⟨S128, .f32⟩ : BufTy).Contents (Elt F) → (⟨S128, .f32⟩ : BufTy).Contents (Elt F)),
    unary main_v35 main_v36 (Host.rsqrt : (⟨S128, .f32⟩ : BufTy).Contents (Elt F) → (⟨S128, .f32⟩ : BufTy).Contents (Elt F)),
    unary main_v36 main_v37 (broadcastInDim S1x128 ![1] bcast_S128_S1x128_1 : (⟨S128, .f32⟩ : BufTy).Contents (Elt F) → (⟨S1x128, .f32⟩ : BufTy).Contents (Elt F)),
    unary main_v37 main_v38 (broadcastInDim S100000x128 ![0, 1] bcast_S1x128_S100000x128_0_1 : (⟨S1x128, .f32⟩ : BufTy).Contents (Elt F) → (⟨S100000x128, .f32⟩ : BufTy).Contents (Elt F)),
    binary main_v33 main_v38 main_v39 (mulf : (⟨S100000x128, .f32⟩ : BufTy).Contents (Elt F) → (⟨S100000x128, .f32⟩ : BufTy).Contents (Elt F) → (⟨S100000x128, .f32⟩ : BufTy).Contents (Elt F)),
    unary main_v24 main_v40 (broadcastInDim S1x128 ![1] bcast_S128_S1x128_1 : (⟨S128, .f32⟩ : BufTy).Contents (Elt F) → (⟨S1x128, .f32⟩ : BufTy).Contents (Elt F)),
    unary main_v40 main_v41 (broadcastInDim S100000x128 ![0, 1] bcast_S1x128_S100000x128_0_1 : (⟨S1x128, .f32⟩ : BufTy).Contents (Elt F) → (⟨S100000x128, .f32⟩ : BufTy).Contents (Elt F)),
    binary main_v39 main_v41 main_v42 (mulf : (⟨S100000x128, .f32⟩ : BufTy).Contents (Elt F) → (⟨S100000x128, .f32⟩ : BufTy).Contents (Elt F) → (⟨S100000x128, .f32⟩ : BufTy).Contents (Elt F)),
    unary main_v26 main_v43 (broadcastInDim S1x128 ![1] bcast_S128_S1x128_1 : (⟨S128, .f32⟩ : BufTy).Contents (Elt F) → (⟨S1x128, .f32⟩ : BufTy).Contents (Elt F)),
    unary main_v43 main_v44 (broadcastInDim S100000x128 ![0, 1] bcast_S1x128_S100000x128_0_1 : (⟨S1x128, .f32⟩ : BufTy).Contents (Elt F) → (⟨S100000x128, .f32⟩ : BufTy).Contents (Elt F)),
    binary main_v42 main_v44 main_v45 (addf : (⟨S100000x128, .f32⟩ : BufTy).Contents (Elt F) → (⟨S100000x128, .f32⟩ : BufTy).Contents (Elt F) → (⟨S100000x128, .f32⟩ : BufTy).Contents (Elt F)),
    TRef.nullary main_call1.cst (constant S_ .f32 0x00000000#32),
    TRef.unary main_call1.cst main_call1.v0 (broadcastInDim S100000x128 ![] bcast_S_S100000x128),
    TRef.binary (.of main_v45 : TRef sig ⟨S100000x128, .f32⟩) main_call1.v0 main_call1.v1 maximumf,
    unary main_arg7 main_v47 ((extractStridedSlice S1x128x128 ![0, 0, 0] · slices_S4x128x128_S1x128x128_0_0_0) : (⟨S4x128x128, .f32⟩ : BufTy).Contents (Elt F) → (⟨S1x128x128, .f32⟩ : BufTy).Contents (Elt F)),
    reshape main_v47 main_v48 rfl shapeCasts_S1x128x128_S128x128,
    binary main_v46 main_v48 main_v49 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg8 main_v50 ((extractStridedSlice S1x128 ![0, 0] · slices_S4x128_S1x128_0_0) : (⟨S4x128, .f32⟩ : BufTy).Contents (Elt F) → (⟨S1x128, .f32⟩ : BufTy).Contents (Elt F)),
    reshape main_v50 main_v51 rfl shapeCasts_S1x128_S128,
    unary main_v51 main_v52 (broadcastInDim S1x128 ![1] bcast_S128_S1x128_1 : (⟨S128, .f32⟩ : BufTy).Contents (Elt F) → (⟨S1x128, .f32⟩ : BufTy).Contents (Elt F)) ]

/-- 5 operations: layer 0's last five operations: the bias, the sum and the rectifier (result %55). -/
abbrev opsL0b : List (HloOp τ sig (Elt F)) :=
  [ unary main_v52 main_v53 (broadcastInDim S100000x128 ![0, 1] bcast_S1x128_S100000x128_0_1 : (⟨S1x128, .f32⟩ : BufTy).Contents (Elt F) → (⟨S100000x128, .f32⟩ : BufTy).Contents (Elt F)),
    binary main_v49 main_v53 main_v54 (addf : (⟨S100000x128, .f32⟩ : BufTy).Contents (Elt F) → (⟨S100000x128, .f32⟩ : BufTy).Contents (Elt F) → (⟨S100000x128, .f32⟩ : BufTy).Contents (Elt F)),
    TRef.nullary main_call2.cst (constant S_ .f32 0x00000000#32),
    TRef.unary main_call2.cst main_call2.v0 (broadcastInDim S100000x128 ![] bcast_S_S100000x128),
    TRef.binary (.of main_v54 : TRef sig ⟨S100000x128, .f32⟩) main_call2.v0 main_call2.v1 maximumf ]

/-- 80 operations: layer 1 up to the second dense layer's bias rows (the rest of the second window). -/
abbrev opsL1a : List (HloOp τ sig (Elt F)) :=
  [ nullary main_c_5 (constantI S_ 32 0#32),
    unary main_c_5 main_v56 (broadcastInDim S1600000 ![] bcast_S_S1600000 : (⟨S_, .i32⟩ : BufTy).Contents (Elt F) → (⟨S1600000, .i32⟩ : BufTy).Contents (Elt F)),
    binary main_v1 main_v56 main_v57 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v58 (broadcastInDim S1600000 ![] bcast_S_S1600000 : (⟨S_, .i32⟩ : BufTy).Contents (Elt F) → (⟨S1600000, .i32⟩ : BufTy).Contents (Elt F)),
    binary main_v1 main_v58 main_v59 (addi : (⟨S1600000, .i32⟩ : BufTy).Contents (Elt F) → (⟨S1600000, .i32⟩ : BufTy).Contents (Elt F) → (⟨S1600000, .i32⟩ : BufTy).Contents (Elt F)),
    ternary main_v57 main_v59 main_v1 main_v60 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v60 main_v61 (broadcastInDim S1600000x1 ![0] bcast_S1600000_S1600000x1_0 : (⟨S1600000, .i32⟩ : BufTy).Contents (Elt F) → (⟨S1600000x1, .i32⟩ : BufTy).Contents (Elt F)),
    binary main_v55 main_v61 main_v62 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_7 (constant S_ .f32 0x00000000#32),
    unary main_cst_7 main_v63 (broadcastInDim S100000x128 ![] bcast_S_S100000x128 : (⟨S_, .f32⟩ : BufTy).Contents (Elt F) → (⟨S100000x128, .f32⟩ : BufTy).Contents (Elt F)),
    unary main_v3 main_v64 (broadcastInDim S1600000x1 ![0] bcast_S1600000_S1600000x1_0 : (⟨S1600000, .i32⟩ : BufTy).Contents (Elt F) → (⟨S1600000x1, .i32⟩ : BufTy).Contents (Elt F)),
    ternary main_v63 main_v64 main_v62 main_v65 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    binary main_v55 main_v65 main_v66 (addf : (⟨S100000x128, .f32⟩ : BufTy).Contents (Elt F) → (⟨S100000x128, .f32⟩ : BufTy).Contents (Elt F) → (⟨S100000x128, .f32⟩ : BufTy).Contents (Elt F)),
    unary main_arg3 main_v67 ((extractStridedSlice S1x128x128 ![1, 0, 0] · slices_S4x128x128_S1x128x128_1_0_0) : (⟨S4x128x128, .f32⟩ : BufTy).Contents (Elt F) → (⟨S1x128x128, .f32⟩ : BufTy).Contents (Elt F)),
    reshape main_v67 main_v68 rfl shapeCasts_S1x128x128_S128x128,
    binary main_v66 main_v68 main_v69 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg4 main_v70 ((extractStridedSlice S1x128 ![1, 0] · slices_S4x128_S1x128_1_0) : (⟨S4x128, .f32⟩ : BufTy).Contents (Elt F) → (⟨S1x128, .f32⟩ : BufTy).Contents (Elt F)),
    reshape main_v70 main_v71 rfl shapeCasts_S1x128_S128,
    unary main_v71 main_v72 (broadcastInDim S1x128 ![1] bcast_S128_S1x128_1 : (⟨S128, .f32⟩ : BufTy).Contents (Elt F) → (⟨S1x128, .f32⟩ : BufTy).Contents (Elt F)),
    unary main_v72 main_v73 (broadcastInDim S100000x128 ![0, 1] bcast_S1x128_S100000x128_0_1 : (⟨S1x128, .f32⟩ : BufTy).Contents (Elt F) → (⟨S100000x128, .f32⟩ : BufTy).Contents (Elt F)),
    binary main_v69 main_v73 main_v74 (addf : (⟨S100000x128, .f32⟩ : BufTy).Contents (Elt F) → (⟨S100000x128, .f32⟩ : BufTy).Contents (Elt F) → (⟨S100000x128, .f32⟩ : BufTy).Contents (Elt F)),
    unary main_arg5 main_v75 ((extractStridedSlice S1x128 ![1, 0] · slices_S4x128_S1x128_1_0) : (⟨S4x128, .f32⟩ : BufTy).Contents (Elt F) → (⟨S1x128, .f32⟩ : BufTy).Contents (Elt F)),
    reshape main_v75 main_v76 rfl shapeCasts_S1x128_S128,
    unary main_arg6 main_v77 ((extractStridedSlice S1x128 ![1, 0] · slices_S4x128_S1x128_1_0) : (⟨S4x128, .f32⟩ : BufTy).Contents (Elt F) → (⟨S1x128, .f32⟩ : BufTy).Contents (Elt F)),
    reshape main_v77 main_v78 rfl shapeCasts_S1x128_S128,
    nullary main_cst_8 (constant S_ .f32 0x00000000#32),
    binary main_v74 main_cst_8 main_v79 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_9 (constant S_ .f32 0x47C35000#32),
    unary main_cst_9 main_v80 (broadcastInDim S128 ![] bcast_S_S128 : (⟨S_, .f32⟩ : BufTy).Contents (Elt F) → (⟨S128, .f32⟩ : BufTy).Contents (Elt F)),
    binary main_v79 main_v80 main_v81 (Host.divf : (⟨S128, .f32⟩ : BufTy).Contents (Elt F) → (⟨S128, .f32⟩ : BufTy).Contents (Elt F) → (⟨S128, .f32⟩ : BufTy).Contents (Elt F)),
    nullary main_c_10 (constantI S_ 32 0#32),
    TRef.nullary main_call3.cst (constant S_ .f32 0x00000000#32),
    TRef.binary (.of main_v74 : TRef sig ⟨S100000x128, .f32⟩) main_call3.cst main_call3.v0 (fun x v => Host.reduceAdd x v reducesTo_S100000x128_S128_d0 h_S_),
    TRef.unary main_call3.v0 main_call3.v1 (broadcastInDim S1x128 ![1] bcast_S128_S1x128_1),
    TRef.nullary main_call3.cst_0 (constant S_ .f32 0x47C35000#32),
    TRef.unary main_call3.cst_0 main_call3.v2 (broadcastInDim S1x128 ![] bcast_S_S1x128),
    TRef.binary main_call3.v1 main_call3.v2 main_call3.v3 Host.divf,
    TRef.unary main_call3.v3 main_call3.v4 (broadcastInDim S100000x128 ![0, 1] bcast_S1x128_S100000x128_0_1),
    TRef.binary (.of main_v74 : TRef sig ⟨S100000x128, .f32⟩) main_call3.v4 main_call3.v5 subf,
    TRef.binary main_call3.v5 main_call3.v5 main_call3.v6 mulf,
    TRef.unary (.of main_c_10 : TRef sig ⟨S_, .i32⟩) main_call3.v7 (sitofp .f32),
    TRef.nullary main_call3.cst_1 (constant S_ .f32 0x47C35000#32),
    TRef.binary main_call3.cst_1 main_call3.v7 main_call3.v8 subf,
    TRef.nullary main_call3.cst_2 (constant S_ .f32 0x00000000#32),
    TRef.binary main_call3.v6 main_call3.cst_2 main_call3.v9 (fun x v => Host.reduceAdd x v reducesTo_S100000x128_S128_d0 h_S_),
    TRef.unary main_call3.v8 main_call3.v10 (broadcastInDim S128 ![] bcast_S_S128),
    TRef.binary main_call3.v9 main_call3.v10 main_call3.v11 Host.divf,
    TRef.nullary main_call3.cst_3 (constant S_ .f32 0x00000000#32),
    TRef.binary main_call3.v8 main_call3.cst_3 main_call3.v12 (cmpf .ogt),
    TRef.nullary main_call3.cst_4 (constant S_ .f32 0x7FC00000#32),
    TRef.unary main_call3.cst_4 main_call3.call0.v0 id,
    TRef.unary main_call3.call0.v0 main_call3.call0.v1 (broadcastInDim S128 ![] bcast_S_S128),
    TRef.ternary main_call3.v12 main_call3.v11 main_call3.call0.v1 main_call3.call0.v2 (fun p a b => select (broadcastInDim S128 ![] bcast_S_S128 p) a b),
    unary main_v81 main_v83 (broadcastInDim S1x128 ![1] bcast_S128_S1x128_1 : (⟨S128, .f32⟩ : BufTy).Contents (Elt F) → (⟨S1x128, .f32⟩ : BufTy).Contents (Elt F)),
    unary main_v83 main_v84 (broadcastInDim S100000x128 ![0, 1] bcast_S1x128_S100000x128_0_1 : (⟨S1x128, .f32⟩ : BufTy).Contents (Elt F) → (⟨S100000x128, .f32⟩ : BufTy).Contents (Elt F)),
    binary main_v74 main_v84 main_v85 (subf : (⟨S100000x128, .f32⟩ : BufTy).Contents (Elt F) → (⟨S100000x128, .f32⟩ : BufTy).Contents (Elt F) → (⟨S100000x128, .f32⟩ : BufTy).Contents (Elt F)),
    nullary main_cst_11 (constant S_ .f32 0x3727C5AC#32),
    unary main_cst_11 main_v86 (broadcastInDim S128 ![] bcast_S_S128 : (⟨S_, .f32⟩ : BufTy).Contents (Elt F) → (⟨S128, .f32⟩ : BufTy).Contents (Elt F)),
    binary main_v82 main_v86 main_v87 (addf : (⟨S128, .f32⟩ : BufTy).Contents (Elt F) → (⟨S128, .f32⟩ : BufTy).Contents (Elt F) → (⟨S128, .f32⟩ : BufTy).Contents (Elt F)),
    unary main_v87 main_v88 (Host.rsqrt : (⟨S128, .f32⟩ : BufTy).Contents (Elt F) → (⟨S128, .f32⟩ : BufTy).Contents (Elt F)),
    unary main_v88 main_v89 (broadcastInDim S1x128 ![1] bcast_S128_S1x128_1 : (⟨S128, .f32⟩ : BufTy).Contents (Elt F) → (⟨S1x128, .f32⟩ : BufTy).Contents (Elt F)),
    unary main_v89 main_v90 (broadcastInDim S100000x128 ![0, 1] bcast_S1x128_S100000x128_0_1 : (⟨S1x128, .f32⟩ : BufTy).Contents (Elt F) → (⟨S100000x128, .f32⟩ : BufTy).Contents (Elt F)),
    binary main_v85 main_v90 main_v91 (mulf : (⟨S100000x128, .f32⟩ : BufTy).Contents (Elt F) → (⟨S100000x128, .f32⟩ : BufTy).Contents (Elt F) → (⟨S100000x128, .f32⟩ : BufTy).Contents (Elt F)),
    unary main_v76 main_v92 (broadcastInDim S1x128 ![1] bcast_S128_S1x128_1 : (⟨S128, .f32⟩ : BufTy).Contents (Elt F) → (⟨S1x128, .f32⟩ : BufTy).Contents (Elt F)),
    unary main_v92 main_v93 (broadcastInDim S100000x128 ![0, 1] bcast_S1x128_S100000x128_0_1 : (⟨S1x128, .f32⟩ : BufTy).Contents (Elt F) → (⟨S100000x128, .f32⟩ : BufTy).Contents (Elt F)),
    binary main_v91 main_v93 main_v94 (mulf : (⟨S100000x128, .f32⟩ : BufTy).Contents (Elt F) → (⟨S100000x128, .f32⟩ : BufTy).Contents (Elt F) → (⟨S100000x128, .f32⟩ : BufTy).Contents (Elt F)),
    unary main_v78 main_v95 (broadcastInDim S1x128 ![1] bcast_S128_S1x128_1 : (⟨S128, .f32⟩ : BufTy).Contents (Elt F) → (⟨S1x128, .f32⟩ : BufTy).Contents (Elt F)),
    unary main_v95 main_v96 (broadcastInDim S100000x128 ![0, 1] bcast_S1x128_S100000x128_0_1 : (⟨S1x128, .f32⟩ : BufTy).Contents (Elt F) → (⟨S100000x128, .f32⟩ : BufTy).Contents (Elt F)),
    binary main_v94 main_v96 main_v97 (addf : (⟨S100000x128, .f32⟩ : BufTy).Contents (Elt F) → (⟨S100000x128, .f32⟩ : BufTy).Contents (Elt F) → (⟨S100000x128, .f32⟩ : BufTy).Contents (Elt F)),
    TRef.nullary main_call4.cst (constant S_ .f32 0x00000000#32),
    TRef.unary main_call4.cst main_call4.v0 (broadcastInDim S100000x128 ![] bcast_S_S100000x128),
    TRef.binary (.of main_v97 : TRef sig ⟨S100000x128, .f32⟩) main_call4.v0 main_call4.v1 maximumf,
    unary main_arg7 main_v99 ((extractStridedSlice S1x128x128 ![1, 0, 0] · slices_S4x128x128_S1x128x128_1_0_0) : (⟨S4x128x128, .f32⟩ : BufTy).Contents (Elt F) → (⟨S1x128x128, .f32⟩ : BufTy).Contents (Elt F)),
    reshape main_v99 main_v100 rfl shapeCasts_S1x128x128_S128x128,
    binary main_v98 main_v100 main_v101 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg8 main_v102 ((extractStridedSlice S1x128 ![1, 0] · slices_S4x128_S1x128_1_0) : (⟨S4x128, .f32⟩ : BufTy).Contents (Elt F) → (⟨S1x128, .f32⟩ : BufTy).Contents (Elt F)),
    reshape main_v102 main_v103 rfl shapeCasts_S1x128_S128,
    unary main_v103 main_v104 (broadcastInDim S1x128 ![1] bcast_S128_S1x128_1 : (⟨S128, .f32⟩ : BufTy).Contents (Elt F) → (⟨S1x128, .f32⟩ : BufTy).Contents (Elt F)),
    unary main_v104 main_v105 (broadcastInDim S100000x128 ![0, 1] bcast_S1x128_S100000x128_0_1 : (⟨S1x128, .f32⟩ : BufTy).Contents (Elt F) → (⟨S100000x128, .f32⟩ : BufTy).Contents (Elt F)) ]

/-- 4 operations: layer 1's last four operations: the sum and the rectifier (result %107). -/
abbrev opsL1b : List (HloOp τ sig (Elt F)) :=
  [ binary main_v101 main_v105 main_v106 (addf : (⟨S100000x128, .f32⟩ : BufTy).Contents (Elt F) → (⟨S100000x128, .f32⟩ : BufTy).Contents (Elt F) → (⟨S100000x128, .f32⟩ : BufTy).Contents (Elt F)),
    TRef.nullary main_call5.cst (constant S_ .f32 0x00000000#32),
    TRef.unary main_call5.cst main_call5.v0 (broadcastInDim S100000x128 ![] bcast_S_S100000x128),
    TRef.binary (.of main_v106 : TRef sig ⟨S100000x128, .f32⟩) main_call5.v0 main_call5.v1 maximumf ]

/-- 81 operations: layer 2 up to the second dense layer's sum (the rest of the third window). -/
abbrev opsL2a : List (HloOp τ sig (Elt F)) :=
  [ nullary main_c_12 (constantI S_ 32 0#32),
    unary main_c_12 main_v108 (broadcastInDim S1600000 ![] bcast_S_S1600000 : (⟨S_, .i32⟩ : BufTy).Contents (Elt F) → (⟨S1600000, .i32⟩ : BufTy).Contents (Elt F)),
    binary main_v1 main_v108 main_v109 (cmpi .slt : (⟨S1600000, .i32⟩ : BufTy).Contents (Elt F) → (⟨S1600000, .i32⟩ : BufTy).Contents (Elt F) → (⟨S1600000, .i1⟩ : BufTy).Contents (Elt F)),
    nullary main_c_13 (constantI S_ 32 100000#32),
    unary main_c_13 main_v110 (broadcastInDim S1600000 ![] bcast_S_S1600000 : (⟨S_, .i32⟩ : BufTy).Contents (Elt F) → (⟨S1600000, .i32⟩ : BufTy).Contents (Elt F)),
    binary main_v1 main_v110 main_v111 (addi : (⟨S1600000, .i32⟩ : BufTy).Contents (Elt F) → (⟨S1600000, .i32⟩ : BufTy).Contents (Elt F) → (⟨S1600000, .i32⟩ : BufTy).Contents (Elt F)),
    ternary main_v109 main_v111 main_v1 main_v112 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v112 main_v113 (broadcastInDim S1600000x1 ![0] bcast_S1600000_S1600000x1_0 : (⟨S1600000, .i32⟩ : BufTy).Contents (Elt F) → (⟨S1600000x1, .i32⟩ : BufTy).Contents (Elt F)),
    binary main_v107 main_v113 main_v114 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_14 (constant S_ .f32 0x00000000#32),
    unary main_cst_14 main_v115 (broadcastInDim S100000x128 ![] bcast_S_S100000x128 : (⟨S_, .f32⟩ : BufTy).Contents (Elt F) → (⟨S100000x128, .f32⟩ : BufTy).Contents (Elt F)),
    unary main_v3 main_v116 (broadcastInDim S1600000x1 ![0] bcast_S1600000_S1600000x1_0 : (⟨S1600000, .i32⟩ : BufTy).Contents (Elt F) → (⟨S1600000x1, .i32⟩ : BufTy).Contents (Elt F)),
    ternary main_v115 main_v116 main_v114 main_v117 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    binary main_v107 main_v117 main_v118 (addf : (⟨S100000x128, .f32⟩ : BufTy).Contents (Elt F) → (⟨S100000x128, .f32⟩ : BufTy).Contents (Elt F) → (⟨S100000x128, .f32⟩ : BufTy).Contents (Elt F)),
    unary main_arg3 main_v119 ((extractStridedSlice S1x128x128 ![2, 0, 0] · slices_S4x128x128_S1x128x128_2_0_0) : (⟨S4x128x128, .f32⟩ : BufTy).Contents (Elt F) → (⟨S1x128x128, .f32⟩ : BufTy).Contents (Elt F)),
    reshape main_v119 main_v120 rfl shapeCasts_S1x128x128_S128x128,
    binary main_v118 main_v120 main_v121 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg4 main_v122 ((extractStridedSlice S1x128 ![2, 0] · slices_S4x128_S1x128_2_0) : (⟨S4x128, .f32⟩ : BufTy).Contents (Elt F) → (⟨S1x128, .f32⟩ : BufTy).Contents (Elt F)),
    reshape main_v122 main_v123 rfl shapeCasts_S1x128_S128,
    unary main_v123 main_v124 (broadcastInDim S1x128 ![1] bcast_S128_S1x128_1 : (⟨S128, .f32⟩ : BufTy).Contents (Elt F) → (⟨S1x128, .f32⟩ : BufTy).Contents (Elt F)),
    unary main_v124 main_v125 (broadcastInDim S100000x128 ![0, 1] bcast_S1x128_S100000x128_0_1 : (⟨S1x128, .f32⟩ : BufTy).Contents (Elt F) → (⟨S100000x128, .f32⟩ : BufTy).Contents (Elt F)),
    binary main_v121 main_v125 main_v126 (addf : (⟨S100000x128, .f32⟩ : BufTy).Contents (Elt F) → (⟨S100000x128, .f32⟩ : BufTy).Contents (Elt F) → (⟨S100000x128, .f32⟩ : BufTy).Contents (Elt F)),
    unary main_arg5 main_v127 ((extractStridedSlice S1x128 ![2, 0] · slices_S4x128_S1x128_2_0) : (⟨S4x128, .f32⟩ : BufTy).Contents (Elt F) → (⟨S1x128, .f32⟩ : BufTy).Contents (Elt F)),
    reshape main_v127 main_v128 rfl shapeCasts_S1x128_S128,
    unary main_arg6 main_v129 ((extractStridedSlice S1x128 ![2, 0] · slices_S4x128_S1x128_2_0) : (⟨S4x128, .f32⟩ : BufTy).Contents (Elt F) → (⟨S1x128, .f32⟩ : BufTy).Contents (Elt F)),
    reshape main_v129 main_v130 rfl shapeCasts_S1x128_S128,
    nullary main_cst_15 (constant S_ .f32 0x00000000#32),
    binary main_v126 main_cst_15 main_v131 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_16 (constant S_ .f32 0x47C35000#32),
    unary main_cst_16 main_v132 (broadcastInDim S128 ![] bcast_S_S128 : (⟨S_, .f32⟩ : BufTy).Contents (Elt F) → (⟨S128, .f32⟩ : BufTy).Contents (Elt F)),
    binary main_v131 main_v132 main_v133 (Host.divf : (⟨S128, .f32⟩ : BufTy).Contents (Elt F) → (⟨S128, .f32⟩ : BufTy).Contents (Elt F) → (⟨S128, .f32⟩ : BufTy).Contents (Elt F)),
    nullary main_c_17 (constantI S_ 32 0#32),
    TRef.nullary main_call6.cst (constant S_ .f32 0x00000000#32),
    TRef.binary (.of main_v126 : TRef sig ⟨S100000x128, .f32⟩) main_call6.cst main_call6.v0 (fun x v => Host.reduceAdd x v reducesTo_S100000x128_S128_d0 h_S_),
    TRef.unary main_call6.v0 main_call6.v1 (broadcastInDim S1x128 ![1] bcast_S128_S1x128_1),
    TRef.nullary main_call6.cst_0 (constant S_ .f32 0x47C35000#32),
    TRef.unary main_call6.cst_0 main_call6.v2 (broadcastInDim S1x128 ![] bcast_S_S1x128),
    TRef.binary main_call6.v1 main_call6.v2 main_call6.v3 Host.divf,
    TRef.unary main_call6.v3 main_call6.v4 (broadcastInDim S100000x128 ![0, 1] bcast_S1x128_S100000x128_0_1),
    TRef.binary (.of main_v126 : TRef sig ⟨S100000x128, .f32⟩) main_call6.v4 main_call6.v5 subf,
    TRef.binary main_call6.v5 main_call6.v5 main_call6.v6 mulf,
    TRef.unary (.of main_c_17 : TRef sig ⟨S_, .i32⟩) main_call6.v7 (sitofp .f32),
    TRef.nullary main_call6.cst_1 (constant S_ .f32 0x47C35000#32),
    TRef.binary main_call6.cst_1 main_call6.v7 main_call6.v8 subf,
    TRef.nullary main_call6.cst_2 (constant S_ .f32 0x00000000#32),
    TRef.binary main_call6.v6 main_call6.cst_2 main_call6.v9 (fun x v => Host.reduceAdd x v reducesTo_S100000x128_S128_d0 h_S_),
    TRef.unary main_call6.v8 main_call6.v10 (broadcastInDim S128 ![] bcast_S_S128),
    TRef.binary main_call6.v9 main_call6.v10 main_call6.v11 Host.divf,
    TRef.nullary main_call6.cst_3 (constant S_ .f32 0x00000000#32),
    TRef.binary main_call6.v8 main_call6.cst_3 main_call6.v12 (cmpf .ogt),
    TRef.nullary main_call6.cst_4 (constant S_ .f32 0x7FC00000#32),
    TRef.unary main_call6.cst_4 main_call6.call0.v0 id,
    TRef.unary main_call6.call0.v0 main_call6.call0.v1 (broadcastInDim S128 ![] bcast_S_S128),
    TRef.ternary main_call6.v12 main_call6.v11 main_call6.call0.v1 main_call6.call0.v2 (fun p a b => select (broadcastInDim S128 ![] bcast_S_S128 p) a b),
    unary main_v133 main_v135 (broadcastInDim S1x128 ![1] bcast_S128_S1x128_1 : (⟨S128, .f32⟩ : BufTy).Contents (Elt F) → (⟨S1x128, .f32⟩ : BufTy).Contents (Elt F)),
    unary main_v135 main_v136 (broadcastInDim S100000x128 ![0, 1] bcast_S1x128_S100000x128_0_1 : (⟨S1x128, .f32⟩ : BufTy).Contents (Elt F) → (⟨S100000x128, .f32⟩ : BufTy).Contents (Elt F)),
    binary main_v126 main_v136 main_v137 (subf : (⟨S100000x128, .f32⟩ : BufTy).Contents (Elt F) → (⟨S100000x128, .f32⟩ : BufTy).Contents (Elt F) → (⟨S100000x128, .f32⟩ : BufTy).Contents (Elt F)),
    nullary main_cst_18 (constant S_ .f32 0x3727C5AC#32),
    unary main_cst_18 main_v138 (broadcastInDim S128 ![] bcast_S_S128 : (⟨S_, .f32⟩ : BufTy).Contents (Elt F) → (⟨S128, .f32⟩ : BufTy).Contents (Elt F)),
    binary main_v134 main_v138 main_v139 (addf : (⟨S128, .f32⟩ : BufTy).Contents (Elt F) → (⟨S128, .f32⟩ : BufTy).Contents (Elt F) → (⟨S128, .f32⟩ : BufTy).Contents (Elt F)),
    unary main_v139 main_v140 (Host.rsqrt : (⟨S128, .f32⟩ : BufTy).Contents (Elt F) → (⟨S128, .f32⟩ : BufTy).Contents (Elt F)),
    unary main_v140 main_v141 (broadcastInDim S1x128 ![1] bcast_S128_S1x128_1 : (⟨S128, .f32⟩ : BufTy).Contents (Elt F) → (⟨S1x128, .f32⟩ : BufTy).Contents (Elt F)),
    unary main_v141 main_v142 (broadcastInDim S100000x128 ![0, 1] bcast_S1x128_S100000x128_0_1 : (⟨S1x128, .f32⟩ : BufTy).Contents (Elt F) → (⟨S100000x128, .f32⟩ : BufTy).Contents (Elt F)),
    binary main_v137 main_v142 main_v143 (mulf : (⟨S100000x128, .f32⟩ : BufTy).Contents (Elt F) → (⟨S100000x128, .f32⟩ : BufTy).Contents (Elt F) → (⟨S100000x128, .f32⟩ : BufTy).Contents (Elt F)),
    unary main_v128 main_v144 (broadcastInDim S1x128 ![1] bcast_S128_S1x128_1 : (⟨S128, .f32⟩ : BufTy).Contents (Elt F) → (⟨S1x128, .f32⟩ : BufTy).Contents (Elt F)),
    unary main_v144 main_v145 (broadcastInDim S100000x128 ![0, 1] bcast_S1x128_S100000x128_0_1 : (⟨S1x128, .f32⟩ : BufTy).Contents (Elt F) → (⟨S100000x128, .f32⟩ : BufTy).Contents (Elt F)),
    binary main_v143 main_v145 main_v146 (mulf : (⟨S100000x128, .f32⟩ : BufTy).Contents (Elt F) → (⟨S100000x128, .f32⟩ : BufTy).Contents (Elt F) → (⟨S100000x128, .f32⟩ : BufTy).Contents (Elt F)),
    unary main_v130 main_v147 (broadcastInDim S1x128 ![1] bcast_S128_S1x128_1 : (⟨S128, .f32⟩ : BufTy).Contents (Elt F) → (⟨S1x128, .f32⟩ : BufTy).Contents (Elt F)),
    unary main_v147 main_v148 (broadcastInDim S100000x128 ![0, 1] bcast_S1x128_S100000x128_0_1 : (⟨S1x128, .f32⟩ : BufTy).Contents (Elt F) → (⟨S100000x128, .f32⟩ : BufTy).Contents (Elt F)),
    binary main_v146 main_v148 main_v149 (addf : (⟨S100000x128, .f32⟩ : BufTy).Contents (Elt F) → (⟨S100000x128, .f32⟩ : BufTy).Contents (Elt F) → (⟨S100000x128, .f32⟩ : BufTy).Contents (Elt F)),
    TRef.nullary main_call7.cst (constant S_ .f32 0x00000000#32),
    TRef.unary main_call7.cst main_call7.v0 (broadcastInDim S100000x128 ![] bcast_S_S100000x128),
    TRef.binary (.of main_v149 : TRef sig ⟨S100000x128, .f32⟩) main_call7.v0 main_call7.v1 maximumf,
    unary main_arg7 main_v151 ((extractStridedSlice S1x128x128 ![2, 0, 0] · slices_S4x128x128_S1x128x128_2_0_0) : (⟨S4x128x128, .f32⟩ : BufTy).Contents (Elt F) → (⟨S1x128x128, .f32⟩ : BufTy).Contents (Elt F)),
    reshape main_v151 main_v152 rfl shapeCasts_S1x128x128_S128x128,
    binary main_v150 main_v152 main_v153 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg8 main_v154 ((extractStridedSlice S1x128 ![2, 0] · slices_S4x128_S1x128_2_0) : (⟨S4x128, .f32⟩ : BufTy).Contents (Elt F) → (⟨S1x128, .f32⟩ : BufTy).Contents (Elt F)),
    reshape main_v154 main_v155 rfl shapeCasts_S1x128_S128,
    unary main_v155 main_v156 (broadcastInDim S1x128 ![1] bcast_S128_S1x128_1 : (⟨S128, .f32⟩ : BufTy).Contents (Elt F) → (⟨S1x128, .f32⟩ : BufTy).Contents (Elt F)),
    unary main_v156 main_v157 (broadcastInDim S100000x128 ![0, 1] bcast_S1x128_S100000x128_0_1 : (⟨S1x128, .f32⟩ : BufTy).Contents (Elt F) → (⟨S100000x128, .f32⟩ : BufTy).Contents (Elt F)),
    binary main_v153 main_v157 main_v158 (addf : (⟨S100000x128, .f32⟩ : BufTy).Contents (Elt F) → (⟨S100000x128, .f32⟩ : BufTy).Contents (Elt F) → (⟨S100000x128, .f32⟩ : BufTy).Contents (Elt F)) ]

/-- 3 operations: layer 2's last three operations: the rectifier (result %159). -/
abbrev opsL2b : List (HloOp τ sig (Elt F)) :=
  [ TRef.nullary main_call8.cst (constant S_ .f32 0x00000000#32),
    TRef.unary main_call8.cst main_call8.v0 (broadcastInDim S100000x128 ![] bcast_S_S100000x128),
    TRef.binary (.of main_v158 : TRef sig ⟨S100000x128, .f32⟩) main_call8.v0 main_call8.v1 maximumf ]

/-- 84 operations: layer 3 (the rest of the fourth window; result %211). -/
abbrev opsL3 : List (HloOp τ sig (Elt F)) :=
  [ nullary main_c_19 (constantI S_ 32 0#32),
    unary main_c_19 main_v160 (broadcastInDim S1600000 ![] bcast_S_S1600000 : (⟨S_, .i32⟩ : BufTy).Contents (Elt F) → (⟨S1600000, .i32⟩ : BufTy).Contents (Elt F)),
    binary main_v1 main_v160 main_v161 (cmpi .slt : (⟨S1600000, .i32⟩ : BufTy).Contents (Elt F) → (⟨S1600000, .i32⟩ : BufTy).Contents (Elt F) → (⟨S1600000, .i1⟩ : BufTy).Contents (Elt F)),
    nullary main_c_20 (constantI S_ 32 100000#32),
    unary main_c_20 main_v162 (broadcastInDim S1600000 ![] bcast_S_S1600000 : (⟨S_, .i32⟩ : BufTy).Contents (Elt F) → (⟨S1600000, .i32⟩ : BufTy).Contents (Elt F)),
    binary main_v1 main_v162 main_v163 (addi : (⟨S1600000, .i32⟩ : BufTy).Contents (Elt F) → (⟨S1600000, .i32⟩ : BufTy).Contents (Elt F) → (⟨S1600000, .i32⟩ : BufTy).Contents (Elt F)),
    ternary main_v161 main_v163 main_v1 main_v164 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v164 main_v165 (broadcastInDim S1600000x1 ![0] bcast_S1600000_S1600000x1_0 : (⟨S1600000, .i32⟩ : BufTy).Contents (Elt F) → (⟨S1600000x1, .i32⟩ : BufTy).Contents (Elt F)),
    binary main_v159 main_v165 main_v166 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_21 (constant S_ .f32 0x00000000#32),
    unary main_cst_21 main_v167 (broadcastInDim S100000x128 ![] bcast_S_S100000x128 : (⟨S_, .f32⟩ : BufTy).Contents (Elt F) → (⟨S100000x128, .f32⟩ : BufTy).Contents (Elt F)),
    unary main_v3 main_v168 (broadcastInDim S1600000x1 ![0] bcast_S1600000_S1600000x1_0 : (⟨S1600000, .i32⟩ : BufTy).Contents (Elt F) → (⟨S1600000x1, .i32⟩ : BufTy).Contents (Elt F)),
    ternary main_v167 main_v168 main_v166 main_v169 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    binary main_v159 main_v169 main_v170 (addf : (⟨S100000x128, .f32⟩ : BufTy).Contents (Elt F) → (⟨S100000x128, .f32⟩ : BufTy).Contents (Elt F) → (⟨S100000x128, .f32⟩ : BufTy).Contents (Elt F)),
    unary main_arg3 main_v171 ((extractStridedSlice S1x128x128 ![3, 0, 0] · slices_S4x128x128_S1x128x128_3_0_0) : (⟨S4x128x128, .f32⟩ : BufTy).Contents (Elt F) → (⟨S1x128x128, .f32⟩ : BufTy).Contents (Elt F)),
    reshape main_v171 main_v172 rfl shapeCasts_S1x128x128_S128x128,
    binary main_v170 main_v172 main_v173 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg4 main_v174 ((extractStridedSlice S1x128 ![3, 0] · slices_S4x128_S1x128_3_0) : (⟨S4x128, .f32⟩ : BufTy).Contents (Elt F) → (⟨S1x128, .f32⟩ : BufTy).Contents (Elt F)),
    reshape main_v174 main_v175 rfl shapeCasts_S1x128_S128,
    unary main_v175 main_v176 (broadcastInDim S1x128 ![1] bcast_S128_S1x128_1 : (⟨S128, .f32⟩ : BufTy).Contents (Elt F) → (⟨S1x128, .f32⟩ : BufTy).Contents (Elt F)),
    unary main_v176 main_v177 (broadcastInDim S100000x128 ![0, 1] bcast_S1x128_S100000x128_0_1 : (⟨S1x128, .f32⟩ : BufTy).Contents (Elt F) → (⟨S100000x128, .f32⟩ : BufTy).Contents (Elt F)),
    binary main_v173 main_v177 main_v178 (addf : (⟨S100000x128, .f32⟩ : BufTy).Contents (Elt F) → (⟨S100000x128, .f32⟩ : BufTy).Contents (Elt F) → (⟨S100000x128, .f32⟩ : BufTy).Contents (Elt F)),
    unary main_arg5 main_v179 ((extractStridedSlice S1x128 ![3, 0] · slices_S4x128_S1x128_3_0) : (⟨S4x128, .f32⟩ : BufTy).Contents (Elt F) → (⟨S1x128, .f32⟩ : BufTy).Contents (Elt F)),
    reshape main_v179 main_v180 rfl shapeCasts_S1x128_S128,
    unary main_arg6 main_v181 ((extractStridedSlice S1x128 ![3, 0] · slices_S4x128_S1x128_3_0) : (⟨S4x128, .f32⟩ : BufTy).Contents (Elt F) → (⟨S1x128, .f32⟩ : BufTy).Contents (Elt F)),
    reshape main_v181 main_v182 rfl shapeCasts_S1x128_S128,
    nullary main_cst_22 (constant S_ .f32 0x00000000#32),
    binary main_v178 main_cst_22 main_v183 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_23 (constant S_ .f32 0x47C35000#32),
    unary main_cst_23 main_v184 (broadcastInDim S128 ![] bcast_S_S128 : (⟨S_, .f32⟩ : BufTy).Contents (Elt F) → (⟨S128, .f32⟩ : BufTy).Contents (Elt F)),
    binary main_v183 main_v184 main_v185 (Host.divf : (⟨S128, .f32⟩ : BufTy).Contents (Elt F) → (⟨S128, .f32⟩ : BufTy).Contents (Elt F) → (⟨S128, .f32⟩ : BufTy).Contents (Elt F)),
    nullary main_c_24 (constantI S_ 32 0#32),
    TRef.nullary main_call9.cst (constant S_ .f32 0x00000000#32),
    TRef.binary (.of main_v178 : TRef sig ⟨S100000x128, .f32⟩) main_call9.cst main_call9.v0 (fun x v => Host.reduceAdd x v reducesTo_S100000x128_S128_d0 h_S_),
    TRef.unary main_call9.v0 main_call9.v1 (broadcastInDim S1x128 ![1] bcast_S128_S1x128_1),
    TRef.nullary main_call9.cst_0 (constant S_ .f32 0x47C35000#32),
    TRef.unary main_call9.cst_0 main_call9.v2 (broadcastInDim S1x128 ![] bcast_S_S1x128),
    TRef.binary main_call9.v1 main_call9.v2 main_call9.v3 Host.divf,
    TRef.unary main_call9.v3 main_call9.v4 (broadcastInDim S100000x128 ![0, 1] bcast_S1x128_S100000x128_0_1),
    TRef.binary (.of main_v178 : TRef sig ⟨S100000x128, .f32⟩) main_call9.v4 main_call9.v5 subf,
    TRef.binary main_call9.v5 main_call9.v5 main_call9.v6 mulf,
    TRef.unary (.of main_c_24 : TRef sig ⟨S_, .i32⟩) main_call9.v7 (sitofp .f32),
    TRef.nullary main_call9.cst_1 (constant S_ .f32 0x47C35000#32),
    TRef.binary main_call9.cst_1 main_call9.v7 main_call9.v8 subf,
    TRef.nullary main_call9.cst_2 (constant S_ .f32 0x00000000#32),
    TRef.binary main_call9.v6 main_call9.cst_2 main_call9.v9 (fun x v => Host.reduceAdd x v reducesTo_S100000x128_S128_d0 h_S_),
    TRef.unary main_call9.v8 main_call9.v10 (broadcastInDim S128 ![] bcast_S_S128),
    TRef.binary main_call9.v9 main_call9.v10 main_call9.v11 Host.divf,
    TRef.nullary main_call9.cst_3 (constant S_ .f32 0x00000000#32),
    TRef.binary main_call9.v8 main_call9.cst_3 main_call9.v12 (cmpf .ogt),
    TRef.nullary main_call9.cst_4 (constant S_ .f32 0x7FC00000#32),
    TRef.unary main_call9.cst_4 main_call9.call0.v0 id,
    TRef.unary main_call9.call0.v0 main_call9.call0.v1 (broadcastInDim S128 ![] bcast_S_S128),
    TRef.ternary main_call9.v12 main_call9.v11 main_call9.call0.v1 main_call9.call0.v2 (fun p a b => select (broadcastInDim S128 ![] bcast_S_S128 p) a b),
    unary main_v185 main_v187 (broadcastInDim S1x128 ![1] bcast_S128_S1x128_1 : (⟨S128, .f32⟩ : BufTy).Contents (Elt F) → (⟨S1x128, .f32⟩ : BufTy).Contents (Elt F)),
    unary main_v187 main_v188 (broadcastInDim S100000x128 ![0, 1] bcast_S1x128_S100000x128_0_1 : (⟨S1x128, .f32⟩ : BufTy).Contents (Elt F) → (⟨S100000x128, .f32⟩ : BufTy).Contents (Elt F)),
    binary main_v178 main_v188 main_v189 (subf : (⟨S100000x128, .f32⟩ : BufTy).Contents (Elt F) → (⟨S100000x128, .f32⟩ : BufTy).Contents (Elt F) → (⟨S100000x128, .f32⟩ : BufTy).Contents (Elt F)),
    nullary main_cst_25 (constant S_ .f32 0x3727C5AC#32),
    unary main_cst_25 main_v190 (broadcastInDim S128 ![] bcast_S_S128 : (⟨S_, .f32⟩ : BufTy).Contents (Elt F) → (⟨S128, .f32⟩ : BufTy).Contents (Elt F)),
    binary main_v186 main_v190 main_v191 (addf : (⟨S128, .f32⟩ : BufTy).Contents (Elt F) → (⟨S128, .f32⟩ : BufTy).Contents (Elt F) → (⟨S128, .f32⟩ : BufTy).Contents (Elt F)),
    unary main_v191 main_v192 (Host.rsqrt : (⟨S128, .f32⟩ : BufTy).Contents (Elt F) → (⟨S128, .f32⟩ : BufTy).Contents (Elt F)),
    unary main_v192 main_v193 (broadcastInDim S1x128 ![1] bcast_S128_S1x128_1 : (⟨S128, .f32⟩ : BufTy).Contents (Elt F) → (⟨S1x128, .f32⟩ : BufTy).Contents (Elt F)),
    unary main_v193 main_v194 (broadcastInDim S100000x128 ![0, 1] bcast_S1x128_S100000x128_0_1 : (⟨S1x128, .f32⟩ : BufTy).Contents (Elt F) → (⟨S100000x128, .f32⟩ : BufTy).Contents (Elt F)),
    binary main_v189 main_v194 main_v195 (mulf : (⟨S100000x128, .f32⟩ : BufTy).Contents (Elt F) → (⟨S100000x128, .f32⟩ : BufTy).Contents (Elt F) → (⟨S100000x128, .f32⟩ : BufTy).Contents (Elt F)),
    unary main_v180 main_v196 (broadcastInDim S1x128 ![1] bcast_S128_S1x128_1 : (⟨S128, .f32⟩ : BufTy).Contents (Elt F) → (⟨S1x128, .f32⟩ : BufTy).Contents (Elt F)),
    unary main_v196 main_v197 (broadcastInDim S100000x128 ![0, 1] bcast_S1x128_S100000x128_0_1 : (⟨S1x128, .f32⟩ : BufTy).Contents (Elt F) → (⟨S100000x128, .f32⟩ : BufTy).Contents (Elt F)),
    binary main_v195 main_v197 main_v198 (mulf : (⟨S100000x128, .f32⟩ : BufTy).Contents (Elt F) → (⟨S100000x128, .f32⟩ : BufTy).Contents (Elt F) → (⟨S100000x128, .f32⟩ : BufTy).Contents (Elt F)),
    unary main_v182 main_v199 (broadcastInDim S1x128 ![1] bcast_S128_S1x128_1 : (⟨S128, .f32⟩ : BufTy).Contents (Elt F) → (⟨S1x128, .f32⟩ : BufTy).Contents (Elt F)),
    unary main_v199 main_v200 (broadcastInDim S100000x128 ![0, 1] bcast_S1x128_S100000x128_0_1 : (⟨S1x128, .f32⟩ : BufTy).Contents (Elt F) → (⟨S100000x128, .f32⟩ : BufTy).Contents (Elt F)),
    binary main_v198 main_v200 main_v201 (addf : (⟨S100000x128, .f32⟩ : BufTy).Contents (Elt F) → (⟨S100000x128, .f32⟩ : BufTy).Contents (Elt F) → (⟨S100000x128, .f32⟩ : BufTy).Contents (Elt F)),
    TRef.nullary main_call10.cst (constant S_ .f32 0x00000000#32),
    TRef.unary main_call10.cst main_call10.v0 (broadcastInDim S100000x128 ![] bcast_S_S100000x128),
    TRef.binary (.of main_v201 : TRef sig ⟨S100000x128, .f32⟩) main_call10.v0 main_call10.v1 maximumf,
    unary main_arg7 main_v203 ((extractStridedSlice S1x128x128 ![3, 0, 0] · slices_S4x128x128_S1x128x128_3_0_0) : (⟨S4x128x128, .f32⟩ : BufTy).Contents (Elt F) → (⟨S1x128x128, .f32⟩ : BufTy).Contents (Elt F)),
    reshape main_v203 main_v204 rfl shapeCasts_S1x128x128_S128x128,
    binary main_v202 main_v204 main_v205 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg8 main_v206 ((extractStridedSlice S1x128 ![3, 0] · slices_S4x128_S1x128_3_0) : (⟨S4x128, .f32⟩ : BufTy).Contents (Elt F) → (⟨S1x128, .f32⟩ : BufTy).Contents (Elt F)),
    reshape main_v206 main_v207 rfl shapeCasts_S1x128_S128,
    unary main_v207 main_v208 (broadcastInDim S1x128 ![1] bcast_S128_S1x128_1 : (⟨S128, .f32⟩ : BufTy).Contents (Elt F) → (⟨S1x128, .f32⟩ : BufTy).Contents (Elt F)),
    unary main_v208 main_v209 (broadcastInDim S100000x128 ![0, 1] bcast_S1x128_S100000x128_0_1 : (⟨S1x128, .f32⟩ : BufTy).Contents (Elt F) → (⟨S100000x128, .f32⟩ : BufTy).Contents (Elt F)),
    binary main_v205 main_v209 main_v210 (addf : (⟨S100000x128, .f32⟩ : BufTy).Contents (Elt F) → (⟨S100000x128, .f32⟩ : BufTy).Contents (Elt F) → (⟨S100000x128, .f32⟩ : BufTy).Contents (Elt F)),
    TRef.nullary main_call11.cst (constant S_ .f32 0x00000000#32),
    TRef.unary main_call11.cst main_call11.v0 (broadcastInDim S100000x128 ![] bcast_S_S100000x128),
    TRef.binary (.of main_v210 : TRef sig ⟨S100000x128, .f32⟩) main_call11.v0 main_call11.v1 maximumf ]

/-- 15 operations: the pooling and the read-out (the fifth window; result %223). -/
abbrev opsTail : List (HloOp τ sig (Elt F)) :=
  [ nullary main_cst_26 (constant S_ .f32 0x00000000#32),
    unary main_cst_26 main_v212 (broadcastInDim S128x128 ![] bcast_S_S128x128 : (⟨S_, .f32⟩ : BufTy).Contents (Elt F) → (⟨S128x128, .f32⟩ : BufTy).Contents (Elt F)),
    unary main_arg2 main_v213 (broadcastInDim S100000x1 ![0] bcast_S100000_S100000x1_0 : (⟨S100000, .i32⟩ : BufTy).Contents (Elt F) → (⟨S100000x1, .i32⟩ : BufTy).Contents (Elt F)),
    ternary main_v212 main_v213 main_v211 main_v214 ((fun x i u => Host.scatterAdd scatter_S128x128_S100000x1_S100000x128_1_0_0_1 x i u) : (⟨S128x128, .f32⟩ : BufTy).Contents (Elt F) → (⟨S100000x1, .i32⟩ : BufTy).Contents (Elt F) → (⟨S100000x128, .f32⟩ : BufTy).Contents (Elt F) → (⟨S128x128, .f32⟩ : BufTy).Contents (Elt F)),
    binary main_v214 main_arg9 main_v215 ((fun l r => Host.dotGeneral dot_S128x128_S128x128_S128x128_1_0_0_1_n_n none l r) : (⟨S128x128, .f32⟩ : BufTy).Contents (Elt F) → (⟨S128x128, .f32⟩ : BufTy).Contents (Elt F) → (⟨S128x128, .f32⟩ : BufTy).Contents (Elt F)),
    unary main_arg10 main_v216 (broadcastInDim S1x128 ![1] bcast_S128_S1x128_1 : (⟨S128, .f32⟩ : BufTy).Contents (Elt F) → (⟨S1x128, .f32⟩ : BufTy).Contents (Elt F)),
    unary main_v216 main_v217 (broadcastInDim S128x128 ![0, 1] bcast_S1x128_S128x128_0_1 : (⟨S1x128, .f32⟩ : BufTy).Contents (Elt F) → (⟨S128x128, .f32⟩ : BufTy).Contents (Elt F)),
    binary main_v215 main_v217 main_v218 (addf : (⟨S128x128, .f32⟩ : BufTy).Contents (Elt F) → (⟨S128x128, .f32⟩ : BufTy).Contents (Elt F) → (⟨S128x128, .f32⟩ : BufTy).Contents (Elt F)),
    TRef.nullary main_call12.cst (constant S_ .f32 0x00000000#32),
    TRef.unary main_call12.cst main_call12.v0 (broadcastInDim S128x128 ![] bcast_S_S128x128),
    TRef.binary (.of main_v218 : TRef sig ⟨S128x128, .f32⟩) main_call12.v0 main_call12.v1 maximumf,
    binary main_v219 main_arg11 main_v220 ((fun l r => Host.dotGeneral dot_S128x128_S128x32_S128x32_1_0_0_1_n_n none l r) : (⟨S128x128, .f32⟩ : BufTy).Contents (Elt F) → (⟨S128x32, .f32⟩ : BufTy).Contents (Elt F) → (⟨S128x32, .f32⟩ : BufTy).Contents (Elt F)),
    unary main_arg12 main_v221 (broadcastInDim S1x32 ![1] bcast_S32_S1x32_1 : (⟨S32, .f32⟩ : BufTy).Contents (Elt F) → (⟨S1x32, .f32⟩ : BufTy).Contents (Elt F)),
    unary main_v221 main_v222 (broadcastInDim S128x32 ![0, 1] bcast_S1x32_S128x32_0_1 : (⟨S1x32, .f32⟩ : BufTy).Contents (Elt F) → (⟨S128x32, .f32⟩ : BufTy).Contents (Elt F)),
    binary main_v220 main_v222 main_v223 (addf : (⟨S128x32, .f32⟩ : BufTy).Contents (Elt F) → (⟨S128x32, .f32⟩ : BufTy).Contents (Elt F) → (⟨S128x32, .f32⟩ : BufTy).Contents (Elt F)) ]

end Cert.ReferenceIdeal.Hand

end
-- ==== Proof.Ref.Win0.lean ====
import proofs.«404458_j53163105190632_2_alg».proof.Proof.Ref.Ops

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 4096 in
set_option maxHeartbeats 4000000 in
theorem part0_eq (c : Dev nD) : main_part0 (F := F) c = seq (opsRows ++ opsL0a) := by
  simp only [main_part0, fn_var.body, fn_where.body, fn_relu.body, opsRows, opsL0a, List.cons_append, List.nil_append, seq, bind_assoc, pure_bind]
  try rfl

theorem win0_sub : ∀ op ∈ ((opsRows ++ opsL0a) : List (HloOp τ sig (Elt F))), op.bufs ⊆ tcRefs τ sig :=
  List.forall_iff_forall_mem.1 (by
    simp only [opsRows, opsL0a, List.cons_append, List.nil_append, List.Forall, nullary_bufs_sub, unary_bufs_sub, binary_bufs_sub, ternary_bufs_sub,
      reshape_bufs_sub, and_self])

set_option maxRecDepth 8192 in
theorem win0_fresh : ∀ op ∈ ((opsRows ++ opsL0a) : List (HloOp τ sig (Elt F))), op.fresh = ∅ := by
  intro _ h
  (repeat (cases h with | head => rfl | tail _ h => ?_))
  exact nomatch h

end Cert.ReferenceIdeal.Hand

end
-- ==== Proof.Ref.Win1.lean ====
import proofs.«404458_j53163105190632_2_alg».proof.Proof.Ref.Ops

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 4096 in
set_option maxHeartbeats 4000000 in
theorem part1_eq (c : Dev nD) : main_part1 (F := F) c = seq (opsL0b ++ opsL1a) := by
  simp only [main_part1, fn_var.body, fn_where.body, fn_relu.body, opsL0b, opsL1a, List.cons_append, List.nil_append, seq, bind_assoc, pure_bind]
  try rfl

theorem win1_sub : ∀ op ∈ ((opsL0b ++ opsL1a) : List (HloOp τ sig (Elt F))), op.bufs ⊆ tcRefs τ sig :=
  List.forall_iff_forall_mem.1 (by
    simp only [opsL0b, opsL1a, List.cons_append, List.nil_append, List.Forall, nullary_bufs_sub, unary_bufs_sub, binary_bufs_sub, ternary_bufs_sub,
      reshape_bufs_sub, and_self])

set_option maxRecDepth 8192 in

theorem win1_fresh : ∀ op ∈ ((opsL0b ++ opsL1a) : List (HloOp τ sig (Elt F))), op.fresh = ∅ := by
  intro _ h
  (repeat (cases h with | head => rfl | tail _ h => ?_))
  exact nomatch h

end Cert.ReferenceIdeal.Hand

end
-- ==== Proof.Ref.Win2.lean ====
import proofs.«404458_j53163105190632_2_alg».proof.Proof.Ref.Ops

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 4096 in
set_option maxHeartbeats 4000000 in
theorem part2_eq (c : Dev nD) : main_part2 (F := F) c = seq (opsL1b ++ opsL2a) := by
  simp only [main_part2, fn_var.body, fn_where.body, fn_relu.body, opsL1b, opsL2a, List.cons_append, List.nil_append, seq, bind_assoc, pure_bind]
  try rfl

theorem win2_sub : ∀ op ∈ ((opsL1b ++ opsL2a) : List (HloOp τ sig (Elt F))), op.bufs ⊆ tcRefs τ sig :=
  List.forall_iff_forall_mem.1 (by
    simp only [opsL1b, opsL2a, List.cons_append, List.nil_append, List.Forall, nullary_bufs_sub, unary_bufs_sub, binary_bufs_sub, ternary_bufs_sub,
      reshape_bufs_sub, and_self])

set_option maxRecDepth 8192 in

theorem win2_fresh : ∀ op ∈ ((opsL1b ++ opsL2a) : List (HloOp τ sig (Elt F))), op.fresh = ∅ := by
  intro _ h
  (repeat (cases h with | head => rfl | tail _ h => ?_))
  exact nomatch h

end Cert.ReferenceIdeal.Hand

end
-- ==== Proof.Ref.Win3.lean ====
import proofs.«404458_j53163105190632_2_alg».proof.Proof.Ref.Ops

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 4096 in
set_option maxHeartbeats 4000000 in
theorem part3_eq (c : Dev nD) : main_part3 (F := F) c = seq (opsL2b ++ opsL3) := by
  simp only [main_part3, fn_var.body, fn_where.body, fn_relu.body, opsL2b, opsL3, List.cons_append, List.nil_append, seq, bind_assoc, pure_bind]
  try rfl

theorem win3_sub : ∀ op ∈ ((opsL2b ++ opsL3) : List (HloOp τ sig (Elt F))), op.bufs ⊆ tcRefs τ sig :=
  List.forall_iff_forall_mem.1 (by
    simp only [opsL2b, opsL3, List.cons_append, List.nil_append, List.Forall, nullary_bufs_sub, unary_bufs_sub, binary_bufs_sub, ternary_bufs_sub,
      reshape_bufs_sub, and_self])

set_option maxRecDepth 8192 in

theorem win3_fresh : ∀ op ∈ ((opsL2b ++ opsL3) : List (HloOp τ sig (Elt F))), op.fresh = ∅ := by
  intro _ h
  (repeat (cases h with | head => rfl | tail _ h => ?_))
  exact nomatch h

end Cert.ReferenceIdeal.Hand

end
-- ==== Proof.Ref.Win4.lean ====
import proofs.«404458_j53163105190632_2_alg».proof.Proof.Ref.Ops

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem part4_eq (c : Dev nD) : main_part4 (F := F) c = seq opsTail := by
  simp only [main_part4, fn_relu_0.body, seq, bind_assoc, pure_bind]
  try rfl

theorem win4_sub : ∀ op ∈ (opsTail : List (HloOp τ sig (Elt F))), op.bufs ⊆ tcRefs τ sig :=
  List.forall_iff_forall_mem.1 (by
    simp only [opsTail, List.Forall, nullary_bufs_sub, unary_bufs_sub, binary_bufs_sub, ternary_bufs_sub,
      reshape_bufs_sub, and_self])

set_option maxRecDepth 8192 in

theorem win4_fresh : ∀ op ∈ (opsTail : List (HloOp τ sig (Elt F))), op.fresh = ∅ := by
  intro _ h
  (repeat (cases h with | head => rfl | tail _ h => ?_))
  exact nomatch h

end Cert.ReferenceIdeal.Hand

end
-- ==== Proof.Ref.Defs.lean ====
import proofs.«404458_j53163105190632_2_alg».proof.Proof.Gen.ReferenceIdeal
import Idealize.ShloMosaic.PureOps.Ideal

noncomputable section

namespace Cert.ReferenceIdeal.Hand

open Cert.ReferenceIdeal Cert.ReferenceIdeal.Gen Idealize.ShloMosaic

def refSrc (ei : Vec Ideal S2x1600000 .i32) : Vec Ideal S1600000 .i32 :=
  shapeCast S1600000 (extractStridedSlice S1x1600000 ![0, 0] ei slices_S2x1600000_S1x1600000_0_0) shapeCasts_S1x1600000_S1600000

def refDst (ei : Vec Ideal S2x1600000 .i32) : Vec Ideal S1600000 .i32 :=
  shapeCast S1600000 (extractStridedSlice S1x1600000 ![1, 0] ei slices_S2x1600000_S1x1600000_1_0) shapeCasts_S1x1600000_S1600000

def refMat0 (a : FVec Ideal S4x128x128 .f32) : FVec Ideal S128x128 .f32 :=
  shapeCast S128x128 (extractStridedSlice S1x128x128 ![0, 0, 0] a slices_S4x128x128_S1x128x128_0_0_0) shapeCasts_S1x128x128_S128x128
def refMat1 (a : FVec Ideal S4x128x128 .f32) : FVec Ideal S128x128 .f32 :=
  shapeCast S128x128 (extractStridedSlice S1x128x128 ![1, 0, 0] a slices_S4x128x128_S1x128x128_1_0_0) shapeCasts_S1x128x128_S128x128
def refMat2 (a : FVec Ideal S4x128x128 .f32) : FVec Ideal S128x128 .f32 :=
  shapeCast S128x128 (extractStridedSlice S1x128x128 ![2, 0, 0] a slices_S4x128x128_S1x128x128_2_0_0) shapeCasts_S1x128x128_S128x128
def refMat3 (a : FVec Ideal S4x128x128 .f32) : FVec Ideal S128x128 .f32 :=
  shapeCast S128x128 (extractStridedSlice S1x128x128 ![3, 0, 0] a slices_S4x128x128_S1x128x128_3_0_0) shapeCasts_S1x128x128_S128x128

def refVec0 (a : FVec Ideal S4x128 .f32) : FVec Ideal S128 .f32 :=
  shapeCast S128 (extractStridedSlice S1x128 ![0, 0] a slices_S4x128_S1x128_0_0) shapeCasts_S1x128_S128
def refVec1 (a : FVec Ideal S4x128 .f32) : FVec Ideal S128 .f32 :=
  shapeCast S128 (extractStridedSlice S1x128 ![1, 0] a slices_S4x128_S1x128_1_0) shapeCasts_S1x128_S128
def refVec2 (a : FVec Ideal S4x128 .f32) : FVec Ideal S128 .f32 :=
  shapeCast S128 (extractStridedSlice S1x128 ![2, 0] a slices_S4x128_S1x128_2_0) shapeCasts_S1x128_S128
def refVec3 (a : FVec Ideal S4x128 .f32) : FVec Ideal S128 .f32 :=
  shapeCast S128 (extractStridedSlice S1x128 ![3, 0] a slices_S4x128_S1x128_3_0) shapeCasts_S1x128_S128

def refRows (v : FVec Ideal S128 .f32) : FVec Ideal S100000x128 .f32 :=
  broadcastInDim S100000x128 ![0, 1] bcast_S1x128_S100000x128_0_1 (broadcastInDim S1x128 ![1] bcast_S128_S1x128_1 v)

def refAggRows (x : FVec Ideal S100000x128 .f32) (src dst : Vec Ideal S1600000 .i32) : FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 x
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

def refAgg (x : FVec Ideal S100000x128 .f32) (ei : Vec Ideal S2x1600000 .i32) : FVec Ideal S100000x128 .f32 :=
  refAggRows x (refSrc ei) (refDst ei)

def refLin1 (x agg : FVec Ideal S100000x128 .f32) (w : FVec Ideal S128x128 .f32) (b : FVec Ideal S128 .f32) :
    FVec Ideal S100000x128 .f32 :=
  addf (Host.dotGeneral (F := Ideal) dot_S100000x128_S128x128_S100000x128_1_0_0_1_n_n none (addf x agg) w) (refRows b)

def refColSum (y : FVec Ideal S100000x128 .f32) : FVec Ideal S128 .f32 :=
  Host.reduceAdd (F := Ideal) y (constant (F := Ideal) S_ .f32 0x00000000#32) reducesTo_S100000x128_S128_d0 h_S_

def refMean (y : FVec Ideal S100000x128 .f32) : FVec Ideal S128 .f32 :=
  Host.divf (refColSum y) (broadcastInDim S128 ![] bcast_S_S128 (constant (F := Ideal) S_ .f32 0x47C35000#32))

def refCentred (y : FVec Ideal S100000x128 .f32) : FVec Ideal S100000x128 .f32 :=
  subf y (broadcastInDim S100000x128 ![0, 1] bcast_S1x128_S100000x128_0_1
    (Host.divf (broadcastInDim S1x128 ![1] bcast_S128_S1x128_1 (refColSum y))
      (broadcastInDim S1x128 ![] bcast_S_S1x128 (constant (F := Ideal) S_ .f32 0x47C35000#32))))

def refVarDen : FVec Ideal S_ .f32 :=
  subf (constant (F := Ideal) S_ .f32 0x47C35000#32) (sitofp .f32 (constantI S_ 32 0#32))

def refVar (y : FVec Ideal S100000x128 .f32) : FVec Ideal S128 .f32 :=
  select (broadcastInDim S128 ![] bcast_S_S128 (cmpf .ogt refVarDen (constant (F := Ideal) S_ .f32 0x00000000#32)))
    (Host.divf (refColSum (mulf (refCentred y) (refCentred y))) (broadcastInDim S128 ![] bcast_S_S128 refVarDen))
    (broadcastInDim S128 ![] bcast_S_S128 (id (constant (F := Ideal) S_ .f32 0x7FC00000#32)))

def refRelu (y : FVec Ideal S100000x128 .f32) : FVec Ideal S100000x128 .f32 :=
  maximumf y (broadcastInDim S100000x128 ![] bcast_S_S100000x128 (constant (F := Ideal) S_ .f32 0x00000000#32))

def refNorm (y : FVec Ideal S100000x128 .f32) (g be : FVec Ideal S128 .f32) : FVec Ideal S100000x128 .f32 :=
  addf (mulf (mulf (subf y (refRows (refMean y)))
      (refRows (Host.rsqrt (addf (refVar y) (broadcastInDim S128 ![] bcast_S_S128 (constant (F := Ideal) S_ .f32 0x3727C5AC#32))))))
    (refRows g)) (refRows be)

def refH (y : FVec Ideal S100000x128 .f32) (g be : FVec Ideal S128 .f32) : FVec Ideal S100000x128 .f32 :=
  refRelu (refNorm y g be)

def refLin2 (h : FVec Ideal S100000x128 .f32) (w : FVec Ideal S128x128 .f32) (b : FVec Ideal S128 .f32) :
    FVec Ideal S100000x128 .f32 :=
  addf (Host.dotGeneral (F := Ideal) dot_S100000x128_S128x128_S100000x128_1_0_0_1_n_n none h w) (refRows b)

def refLayerBody (x : FVec Ideal S100000x128 .f32) (src dst : Vec Ideal S1600000 .i32)
    (w1 : FVec Ideal S128x128 .f32) (b1 g be : FVec Ideal S128 .f32) (w2 : FVec Ideal S128x128 .f32) (b2 : FVec Ideal S128 .f32) :
    FVec Ideal S100000x128 .f32 :=
  refRelu (refLin2 (refH (refLin1 x (refAggRows x src dst) w1 b1) g be) w2 b2)

def refLayer0 (x : FVec Ideal S100000x128 .f32) (ei : Vec Ideal S2x1600000 .i32) (a3 a7 : FVec Ideal S4x128x128 .f32)
    (a4 a5 a6 a8 : FVec Ideal S4x128 .f32) : FVec Ideal S100000x128 .f32 :=
  refLayerBody x (refSrc ei) (refDst ei) (refMat0 a3) (refVec0 a4) (refVec0 a5) (refVec0 a6) (refMat0 a7) (refVec0 a8)

def refLayer1 (x : FVec Ideal S100000x128 .f32) (ei : Vec Ideal S2x1600000 .i32) (a3 a7 : FVec Ideal S4x128x128 .f32)
    (a4 a5 a6 a8 : FVec Ideal S4x128 .f32) : FVec Ideal S100000x128 .f32 :=
  refLayerBody x (refSrc ei) (refDst ei) (refMat1 a3) (refVec1 a4) (refVec1 a5) (refVec1 a6) (refMat1 a7) (refVec1 a8)

def refLayer2 (x : FVec Ideal S100000x128 .f32) (ei : Vec Ideal S2x1600000 .i32) (a3 a7 : FVec Ideal S4x128x128 .f32)
    (a4 a5 a6 a8 : FVec Ideal S4x128 .f32) : FVec Ideal S100000x128 .f32 :=
  refLayerBody x (refSrc ei) (refDst ei) (refMat2 a3) (refVec2 a4) (refVec2 a5) (refVec2 a6) (refMat2 a7) (refVec2 a8)

def refLayer3 (x : FVec Ideal S100000x128 .f32) (ei : Vec Ideal S2x1600000 .i32) (a3 a7 : FVec Ideal S4x128x128 .f32)
    (a4 a5 a6 a8 : FVec Ideal S4x128 .f32) : FVec Ideal S100000x128 .f32 :=
  refLayerBody x (refSrc ei) (refDst ei) (refMat3 a3) (refVec3 a4) (refVec3 a5) (refVec3 a6) (refMat3 a7) (refVec3 a8)

def refPool (x : FVec Ideal S100000x128 .f32) (batch : Vec Ideal S100000 .i32) : FVec Ideal S128x128 .f32 :=
  Host.scatterAdd (F := Ideal) scatter_S128x128_S100000x1_S100000x128_1_0_0_1
    (broadcastInDim S128x128 ![] bcast_S_S128x128 (constant (F := Ideal) S_ .f32 0x00000000#32))
    (broadcastInDim S100000x1 ![0] bcast_S100000_S100000x1_0 batch) x

def refHead1 (p : FVec Ideal S128x128 .f32) (a9 : FVec Ideal S128x128 .f32) (a10 : FVec Ideal S128 .f32) : FVec Ideal S128x128 .f32 :=
  maximumf (addf (Host.dotGeneral (F := Ideal) dot_S128x128_S128x128_S128x128_1_0_0_1_n_n none p a9)
      (broadcastInDim S128x128 ![0, 1] bcast_S1x128_S128x128_0_1 (broadcastInDim S1x128 ![1] bcast_S128_S1x128_1 a10)))
    (broadcastInDim S128x128 ![] bcast_S_S128x128 (constant (F := Ideal) S_ .f32 0x00000000#32))

def refTail (x : FVec Ideal S100000x128 .f32) (batch : Vec Ideal S100000 .i32) (a9 : FVec Ideal S128x128 .f32)
    (a10 : FVec Ideal S128 .f32) (a11 : FVec Ideal S128x32 .f32) (a12 : FVec Ideal S32 .f32) : FVec Ideal S128x32 .f32 :=
  addf (Host.dotGeneral (F := Ideal) dot_S128x128_S128x32_S128x32_1_0_0_1_n_n none (refHead1 (refPool x batch) a9 a10) a11)
    (broadcastInDim S128x32 ![0, 1] bcast_S1x32_S128x32_0_1 (broadcastInDim S1x32 ![1] bcast_S32_S1x32_1 a12))

def refOut (a0 : FVec Ideal S100000x128 .f32) (a1 : Vec Ideal S2x1600000 .i32) (a2 : Vec Ideal S100000 .i32)
    (a3 : FVec Ideal S4x128x128 .f32) (a4 a5 a6 : FVec Ideal S4x128 .f32) (a7 : FVec Ideal S4x128x128 .f32)
    (a8 : FVec Ideal S4x128 .f32) (a9 : FVec Ideal S128x128 .f32) (a10 : FVec Ideal S128 .f32)
    (a11 : FVec Ideal S128x32 .f32) (a12 : FVec Ideal S32 .f32) : FVec Ideal S128x32 .f32 :=
  refTail (refLayer3 (refLayer2 (refLayer1 (refLayer0 a0 a1 a3 a7 a4 a5 a6 a8) a1 a3 a7 a4 a5 a6 a8) a1 a3 a7 a4 a5 a6 a8)
    a1 a3 a7 a4 a5 a6 a8) a2 a9 a10 a11 a12

end Cert.ReferenceIdeal.Hand

end
-- ==== Proof.Ref.Base.lean ====
import proofs.«404458_j53163105190632_2_alg».proof.Proof.Ref.Defs
import proofs.«404458_j53163105190632_2_alg».proof.Proof.Ref.Ops

noncomputable section

namespace Cert.ReferenceIdeal.Hand

open Cert.ReferenceIdeal Cert.ReferenceIdeal.Gen Idealize.ShloMosaic Idealize.ShloMosaic.TcCoe Idealize.SL.Sem Idealize.ShloMosaic.StableHlo

theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

macro "after_simp" : tactic =>
  `(tactic| (simp (disch := decide) only [after_append, after_cons, after_nil,
      nullary_result', unary_result', binary_result', ternary_result', reshape_result',
      nullary_result_ne', unary_result_ne', binary_result_ne', ternary_result_ne', reshape_result_ne']))

def Keeps (l : List (HloOp τ sig (Elt Ideal))) : Prop :=
  ∀ W : Valuation τ sig (Elt Ideal),
    after l W (Proc.devRef .tc main_v1) = W (Proc.devRef .tc main_v1)
    ∧ after l W (Proc.devRef .tc main_v3) = W (Proc.devRef .tc main_v3)
    ∧ after l W (Proc.devRef .tc main_arg0) = W (Proc.devRef .tc main_arg0)
    ∧ after l W (Proc.devRef .tc main_arg1) = W (Proc.devRef .tc main_arg1)
    ∧ after l W (Proc.devRef .tc main_arg2) = W (Proc.devRef .tc main_arg2)
    ∧ after l W (Proc.devRef .tc main_arg3) = W (Proc.devRef .tc main_arg3)
    ∧ after l W (Proc.devRef .tc main_arg4) = W (Proc.devRef .tc main_arg4)
    ∧ after l W (Proc.devRef .tc main_arg5) = W (Proc.devRef .tc main_arg5)
    ∧ after l W (Proc.devRef .tc main_arg6) = W (Proc.devRef .tc main_arg6)
    ∧ after l W (Proc.devRef .tc main_arg7) = W (Proc.devRef .tc main_arg7)
    ∧ after l W (Proc.devRef .tc main_arg8) = W (Proc.devRef .tc main_arg8)
    ∧ after l W (Proc.devRef .tc main_arg9) = W (Proc.devRef .tc main_arg9)
    ∧ after l W (Proc.devRef .tc main_arg10) = W (Proc.devRef .tc main_arg10)
    ∧ after l W (Proc.devRef .tc main_arg11) = W (Proc.devRef .tc main_arg11)
    ∧ after l W (Proc.devRef .tc main_arg12) = W (Proc.devRef .tc main_arg12)

structure St (V W : Valuation τ sig (Elt Ideal)) (x : Ref sig .tc) (xv : (Proc.devRef (τ := τ) .tc x).ty.Contents (Elt Ideal)) : Prop where
  hx : W (Proc.devRef .tc x) = xv
  h1 : W (Proc.devRef .tc main_v1) = refSrc (V (Proc.devRef .tc main_arg1))
  h3 : W (Proc.devRef .tc main_v3) = refDst (V (Proc.devRef .tc main_arg1))
  a0 : W (Proc.devRef .tc main_arg0) = V (Proc.devRef .tc main_arg0)
  a1 : W (Proc.devRef .tc main_arg1) = V (Proc.devRef .tc main_arg1)
  a2 : W (Proc.devRef .tc main_arg2) = V (Proc.devRef .tc main_arg2)
  a3 : W (Proc.devRef .tc main_arg3) = V (Proc.devRef .tc main_arg3)
  a4 : W (Proc.devRef .tc main_arg4) = V (Proc.devRef .tc main_arg4)
  a5 : W (Proc.devRef .tc main_arg5) = V (Proc.devRef .tc main_arg5)
  a6 : W (Proc.devRef .tc main_arg6) = V (Proc.devRef .tc main_arg6)
  a7 : W (Proc.devRef .tc main_arg7) = V (Proc.devRef .tc main_arg7)
  a8 : W (Proc.devRef .tc main_arg8) = V (Proc.devRef .tc main_arg8)
  a9 : W (Proc.devRef .tc main_arg9) = V (Proc.devRef .tc main_arg9)
  a10 : W (Proc.devRef .tc main_arg10) = V (Proc.devRef .tc main_arg10)
  a11 : W (Proc.devRef .tc main_arg11) = V (Proc.devRef .tc main_arg11)
  a12 : W (Proc.devRef .tc main_arg12) = V (Proc.devRef .tc main_arg12)

theorem St.step {V W : Valuation τ sig (Elt Ideal)} {x : Ref sig .tc} {xv : (Proc.devRef (τ := τ) .tc x).ty.Contents (Elt Ideal)}
    (h : St V W x xv) {l : List (HloOp τ sig (Elt Ideal))} (hk : Keeps l) {out : Ref sig .tc}
    {yv : (Proc.devRef (τ := τ) .tc out).ty.Contents (Elt Ideal)} (hv : after l W (Proc.devRef .tc out) = yv) :
    St V (after l W) out yv := by
  have k := hk W
  cases h
  constructor <;> simp only [k, *]

theorem scopedRefs_eq : (Finset.univ.filter fun b : Ref sig .tc => b.isScoped) = ∅ := by decide
theorem scopedSems_eq : (Finset.univ.filter fun sm : SemLoc sig => sm.isScoped .tc) = ∅ := by decide

end Cert.ReferenceIdeal.Hand

end
-- ==== Proof.Ref.L0.lean ====
import proofs.«404458_j53163105190632_2_alg».proof.Proof.Ref.Base

noncomputable section

namespace Cert.ReferenceIdeal.Hand

open Cert.ReferenceIdeal Cert.ReferenceIdeal.Gen Idealize.ShloMosaic Idealize.ShloMosaic.TcCoe Idealize.SL.Sem Idealize.ShloMosaic.StableHlo

theorem L0_val (W : Valuation τ sig (Elt Ideal)) :
    after (opsL0a ++ opsL0b) W (Proc.devRef .tc main_v55)
      = refLayerBody (W (Proc.devRef .tc main_arg0)) (W (Proc.devRef .tc main_v1)) (W (Proc.devRef .tc main_v3))
          (refMat0 (W (Proc.devRef .tc main_arg3))) (refVec0 (W (Proc.devRef .tc main_arg4))) (refVec0 (W (Proc.devRef .tc main_arg5)))
          (refVec0 (W (Proc.devRef .tc main_arg6))) (refMat0 (W (Proc.devRef .tc main_arg7))) (refVec0 (W (Proc.devRef .tc main_arg8))) := by
  after_simp
  rfl

set_option maxHeartbeats 4000000 in
theorem L0_keeps : Keeps (opsL0a ++ opsL0b) := by
  intro W
  constructorm* _ ∧ _ <;> after_simp

theorem L0_step {V W : Valuation τ sig (Elt Ideal)} {xv : (Proc.devRef (τ := τ) .tc main_arg0).ty.Contents (Elt Ideal)}
    (h : St V W main_arg0 xv) :
    St V (after (opsL0a ++ opsL0b) W) main_v55
      (refLayer0 xv (V (Proc.devRef .tc main_arg1)) (V (Proc.devRef .tc main_arg3)) (V (Proc.devRef .tc main_arg7)) (V (Proc.devRef .tc main_arg4))
        (V (Proc.devRef .tc main_arg5)) (V (Proc.devRef .tc main_arg6)) (V (Proc.devRef .tc main_arg8))) :=
  h.step L0_keeps (by
    rw [L0_val, h.hx, h.h1, h.h3, h.a3, h.a4, h.a5, h.a6, h.a7, h.a8]
    rfl)

end Cert.ReferenceIdeal.Hand

end
-- ==== Proof.Ref.L1.lean ====
import proofs.«404458_j53163105190632_2_alg».proof.Proof.Ref.Base

noncomputable section

namespace Cert.ReferenceIdeal.Hand

open Cert.ReferenceIdeal Cert.ReferenceIdeal.Gen Idealize.ShloMosaic Idealize.ShloMosaic.TcCoe Idealize.SL.Sem Idealize.ShloMosaic.StableHlo

set_option maxRecDepth 8192 in
set_option maxHeartbeats 4000000 in

theorem L1_val (W : Valuation τ sig (Elt Ideal)) :
    after (opsL1a ++ opsL1b) W (Proc.devRef .tc main_v107)
      = refLayerBody (W (Proc.devRef .tc main_v55)) (W (Proc.devRef .tc main_v1)) (W (Proc.devRef .tc main_v3))
          (refMat1 (W (Proc.devRef .tc main_arg3))) (refVec1 (W (Proc.devRef .tc main_arg4))) (refVec1 (W (Proc.devRef .tc main_arg5)))
          (refVec1 (W (Proc.devRef .tc main_arg6))) (refMat1 (W (Proc.devRef .tc main_arg7))) (refVec1 (W (Proc.devRef .tc main_arg8))) := by
  after_simp
  rfl

set_option maxRecDepth 8192 in
set_option maxHeartbeats 4000000 in

theorem L1_keeps : Keeps (opsL1a ++ opsL1b) := by
  intro W
  refine ⟨?_, ?_, ?_, ?_, ?_, ?_, ?_, ?_, ?_, ?_, ?_, ?_, ?_, ?_, ?_⟩ <;> after_simp

theorem L1_step {V W : Valuation τ sig (Elt Ideal)} {xv : (Proc.devRef (τ := τ) .tc main_v55).ty.Contents (Elt Ideal)}
    (h : St V W main_v55 xv) :
    St V (after (opsL1a ++ opsL1b) W) main_v107
      (refLayer1 xv (V (Proc.devRef .tc main_arg1)) (V (Proc.devRef .tc main_arg3)) (V (Proc.devRef .tc main_arg7)) (V (Proc.devRef .tc main_arg4))
        (V (Proc.devRef .tc main_arg5)) (V (Proc.devRef .tc main_arg6)) (V (Proc.devRef .tc main_arg8))) :=
  h.step L1_keeps (by
    rw [L1_val, h.hx, h.h1, h.h3, h.a3, h.a4, h.a5, h.a6, h.a7, h.a8]
    rfl)

end Cert.ReferenceIdeal.Hand

end
-- ==== Proof.Ref.L2.lean ====
import proofs.«404458_j53163105190632_2_alg».proof.Proof.Ref.Base

noncomputable section

namespace Cert.ReferenceIdeal.Hand

open Cert.ReferenceIdeal Cert.ReferenceIdeal.Gen Idealize.ShloMosaic Idealize.ShloMosaic.TcCoe Idealize.SL.Sem Idealize.ShloMosaic.StableHlo

set_option maxRecDepth 8192 in
set_option maxHeartbeats 4000000 in

theorem L2_val (W : Valuation τ sig (Elt Ideal)) :
    after (opsL2a ++ opsL2b) W (Proc.devRef .tc main_v159)
      = refLayerBody (W (Proc.devRef .tc main_v107)) (W (Proc.devRef .tc main_v1)) (W (Proc.devRef .tc main_v3))
          (refMat2 (W (Proc.devRef .tc main_arg3))) (refVec2 (W (Proc.devRef .tc main_arg4))) (refVec2 (W (Proc.devRef .tc main_arg5)))
          (refVec2 (W (Proc.devRef .tc main_arg6))) (refMat2 (W (Proc.devRef .tc main_arg7))) (refVec2 (W (Proc.devRef .tc main_arg8))) := by
  after_simp
  rfl

set_option maxRecDepth 8192 in
set_option maxHeartbeats 4000000 in

theorem L2_keeps : Keeps (opsL2a ++ opsL2b) := by
  intro W
  refine ⟨?_, ?_, ?_, ?_, ?_, ?_, ?_, ?_, ?_, ?_, ?_, ?_, ?_, ?_, ?_⟩ <;> after_simp

theorem L2_step {V W : Valuation τ sig (Elt Ideal)} {xv : (Proc.devRef (τ := τ) .tc main_v107).ty.Contents (Elt Ideal)}
    (h : St V W main_v107 xv) :
    St V (after (opsL2a ++ opsL2b) W) main_v159
      (refLayer2 xv (V (Proc.devRef .tc main_arg1)) (V (Proc.devRef .tc main_arg3)) (V (Proc.devRef .tc main_arg7)) (V (Proc.devRef .tc main_arg4))
        (V (Proc.devRef .tc main_arg5)) (V (Proc.devRef .tc main_arg6)) (V (Proc.devRef .tc main_arg8))) :=
  h.step L2_keeps (by
    rw [L2_val, h.hx, h.h1, h.h3, h.a3, h.a4, h.a5, h.a6, h.a7, h.a8]
    rfl)

end Cert.ReferenceIdeal.Hand

end
-- ==== Proof.Ref.L3.lean ====
import proofs.«404458_j53163105190632_2_alg».proof.Proof.Ref.Base

noncomputable section

namespace Cert.ReferenceIdeal.Hand

open Cert.ReferenceIdeal Cert.ReferenceIdeal.Gen Idealize.ShloMosaic Idealize.ShloMosaic.TcCoe Idealize.SL.Sem Idealize.ShloMosaic.StableHlo

set_option maxRecDepth 8192 in
set_option maxHeartbeats 4000000 in

theorem L3_val (W : Valuation τ sig (Elt Ideal)) :
    after opsL3 W (Proc.devRef .tc main_v211)
      = refLayerBody (W (Proc.devRef .tc main_v159)) (W (Proc.devRef .tc main_v1)) (W (Proc.devRef .tc main_v3))
          (refMat3 (W (Proc.devRef .tc main_arg3))) (refVec3 (W (Proc.devRef .tc main_arg4))) (refVec3 (W (Proc.devRef .tc main_arg5)))
          (refVec3 (W (Proc.devRef .tc main_arg6))) (refMat3 (W (Proc.devRef .tc main_arg7))) (refVec3 (W (Proc.devRef .tc main_arg8))) := by
  after_simp
  rfl

set_option maxRecDepth 8192 in
set_option maxHeartbeats 4000000 in

theorem L3_keeps : Keeps opsL3 := by
  intro W
  refine ⟨?_, ?_, ?_, ?_, ?_, ?_, ?_, ?_, ?_, ?_, ?_, ?_, ?_, ?_, ?_⟩ <;> after_simp

theorem L3_step {V W : Valuation τ sig (Elt Ideal)} {xv : (Proc.devRef (τ := τ) .tc main_v159).ty.Contents (Elt Ideal)}
    (h : St V W main_v159 xv) :
    St V (after opsL3 W) main_v211
      (refLayer3 xv (V (Proc.devRef .tc main_arg1)) (V (Proc.devRef .tc main_arg3)) (V (Proc.devRef .tc main_arg7)) (V (Proc.devRef .tc main_arg4))
        (V (Proc.devRef .tc main_arg5)) (V (Proc.devRef .tc main_arg6)) (V (Proc.devRef .tc main_arg8))) :=
  h.step L3_keeps (by
    rw [L3_val, h.hx, h.h1, h.h3, h.a3, h.a4, h.a5, h.a6, h.a7, h.a8]
    rfl)

end Cert.ReferenceIdeal.Hand

end
-- ==== Proof.Ref.Ends.lean ====
import proofs.«404458_j53163105190632_2_alg».proof.Proof.Ref.Base

noncomputable section

namespace Cert.ReferenceIdeal.Hand

open Cert.ReferenceIdeal Cert.ReferenceIdeal.Gen Idealize.ShloMosaic Idealize.ShloMosaic.TcCoe Idealize.SL.Sem Idealize.ShloMosaic.StableHlo

theorem Rows_init (V : Valuation τ sig (Elt Ideal)) :
    St V (after opsRows V) main_arg0 (V (Proc.devRef .tc main_arg0)) :=
  ⟨by after_simp, (by after_simp; rfl), (by after_simp; rfl), by after_simp, by after_simp, by after_simp, by after_simp, by after_simp, by after_simp, by after_simp, by after_simp, by after_simp, by after_simp, by after_simp, by after_simp, by after_simp⟩

theorem Tail_val (W : Valuation τ sig (Elt Ideal)) :
    after opsTail W (Proc.devRef .tc main_v223)
      = refTail (W (Proc.devRef .tc main_v211)) (W (Proc.devRef .tc main_arg2)) (W (Proc.devRef .tc main_arg9))
          (W (Proc.devRef .tc main_arg10)) (W (Proc.devRef .tc main_arg11)) (W (Proc.devRef .tc main_arg12)) := by
  after_simp
  rfl

theorem Tail_keeps : Keeps opsTail := by
  intro W
  refine ⟨?_, ?_, ?_, ?_, ?_, ?_, ?_, ?_, ?_, ?_, ?_, ?_, ?_, ?_, ?_⟩ <;> after_simp

theorem Tail_out {V W : Valuation τ sig (Elt Ideal)} {xv : (Proc.devRef (τ := τ) .tc main_v211).ty.Contents (Elt Ideal)}
    (h : St V W main_v211 xv) :
    after opsTail W (Proc.devRef .tc main_v223)
      = refTail xv (V (Proc.devRef .tc main_arg2)) (V (Proc.devRef .tc main_arg9)) (V (Proc.devRef .tc main_arg10)) (V (Proc.devRef .tc main_arg11)) (V (Proc.devRef .tc main_arg12)) := by
  rw [Tail_val, h.hx, h.a2, h.a9, h.a10, h.a11, h.a12]

end Cert.ReferenceIdeal.Hand

end
-- ==== Proof.Ref.Run.lean ====
import proofs.«404458_j53163105190632_2_alg».proof.Proof.Ref.Win0
import proofs.«404458_j53163105190632_2_alg».proof.Proof.Ref.Win1
import proofs.«404458_j53163105190632_2_alg».proof.Proof.Ref.Win2
import proofs.«404458_j53163105190632_2_alg».proof.Proof.Ref.Win3
import proofs.«404458_j53163105190632_2_alg».proof.Proof.Ref.Win4
import proofs.«404458_j53163105190632_2_alg».proof.Proof.Ref.L0
import proofs.«404458_j53163105190632_2_alg».proof.Proof.Ref.L1
import proofs.«404458_j53163105190632_2_alg».proof.Proof.Ref.L2
import proofs.«404458_j53163105190632_2_alg».proof.Proof.Ref.L3
import proofs.«404458_j53163105190632_2_alg».proof.Proof.Ref.Ends

noncomputable section

namespace Cert.ReferenceIdeal.Hand

open Cert.ReferenceIdeal Cert.ReferenceIdeal.Gen Idealize.ShloMosaic Idealize.ShloMosaic.TcCoe Idealize.SL.Sem Idealize.ShloMosaic.StableHlo

section Line

variable {F : FTy → Type} [FloatOps F]

abbrev ops : List (HloOp τ sig (Elt F)) :=
  (opsRows ++ opsL0a) ++ ((opsL0b ++ opsL1a) ++ ((opsL1b ++ opsL2a) ++ ((opsL2b ++ opsL3) ++ opsTail)))

theorem main_eq (c : Dev nD) : main (F := F) c = seq ops := by
  simp only [main, part0_eq, part1_eq, part2_eq, part3_eq, part4_eq, ops, seq_append, bind_assoc]
  try rfl

theorem ops_sub : (ops : List (HloOp τ sig (Elt F))).Forall fun op => op.bufs ⊆ tcRefs τ sig :=
  List.forall_iff_forall_mem.2 (List.forall_mem_append.2 ⟨win0_sub, List.forall_mem_append.2 ⟨win1_sub,
    List.forall_mem_append.2 ⟨win2_sub, List.forall_mem_append.2 ⟨win3_sub, win4_sub⟩⟩⟩⟩)

theorem ops_fresh : ∀ op ∈ (ops : List (HloOp τ sig (Elt F))), op.fresh = ∅ :=
  List.forall_mem_append.2 ⟨win0_fresh, List.forall_mem_append.2 ⟨win1_fresh,
    List.forall_mem_append.2 ⟨win2_fresh, List.forall_mem_append.2 ⟨win3_fresh, win4_fresh⟩⟩⟩⟩

end Line

theorem final (V : Valuation τ sig (Elt Ideal)) :
    St V (after ops V) main_v223
      (refOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12))) := by
  have h4 := L3_step (L2_step (L1_step (L0_step (Rows_init V))))
  have hT := h4.step Tail_keeps (Tail_out h4)
  simp only [ops, after_append] at hT ⊢
  exact hT

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v223) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c =>
      have s := final (launchContents m c)
      ⟨(h c _).trans s.hx, (h c _).trans s.a0, (h c _).trans s.a1, (h c _).trans s.a2, (h c _).trans s.a3, (h c _).trans s.a4, (h c _).trans s.a5, (h c _).trans s.a6, (h c _).trans s.a7, (h c _).trans s.a8, (h c _).trans s.a9, (h c _).trans s.a10, (h c _).trans s.a11, (h c _).trans s.a12⟩)
    (run_seq scopedRefs_eq scopedSems_eq defs main (fun _ => ops) main_eq (fun _ => ops_sub) m ρ (fun _ => ops_fresh))

end Cert.ReferenceIdeal.Hand

end
-- ==== Proof.Spec.lean ====
import Idealize.ShloMosaic.PureOps.Ideal

noncomputable section

namespace Cert.Spec

open Idealize.ShloMosaic

abbrev Mat (a b : ℕ) : Type := Fin a → Fin b → EReal

def cN : EReal := Ideal.ofBits .f32 0x47C35000#32
def cEps : EReal := Ideal.ofBits .f32 0x3727C5AC#32

def tileRow (t : Fin 20) (p : Fin 5000) : Fin 100000 := ⟨5000 * t.val + p.val, by omega⟩

def blockRow (t : Fin 8) (k : Fin 12800) : Fin 102400 := ⟨12800 * t.val + k.val, by omega⟩

def lin (x a : Mat 100000 128) (w : Mat 128 128) (b : Fin 128 → EReal) : Mat 100000 128 :=
  fun n j => (∑ k : Fin 128, (x n k + a n k) * w k j) + b j

def lin2 (h : Mat 100000 128) (w : Mat 128 128) (b : Fin 128 → EReal) : Mat 100000 128 :=
  fun n j => max ((∑ k : Fin 128, h n k * w k j) + b j) 0

def sumK (h : Mat 100000 128) (j : Fin 128) : EReal := ∑ t : Fin 20, ∑ p : Fin 5000, h (tileRow t p) j
def sumsqK (h : Mat 100000 128) (j : Fin 128) : EReal := ∑ t : Fin 20, ∑ p : Fin 5000, h (tileRow t p) j * h (tileRow t p) j
def meanK (h : Mat 100000 128) (j : Fin 128) : EReal := Ideal.div (sumK h j) cN
def varK (h : Mat 100000 128) (j : Fin 128) : EReal := Ideal.div (sumsqK h j) cN - meanK h j * meanK h j
def scaleK (h : Mat 100000 128) (g : Fin 128 → EReal) (j : Fin 128) : EReal := g j * Ideal.rsqrt (varK h j + cEps)
def shiftK (h : Mat 100000 128) (g be : Fin 128 → EReal) (j : Fin 128) : EReal := be j - meanK h j * scaleK h g j
def normK (h : Mat 100000 128) (g be : Fin 128 → EReal) : Mat 100000 128 :=
  fun n j => max (h n j * scaleK h g j + shiftK h g be j) 0
def layerK (x a : Mat 100000 128) (w1 : Mat 128 128) (b1 g be : Fin 128 → EReal) (w2 : Mat 128 128) (b2 : Fin 128 → EReal) :
    Mat 100000 128 :=
  lin2 (normK (lin x a w1 b1) g be) w2 b2

def sumR (h : Mat 100000 128) (j : Fin 128) : EReal := ∑ n : Fin 100000, h n j
def meanR (h : Mat 100000 128) (j : Fin 128) : EReal := Ideal.div (sumR h j) cN
def varR (h : Mat 100000 128) (j : Fin 128) : EReal :=
  Ideal.div (∑ n : Fin 100000, (h n j - meanR h j) * (h n j - meanR h j)) cN
def normR (h : Mat 100000 128) (g be : Fin 128 → EReal) : Mat 100000 128 :=
  fun n j => max ((((h n j - meanR h j) * Ideal.rsqrt (varR h j + cEps)) * g j) + be j) 0
def layerR (x a : Mat 100000 128) (w1 : Mat 128 128) (b1 g be : Fin 128 → EReal) (w2 : Mat 128 128) (b2 : Fin 128 → EReal) :
    Mat 100000 128 :=
  lin2 (normR (lin x a w1 b1) g be) w2 b2

def padRows (x : Mat 100000 128) : Mat 102400 128 := fun n d => if h : n.val < 100000 then x ⟨n.val, h⟩ d else 0
def padIds (ids : Fin 100000 → BitVec 32) : Fin 102400 → BitVec 32 :=
  fun n => if h : n.val < 100000 then ids ⟨n.val, h⟩ else 4294967295#32

def poolK (x : Mat 100000 128) (ids : Fin 100000 → BitVec 32) : Mat 128 128 :=
  fun g d => ∑ t : Fin 8, ∑ k : Fin 12800,
    (if padIds ids (blockRow t k) = BitVec.ofNat 32 g.val then (1 : EReal) else 0) * padRows x (blockRow t k) d

def poolR (x : Mat 100000 128) (ids : Fin 100000 → BitVec 32) : Mat 128 128 :=
  fun g d => ∑ n : Fin 100000, if ids n = BitVec.ofNat 32 g.val then x n d else 0

def head (p : Mat 128 128) (w1 : Mat 128 128) (b1 : Fin 128 → EReal) (w2 : Mat 128 32) (b2 : Fin 32 → EReal) : Mat 128 32 :=
  fun g o => (∑ j : Fin 128, max ((∑ k : Fin 128, p g k * w1 k j) + b1 j) 0 * w2 j o) + b2 o

end Cert.Spec

end
-- ==== Proof.Alg.Coe.lean ====
import Mathlib.Data.EReal.Inv
import Mathlib.Algebra.BigOperators.Group.Finset.Basic

namespace Cert.Alg

open scoped BigOperators

universe u v w

theorem coe_sum {ι : Type u} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem coe_sum_univ {ι : Type u} [Fintype ι] (f : ι → ℝ) :
    (∑ i, ((f i : ℝ) : EReal)) = ((∑ i, f i : ℝ) : EReal) :=
  coe_sum Finset.univ f

theorem coe_max (a b : ℝ) : max (a : EReal) (b : EReal) = ((max a b : ℝ) : EReal) :=
  (EReal.coe_strictMono.monotone.map_max).symm

theorem coe_dot {κ : Type u} (s : Finset κ) (X W : κ → ℝ) :
    (∑ k ∈ s, ((X k : ℝ) : EReal) * ((W k : ℝ) : EReal)) = ((∑ k ∈ s, X k * W k : ℝ) : EReal) := by
  rw [← coe_sum]
  exact Finset.sum_congr rfl fun k _ => (EReal.coe_mul _ _).symm

theorem coe_dot_univ {κ : Type u} [Fintype κ] (X W : κ → ℝ) :
    (∑ k, ((X k : ℝ) : EReal) * ((W k : ℝ) : EReal)) = ((∑ k, X k * W k : ℝ) : EReal) :=
  coe_dot Finset.univ X W

def IsReal {ι : Sort u} (v : ι → EReal) : Prop := ∃ f : ι → ℝ, v = fun i => ((f i : ℝ) : EReal)

namespace IsReal

variable {ι : Sort u} {κ : Sort v}

theorem of_forall {v : ι → EReal} (h : ∀ i, ∃ r : ℝ, v i = (r : EReal)) : IsReal v :=
  ⟨fun i => (h i).choose, funext fun i => (h i).choose_spec⟩

theorem apply {v : ι → EReal} (h : IsReal v) (i : ι) : ∃ r : ℝ, v i = (r : EReal) := by
  obtain ⟨f, rfl⟩ := h; exact ⟨f i, rfl⟩

theorem comp {v : ι → EReal} (h : IsReal v) (g : κ → ι) : IsReal (fun k => v (g k)) := by
  obtain ⟨f, rfl⟩ := h; exact ⟨fun k => f (g k), rfl⟩

theorem add {a b : ι → EReal} (ha : IsReal a) (hb : IsReal b) : IsReal (fun i => a i + b i) := by
  obtain ⟨f, rfl⟩ := ha; obtain ⟨g, rfl⟩ := hb
  exact ⟨fun i => f i + g i, funext fun i => (EReal.coe_add _ _).symm⟩

end IsReal

end Cert.Alg
-- ==== Proof.Alg.Ops.lean ====
import Idealize.ShloMosaic.PureOps.Ideal
import Idealize.ShloMosaic.PureOps.Ideal.Laws
import proofs.«404458_j53163105190632_2_alg».proof.Proof.Alg.Coe

noncomputable section

namespace Cert.Alg

open Idealize.ShloMosaic

theorem add_coe (a b : ℝ) : ((a : ℝ) : EReal) + ((b : ℝ) : EReal) = ((a + b : ℝ) : EReal) := (EReal.coe_add a b).symm
theorem sub_coe (a b : ℝ) : ((a : ℝ) : EReal) - ((b : ℝ) : EReal) = ((a - b : ℝ) : EReal) := (EReal.coe_sub a b).symm
theorem mul_coe (a b : ℝ) : ((a : ℝ) : EReal) * ((b : ℝ) : EReal) = ((a * b : ℝ) : EReal) := (EReal.coe_mul a b).symm
theorem max_coe_zero (a : ℝ) : max ((a : ℝ) : EReal) 0 = ((max a 0 : ℝ) : EReal) := coe_max a 0

theorem subf_coe {φ : FTy} (a b : ℝ) :
    FloatOps.subf (F := Ideal) (φ := φ) ((a : ℝ) : EReal) ((b : ℝ) : EReal) = ((a - b : ℝ) : EReal) := sub_coe a b
theorem div_coe_coe (a : ℝ) {b : ℝ} (hb : b ≠ 0) : Ideal.div ((a : ℝ) : EReal) ((b : ℝ) : EReal) = ((a / b : ℝ) : EReal) := by
  rw [Ideal.div_coe hb, ← EReal.coe_mul, mul_one_div]

theorem rsqrt_coe_pos {y : ℝ} (hy : 0 < y) : Ideal.rsqrt ((y : ℝ) : EReal) = (((Real.sqrt y)⁻¹ : ℝ) : EReal) := by
  rw [Ideal.rsqrt_coe, if_neg (not_lt.mpr hy.le), if_neg hy.ne']

theorem sitofp_eq {φ : FTy} {w : Nat} (b : BitVec w) :
    FloatOps.sitofp (F := Ideal) φ b = (((b.toInt : ℝ)) : EReal) := rfl

theorem sitofp_zero {φ : FTy} : FloatOps.sitofp (F := Ideal) φ (0#32) = 0 := by
  rw [sitofp_eq]; simp

theorem sitofp_zero_coe {φ : FTy} : FloatOps.sitofp (F := Ideal) φ (0#32) = ((0 : ℝ) : EReal) := sitofp_zero

theorem cmp_ogt_of_lt {a b : EReal} (h : b < a) : Ideal.cmp .ogt a b = 1#1 := by
  unfold Ideal.cmp; simp [h]

theorem ofBits_zero : Ideal.ofBits .f32 0x00000000#32 = 0 := Ideal.ofBits_zero_f32

theorem ofBits_zero_coe : Ideal.ofBits .f32 0x00000000#32 = ((0 : ℝ) : EReal) := Ideal.ofBits_zero_f32

theorem ofBits_100000 : Ideal.ofBits .f32 0x47C35000#32 = ((100000 : ℝ) : EReal) := by
  simp [Ideal.ofBits, Ideal.ieee, -EReal.coe_mul]; norm_num

def eps : ℝ := 10995116 / 1099511627776

theorem eps_pos : 0 < eps := by unfold eps; norm_num

theorem ofBits_eps : Ideal.ofBits .f32 0x3727C5AC#32 = ((eps : ℝ) : EReal) := by
  simp [Ideal.ofBits, Ideal.ieee, -EReal.coe_mul, eps]; norm_num

theorem count_sub_ddof :
    FloatOps.subf (F := Ideal) (φ := .f32) (Ideal.ofBits .f32 0x47C35000#32) (FloatOps.sitofp (F := Ideal) .f32 (0#32))
      = ((100000 : ℝ) : EReal) := by
  rw [ofBits_100000, sitofp_zero_coe, subf_coe, sub_zero]

theorem count_gt_zero :
    FloatOps.cmpf (F := Ideal) (φ := .f32) .ogt ((100000 : ℝ) : EReal) (Ideal.ofBits .f32 0x00000000#32) = 1#1 := by
  rw [ofBits_zero_coe]
  exact cmp_ogt_of_lt (EReal.coe_lt_coe_iff.mpr (by norm_num))

theorem guard_select {α : Type} (q other : α) :
    Scalar.select
        (FloatOps.cmpf (F := Ideal) (φ := .f32) .ogt
          (FloatOps.subf (F := Ideal) (φ := .f32) (Ideal.ofBits .f32 0x47C35000#32) (FloatOps.sitofp (F := Ideal) .f32 (0#32)))
          (Ideal.ofBits .f32 0x00000000#32))
        q other = q := by
  rw [count_sub_ddof, count_gt_zero]; rfl

end Cert.Alg

end
-- ==== Proof.Alg.BatchNorm.lean ====
import Mathlib.Analysis.SpecialFunctions.Pow.Real
import Mathlib.Algebra.BigOperators.Ring.Finset
import Mathlib.Algebra.Order.BigOperators.Ring.Finset
import Mathlib.Tactic.Ring
import Mathlib.Tactic.FieldSimp
import Mathlib.Tactic.Linarith
import Idealize.ShloMosaic.PureOps.Ideal
import proofs.«404458_j53163105190632_2_alg».proof.Proof.Alg.Coe
import proofs.«404458_j53163105190632_2_alg».proof.Proof.Alg.Ops

noncomputable section

namespace Cert.Alg

open Idealize.ShloMosaic
open scoped BigOperators

variable {ι : Type*} [Fintype ι]

def mean (L : ι → ℝ) (N : ℝ) : ℝ := (∑ n, L n) / N

def varK (L : ι → ℝ) (N : ℝ) : ℝ := (∑ n, L n * L n) / N - mean L N * mean L N

def varR (L : ι → ℝ) (N : ℝ) : ℝ := (∑ n, (L n - mean L N) * (L n - mean L N)) / N

theorem varK_eq_varR (L : ι → ℝ) {N : ℝ} (hN : (Fintype.card ι : ℝ) = N) (hN0 : N ≠ 0) : varK L N = varR L N := by
  unfold varK varR
  set μ := mean L N with hμ
  have hS : ∑ n, L n = N * μ := by rw [hμ, mean]; field_simp
  have e : ∀ n, (L n - μ) * (L n - μ) = L n * L n - 2 * μ * L n + μ * μ := fun n => by ring
  simp_rw [e, Finset.sum_add_distrib, Finset.sum_sub_distrib, ← Finset.mul_sum, Finset.sum_const, Finset.card_univ,
    nsmul_eq_mul, hN, hS]
  field_simp
  ring

theorem varR_nonneg (L : ι → ℝ) {N : ℝ} (hN : 0 < N) : 0 ≤ varR L N :=
  div_nonneg (Finset.sum_nonneg fun _ _ => mul_self_nonneg _) hN.le

theorem varK_nonneg (L : ι → ℝ) {N : ℝ} (hN : (Fintype.card ι : ℝ) = N) (hN0 : 0 < N) : 0 ≤ varK L N := by
  rw [varK_eq_varR L hN hN0.ne']; exact varR_nonneg L hN0

theorem bn_affine (a μ r γ β : ℝ) : ((a - μ) * r) * γ + β = a * (γ * r) + (β - μ * (γ * r)) := by ring

def meanE (x : ι → EReal) (N : EReal) : EReal := Ideal.div (∑ n, x n) N

def varKE (x : ι → EReal) (N : EReal) : EReal := Ideal.div (∑ n, x n * x n) N - meanE x N * meanE x N

def varRE (x : ι → EReal) (N : EReal) : EReal := Ideal.div (∑ n, (x n - meanE x N) * (x n - meanE x N)) N

def scaleE (x : ι → EReal) (γ e N : EReal) : EReal := γ * Ideal.rsqrt (varKE x N + e)

def shiftE (x : ι → EReal) (γ β e N : EReal) : EReal := β - meanE x N * scaleE x γ e N

def bnK (x : ι → EReal) (γ β e N : EReal) (n : ι) : EReal := max (x n * scaleE x γ e N + shiftE x γ β e N) 0

def bnR (x : ι → EReal) (γ β e N : EReal) (n : ι) : EReal :=
  max (((x n - meanE x N) * Ideal.rsqrt (varRE x N + e)) * γ + β) 0

theorem meanE_coe (L : ι → ℝ) {N : ℝ} (hN0 : N ≠ 0) :
    meanE (fun n => ((L n : ℝ) : EReal)) ((N : ℝ) : EReal) = ((mean L N : ℝ) : EReal) := by
  unfold meanE mean
  rw [coe_sum_univ, div_coe_coe _ hN0]

theorem varKE_coe (L : ι → ℝ) {N : ℝ} (hN0 : N ≠ 0) :
    varKE (fun n => ((L n : ℝ) : EReal)) ((N : ℝ) : EReal) = ((varK L N : ℝ) : EReal) := by
  unfold varKE varK
  rw [meanE_coe L hN0, coe_dot_univ, div_coe_coe _ hN0, mul_coe, sub_coe]

theorem varRE_coe (L : ι → ℝ) {N : ℝ} (hN0 : N ≠ 0) :
    varRE (fun n => ((L n : ℝ) : EReal)) ((N : ℝ) : EReal) = ((varR L N : ℝ) : EReal) := by
  unfold varRE varR
  rw [meanE_coe L hN0]
  simp only [sub_coe]
  rw [coe_dot_univ, div_coe_coe _ hN0]

def bnKr (L : ι → ℝ) (γ β e N : ℝ) (n : ι) : ℝ :=
  max (L n * (γ * (Real.sqrt (varK L N + e))⁻¹) + (β - mean L N * (γ * (Real.sqrt (varK L N + e))⁻¹))) 0

def bnRr (L : ι → ℝ) (γ β e N : ℝ) (n : ι) : ℝ :=
  max (((L n - mean L N) * (Real.sqrt (varR L N + e))⁻¹) * γ + β) 0

theorem bnK_coe (L : ι → ℝ) (γ β : ℝ) {e N : ℝ} (he : 0 < e) (hN : (Fintype.card ι : ℝ) = N) (hN0 : 0 < N) (n : ι) :
    bnK (fun n => ((L n : ℝ) : EReal)) ((γ : ℝ) : EReal) ((β : ℝ) : EReal) ((e : ℝ) : EReal) ((N : ℝ) : EReal) n
      = ((bnKr L γ β e N n : ℝ) : EReal) := by
  have hv : 0 < varK L N + e := add_pos_of_nonneg_of_pos (varK_nonneg L hN hN0) he
  unfold bnK shiftE scaleE bnKr
  rw [varKE_coe L hN0.ne', meanE_coe L hN0.ne', add_coe, rsqrt_coe_pos hv]
  simp only [mul_coe, sub_coe, add_coe, max_coe_zero]

theorem bnR_coe (L : ι → ℝ) (γ β : ℝ) {e N : ℝ} (he : 0 < e) (hN0 : 0 < N) (n : ι) :
    bnR (fun n => ((L n : ℝ) : EReal)) ((γ : ℝ) : EReal) ((β : ℝ) : EReal) ((e : ℝ) : EReal) ((N : ℝ) : EReal) n
      = ((bnRr L γ β e N n : ℝ) : EReal) := by
  have hv : 0 < varR L N + e := add_pos_of_nonneg_of_pos (varR_nonneg L hN0) he
  unfold bnR bnRr
  rw [varRE_coe L hN0.ne', meanE_coe L hN0.ne', add_coe, rsqrt_coe_pos hv]
  simp only [mul_coe, sub_coe, add_coe, max_coe_zero]

theorem bnKr_eq_bnRr (L : ι → ℝ) (γ β : ℝ) {e N : ℝ} (hN : (Fintype.card ι : ℝ) = N) (hN0 : N ≠ 0) (n : ι) :
    bnKr L γ β e N n = bnRr L γ β e N n := by
  unfold bnKr bnRr
  rw [varK_eq_varR L hN hN0, bn_affine]

theorem bnK_eq_bnR {x : ι → EReal} (hx : IsReal x) (γ β : ℝ) {e N : ℝ} (he : 0 < e)
    (hN : (Fintype.card ι : ℝ) = N) (hN0 : 0 < N) (n : ι) :
    bnK x ((γ : ℝ) : EReal) ((β : ℝ) : EReal) ((e : ℝ) : EReal) ((N : ℝ) : EReal) n
      = bnR x ((γ : ℝ) : EReal) ((β : ℝ) : EReal) ((e : ℝ) : EReal) ((N : ℝ) : EReal) n := by
  obtain ⟨L, rfl⟩ := hx
  rw [bnK_coe L γ β he hN hN0, bnR_coe L γ β he hN0, bnKr_eq_bnRr L γ β hN hN0.ne']

theorem bnK_isReal {x : ι → EReal} (hx : IsReal x) (γ β : ℝ) {e N : ℝ} (he : 0 < e)
    (hN : (Fintype.card ι : ℝ) = N) (hN0 : 0 < N) :
    IsReal (bnK x ((γ : ℝ) : EReal) ((β : ℝ) : EReal) ((e : ℝ) : EReal) ((N : ℝ) : EReal)) := by
  obtain ⟨L, rfl⟩ := hx
  exact ⟨bnKr L γ β e N, funext fun n => bnK_coe L γ β he hN hN0 n⟩

end Cert.Alg

end
-- ==== Proof.Alg.Sums.lean ====
import Mathlib.Data.EReal.Basic
import Mathlib.Algebra.BigOperators.Fin
import Mathlib.Algebra.BigOperators.Group.Finset.Basic
import Mathlib.Algebra.BigOperators.Intervals
import Mathlib.Logic.Equiv.Fin.Basic
import Mathlib.Tactic.Ring
import proofs.«404458_j53163105190632_2_alg».proof.Proof.Alg.Coe

namespace Cert.Alg

open scoped BigOperators

universe u

variable {M : Type u} [AddCommMonoid M]

theorem sum_blocks {T R N : ℕ} (hN : N = T * R) (f : Fin N → M) (g : Fin T → Fin R → Fin N)
    (hg : ∀ t r, (g t r).val = R * t.val + r.val) :
    ∑ t, ∑ r, f (g t r) = ∑ n, f n := by
  subst hN
  rw [← finProdFinEquiv.sum_comp f, Fintype.sum_prod_type]
  refine Finset.sum_congr rfl fun t _ => Finset.sum_congr rfl fun r _ => congrArg f (Fin.ext ?_)
  rw [hg]
  show R * t.val + r.val = r.val + R * t.val
  exact Nat.add_comm _ _

theorem sum_blocks_20_5000_of (f : Fin 100000 → M) (g : Fin 20 → Fin 5000 → Fin 100000)
    (hg : ∀ t r, (g t r).val = 5000 * t.val + r.val) : ∑ t : Fin 20, ∑ r : Fin 5000, f (g t r) = ∑ n, f n :=
  sum_blocks (by norm_num) f g hg

theorem acc_eq_sum (acc a : ℕ → M) (h0 : acc 0 = 0) (hs : ∀ t, acc (t + 1) = acc t + a t) (T : ℕ) :
    acc T = ∑ t ∈ Finset.range T, a t := by
  induction T with
  | zero => rw [h0, Finset.range_zero, Finset.sum_empty]
  | succ T ih => rw [hs, ih, Finset.sum_range_succ]

theorem sum_of_vanish {N P : ℕ} (hNP : N ≤ P) (f : Fin P → M) (hz : ∀ m : Fin P, N ≤ m.val → f m = 0) :
    ∑ m, f m = ∑ n : Fin N, f (Fin.castLE hNP n) := by
  have hmap : ∑ n : Fin N, f (Fin.castLE hNP n) = ∑ m ∈ Finset.univ.map (Fin.castLEEmb hNP), f m := by
    rw [Finset.sum_map]; rfl
  rw [hmap]
  symm
  refine Finset.sum_subset (Finset.subset_univ _) fun m _ hm => hz m ?_
  by_contra hlt
  exact hm (Finset.mem_map.mpr ⟨⟨m.val, Nat.lt_of_not_le hlt⟩, Finset.mem_univ _, Fin.ext rfl⟩)

theorem sum_onehot_mul_ereal {ι : Type*} (s : Finset ι) (p : ι → Prop) [DecidablePred p] (x : ι → EReal) :
    ∑ n ∈ s, (if p n then (1 : EReal) else 0) * x n = ∑ n ∈ s.filter p, x n := by
  rw [Finset.sum_filter]
  exact Finset.sum_congr rfl fun n _ => boole_mul (p n) (x n)

theorem sum_blocks_onehot {T R N P : ℕ} (hP : P = T * R) (hNP : N ≤ P)
    (x : Fin P → EReal) (p : Fin P → Prop) [DecidablePred p] (hz : ∀ m : Fin P, N ≤ m.val → x m = 0)
    (g : Fin T → Fin R → Fin P) (hg : ∀ t r, (g t r).val = R * t.val + r.val) :
    ∑ t, ∑ r, (if p (g t r) then (1 : EReal) else 0) * x (g t r)
      = ∑ n ∈ Finset.univ.filter (fun n : Fin N => p (Fin.castLE hNP n)), x (Fin.castLE hNP n) := by
  rw [sum_blocks hP (fun m => (if p m then (1 : EReal) else 0) * x m) g hg,
    sum_of_vanish hNP (fun m => (if p m then (1 : EReal) else 0) * x m) fun m hm => by
      show (if p m then (1 : EReal) else 0) * x m = 0
      rw [hz m hm, mul_zero]]
  exact sum_onehot_mul_ereal Finset.univ (fun n : Fin N => p (Fin.castLE hNP n)) fun n => x (Fin.castLE hNP n)

end Cert.Alg
-- ==== Proof.Bridge.lean ====
import Mathlib.Tactic.Choose
import proofs.«404458_j53163105190632_2_alg».proof.Proof.Spec
import proofs.«404458_j53163105190632_2_alg».proof.Proof.Alg.Coe
import proofs.«404458_j53163105190632_2_alg».proof.Proof.Alg.Ops
import proofs.«404458_j53163105190632_2_alg».proof.Proof.Alg.BatchNorm
import proofs.«404458_j53163105190632_2_alg».proof.Proof.Alg.Sums

noncomputable section

namespace Cert.Bridge

open Idealize.ShloMosaic
open Cert.Alg
open Cert.Spec (Mat cN cEps tileRow blockRow lin lin2 sumK sumsqK meanK scaleK shiftK normK layerK sumR meanR normR layerR
  padRows padIds poolK poolR head)

def IsRealM {a b : ℕ} (M : Mat a b) : Prop := ∀ i j, ∃ r : ℝ, M i j = ((r : ℝ) : EReal)

def IsRealV {n : ℕ} (v : Fin n → EReal) : Prop := ∀ i, ∃ r : ℝ, v i = ((r : ℝ) : EReal)

theorem IsRealV.of_isReal {n : ℕ} {v : Fin n → EReal} (h : IsReal v) : IsRealV v := h.apply

theorem IsRealM.of_isReal {ι : Sort*} {a b : ℕ} {v : ι → EReal} (h : IsReal v) (ix : Fin a → Fin b → ι) :
    IsRealM (fun i j => v (ix i j)) := fun i j => h.apply (ix i j)

theorem IsRealV.of_isReal_comp {ι : Sort*} {n : ℕ} {v : ι → EReal} (h : IsReal v) (ix : Fin n → ι) :
    IsRealV (fun i => v (ix i)) := fun i => h.apply (ix i)

theorem IsRealM.col {a b : ℕ} {M : Mat a b} (h : IsRealM M) (j : Fin b) : IsReal (fun i => M i j) :=
  IsReal.of_forall fun i => h i j

theorem IsRealM.exists_eq {a b : ℕ} {M : Mat a b} (h : IsRealM M) :
    ∃ X : Fin a → Fin b → ℝ, M = fun i j => ((X i j : ℝ) : EReal) := by
  choose X hX using h
  exact ⟨X, funext fun i => funext fun j => hX i j⟩

theorem IsRealV.exists_eq {n : ℕ} {v : Fin n → EReal} (h : IsRealV v) :
    ∃ V : Fin n → ℝ, v = fun i => ((V i : ℝ) : EReal) := by
  choose V hV using h
  exact ⟨V, funext fun i => hV i⟩

theorem lin_isReal {x a : Mat 100000 128} {w : Mat 128 128} {b : Fin 128 → EReal}
    (hx : IsRealM x) (ha : IsRealM a) (hw : IsRealM w) (hb : IsRealV b) : IsRealM (lin x a w b) := by
  obtain ⟨X, rfl⟩ := hx.exists_eq; obtain ⟨A, rfl⟩ := ha.exists_eq
  obtain ⟨W, rfl⟩ := hw.exists_eq; obtain ⟨B, rfl⟩ := hb.exists_eq
  intro n j
  refine ⟨(∑ k : Fin 128, (X n k + A n k) * W k j) + B j, ?_⟩
  unfold Spec.lin
  simp only [add_coe, mul_coe, coe_sum_univ]

theorem lin2_isReal {h : Mat 100000 128} {w : Mat 128 128} {b : Fin 128 → EReal}
    (hh : IsRealM h) (hw : IsRealM w) (hb : IsRealV b) : IsRealM (lin2 h w b) := by
  obtain ⟨H, rfl⟩ := hh.exists_eq; obtain ⟨W, rfl⟩ := hw.exists_eq; obtain ⟨B, rfl⟩ := hb.exists_eq
  intro n j
  refine ⟨max ((∑ k : Fin 128, H n k * W k j) + B j) 0, ?_⟩
  unfold Spec.lin2
  simp only [add_coe, mul_coe, coe_sum_univ, max_coe_zero]

theorem cN_eq : cN = ((100000 : ℝ) : EReal) := ofBits_100000

theorem cEps_eq : cEps = ((eps : ℝ) : EReal) := ofBits_eps

theorem card_rows : (Fintype.card (Fin 100000) : ℝ) = 100000 := by simp

theorem sumK_eq_sumR (h : Mat 100000 128) (j : Fin 128) : sumK h j = sumR h j :=
  sum_blocks_20_5000_of (fun n => h n j) tileRow fun _ _ => rfl

theorem sumsqK_eq (h : Mat 100000 128) (j : Fin 128) : sumsqK h j = ∑ n : Fin 100000, h n j * h n j :=
  sum_blocks_20_5000_of (fun n => h n j * h n j) tileRow fun _ _ => rfl

theorem meanK_eq (h : Mat 100000 128) (j : Fin 128) : meanK h j = meanE (fun n => h n j) cN := by
  unfold Spec.meanK meanE; rw [sumK_eq_sumR]; rfl

theorem varK_eq (h : Mat 100000 128) (j : Fin 128) : Spec.varK h j = varKE (fun n => h n j) cN := by
  unfold Spec.varK varKE; rw [sumsqK_eq, meanK_eq]

theorem scaleK_eq (h : Mat 100000 128) (g : Fin 128 → EReal) (j : Fin 128) :
    scaleK h g j = scaleE (fun n => h n j) (g j) cEps cN := by
  unfold Spec.scaleK scaleE; rw [varK_eq]

theorem shiftK_eq (h : Mat 100000 128) (g be : Fin 128 → EReal) (j : Fin 128) :
    shiftK h g be j = shiftE (fun n => h n j) (g j) (be j) cEps cN := by
  unfold Spec.shiftK shiftE; rw [meanK_eq, scaleK_eq]

theorem normK_eq_bnK (h : Mat 100000 128) (g be : Fin 128 → EReal) (n : Fin 100000) (j : Fin 128) :
    normK h g be n j = bnK (fun n => h n j) (g j) (be j) cEps cN n := by
  unfold Spec.normK bnK; rw [scaleK_eq, shiftK_eq]

theorem normR_eq_bnR (h : Mat 100000 128) (g be : Fin 128 → EReal) (n : Fin 100000) (j : Fin 128) :
    normR h g be n j = bnR (fun n => h n j) (g j) (be j) cEps cN n := rfl

theorem normK_eq_normR {h : Mat 100000 128} {g be : Fin 128 → EReal}
    (hh : IsRealM h) (hg : IsRealV g) (hbe : IsRealV be) : normK h g be = normR h g be := by
  funext n j
  obtain ⟨γ, hγ⟩ := hg j; obtain ⟨β, hβ⟩ := hbe j
  rw [normK_eq_bnK, normR_eq_bnR, hγ, hβ, cN_eq, cEps_eq]
  exact bnK_eq_bnR (hh.col j) γ β eps_pos card_rows (by norm_num) n

theorem normK_isReal {h : Mat 100000 128} {g be : Fin 128 → EReal}
    (hh : IsRealM h) (hg : IsRealV g) (hbe : IsRealV be) : IsRealM (normK h g be) := by
  intro n j
  obtain ⟨γ, hγ⟩ := hg j; obtain ⟨β, hβ⟩ := hbe j
  rw [normK_eq_bnK, hγ, hβ, cN_eq, cEps_eq]
  exact (bnK_isReal (hh.col j) γ β eps_pos card_rows (by norm_num)).apply n

theorem layerK_eq_layerR {x a : Mat 100000 128} {w1 : Mat 128 128} {b1 g be : Fin 128 → EReal} {w2 : Mat 128 128}
    {b2 : Fin 128 → EReal} (hx : IsRealM x) (ha : IsRealM a) (hw1 : IsRealM w1) (hb1 : IsRealV b1) (hg : IsRealV g)
    (hbe : IsRealV be) (_hw2 : IsRealM w2) (_hb2 : IsRealV b2) :
    layerK x a w1 b1 g be w2 b2 = layerR x a w1 b1 g be w2 b2 := by
  unfold Spec.layerK Spec.layerR
  rw [normK_eq_normR (lin_isReal hx ha hw1 hb1) hg hbe]

theorem layerK_isReal {x a : Mat 100000 128} {w1 : Mat 128 128} {b1 g be : Fin 128 → EReal} {w2 : Mat 128 128}
    {b2 : Fin 128 → EReal} (hx : IsRealM x) (ha : IsRealM a) (hw1 : IsRealM w1) (hb1 : IsRealV b1) (hg : IsRealV g)
    (hbe : IsRealV be) (hw2 : IsRealM w2) (hb2 : IsRealV b2) : IsRealM (layerK x a w1 b1 g be w2 b2) :=
  lin2_isReal (normK_isReal (lin_isReal hx ha hw1 hb1) hg hbe) hw2 hb2

theorem poolK_eq_poolR (x : Mat 100000 128) (ids : Fin 100000 → BitVec 32) : poolK x ids = poolR x ids := by
  funext g d
  unfold Spec.poolK Spec.poolR
  rw [sum_blocks_onehot (T := 8) (R := 12800) (N := 100000) (P := 102400) (by norm_num) (by norm_num)
    (fun m => padRows x m d) (fun m => padIds ids m = BitVec.ofNat 32 g.val)
    (fun m hm => by unfold Spec.padRows; rw [dif_neg (by omega)]) blockRow (fun _ _ => rfl)]
  rw [Finset.sum_filter]
  refine Finset.sum_congr rfl fun n _ => ?_
  have h1 : padIds ids (Fin.castLE (by norm_num) n) = ids n := by
    unfold Spec.padIds; rw [dif_pos (show (Fin.castLE (by norm_num) n : Fin 102400).val < 100000 from n.isLt)]; rfl
  have h2 : padRows x (Fin.castLE (by norm_num) n) d = x n d := by
    unfold Spec.padRows; rw [dif_pos (show (Fin.castLE (by norm_num) n : Fin 102400).val < 100000 from n.isLt)]; rfl
  rw [h1, h2]

end Cert.Bridge

end
-- ==== Proof.KI.HostLib.lean ====
import proofs.«404458_j53163105190632_2_alg».proof.Proof.Gen.KernelIdeal.Regions
import Idealize.ShloMosaic.Lib.StableHlo.Run
import Idealize.ShloMosaic.Lib.ValueIdx
import Idealize.ShloMosaic.Lib.ValueLayout
import Idealize.ShloMosaic.Lib.IdealHost
import Idealize.ShloMosaic.Lib.KernelVsHost
import Idealize.ShloMosaic.Lib.Pipeline.Value
import Idealize.ShloMosaic.PureOps.Ideal.Laws
noncomputable section
namespace Cert.KernelIdeal.HandVal
open Cert.KernelIdeal Cert.KernelIdeal.Gen
open Idealize.ShloMosaic Idealize.ShloMosaic.TcCoe Idealize.ShloMosaic.ValueIdx
open scoped BigOperators

def srcRow (ei : Vec Ideal S2x1600000 .i32) : Vec Ideal S1600000 .i32 :=
  fun i => shapeCast S1600000 (extractStridedSlice S1x1600000 ![0, 0] ei slices_S2x1600000_S1x1600000_0_0)
    shapeCasts_S1x1600000_S1600000 i

def dstRow (ei : Vec Ideal S2x1600000 .i32) : Vec Ideal S1600000 .i32 :=
  fun i => shapeCast S1600000 (extractStridedSlice S1x1600000 ![1, 0] ei slices_S2x1600000_S1x1600000_1_0)
    shapeCasts_S1x1600000_S1600000 i

/-- The rows of `x` gathered at the sources (a negative index wrapped by the number of rows), summed into a zero array at the destinations. -/
def aggOf (x : FVec Ideal S100000x128 .f32) (src dst : Vec Ideal S1600000 .i32) : FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 x
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32)))
          src)))

def aggK (x : FVec Ideal S100000x128 .f32) (ei : Vec Ideal S2x1600000 .i32) : FVec Ideal S100000x128 .f32 :=
  aggOf x (srcRow ei) (dstRow ei)

theorem mat_layer_apply (W : FVec Ideal S4x128x128 .f32) (o : ℕ) (l : Fin 4) (hl : l.val = o)
    (h : S4x128x128.Slices ![o, 0, 0] S1x128x128) (h' : S1x128x128.ShapeCasts S128x128) (k j : Fin 128) :
    shapeCast S128x128 (extractStridedSlice S1x128x128 ![o, 0, 0] W h) h' (ix2 k j) = W (ix3 l k j) := by
  rw [shapeCast_1ab_ab_apply]
  exact extractStridedSlice_apply _ _ _ _ _ (fun ax => by
    match ax with
    | ⟨0, _⟩ => exact hl.trans (Nat.add_zero o).symm
    | ⟨1, _⟩ | ⟨2, _⟩ => exact (Nat.zero_add _).symm)

theorem vec_layer_apply (B : FVec Ideal S4x128 .f32) (o : ℕ) (l : Fin 4) (hl : l.val = o)
    (h : S4x128.Slices ![o, 0] S1x128) (h' : S1x128.ShapeCasts S128) (j : Fin 128) :
    shapeCast S128 (extractStridedSlice S1x128 ![o, 0] B h) h' (ix1 j) = B (ix2 l j) := by
  rw [shapeCast_1a_a_apply]
  exact slice2_axis0_apply o B h (0 : Fin 1) j l (hl.trans (Nat.add_zero o).symm)

theorem row_layer_apply (B : FVec Ideal S4x128 .f32) (o : ℕ) (l : Fin 4) (hl : l.val = o)
    (h : S4x128.Slices ![o, 0] S1x128) (h' : S1x128.ShapeCasts S128) (h'' : S128.ShapeCasts S1x128) (u : Fin 1) (j : Fin 128) :
    shapeCast S1x128 (shapeCast S128 (extractStridedSlice S1x128 ![o, 0] B h) h') h'' (ix2 u j) = B (ix2 l j) := by
  rw [shapeCast_a_1a_apply, vec_layer_apply B o l hl]

def tileRows (P : FVec Ideal S20x8x128 .f32) : FVec Ideal S20x128 .f32 :=
  fun i => shapeCast S20x128 (extractStridedSlice S20x1x128 ![0, 0, 0] P slices_S20x8x128_S20x1x128_0_0_0)
    shapeCasts_S20x1x128_S20x128 i

theorem tileRows_apply (P : FVec Ideal S20x8x128 .f32) (t : Fin 20) (j : Fin 128) :
    tileRows P (ix2 t j) = P (ix3 t 0 j) := by
  unfold tileRows
  rw [shapeCast_apply _ _ (ix2 t j) (ix3 t (0 : Fin 1) j) (by
    rw [Shape.rowMajor_val_three, Shape.rowMajor_val_two]
    show (t.val * 1 + 0) * 128 + j.val = t.val * 128 + j.val
    omega)]
  exact extractStridedSlice_apply _ _ _ _ _ (fun ax => by
    match ax with
    | ⟨0, _⟩ | ⟨1, _⟩ | ⟨2, _⟩ => exact (Nat.zero_add _).symm)

def sumsVec (P : FVec Ideal S20x8x128 .f32) : FVec Ideal S128 .f32 :=
  Host.reduceAdd (tileRows P) (constant (F := Ideal) S_ .f32 0x00000000#32) reducesTo_S20x128_S128_d0 h_S_

/-- Column `j` of row 0 of each of the 20 blocks of `P`, summed. -/
def bnSum (P : FVec Ideal S20x8x128 .f32) (j : Fin 128) : EReal := ∑ t : Fin 20, P (ix3 t 0 j)

theorem sumsVec_apply (P : FVec Ideal S20x8x128 .f32) (j : Fin 128) : sumsVec P (ix1 j) = bnSum P j := by
  unfold sumsVec bnSum
  rw [hostReduceAdd_apply, Ideal.hostReduceAdd_single reducesTo_S20x128_S128_d0 (by decide : S20x128.Reduces [0] S128),
    constant_apply, Ideal.ofBits_zero_f32, zero_add]
  refine Finset.sum_congr rfl (fun t _ => ?_)
  have e : Shape.Reduces.lift (by decide : S20x128.Reduces [0] S128) (ix1 j) t = ix2 t j := by
    funext ax
    match ax with
    | ⟨0, _⟩ | ⟨1, _⟩ => rfl
  rw [e]; exact tileRows_apply P t j

def bcScalar (b : BitVec 32) : FVec Ideal S128 .f32 :=
  broadcastInDim S128 ![] bcast_S_S128 (constant (F := Ideal) S_ .f32 b)

theorem bcScalar_apply (b : BitVec 32) (i : S128.Idx) : bcScalar b i = Ideal.ofBits .f32 b := by
  unfold bcScalar; rw [broadcastInDim_scalar_apply, constant_apply]

def meanVec (P : FVec Ideal S20x8x128 .f32) : FVec Ideal S128 .f32 := Host.divf (sumsVec P) (bcScalar 0x47C35000#32)
def varVec (P Q : FVec Ideal S20x8x128 .f32) : FVec Ideal S128 .f32 := subf (meanVec Q) (mulf (meanVec P) (meanVec P))
def scaleVec (g : FVec Ideal S128 .f32) (P Q : FVec Ideal S20x8x128 .f32) : FVec Ideal S128 .f32 :=
  mulf g (Host.rsqrt (addf (varVec P Q) (bcScalar 0x3727C5AC#32)))
def shiftVec (b g : FVec Ideal S128 .f32) (P Q : FVec Ideal S20x8x128 .f32) : FVec Ideal S128 .f32 :=
  subf b (mulf (meanVec P) (scaleVec g P Q))
def bnMean (P : FVec Ideal S20x8x128 .f32) (j : Fin 128) : EReal :=
  Ideal.div (bnSum P j) (Ideal.ofBits .f32 0x47C35000#32)
def bnVar (P Q : FVec Ideal S20x8x128 .f32) (j : Fin 128) : EReal := bnMean Q j - bnMean P j * bnMean P j
/-- `γ · rsqrt(v + ε)` with `v = mean Q − (mean P)²`, a mean being the column sum divided by the literal 100000. -/
def bnScale (γ : EReal) (P Q : FVec Ideal S20x8x128 .f32) (j : Fin 128) : EReal :=
  γ * Ideal.rsqrt (bnVar P Q j + Ideal.ofBits .f32 0x3727C5AC#32)
/-- `β − mean P · scale`. -/
def bnShift (β γ : EReal) (P Q : FVec Ideal S20x8x128 .f32) (j : Fin 128) : EReal := β - bnMean P j * bnScale γ P Q j

theorem meanVec_apply (P : FVec Ideal S20x8x128 .f32) (j : Fin 128) : meanVec P (ix1 j) = bnMean P j := by
  unfold meanVec bnMean; rw [hostDivf_apply, sumsVec_apply, bcScalar_apply]

theorem varVec_apply (P Q : FVec Ideal S20x8x128 .f32) (j : Fin 128) : varVec P Q (ix1 j) = bnVar P Q j := by
  unfold varVec bnVar; rw [subf_apply, mulf_apply, meanVec_apply, meanVec_apply]

theorem scaleVec_apply (g : FVec Ideal S128 .f32) (P Q : FVec Ideal S20x8x128 .f32) (j : Fin 128) :
    scaleVec g P Q (ix1 j) = bnScale (g (ix1 j)) P Q j := by
  unfold scaleVec bnScale
  rw [mulf_apply]
  show g (ix1 j) * Ideal.rsqrt (addf (varVec P Q) (bcScalar 0x3727C5AC#32) (ix1 j)) = _
  rw [addf_apply, varVec_apply, bcScalar_apply]

theorem shiftVec_apply (b g : FVec Ideal S128 .f32) (P Q : FVec Ideal S20x8x128 .f32) (j : Fin 128) :
    shiftVec b g P Q (ix1 j) = bnShift (b (ix1 j)) (g (ix1 j)) P Q j := by
  unfold shiftVec bnShift; rw [subf_apply, mulf_apply, meanVec_apply, scaleVec_apply]

variable (m : (ℓ : Loc nD τ sig) → Buf (Elt Ideal) ℓ) (outs : Outs (F := Ideal)) (c : Dev nD)

/-- What agrees with `a` off `W'`, where `a` agrees with `z` off `W`, agrees with `z` off both. -/
theorem step {β : Ref sig .tc → Type} {a b z : ∀ r, β r} {W W' : List (Ref sig .tc)} (hb : ∀ r, r ∉ W' → b r = a r)
    (ha : ∀ r, r ∉ W → a r = z r) (r : Ref sig .tc) (h : r ∉ W ++ W') : b r = z r :=
  (hb r fun hm => h (List.mem_append_right _ hm)).trans (ha r fun hm => h (List.mem_append_left _ hm))

abbrev Wr1 : List (Ref sig .tc) := hostOps0_W
theorem keep1 (r : Ref sig .tc) (h : r ∉ Wr1) : V1 m c r = m ((c : Thread nD τ).loc r) := V1_of m c r h
abbrev Wr2 : List (Ref sig .tc) := Wr1 ++ [main_v19_0, main_v19_1, main_v19_2]
theorem keep2 (r : Ref sig .tc) (h : r ∉ Wr2) : V2 m outs c r = m ((c : Thread nD τ).loc r) :=
  step (V2_of m outs c) (keep1 m c) r h
abbrev Wr4 : List (Ref sig .tc) := Wr2 ++ hostOps1_W ++ [main_v49]
theorem keep4 (r : Ref sig .tc) (h : r ∉ Wr4) : V4 m outs c r = m ((c : Thread nD τ).loc r) :=
  step (V4_of m outs c) (step (V3_of m outs c) (keep2 m outs c)) r h
abbrev Wr6 : List (Ref sig .tc) := Wr4 ++ hostOps2_W ++ [main_v65_0, main_v65_1, main_v65_2]
theorem keep6 (r : Ref sig .tc) (h : r ∉ Wr6) : V6 m outs c r = m ((c : Thread nD τ).loc r) :=
  step (V6_of m outs c) (step (V5_of m outs c) (keep4 m outs c)) r h
abbrev Wr8 : List (Ref sig .tc) := Wr6 ++ hostOps3_W ++ [main_v95]
theorem keep8 (r : Ref sig .tc) (h : r ∉ Wr8) : V8 m outs c r = m ((c : Thread nD τ).loc r) :=
  step (V8_of m outs c) (step (V7_of m outs c) (keep6 m outs c)) r h
abbrev Wr10 : List (Ref sig .tc) := Wr8 ++ hostOps4_W ++ [main_v111_0, main_v111_1, main_v111_2]
theorem keep10 (r : Ref sig .tc) (h : r ∉ Wr10) : V10 m outs c r = m ((c : Thread nD τ).loc r) :=
  step (V10_of m outs c) (step (V9_of m outs c) (keep8 m outs c)) r h
abbrev Wr12 : List (Ref sig .tc) := Wr10 ++ hostOps5_W ++ [main_v141]
theorem keep12 (r : Ref sig .tc) (h : r ∉ Wr12) : V12 m outs c r = m ((c : Thread nD τ).loc r) :=
  step (V12_of m outs c) (step (V11_of m outs c) (keep10 m outs c)) r h
abbrev Wr14 : List (Ref sig .tc) := Wr12 ++ hostOps6_W ++ [main_v157_0, main_v157_1, main_v157_2]
theorem keep14 (r : Ref sig .tc) (h : r ∉ Wr14) : V14 m outs c r = m ((c : Thread nD τ).loc r) :=
  step (V14_of m outs c) (step (V13_of m outs c) (keep12 m outs c)) r h
abbrev Wr16 : List (Ref sig .tc) := Wr14 ++ hostOps7_W ++ [main_v187]
theorem keep16 (r : Ref sig .tc) (h : r ∉ Wr16) : V16 m outs c r = m ((c : Thread nD τ).loc r) :=
  step (V16_of m outs c) (step (V15_of m outs c) (keep14 m outs c)) r h
abbrev Wr21 : List (Ref sig .tc) := Wr16 ++ hostOps8_W ++ hostOps8_1_W ++ hostOps8_2_W ++ hostOps8_3_W ++ hostOps8_4_W
theorem keep21 (r : Ref sig .tc) (h : r ∉ Wr21) : V21 m outs c r = m ((c : Thread nD τ).loc r) :=
  step (V21_of m outs c) (step (V20_of m outs c) (step (V19_of m outs c) (step (V18_of m outs c)
    (step (V17_of m outs c) (keep16 m outs c))))) r h

theorem V1_src : V1 m c main_v1 = srcRow (m ((c : Thread nD τ).loc main_arg1)) := by
  after_results_simp; rfl
theorem V1_dst : V1 m c main_v3 = dstRow (m ((c : Thread nD τ).loc main_arg1)) := by
  after_results_simp; rfl
theorem V4_src : V4 m outs c main_v1 = srcRow (m ((c : Thread nD τ).loc main_arg1)) :=
  (step (V4_of m outs c) (step (V3_of m outs c) (V2_of m outs c)) _ (by decide)).trans (V1_src m c)
theorem V4_dst : V4 m outs c main_v3 = dstRow (m ((c : Thread nD τ).loc main_arg1)) :=
  (step (V4_of m outs c) (step (V3_of m outs c) (V2_of m outs c)) _ (by decide)).trans (V1_dst m c)
theorem V8_src : V8 m outs c main_v1 = srcRow (m ((c : Thread nD τ).loc main_arg1)) :=
  (step (V8_of m outs c) (step (V7_of m outs c) (step (V6_of m outs c) (V5_of m outs c))) _ (by decide)).trans
    (V4_src m outs c)
theorem V8_dst : V8 m outs c main_v3 = dstRow (m ((c : Thread nD τ).loc main_arg1)) :=
  (step (V8_of m outs c) (step (V7_of m outs c) (step (V6_of m outs c) (V5_of m outs c))) _ (by decide)).trans
    (V4_dst m outs c)
theorem V12_src : V12 m outs c main_v1 = srcRow (m ((c : Thread nD τ).loc main_arg1)) :=
  (step (V12_of m outs c) (step (V11_of m outs c) (step (V10_of m outs c) (V9_of m outs c))) _ (by decide)).trans
    (V8_src m outs c)
theorem V12_dst : V12 m outs c main_v3 = dstRow (m ((c : Thread nD τ).loc main_arg1)) :=
  (step (V12_of m outs c) (step (V11_of m outs c) (step (V10_of m outs c) (V9_of m outs c))) _ (by decide)).trans
    (V8_dst m outs c)

end Cert.KernelIdeal.HandVal
-- ==== Proof.Alg.SumDep.lean ====
import Mathlib.Data.EReal.Inv
import Mathlib.Algebra.BigOperators.Group.Finset.Basic
import proofs.«404458_j53163105190632_2_alg».proof.Proof.Alg.Coe

namespace Cert.Alg

open scoped BigOperators

universe u v

namespace IsReal

theorem sum_dep {ι : Sort u} {κ : Type v} (s : ι → Finset κ) {g : ι → κ → EReal}
    (h : ∀ i, ∀ k ∈ s i, ∃ r : ℝ, g i k = ((r : ℝ) : EReal)) : IsReal (fun i => ∑ k ∈ s i, g i k) := by
  refine of_forall fun i => ?_
  have e : ∀ k ∈ s i, g i k = (((g i k).toReal : ℝ) : EReal) := fun k hk => by
    obtain ⟨r, hr⟩ := h i k hk; rw [hr]; simp
  exact ⟨∑ k ∈ s i, (g i k).toReal, by rw [← coe_sum]; exact Finset.sum_congr rfl e⟩

theorem sum_filter {ι : Sort u} {κ : Type v} [Fintype κ] (P : ι → κ → Prop) [∀ i, DecidablePred (P i)]
    {y : κ → EReal} (hy : IsReal y) : IsReal (fun i => ∑ k ∈ Finset.univ.filter (P i), y k) :=
  sum_dep (fun i => Finset.univ.filter (P i)) fun _ k _ => hy.apply k

theorem scatterAdd {ι : Sort u} {κ : Type v} [Fintype κ] (P : ι → κ → Prop) [∀ i, DecidablePred (P i)]
    {x : ι → EReal} {y : κ → EReal} (hx : IsReal x) (hy : IsReal y) :
    IsReal (fun i => x i + ∑ k ∈ Finset.univ.filter (P i), y k) :=
  hx.add (sum_filter P hy)

end IsReal

end Cert.Alg
-- ==== Proof.Agg.lean ====
import proofs.«404458_j53163105190632_2_alg».proof.Proof.KI.HostLib
import proofs.«404458_j53163105190632_2_alg».proof.Proof.Ref.Defs
import proofs.«404458_j53163105190632_2_alg».proof.Proof.Alg.Coe
import proofs.«404458_j53163105190632_2_alg».proof.Proof.Alg.Ops
import proofs.«404458_j53163105190632_2_alg».proof.Proof.Alg.SumDep
import proofs.«404458_j53163105190632_2_alg».proof.Proof.Bridge

noncomputable section

namespace Cert.Agg

open Idealize.ShloMosaic
open Cert.Alg

theorem agg_same (x : FVec Ideal Cert.KernelIdeal.S100000x128 .f32) (ei : Vec Ideal Cert.KernelIdeal.S2x1600000 .i32) :
    Cert.KernelIdeal.HandVal.aggK x ei = Cert.ReferenceIdeal.Hand.refAgg x ei := rfl

section General

variable {φ : FTy}

theorem isReal_constant_zero (s : Shape) : IsReal (constant (F := Ideal) s .f32 0x00000000#32) :=
  ⟨fun _ => 0, funext fun _ => ofBits_zero_coe⟩

theorem isReal_broadcastInDim {s t : Shape} (dims : Fin s.rank → Fin t.rank) (h : s.BroadcastsInDim t dims)
    {x : FVec Ideal s φ} (hx : IsReal x) : IsReal (broadcastInDim t dims h x) :=
  hx.comp _

theorem isReal_gather {s si t : Shape} {w : ℕ} (d : GatherDims s si t) {x : FVec Ideal s φ} (hx : IsReal x)
    (idx : IVec si w) : IsReal (Host.gather d x idx) :=
  hx.comp _

theorem isReal_scatterAdd {s si u : Shape} {w : ℕ} (d : ScatterDims s si u) {x : FVec Ideal s φ} {upd : FVec Ideal u φ}
    (idx : IVec si w) (hx : IsReal x) (hu : IsReal upd) : IsReal (Host.scatterAdd (F := Ideal) d x idx upd) :=
  IsReal.scatterAdd (fun i j => d.resultIdx? j idx = some i) hx hu

end General

theorem aggRows_isReal (x : FVec Ideal Cert.ReferenceIdeal.S100000x128 .f32)
    (src dst : Vec Ideal Cert.ReferenceIdeal.S1600000 .i32) (hx : IsReal x) :
    IsReal (Cert.ReferenceIdeal.Hand.refAggRows x src dst) := by
  unfold Cert.ReferenceIdeal.Hand.refAggRows
  exact isReal_scatterAdd _ _ (isReal_broadcastInDim _ _ (isReal_constant_zero _)) (isReal_gather _ hx _)

theorem agg_isReal (x : FVec Ideal Cert.ReferenceIdeal.S100000x128 .f32) (ei : Vec Ideal Cert.ReferenceIdeal.S2x1600000 .i32)
    (hx : IsReal x) : IsReal (Cert.ReferenceIdeal.Hand.refAgg x ei) :=
  aggRows_isReal x _ _ hx

theorem aggK_isReal (x : FVec Ideal Cert.KernelIdeal.S100000x128 .f32) (ei : Vec Ideal Cert.KernelIdeal.S2x1600000 .i32)
    (hx : IsReal x) : IsReal (Cert.KernelIdeal.HandVal.aggK x ei) := by
  rw [agg_same]; exact agg_isReal x ei hx

theorem aggK_isRealM (x : FVec Ideal Cert.KernelIdeal.S100000x128 .f32) (ei : Vec Ideal Cert.KernelIdeal.S2x1600000 .i32)
    (hx : IsReal x) :
    Cert.Bridge.IsRealM (fun (n : Fin 100000) (k : Fin 128) => Cert.KernelIdeal.HandVal.aggK x ei (ValueIdx.ix2 n k)) :=
  Cert.Bridge.IsRealM.of_isReal (aggK_isReal x ei hx) ValueIdx.ix2

theorem isRealM_of_isReal (x : FVec Ideal Cert.ReferenceIdeal.S100000x128 .f32) (hx : IsReal x) :
    Cert.Bridge.IsRealM (fun (n : Fin 100000) (k : Fin 128) => x (ValueIdx.ix2 n k)) :=
  Cert.Bridge.IsRealM.of_isReal hx ValueIdx.ix2

theorem isReal_of_isRealM (x : FVec Ideal Cert.ReferenceIdeal.S100000x128 .f32)
    (hx : Cert.Bridge.IsRealM (fun (n : Fin 100000) (k : Fin 128) => x (ValueIdx.ix2 n k))) : IsReal x :=
  IsReal.of_forall fun j => by
    obtain ⟨r, hr⟩ := hx (j 0) (j 1)
    exact ⟨r, by rw [ValueIdx.eq_ix2 j]; exact hr⟩

end Cert.Agg

end
-- ==== Proof.Ref.Read.lean ====
import proofs.«404458_j53163105190632_2_alg».proof.Proof.Ref.Defs
import proofs.«404458_j53163105190632_2_alg».proof.Proof.Spec
import proofs.«404458_j53163105190632_2_alg».proof.Proof.Alg.Ops
import Idealize.ShloMosaic.Lib.ValueIdx
import Idealize.ShloMosaic.Lib.ValueLayout
import Idealize.ShloMosaic.Lib.Pipeline.Value
import Idealize.ShloMosaic.Lib.StackMember
import Idealize.ShloMosaic.PureOps.Ideal.Laws

noncomputable section

namespace Cert.ReferenceIdeal.HandVal

open Cert.ReferenceIdeal Cert.ReferenceIdeal.Gen Cert.ReferenceIdeal.Hand
open Idealize.ShloMosaic Idealize.ShloMosaic.ValueIdx
open scoped BigOperators

def toMat {a b : ℕ} (v : (⟨2, ![a, b]⟩ : Shape).Idx → EReal) : Cert.Spec.Mat a b := fun n k => v (ix2 n k)

def toVec {n : ℕ} (v : (⟨1, ![n]⟩ : Shape).Idx → EReal) : Fin n → EReal := fun j => v (ix1 j)

theorem toMat_apply {a b : ℕ} (v : (⟨2, ![a, b]⟩ : Shape).Idx → EReal) (n : Fin a) (k : Fin b) :
    toMat v n k = v (ix2 n k) := rfl

theorem toVec_apply {n : ℕ} (v : (⟨1, ![n]⟩ : Shape).Idx → EReal) (j : Fin n) : toVec v j = v (ix1 j) := rfl

theorem row128_apply {α : Type} (v : S128.Idx → α) (u : Fin 1) (j : Fin 128) :
    broadcastInDim S1x128 ![1] bcast_S128_S1x128_1 v (ix2 u j) = v (ix1 j) :=
  broadcastInDim_apply _ _ v (ix2 u j) (ix1 j) (fun a => match a with | ⟨0, _⟩ => rfl)

theorem rep100000_apply {α : Type} (r : S1x128.Idx → α) (n : Fin 100000) (j : Fin 128) :
    broadcastInDim S100000x128 ![0, 1] bcast_S1x128_S100000x128_0_1 r (ix2 n j) = r (ix2 (0 : Fin 1) j) :=
  broadcastInDim_apply _ _ r (ix2 n j) (ix2 (0 : Fin 1) j) (fun a => match a with | ⟨0, _⟩ => rfl | ⟨1, _⟩ => rfl)

theorem refRows_apply (v : FVec Ideal S128 .f32) (n : Fin 100000) (j : Fin 128) :
    refRows v (ix2 n j) = v (ix1 j) :=
  (rep100000_apply _ n j).trans (row128_apply v 0 j)

theorem dotNode_apply (A : FVec Ideal S100000x128 .f32) (B : FVec Ideal S128x128 .f32) (n : Fin 100000) (j : Fin 128) :
    Host.dotGeneral (F := Ideal) dot_S100000x128_S128x128_S100000x128_1_0_0_1_n_n none A B (ix2 n j)
      = ∑ k : Fin 128, A (ix2 n k) * B (ix2 k j) :=
  StackMember.dotGeneral_plain_apply (m := 100000) (n := 128) (k := 128) none A B n j

theorem refLin1_apply (x agg : FVec Ideal S100000x128 .f32) (w : FVec Ideal S128x128 .f32) (b : FVec Ideal S128 .f32) :
    toMat (refLin1 x agg w b) = Cert.Spec.lin (toMat x) (toMat agg) (toMat w) (toVec b) := by
  funext n j
  show Host.dotGeneral (F := Ideal) dot_S100000x128_S128x128_S100000x128_1_0_0_1_n_n none (addf x agg) w (ix2 n j)
      + refRows b (ix2 n j) = _
  rw [dotNode_apply, refRows_apply]
  rfl

theorem refColSum_apply (y : FVec Ideal S100000x128 .f32) (j : Fin 128) :
    refColSum y (ix1 j) = ∑ n : Fin 100000, y (ix2 n j) := by
  have hR : S100000x128.Reduces [0] S128 := by decide
  show Ideal.hostReduceAdd reducesTo_S100000x128_S128_d0 y (Ideal.ofBits .f32 0x00000000#32) (ix1 j) = _
  rw [Ideal.hostReduceAdd_single reducesTo_S100000x128_S128_d0 hR, Cert.Alg.ofBits_zero, zero_add]
  refine Finset.sum_congr rfl fun k _ => congrArg y ?_
  funext a
  apply Fin.ext
  match a with
  | ⟨0, _⟩ => rfl
  | ⟨1, _⟩ => rfl

theorem refMean_apply (y : FVec Ideal S100000x128 .f32) : toVec (refMean y) = Cert.Spec.meanR (toMat y) := by
  funext j
  show Ideal.div (refColSum y (ix1 j)) (Ideal.ofBits .f32 0x47C35000#32) = _
  rw [refColSum_apply]
  rfl

theorem refCentred_apply (y : FVec Ideal S100000x128 .f32) (n : Fin 100000) (j : Fin 128) :
    refCentred y (ix2 n j) = y (ix2 n j) - Cert.Spec.meanR (toMat y) j := by
  show y (ix2 n j) - broadcastInDim S100000x128 ![0, 1] bcast_S1x128_S100000x128_0_1
      (Host.divf (broadcastInDim S1x128 ![1] bcast_S128_S1x128_1 (refColSum y))
        (broadcastInDim S1x128 ![] bcast_S_S1x128 (constant (F := Ideal) S_ .f32 0x47C35000#32))) (ix2 n j) = _
  rw [rep100000_apply]
  show y (ix2 n j) - Ideal.div (broadcastInDim S1x128 ![1] bcast_S128_S1x128_1 (refColSum y) (ix2 (0 : Fin 1) j))
      (Ideal.ofBits .f32 0x47C35000#32) = _
  rw [row128_apply, refColSum_apply]
  rfl

theorem refVar_apply (y : FVec Ideal S100000x128 .f32) : toVec (refVar y) = Cert.Spec.varR (toMat y) := by
  funext j
  show Scalar.select
      (FloatOps.cmpf (F := Ideal) (φ := .f32) .ogt
        (FloatOps.subf (F := Ideal) (φ := .f32) (Ideal.ofBits .f32 0x47C35000#32) (FloatOps.sitofp (F := Ideal) .f32 (0#32)))
        (Ideal.ofBits .f32 0x00000000#32))
      (Ideal.div (refColSum (mulf (refCentred y) (refCentred y)) (ix1 j))
        (FloatOps.subf (F := Ideal) (φ := .f32) (Ideal.ofBits .f32 0x47C35000#32) (FloatOps.sitofp (F := Ideal) .f32 (0#32))))
      (Ideal.ofBits .f32 0x7FC00000#32) = _
  rw [Cert.Alg.guard_select, Cert.Alg.count_sub_ddof, refColSum_apply]
  unfold Cert.Spec.varR Cert.Spec.cN
  rw [Cert.Alg.ofBits_100000]
  have hs : ∀ n : Fin 100000, mulf (refCentred y) (refCentred y) (ix2 n j)
      = (toMat y n j - Cert.Spec.meanR (toMat y) j) * (toMat y n j - Cert.Spec.meanR (toMat y) j) := fun n => by
    show refCentred y (ix2 n j) * refCentred y (ix2 n j) = _
    rw [refCentred_apply]
    rfl
  simp only [hs]

theorem refRelu_apply (y : FVec Ideal S100000x128 .f32) (n : Fin 100000) (j : Fin 128) :
    refRelu y (ix2 n j) = max (y (ix2 n j)) 0 := by
  show max (y (ix2 n j)) (Ideal.ofBits .f32 0x00000000#32) = _
  rw [Cert.Alg.ofBits_zero]

theorem refNorm_apply (y : FVec Ideal S100000x128 .f32) (g be : FVec Ideal S128 .f32) (n : Fin 100000) (j : Fin 128) :
    refNorm y g be (ix2 n j)
      = (((y (ix2 n j) - Cert.Spec.meanR (toMat y) j) * Ideal.rsqrt (Cert.Spec.varR (toMat y) j + Cert.Spec.cEps)) * g (ix1 j))
          + be (ix1 j) := by
  show ((y (ix2 n j) - refRows (refMean y) (ix2 n j))
        * refRows (Host.rsqrt (addf (refVar y) (broadcastInDim S128 ![] bcast_S_S128 (constant (F := Ideal) S_ .f32 0x3727C5AC#32)))) (ix2 n j))
        * refRows g (ix2 n j) + refRows be (ix2 n j) = _
  rw [refRows_apply, refRows_apply, refRows_apply, refRows_apply]
  show ((y (ix2 n j) - toVec (refMean y) j) * Ideal.rsqrt (toVec (refVar y) j + Ideal.ofBits .f32 0x3727C5AC#32)) * g (ix1 j)
      + be (ix1 j) = _
  rw [refMean_apply, refVar_apply]
  rfl

theorem refH_apply (y : FVec Ideal S100000x128 .f32) (g be : FVec Ideal S128 .f32) :
    toMat (refH y g be) = Cert.Spec.normR (toMat y) (toVec g) (toVec be) := by
  funext n j
  show refRelu (refNorm y g be) (ix2 n j) = _
  rw [refRelu_apply, refNorm_apply]
  rfl

theorem refLin2_relu_apply (h : FVec Ideal S100000x128 .f32) (w : FVec Ideal S128x128 .f32) (b : FVec Ideal S128 .f32) :
    toMat (refRelu (refLin2 h w b)) = Cert.Spec.lin2 (toMat h) (toMat w) (toVec b) := by
  funext n j
  show refRelu (refLin2 h w b) (ix2 n j) = _
  rw [refRelu_apply]
  show max (Host.dotGeneral (F := Ideal) dot_S100000x128_S128x128_S100000x128_1_0_0_1_n_n none h w (ix2 n j)
      + refRows b (ix2 n j)) 0 = _
  rw [dotNode_apply, refRows_apply]
  rfl

theorem refLayerBody_apply (x : FVec Ideal S100000x128 .f32) (src dst : Vec Ideal S1600000 .i32)
    (w1 : FVec Ideal S128x128 .f32) (b1 g be : FVec Ideal S128 .f32) (w2 : FVec Ideal S128x128 .f32) (b2 : FVec Ideal S128 .f32) :
    toMat (refLayerBody x src dst w1 b1 g be w2 b2)
      = Cert.Spec.layerR (toMat x) (toMat (refAggRows x src dst)) (toMat w1) (toVec b1) (toVec g) (toVec be) (toMat w2) (toVec b2) := by
  show toMat (refRelu (refLin2 (refH (refLin1 x (refAggRows x src dst) w1 b1) g be) w2 b2)) = _
  rw [refLin2_relu_apply, refH_apply, refLin1_apply]
  rfl

theorem stackMat_apply (a : FVec Ideal S4x128x128 .f32) (K : Fin 4) (h : S4x128x128.Slices ![K.val, 0, 0] S1x128x128)
    (k j : Fin 128) :
    shapeCast S128x128 (extractStridedSlice S1x128x128 ![K.val, 0, 0] a h) shapeCasts_S1x128x128_S128x128 (ix2 k j)
      = a (ix3 K k j) := by
  rw [shapeCast_1ab_ab_apply]
  exact extractStridedSlice_apply _ a h (ix3 (0 : Fin 1) k j) (ix3 K k j) (fun ax =>
    match ax with
    | ⟨0, _⟩ => rfl
    | ⟨1, _⟩ => (Nat.zero_add _).symm
    | ⟨2, _⟩ => (Nat.zero_add _).symm)

theorem stackVec_apply (a : FVec Ideal S4x128 .f32) (K : Fin 4) (h : S4x128.Slices ![K.val, 0] S1x128) (j : Fin 128) :
    shapeCast S128 (extractStridedSlice S1x128 ![K.val, 0] a h) shapeCasts_S1x128_S128 (ix1 j) = a (ix2 K j) := by
  rw [shapeCast_1a_a_apply]
  exact extractStridedSlice_apply _ a h (ix2 (0 : Fin 1) j) (ix2 K j) (fun ax =>
    match ax with
    | ⟨0, _⟩ => rfl
    | ⟨1, _⟩ => (Nat.zero_add _).symm)

theorem refMat0_apply (a : FVec Ideal S4x128x128 .f32) (k j : Fin 128) : toMat (refMat0 a) k j = a (ix3 (0 : Fin 4) k j) :=
  stackMat_apply a 0 slices_S4x128x128_S1x128x128_0_0_0 k j
theorem refMat1_apply (a : FVec Ideal S4x128x128 .f32) (k j : Fin 128) : toMat (refMat1 a) k j = a (ix3 (1 : Fin 4) k j) :=
  stackMat_apply a 1 slices_S4x128x128_S1x128x128_1_0_0 k j
theorem refMat2_apply (a : FVec Ideal S4x128x128 .f32) (k j : Fin 128) : toMat (refMat2 a) k j = a (ix3 (2 : Fin 4) k j) :=
  stackMat_apply a 2 slices_S4x128x128_S1x128x128_2_0_0 k j
theorem refMat3_apply (a : FVec Ideal S4x128x128 .f32) (k j : Fin 128) : toMat (refMat3 a) k j = a (ix3 (3 : Fin 4) k j) :=
  stackMat_apply a 3 slices_S4x128x128_S1x128x128_3_0_0 k j

theorem refVec0_apply (a : FVec Ideal S4x128 .f32) (j : Fin 128) : toVec (refVec0 a) j = a (ix2 (0 : Fin 4) j) :=
  stackVec_apply a 0 slices_S4x128_S1x128_0_0 j
theorem refVec1_apply (a : FVec Ideal S4x128 .f32) (j : Fin 128) : toVec (refVec1 a) j = a (ix2 (1 : Fin 4) j) :=
  stackVec_apply a 1 slices_S4x128_S1x128_1_0 j
theorem refVec2_apply (a : FVec Ideal S4x128 .f32) (j : Fin 128) : toVec (refVec2 a) j = a (ix2 (2 : Fin 4) j) :=
  stackVec_apply a 2 slices_S4x128_S1x128_2_0 j
theorem refVec3_apply (a : FVec Ideal S4x128 .f32) (j : Fin 128) : toVec (refVec3 a) j = a (ix2 (3 : Fin 4) j) :=
  stackVec_apply a 3 slices_S4x128_S1x128_3_0 j

end Cert.ReferenceIdeal.HandVal

end
-- ==== Proof.KI.LayerLib.lean ====
import proofs.«404458_j53163105190632_2_alg».proof.Proof.Spec
import proofs.«404458_j53163105190632_2_alg».proof.Proof.Gen.KernelIdeal
import Idealize.ShloMosaic.Lib.ValueIdx

noncomputable section
open scoped BigOperators

namespace Cert.KernelIdeal.HandVal

open Cert.KernelIdeal Cert.Spec
open Idealize.ShloMosaic Idealize.ShloMosaic.ValueIdx

/-- A two-axis array read as the matrix of its entries, a one-row array as the vector of its entries. -/
def toMat (v : Vec Ideal S100000x128 .f32) : Mat 100000 128 := fun n k => v (ix2 n k)
theorem toMat_apply (v : Vec Ideal S100000x128 .f32) (n : Fin 100000) (k : Fin 128) : toMat v n k = v (ix2 n k) := rfl
def toVec (v : Vec Ideal S1x128 .f32) : Fin 128 → EReal := fun j => v (ix2 0 j)
theorem toVec_apply (v : Vec Ideal S1x128 .f32) (j : Fin 128) : toVec v j = v (ix2 0 j) := rfl

def linAt (X A : Vec Ideal S100000x128 .f32) (W : Vec Ideal S128x128 .f32) (B : Vec Ideal S1x128 .f32)
    (n : Fin 100000) (j : Fin 128) : EReal :=
  (∑ k : Fin 128, (X (ix2 n k) + A (ix2 n k)) * W (ix2 k j)) + B (ix2 0 j)

def actAt (Lin : Vec Ideal S100000x128 .f32) (S Sh : Vec Ideal S1x128 .f32) (W : Vec Ideal S128x128 .f32)
    (B : Vec Ideal S1x128 .f32) (n : Fin 100000) (j : Fin 128) : EReal :=
  max ((∑ k : Fin 128, max (Lin (ix2 n k) * S (ix2 0 k) + Sh (ix2 0 k)) 0 * W (ix2 k j)) + B (ix2 0 j)) 0

def meanOf (P : Vec Ideal S20x8x128 .f32) (j : Fin 128) : EReal := Ideal.div (∑ t : Fin 20, P (ix3 t 0 j)) cN
def varOf (P Q : Vec Ideal S20x8x128 .f32) (j : Fin 128) : EReal := meanOf Q j - meanOf P j * meanOf P j
def scaleOf (γ : EReal) (P Q : Vec Ideal S20x8x128 .f32) (j : Fin 128) : EReal := γ * Ideal.rsqrt (varOf P Q j + cEps)
def shiftOf (β γ : EReal) (P Q : Vec Ideal S20x8x128 .f32) (j : Fin 128) : EReal := β - meanOf P j * scaleOf γ P Q j

/-- Arrays related as the two regions and the statistics between them relate them are one layer: the tiles' sums added over the twenty tiles are the column sums term for term. -/
theorem layerK_of_arrays (X A : Vec Ideal S100000x128 .f32) (W1 : Vec Ideal S128x128 .f32) (B1 : Vec Ideal S1x128 .f32)
    (Lin : Vec Ideal S100000x128 .f32) (P Q : Vec Ideal S20x8x128 .f32) (Sc Sh : Vec Ideal S1x128 .f32)
    (W2 : Vec Ideal S128x128 .f32) (B2 : Vec Ideal S1x128 .f32) (Out : Vec Ideal S100000x128 .f32)
    (x a : Mat 100000 128) (w1 : Mat 128 128) (b1 g be : Fin 128 → EReal) (w2 : Mat 128 128) (b2 : Fin 128 → EReal)
    (hX : ∀ n k, X (ix2 n k) = x n k) (hA : ∀ n k, A (ix2 n k) = a n k)
    (hW1 : ∀ k j, W1 (ix2 k j) = w1 k j) (hB1 : ∀ j, B1 (ix2 0 j) = b1 j)
    (hLin : ∀ n j, Lin (ix2 n j) = linAt X A W1 B1 n j)
    (hP : ∀ (t : Fin 20) (j : Fin 128), P (ix3 t 0 j) = ∑ p : Fin 5000, linAt X A W1 B1 (Cert.Spec.tileRow t p) j)
    (hQ : ∀ (t : Fin 20) (j : Fin 128), Q (ix3 t 0 j)
        = ∑ p : Fin 5000, linAt X A W1 B1 (Cert.Spec.tileRow t p) j * linAt X A W1 B1 (Cert.Spec.tileRow t p) j)
    (hSc : ∀ j, Sc (ix2 0 j) = scaleOf (g j) P Q j) (hSh : ∀ j, Sh (ix2 0 j) = shiftOf (be j) (g j) P Q j)
    (hW2 : ∀ k j, W2 (ix2 k j) = w2 k j) (hB2 : ∀ j, B2 (ix2 0 j) = b2 j)
    (hOut : ∀ n j, Out (ix2 n j) = actAt Lin Sc Sh W2 B2 n j) :
    toMat Out = layerK x a w1 b1 g be w2 b2 := by
  have hl : ∀ n j, linAt X A W1 B1 n j = lin x a w1 b1 n j := fun n j => by
    unfold linAt lin
    rw [hB1]
    exact congrArg (· + b1 j) (Finset.sum_congr rfl fun k _ => by rw [hX, hA, hW1])
  have hm : ∀ j, meanOf P j = meanK (lin x a w1 b1) j := fun j => by
    unfold meanOf meanK sumK
    exact congrArg (Ideal.div · cN) (Finset.sum_congr rfl fun t _ => (hP t j).trans (Finset.sum_congr rfl fun p _ => hl _ j))
  have hq : ∀ j, meanOf Q j = Ideal.div (sumsqK (lin x a w1 b1) j) cN := fun j => by
    unfold meanOf sumsqK
    exact congrArg (Ideal.div · cN) (Finset.sum_congr rfl fun t _ => (hQ t j).trans (Finset.sum_congr rfl fun p _ => by rw [hl]))
  funext n j
  show Out (ix2 n j) = _
  rw [hOut]
  unfold actAt layerK lin2 normK
  rw [hB2]
  refine congrArg (fun s => max (s + b2 j) 0) (Finset.sum_congr rfl fun k _ => ?_)
  rw [hW2, hLin, hl, hSc, hSh]
  unfold shiftOf scaleOf varOf shiftK scaleK varK
  rw [hm, hq]

end Cert.KernelIdeal.HandVal

end
-- ==== Proof.FinalCore.lean ====
import proofs.«404458_j53163105190632_2_alg».proof.Proof.Bridge
import proofs.«404458_j53163105190632_2_alg».proof.Proof.Agg
import proofs.«404458_j53163105190632_2_alg».proof.Proof.Ref.Read
import proofs.«404458_j53163105190632_2_alg».proof.Proof.KI.LayerLib

noncomputable section

namespace Cert.Final

open Cert.ReferenceIdeal Cert.ReferenceIdeal.Hand Cert.ReferenceIdeal.HandVal
open Cert.Spec Cert.Bridge Cert.Alg
open Idealize.ShloMosaic Idealize.ShloMosaic.ValueIdx
open scoped BigOperators

theorem eq_of_toMat_eq {a b : ℕ} (Y R : (⟨2, ![a, b]⟩ : Shape).Idx → EReal)
    (h : (fun (n : Fin a) (k : Fin b) => Y (ix2 n k)) = fun n k => R (ix2 n k)) : Y = R := by
  funext i
  rw [eq_ix2 i]
  exact congrFun (congrFun h (i 0)) (i 1)

theorem layer_step (l : Fin 4) (X Y R : FVec Ideal S100000x128 .f32) (ei : Vec Ideal S2x1600000 .i32)
    (w1s w2s : FVec Ideal S4x128x128 .f32) (b1s gs bes b2s : FVec Ideal S4x128 .f32)
    (W1 W2 : FVec Ideal S128x128 .f32) (B1 G BE B2 : FVec Ideal S128 .f32)
    (hK : Cert.KernelIdeal.HandVal.toMat Y
        = layerK (Cert.KernelIdeal.HandVal.toMat X) (Cert.KernelIdeal.HandVal.toMat (Cert.KernelIdeal.HandVal.aggK X ei))
            (fun k j => w1s (ix3 l k j)) (fun j => b1s (ix2 l j)) (fun j => gs (ix2 l j)) (fun j => bes (ix2 l j))
            (fun k j => w2s (ix3 l k j)) (fun j => b2s (ix2 l j)))
    (hW1 : ∀ k j, toMat W1 k j = w1s (ix3 l k j)) (hB1 : ∀ j, toVec B1 j = b1s (ix2 l j))
    (hG : ∀ j, toVec G j = gs (ix2 l j)) (hBE : ∀ j, toVec BE j = bes (ix2 l j))
    (hW2 : ∀ k j, toMat W2 k j = w2s (ix3 l k j)) (hB2 : ∀ j, toVec B2 j = b2s (ix2 l j))
    (hR : R = refLayerBody X (refSrc ei) (refDst ei) W1 B1 G BE W2 B2)
    (hX : IsReal X) (hw1 : IsReal w1s) (hb1 : IsReal b1s) (hg : IsReal gs) (hbe : IsReal bes) (hw2 : IsReal w2s)
    (hb2 : IsReal b2s) :
    Y = R ∧ IsReal Y := by
  have rX : IsRealM (Cert.KernelIdeal.HandVal.toMat X) := Cert.Agg.isRealM_of_isReal X hX
  have rA : IsRealM (Cert.KernelIdeal.HandVal.toMat (Cert.KernelIdeal.HandVal.aggK X ei)) := Cert.Agg.aggK_isRealM X ei hX
  have rw1 : IsRealM (fun k j => w1s (ix3 l k j)) := IsRealM.of_isReal hw1 _
  have rb1 : IsRealV (fun j => b1s (ix2 l j)) := IsRealV.of_isReal_comp hb1 _
  have rg : IsRealV (fun j => gs (ix2 l j)) := IsRealV.of_isReal_comp hg _
  have rbe : IsRealV (fun j => bes (ix2 l j)) := IsRealV.of_isReal_comp hbe _
  have rw2 : IsRealM (fun k j => w2s (ix3 l k j)) := IsRealM.of_isReal hw2 _
  have rb2 : IsRealV (fun j => b2s (ix2 l j)) := IsRealV.of_isReal_comp hb2 _
  have eW1 : toMat W1 = fun k j => w1s (ix3 l k j) := funext fun k => funext fun j => hW1 k j
  have eB1 : toVec B1 = fun j => b1s (ix2 l j) := funext hB1
  have eG : toVec G = fun j => gs (ix2 l j) := funext hG
  have eBE : toVec BE = fun j => bes (ix2 l j) := funext hBE
  have eW2 : toMat W2 = fun k j => w2s (ix3 l k j) := funext fun k => funext fun j => hW2 k j
  have eB2 : toVec B2 = fun j => b2s (ix2 l j) := funext hB2
  have hRm : toMat R
      = layerR (Cert.KernelIdeal.HandVal.toMat X) (Cert.KernelIdeal.HandVal.toMat (Cert.KernelIdeal.HandVal.aggK X ei))
          (fun k j => w1s (ix3 l k j)) (fun j => b1s (ix2 l j)) (fun j => gs (ix2 l j)) (fun j => bes (ix2 l j))
          (fun k j => w2s (ix3 l k j)) (fun j => b2s (ix2 l j)) := by
    rw [hR, refLayerBody_apply, eW1, eB1, eG, eBE, eW2, eB2]
    rfl
  have hYR : Cert.KernelIdeal.HandVal.toMat Y = toMat R := by
    rw [hK, hRm]
    exact layerK_eq_layerR rX rA rw1 rb1 rg rbe rw2 rb2
  refine ⟨eq_of_toMat_eq Y R hYR, Cert.Agg.isReal_of_isRealM Y ?_⟩
  show IsRealM (Cert.KernelIdeal.HandVal.toMat Y)
  rw [hK]
  exact layerK_isReal rX rA rw1 rb1 rg rbe rw2 rb2

theorem value_eq_of (X0 X1 X2 X3 X4 : FVec Ideal S100000x128 .f32) (ei : Vec Ideal S2x1600000 .i32)
    (ids : Vec Ideal S100000 .i32) (p3 : FVec Ideal S4x128x128 .f32) (p4 p5 p6 : FVec Ideal S4x128 .f32)
    (p7 : FVec Ideal S4x128x128 .f32) (p8 : FVec Ideal S4x128 .f32) (p9 : FVec Ideal S128x128 .f32)
    (p10 : FVec Ideal S128 .f32) (p11 : FVec Ideal S128x32 .f32) (p12 : FVec Ideal S32 .f32)
    (out : FVec Ideal S128x32 .f32)
    (hL0 : Cert.KernelIdeal.HandVal.toMat X1
        = layerK (Cert.KernelIdeal.HandVal.toMat X0) (Cert.KernelIdeal.HandVal.toMat (Cert.KernelIdeal.HandVal.aggK X0 ei))
            (fun k j => p3 (ix3 0 k j)) (fun j => p4 (ix2 0 j)) (fun j => p5 (ix2 0 j)) (fun j => p6 (ix2 0 j))
            (fun k j => p7 (ix3 0 k j)) (fun j => p8 (ix2 0 j)))
    (hL1 : Cert.KernelIdeal.HandVal.toMat X2
        = layerK (Cert.KernelIdeal.HandVal.toMat X1) (Cert.KernelIdeal.HandVal.toMat (Cert.KernelIdeal.HandVal.aggK X1 ei))
            (fun k j => p3 (ix3 1 k j)) (fun j => p4 (ix2 1 j)) (fun j => p5 (ix2 1 j)) (fun j => p6 (ix2 1 j))
            (fun k j => p7 (ix3 1 k j)) (fun j => p8 (ix2 1 j)))
    (hL2 : Cert.KernelIdeal.HandVal.toMat X3
        = layerK (Cert.KernelIdeal.HandVal.toMat X2) (Cert.KernelIdeal.HandVal.toMat (Cert.KernelIdeal.HandVal.aggK X2 ei))
            (fun k j => p3 (ix3 2 k j)) (fun j => p4 (ix2 2 j)) (fun j => p5 (ix2 2 j)) (fun j => p6 (ix2 2 j))
            (fun k j => p7 (ix3 2 k j)) (fun j => p8 (ix2 2 j)))
    (hL3 : Cert.KernelIdeal.HandVal.toMat X4
        = layerK (Cert.KernelIdeal.HandVal.toMat X3) (Cert.KernelIdeal.HandVal.toMat (Cert.KernelIdeal.HandVal.aggK X3 ei))
            (fun k j => p3 (ix3 3 k j)) (fun j => p4 (ix2 3 j)) (fun j => p5 (ix2 3 j)) (fun j => p6 (ix2 3 j))
            (fun k j => p7 (ix3 3 k j)) (fun j => p8 (ix2 3 j)))
    (hT : (fun (g : Fin 128) (o : Fin 32) => out (ix2 g o))
        = head (poolK (fun n d => X4 (ix2 n d)) (fun n => ids (ix1 n))) (fun k j => p9 (ix2 k j)) (fun j => p10 (ix1 j))
            (fun j o => p11 (ix2 j o)) (fun o => p12 (ix1 o)))
    (hRT : ∀ x : FVec Ideal S100000x128 .f32, (fun (g : Fin 128) (o : Fin 32) => refTail x ids p9 p10 p11 p12 (ix2 g o))
        = head (poolR (fun n k => x (ix2 n k)) (fun n => ids (ix1 n))) (fun k j => p9 (ix2 k j)) (fun j => p10 (ix1 j))
            (fun j o => p11 (ix2 j o)) (fun o => p12 (ix1 o)))
    (hre : IsReal X0 ∧ IsReal p3 ∧ IsReal p4 ∧ IsReal p5 ∧ IsReal p6 ∧ IsReal p7 ∧ IsReal p8 ∧ IsReal p9 ∧ IsReal p10
        ∧ IsReal p11 ∧ IsReal p12) :
    out = refOut X0 ei ids p3 p4 p5 p6 p7 p8 p9 p10 p11 p12 := by
  obtain ⟨r0, r3, r4, r5, r6, r7, r8, -, -, -, -⟩ := hre
  obtain ⟨e1, q1⟩ := layer_step 0 X0 X1 (refLayer0 X0 ei p3 p7 p4 p5 p6 p8) ei p3 p7 p4 p5 p6 p8
    (refMat0 p3) (refMat0 p7) (refVec0 p4) (refVec0 p5) (refVec0 p6) (refVec0 p8) hL0
    (refMat0_apply p3) (refVec0_apply p4) (refVec0_apply p5) (refVec0_apply p6) (refMat0_apply p7) (refVec0_apply p8)
    rfl r0 r3 r4 r5 r6 r7 r8
  obtain ⟨e2, q2⟩ := layer_step 1 X1 X2 (refLayer1 X1 ei p3 p7 p4 p5 p6 p8) ei p3 p7 p4 p5 p6 p8
    (refMat1 p3) (refMat1 p7) (refVec1 p4) (refVec1 p5) (refVec1 p6) (refVec1 p8) hL1
    (refMat1_apply p3) (refVec1_apply p4) (refVec1_apply p5) (refVec1_apply p6) (refMat1_apply p7) (refVec1_apply p8)
    rfl q1 r3 r4 r5 r6 r7 r8
  obtain ⟨e3, q3⟩ := layer_step 2 X2 X3 (refLayer2 X2 ei p3 p7 p4 p5 p6 p8) ei p3 p7 p4 p5 p6 p8
    (refMat2 p3) (refMat2 p7) (refVec2 p4) (refVec2 p5) (refVec2 p6) (refVec2 p8) hL2
    (refMat2_apply p3) (refVec2_apply p4) (refVec2_apply p5) (refVec2_apply p6) (refMat2_apply p7) (refVec2_apply p8)
    rfl q2 r3 r4 r5 r6 r7 r8
  obtain ⟨e4, -⟩ := layer_step 3 X3 X4 (refLayer3 X3 ei p3 p7 p4 p5 p6 p8) ei p3 p7 p4 p5 p6 p8
    (refMat3 p3) (refMat3 p7) (refVec3 p4) (refVec3 p5) (refVec3 p6) (refVec3 p8) hL3
    (refMat3_apply p3) (refVec3_apply p4) (refVec3_apply p5) (refVec3_apply p6) (refMat3_apply p7) (refVec3_apply p8)
    rfl q3 r3 r4 r5 r6 r7 r8
  have hout : (fun (g : Fin 128) (o : Fin 32) => out (ix2 g o)) = fun g o => refTail X4 ids p9 p10 p11 p12 (ix2 g o) := by
    rw [hT, hRT X4, poolK_eq_poolR]
  have hfin : out = refTail X4 ids p9 p10 p11 p12 := eq_of_toMat_eq _ _ hout
  rw [hfin, e4, e3, e2, e1]
  rfl

end Cert.Final

end
-- ==== Proof.KI.PayLib.lean ====
import proofs.«404458_j53163105190632_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section
open scoped BigOperators
namespace Cert.KernelIdeal.HandVal.Pay
open Cert.KernelIdeal Cert.KernelIdeal.Gen Idealize.ShloMosaic Idealize.ShloMosaic.ValueIdx

/-- A product of two matrices over one contracted axis into a zero accumulator, at `(p, q)`: `∑ c, l (p, c) · r (c, q)`. -/
theorem matmul2_apply {m k n : ℕ} {φ₁ φ₂ : FTy} (D : DotDims ⟨2, ![m, k]⟩ ⟨2, ![k, n]⟩ ⟨2, ![m, n]⟩)
    (hr : D.contr.rank = 1) (hs : D.contr.size ⟨0, by omega⟩ = k) (hl : D.lhsContracting = [1]) (hrc : D.rhsContracting = [0])
    (hl0 : ∀ j c, (D.lhsIdx j c 0).val = (j 0).val) (hr1 : ∀ j c, (D.rhsIdx j c 1).val = (j 1).val)
    (l : FVec Ideal ⟨2, ![m, k]⟩ φ₁) (r : FVec Ideal ⟨2, ![k, n]⟩ φ₂) (p : Fin m) (q : Fin n) :
    matmul D none l r (constant (F := Ideal) ⟨2, ![m, n]⟩ .f32 0x00000000#32) (ix2 p q) = ∑ c : Fin k, l (ix2 p c) * r (ix2 c q) := by
  refine (Ideal.matmul_constant_zero_apply D none l r (ix2 p q)).trans ?_
  rw [← Equiv.sum_comp (contrEquiv1 D k hr hs).symm]
  refine Finset.sum_congr rfl fun c _ => ?_
  have hc := contrEquiv1_symm_val D k hr hs c
  rw [show D.lhsIdx (ix2 p q) ((contrEquiv1 D k hr hs).symm c) = ix2 p c from
      Shape.idx_ext₂ (hl0 _ _) ((D.lhsIdx_val_of_single hl _ _).trans hc),
    show D.rhsIdx (ix2 p q) ((contrEquiv1 D k hr hs).symm c) = ix2 c q from
      Shape.idx_ext₂ ((D.rhsIdx_val_of_single hrc _ _).trans hc) (hr1 _ _)]

theorem matmul_tile_apply (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) :=
  matmul2_apply _ rfl rfl rfl rfl (fun _ _ => rfl) (fun _ _ => rfl) l r p q

theorem matmul_pool_apply (l : FVec Ideal S128x12800 .bf16) (r : FVec Ideal S12800x128 .bf16) (p : Fin 128) (q : Fin 128) :
    matmul dot_S128x12800_S12800x128_S128x128_1_0_0_1_n_n none l r (constant (F := Ideal) S128x128 .f32 0x00000000#32) (ix2 p q)
      = ∑ k : Fin 12800, l (ix2 p k) * r (ix2 k q) :=
  matmul2_apply _ rfl rfl rfl rfl (fun _ _ => rfl) (fun _ _ => rfl) l r p q

theorem matmul_sq_apply (l : FVec Ideal S128x128 .bf16) (r : FVec Ideal S128x128 .bf16) (p : Fin 128) (q : Fin 128) :
    matmul dot_S128x128_S128x128_S128x128_1_0_0_1_n_n none l r (constant (F := Ideal) S128x128 .f32 0x00000000#32) (ix2 p q)
      = ∑ k : Fin 128, l (ix2 p k) * r (ix2 k q) :=
  matmul2_apply _ rfl rfl rfl rfl (fun _ _ => rfl) (fun _ _ => rfl) l r p q

theorem matmul_out_apply (l : FVec Ideal S128x128 .bf16) (r : FVec Ideal S128x32 .bf16) (p : Fin 128) (q : Fin 32) :
    matmul dot_S128x128_S128x32_S128x32_1_0_0_1_n_n none l r (constant (F := Ideal) S128x32 .f32 0x00000000#32) (ix2 p q)
      = ∑ k : Fin 128, l (ix2 p k) * r (ix2 k q) :=
  matmul2_apply _ rfl rfl rfl rfl (fun _ _ => rfl) (fun _ _ => rfl) l r p q

/-- The sum of a 5000-row tile over its rows, at column `q`. -/
theorem colsum_apply (v : FVec Ideal S5000x128 .f32) (q : Fin 128) :
    multiReduction (F := Ideal) .add [0] S128 v 0x00000000#32 reduces_S5000x128_S128 (.inl rfl) rfl (ix1 q)
      = ∑ p : Fin 5000, v (ix2 p q) :=
  (Ideal.multiReduction_add_single v _ reduces_S5000x128_S128 (.inl rfl) rfl (ix1 q)).trans
    (Finset.sum_congr rfl fun p _ => congrArg v (Shape.idx_ext₂ rfl rfl))

/-- A `[1, 1, c]` array broadcast to `[1, b, c]` reads, at `(u, r, q)`, the operand's one row at `q`. -/
theorem broadcastTo_11c_1bc_apply {α : Type} {b c : ℕ} (v : (⟨3, ![1, 1, c]⟩ : Shape).Idx → α)
    (h : (⟨3, ![1, 1, c]⟩ : Shape).Broadcasts ⟨3, ![1, b, c]⟩) (u : Fin 1) (r : Fin b) (q : Fin c) :
    broadcastTo ⟨3, ![1, b, c]⟩ v h (ix3 u r q) = v (ix3 (0 : Fin 1) (0 : Fin 1) q) := by
  refine broadcastTo_apply v h (ix3 u r q) (ix3 (0 : Fin 1) (0 : Fin 1) q) fun ax => ?_
  match ax with
  | ⟨0, _⟩ => rfl
  | ⟨1, _⟩ => rfl
  | ⟨2, _⟩ =>
    show q.val = if c = 1 then 0 else q.val
    split
    · have := q.isLt; omega
    · rfl

/-- A 128-vector repeated down eight rows reads the vector at the column, whatever the row. -/
theorem keep8_apply {α : Type} (v : S128.Idx → α) (u : Fin 1) (r : Fin 8) (q : Fin 128) :
    broadcastTo S1x8x128 (shapeCast S1x1x128 (shapeCast S1x1x128 (shapeCast S1x128 v shapeCasts_S128_S1x128)
      shapeCasts_S1x128_S1x1x128) shapeCasts_S1x1x128_S1x1x128) broadcasts_S1x1x128_S1x8x128 (ix3 u r q) = v (ix1 q) := by
  rw [broadcastTo_11c_1bc_apply, shapeCast_self, shapeCast_ab_1ab_apply, shapeCast_a_1a_apply]

theorem scalar_zero_f32 : (Scalar.ofBits (F := Ideal) .f32 0x00000000#32 : EReal) = 0 := Ideal.ofBits_zero_f32

/-- An equality test of two words, widened and converted signed, is `1` where they agree and `0` elsewhere. -/
theorem onehot_word (x y : BitVec 32) :
    (FloatOps.sitofp (F := Ideal) .f32 ((IntOp.cmpi .eq x y).setWidth 32) : EReal) = if y = x then 1 else 0 := by
  show ((((BitVec.ofBool (x == y)).setWidth 32).toInt : ℝ) : EReal) = _
  by_cases h : x = y
  · have hb : (x == y) = true := beq_iff_eq.mpr h
    have e : ((BitVec.ofBool true).setWidth 32 : BitVec 32).toInt = 1 := by decide
    rw [hb, e, if_pos h.symm]
    norm_num
  · have hb : (x == y) = false := beq_eq_false_iff_ne.mpr h
    have e : ((BitVec.ofBool false).setWidth 32 : BitVec 32).toInt = 0 := by decide
    rw [hb, e, if_neg (fun e' => h e'.symm)]
    norm_num

/-- The mask "row number equals the id of column `k`" as a float, at `(g, k)`. -/
theorem onehot_apply (ids : IVec S1x12800 32) (g : Fin 128) (k : Fin 12800) :
    (sitofp .f32 (extui 32 (cmpi .eq (iota .tc S128x12800 32 [0] iota_S128x12800_d0_w32)
        (broadcastTo S128x12800 ids broadcasts_S1x12800_S128x12800)) natLt_1_32) : FVec Ideal S128x12800 .f32) (ix2 g k)
      = if ids (ix2 0 k) = BitVec.ofNat 32 g.val then (1 : EReal) else 0 := by
  show (FloatOps.sitofp (F := Ideal) .f32 ((IntOp.cmpi .eq (iota .tc S128x12800 32 [0] iota_S128x12800_d0_w32 (ix2 g k))
      (broadcastTo S128x12800 ids broadcasts_S1x12800_S128x12800 (ix2 g k))).setWidth 32) : EReal) = _
  rw [iota_single_apply, broadcastTo_1b_ab_apply, onehot_word]

end Cert.KernelIdeal.HandVal.Pay

end
-- ==== Proof.KI.Pay0.lean ====
import proofs.«404458_j53163105190632_2_alg».proof.Proof.KI.PayLib

noncomputable section
open scoped BigOperators
namespace Cert.KernelIdeal.HandVal
open Cert.KernelIdeal Cert.KernelIdeal.Gen Idealize.ShloMosaic Idealize.ShloMosaic.ValueIdx
open Cert.KernelIdeal.HandVal.Pay

/-- The tile's linear map at `(p, q)`: `∑ k, (x + agg) (p, k) · w (k, q) + b q`. -/
theorem k0_pay1_apply (x agg : Vec Ideal S5000x128 .f32) (w : Vec Ideal S128x128 .f32) (b : Vec Ideal S1x128 .f32)
    (p : Fin 5000) (q : Fin 128) :
    (k0_pay1 (F := Ideal) x agg w b) (ix2 p q)
      = (∑ k : Fin 128, (x (ix2 p k) + agg (ix2 p k)) * w (ix2 k q)) + b (ix2 0 q) := by
  unfold k0_pay1
  simp only [shapeCast_self]
  rw [addf_apply, matmul_tile_apply, broadcastTo_1b_ab_apply]
  rfl

/-- The tile's column sums of the linear map, the same on each of the eight rows. -/
theorem k0_pay2_apply (x agg : Vec Ideal S5000x128 .f32) (w : Vec Ideal S128x128 .f32) (b : Vec Ideal S1x128 .f32)
    (r : Fin 8) (q : Fin 128) :
    (k0_pay2 (F := Ideal) x agg w b) (ix3 0 r q) = ∑ p : Fin 5000, (k0_pay1 (F := Ideal) x agg w b) (ix2 p q) := by
  unfold k0_pay2
  exact (keep8_apply _ 0 r q).trans (colsum_apply _ q)

/-- Likewise the column sums of its square. -/
theorem k0_pay3_apply (x agg : Vec Ideal S5000x128 .f32) (w : Vec Ideal S128x128 .f32) (b : Vec Ideal S1x128 .f32)
    (r : Fin 8) (q : Fin 128) :
    (k0_pay3 (F := Ideal) x agg w b) (ix3 0 r q)
      = ∑ p : Fin 5000, (k0_pay1 (F := Ideal) x agg w b) (ix2 p q) * (k0_pay1 (F := Ideal) x agg w b) (ix2 p q) := by
  unfold k0_pay3
  exact (keep8_apply _ 0 r q).trans (colsum_apply _ q)

end Cert.KernelIdeal.HandVal

end
-- ==== Proof.KI.Lin1Fn.lean ====
import proofs.«404458_j53163105190632_2_alg».proof.KernelIdeal
import Idealize.ShloMosaic.Lib.ValueIdx
import Idealize.ShloMosaic.PureOps.Ideal

noncomputable section
open scoped BigOperators

namespace Cert.KernelIdeal.HandVal

open Cert.KernelIdeal Idealize.ShloMosaic Idealize.ShloMosaic.ValueIdx

def lin1At (X A : Vec Ideal S100000x128 .f32) (W : Vec Ideal S128x128 .f32) (B : Vec Ideal S1x128 .f32)
    (n : Fin 100000) (j : Fin 128) : EReal :=
  (∑ k : Fin 128, (X (ix2 n k) + A (ix2 n k)) * W (ix2 k j)) + B (ix2 0 j)

abbrev lin1Arr (X A : Vec Ideal S100000x128 .f32) (W : Vec Ideal S128x128 .f32) (B : Vec Ideal S1x128 .f32) :
    Vec Ideal S100000x128 .f32 := fun i => lin1At X A W B (i 0) (i 1)

def tileRow (t : Fin 20) (p : Fin 5000) : Fin 100000 := ⟨5000 * t.val + p.val, by omega⟩

theorem tileRow_val (t : Fin 20) (p : Fin 5000) : (tileRow t p).val = 5000 * t.val + p.val := rfl

abbrev lin1SumArr (X A : Vec Ideal S100000x128 .f32) (W : Vec Ideal S128x128 .f32) (B : Vec Ideal S1x128 .f32) :
    Vec Ideal S20x8x128 .f32 := fun i => ∑ p : Fin 5000, lin1At X A W B (tileRow (i 0) p) (i 2)

abbrev lin1SqSumArr (X A : Vec Ideal S100000x128 .f32) (W : Vec Ideal S128x128 .f32) (B : Vec Ideal S1x128 .f32) :
    Vec Ideal S20x8x128 .f32 :=
  fun i => ∑ p : Fin 5000, lin1At X A W B (tileRow (i 0) p) (i 2) * lin1At X A W B (tileRow (i 0) p) (i 2)

theorem eq_ix3_zero (y : S1x8x128.Idx) : y = ix3 (0 : Fin 1) (y 1) (y 2) := by
  funext a
  match a with
  | ⟨0, _⟩ => exact Subsingleton.elim (α := Fin 1) _ _
  | ⟨1, _⟩ => rfl
  | ⟨2, _⟩ => rfl

end Cert.KernelIdeal.HandVal

end
-- ==== Proof.KI.V0.lean ====
import proofs.«404458_j53163105190632_2_alg».proof.Proof.KI.R0
import proofs.«404458_j53163105190632_2_alg».proof.Proof.KI.Pay0
import proofs.«404458_j53163105190632_2_alg».proof.Proof.KI.Lin1Fn
import Idealize.ShloMosaic.Lib.Pipeline.Value
import Idealize.ShloMosaic.Lib.ValueIdx

noncomputable section

namespace Cert.KernelIdeal.HandVal
open Cert.KernelIdeal Cert.KernelIdeal.Gen Cert.KernelIdeal.Hand Idealize.ShloMosaic
open Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

abbrev xarr0 (c : Dev nD) : Vec Ideal S100000x128 .f32 := V c (Pipeline.arrRef spec0 0)
abbrev garr0 (c : Dev nD) : Vec Ideal S100000x128 .f32 := V c (Pipeline.arrRef spec0 1)
abbrev warr0 (c : Dev nD) : Vec Ideal S128x128 .f32 := V c (Pipeline.arrRef spec0 2)
abbrev barr0 (c : Dev nD) : Vec Ideal S1x128 .f32 := V c (Pipeline.arrRef spec0 3)

/-- Block indices at point `t`: the row-tiled windows and the slabs sit at block `t`, the weight and the bias at their one block. -/
theorem idx_facts0 : ∀ t : Fin cfg0.N,
    (win0_0.index t (0 : Fin 2) = t.val ∧ win0_0.index t (1 : Fin 2) = 0
    ∧ win0_1.index t (0 : Fin 2) = t.val ∧ win0_1.index t (1 : Fin 2) = 0
    ∧ win0_4.index t (0 : Fin 2) = t.val ∧ win0_4.index t (1 : Fin 2) = 0
    ∧ win0_5.index t (0 : Fin 3) = t.val ∧ win0_5.index t (1 : Fin 3) = 0 ∧ win0_5.index t (2 : Fin 3) = 0
    ∧ win0_6.index t (0 : Fin 3) = t.val ∧ win0_6.index t (1 : Fin 3) = 0 ∧ win0_6.index t (2 : Fin 3) = 0)
    ∧ (∀ a, win0_2.index t a = 0) ∧ ∀ a, win0_3.index t a = 0 :=
  (by decide +kernel : ∀ t : Fin grid0.N, _)

/-- On tile `t` the body's linear map is the whole arrays' linear map at the tile's rows. -/
theorem lin1_blk0 (c : Dev nD) (t : Fin cfg0.N) (p : Fin 5000) (q : Fin 128) :
    k0_pay1 (F := Ideal) (iblk0 V c 0 t) (iblk0 V c 1 t) (iblk0 V c 2 t) (iblk0 V c 3 t) (ix2 p q)
      = lin1At (xarr0 V c) (garr0 V c) (warr0 V c) (barr0 V c) (tileRow (t.cast N_0) p) q := by
  obtain ⟨e, h2, h3⟩ := idx_facts0 t
  have hw : (iblk0 V c 2 t : Vec Ideal S128x128 .f32) = warr0 V c := funext fun j =>
    congrArg (V c _) (funext fun a => Fin.ext (win0_2.rect_emb_val_of_index_zero t a (h2 a) j))
  have hb : (iblk0 V c 3 t : Vec Ideal S1x128 .f32) = barr0 V c := funext fun j =>
    congrArg (V c _) (funext fun a => Fin.ext (win0_3.rect_emb_val_of_index_zero t a (h3 a) j))
  have hx (k : Fin 128) : (iblk0 V c 0 t : Vec Ideal S5000x128 .f32) (ix2 p k) = xarr0 V c (ix2 (tileRow (t.cast N_0) p) k) :=
    congrArg (V c _) (Shape.idx_ext₂
      (by show win0_0.index t (0 : Fin 2) * 5000 + 1 * p.val = 5000 * t.val + p.val; omega)
      (by show win0_0.index t (1 : Fin 2) * 128 + 1 * k.val = k.val; omega))
  have hg (k : Fin 128) : (iblk0 V c 1 t : Vec Ideal S5000x128 .f32) (ix2 p k) = garr0 V c (ix2 (tileRow (t.cast N_0) p) k) :=
    congrArg (V c _) (Shape.idx_ext₂
      (by show win0_1.index t (0 : Fin 2) * 5000 + 1 * p.val = 5000 * t.val + p.val; omega)
      (by show win0_1.index t (1 : Fin 2) * 128 + 1 * k.val = k.val; omega))
  rw [k0_pay1_apply, hw, hb]
  unfold lin1At
  congr 1
  exact Finset.sum_congr rfl fun k _ => by rw [hx, hg]

theorem final0_4 (c : Dev nD) (n : Fin 100000) (j : Fin 128) :
    (dat0 V c).arrAt 4 cfg0.N (ix2 n j) = lin1At (xarr0 V c) (garr0 V c) (warr0 V c) (barr0 V c) n j := by
  obtain ⟨u, hu⟩ : ∃ u : Fin cfg0.N, u.val = n.val / 5000 := ⟨⟨n.val / 5000, by show _ < grid0.N; rw [N_0]; omega⟩, rfl⟩
  refine (dat0 V c).arrAt_apply_of_mem 4 (lin1Arr _ _ _ _) (fun t _ => ?_) _ u _ u.isLt (flush0_4 u) ?_
  · have e := (idx_facts0 t).1
    unfold Dat.flushed
    rw [after0_4, out0_4_eq]
    exact funext fun y => (congrArg _ (eq_ix2 y)).trans <| (lin1_blk0 V c t (y 0) (y 1)).trans (congrArg₂ _
      (Fin.ext (by show 5000 * t.val + (y 0).val = win0_4.index t (0 : Fin 2) * 5000 + 1 * (y 0).val; omega))
      (Fin.ext (by show (y 1).val = win0_4.index t (1 : Fin 2) * 128 + 1 * (y 1).val; omega)))
  · have e := (idx_facts0 u).1
    have h : ((cfg0.win 4).blk u).view.emb (ix2 ⟨n.val % 5000, Nat.mod_lt _ (by decide)⟩ j) = ix2 n j := Shape.idx_ext₂
      (by show win0_4.index u (0 : Fin 2) * 5000 + 1 * (n.val % 5000) = n.val; omega)
      (by show win0_4.index u (1 : Fin 2) * 128 + 1 * j.val = j.val; omega)
    exact h ▸ View.emb_mem_set _ _

/-- Column sums of `f` of the tile's linear map are the same sums over the whole arrays' rows of tile `t`. -/
theorem slab0 (c : Dev nD) (t : Fin cfg0.N) (f : EReal → EReal) (q : Fin 128) (i : S20x8x128.Idx)
    (h0 : (i 0).val = t.val) (h2 : i 2 = q) :
    ∑ p : Fin 5000, f (k0_pay1 (F := Ideal) (iblk0 V c 0 t) (iblk0 V c 1 t) (iblk0 V c 2 t) (iblk0 V c 3 t) (ix2 p q))
      = ∑ p : Fin 5000, f (lin1At (xarr0 V c) (garr0 V c) (warr0 V c) (barr0 V c) (tileRow (i 0) p) (i 2)) := by
  rw [show i 0 = t.cast N_0 from Fin.ext h0, h2]
  exact Finset.sum_congr rfl fun p _ => congrArg f (lin1_blk0 V c t p q)

theorem final0_5 (c : Dev nD) (t : Fin 20) (r : Fin 8) (j : Fin 128) :
    (dat0 V c).arrAt 5 cfg0.N (ix3 t r j)
      = ∑ p : Fin 5000, lin1At (xarr0 V c) (garr0 V c) (warr0 V c) (barr0 V c) ⟨5000 * t.val + p.val, by omega⟩ j := by
  obtain ⟨u, hu⟩ : ∃ u : Fin cfg0.N, u.val = t.val := ⟨t.cast N_0.symm, rfl⟩
  refine (dat0 V c).arrAt_apply_of_mem 5 (lin1SumArr _ _ _ _) (fun t _ => ?_) _ u _ u.isLt (flush0_5 u) ?_
  · have e := (idx_facts0 t).1
    unfold Dat.flushed
    rw [after0_5, out0_5_eq]
    exact funext fun y => (congrArg _ (eq_ix3_zero y)).trans <| (k0_pay2_apply _ _ _ _ (y 1) (y 2)).trans <|
      slab0 V c t (fun x => x) (y 2) _
        (by show win0_5.index t (0 : Fin 3) * 1 + 1 * (y 0).val = t.val; have : (y 0).val < 1 := (y 0).isLt; omega)
        (Fin.ext (by show win0_5.index t (2 : Fin 3) * 128 + 1 * (y 2).val = (y 2).val; omega))
  · have e := (idx_facts0 u).1
    have h : ((cfg0.win 5).blk u).view.emb (ix3 (0 : Fin 1) r j) = ix3 t r j := funext fun a => Fin.ext <| match a with
      | ⟨0, _⟩ => by show win0_5.index u (0 : Fin 3) * 1 + 1 * 0 = t.val; omega
      | ⟨1, _⟩ => by show win0_5.index u (1 : Fin 3) * 8 + 1 * r.val = r.val; omega
      | ⟨2, _⟩ => by show win0_5.index u (2 : Fin 3) * 128 + 1 * j.val = j.val; omega
    exact h ▸ View.emb_mem_set _ _

theorem final0_6 (c : Dev nD) (t : Fin 20) (r : Fin 8) (j : Fin 128) :
    (dat0 V c).arrAt 6 cfg0.N (ix3 t r j)
      = ∑ p : Fin 5000, lin1At (xarr0 V c) (garr0 V c) (warr0 V c) (barr0 V c) ⟨5000 * t.val + p.val, by omega⟩ j
          * lin1At (xarr0 V c) (garr0 V c) (warr0 V c) (barr0 V c) ⟨5000 * t.val + p.val, by omega⟩ j := by
  obtain ⟨u, hu⟩ : ∃ u : Fin cfg0.N, u.val = t.val := ⟨t.cast N_0.symm, rfl⟩
  refine (dat0 V c).arrAt_apply_of_mem 6 (lin1SqSumArr _ _ _ _) (fun t _ => ?_) _ u _ u.isLt (flush0_6 u) ?_
  · have e := (idx_facts0 t).1
    unfold Dat.flushed
    rw [after0_6, out0_6_eq]
    exact funext fun y => (congrArg _ (eq_ix3_zero y)).trans <| (k0_pay3_apply _ _ _ _ (y 1) (y 2)).trans <|
      slab0 V c t (fun x => x * x) (y 2) _
        (by show win0_6.index t (0 : Fin 3) * 1 + 1 * (y 0).val = t.val; have : (y 0).val < 1 := (y 0).isLt; omega)
        (Fin.ext (by show win0_6.index t (2 : Fin 3) * 128 + 1 * (y 2).val = (y 2).val; omega))
  · have e := (idx_facts0 u).1
    have h : ((cfg0.win 6).blk u).view.emb (ix3 (0 : Fin 1) r j) = ix3 t r j := funext fun a => Fin.ext <| match a with
      | ⟨0, _⟩ => by show win0_6.index u (0 : Fin 3) * 1 + 1 * 0 = t.val; omega
      | ⟨1, _⟩ => by show win0_6.index u (1 : Fin 3) * 8 + 1 * r.val = r.val; omega
      | ⟨2, _⟩ => by show win0_6.index u (2 : Fin 3) * 128 + 1 * j.val = j.val; omega
    exact h ▸ View.emb_mem_set _ _

end Cert.KernelIdeal.HandVal
end
-- ==== Proof.KI.Pay1.lean ====
import proofs.«404458_j53163105190632_2_alg».proof.Proof.KI.PayLib

noncomputable section
open scoped BigOperators
namespace Cert.KernelIdeal.HandVal
open Cert.KernelIdeal Cert.KernelIdeal.Gen Idealize.ShloMosaic Idealize.ShloMosaic.ValueIdx
open Cert.KernelIdeal.HandVal.Pay

/-- The tile scaled, shifted and rectified, through the second linear map, rectified: at `(p, q)`. -/
theorem k1_pay1_apply (l : Vec Ideal S5000x128 .f32) (s sh : Vec Ideal S1x128 .f32) (w : Vec Ideal S128x128 .f32)
    (b : Vec Ideal S1x128 .f32) (p : Fin 5000) (q : Fin 128) :
    (k1_pay1 (F := Ideal) l s sh w b) (ix2 p q)
      = max ((∑ k : Fin 128, max (l (ix2 p k) * s (ix2 0 k) + sh (ix2 0 k)) 0 * w (ix2 k q)) + b (ix2 0 q)) 0 := by
  unfold k1_pay1
  simp only [shapeCast_self]
  rw [maximumf_apply, addf_apply, matmul_tile_apply, broadcastTo_1b_ab_apply, broadcast_apply, scalar_zero_f32]
  refine congrArg (fun t => max (t + b (ix2 0 q)) 0) (Finset.sum_congr rfl fun k _ => ?_)
  rw [truncf_apply, truncf_apply, maximumf_apply, addf_apply, mulf_apply, broadcastTo_1b_ab_apply,
    broadcastTo_1b_ab_apply, broadcast_apply]

end Cert.KernelIdeal.HandVal

end
-- ==== Proof.KI.Pay8.lean ====
import proofs.«404458_j53163105190632_2_alg».proof.Proof.KI.PayLib

noncomputable section
open scoped BigOperators
namespace Cert.KernelIdeal.HandVal
open Cert.KernelIdeal Cert.KernelIdeal.Gen Idealize.ShloMosaic Idealize.ShloMosaic.ValueIdx
open Cert.KernelIdeal.HandVal.Pay

/-- The accumulator starts at zero. -/
theorem k8_pay1_apply (g d : Fin 128) : (k8_pay1 (F := Ideal)) (ix2 g d) = 0 := by
  unfold k8_pay1
  rw [shapeCast_self, broadcast_apply]
  exact scalar_zero_f32

/-- One pooling step adds, for graph `g`, the rows whose id is `g`. -/
theorem k8_pay2_apply (ids : Vec Ideal S1x12800 .i32) (x : Vec Ideal S12800x128 .f32) (a : Vec Ideal S128x128 .f32)
    (g d : Fin 128) :
    (k8_pay2 (F := Ideal) ids x a) (ix2 g d)
      = a (ix2 g d) + ∑ k : Fin 12800, (if ids (ix2 0 k) = BitVec.ofNat 32 g.val then (1 : EReal) else 0) * x (ix2 k d) := by
  unfold k8_pay2
  simp only [shapeCast_self]
  rw [addf_apply, matmul_pool_apply]
  refine congrArg (a (ix2 g d) + ·) (Finset.sum_congr rfl fun k _ => ?_)
  rw [truncf_apply, truncf_apply, onehot_apply]

/-- The two-layer head on the pooled rows, at graph `g`, output `o`. -/
theorem k8_pay3_apply (a w1 : Vec Ideal S128x128 .f32) (b1 : Vec Ideal S1x128 .f32) (w2 : Vec Ideal S128x32 .f32)
    (b2 : Vec Ideal S1x32 .f32) (g : Fin 128) (o : Fin 32) :
    (k8_pay3 (F := Ideal) a w1 b1 w2 b2) (ix2 g o)
      = (∑ j : Fin 128, max ((∑ k : Fin 128, a (ix2 g k) * w1 (ix2 k j)) + b1 (ix2 0 j)) 0 * w2 (ix2 j o)) + b2 (ix2 0 o) := by
  unfold k8_pay3
  simp only [shapeCast_self]
  rw [addf_apply, matmul_out_apply, broadcastTo_1b_ab_apply]
  refine congrArg (· + b2 (ix2 0 o)) (Finset.sum_congr rfl fun j _ => ?_)
  rw [truncf_apply, truncf_apply, maximumf_apply, addf_apply, matmul_sq_apply, broadcastTo_1b_ab_apply, broadcast_apply,
    scalar_zero_f32]
  rfl

end Cert.KernelIdeal.HandVal

end
-- ==== Proof.KI.Pay.lean ====
import proofs.«404458_j53163105190632_2_alg».proof.Proof.KI.Pay0
import proofs.«404458_j53163105190632_2_alg».proof.Proof.KI.Pay1
import proofs.«404458_j53163105190632_2_alg».proof.Proof.KI.Pay8
-- ==== Proof.KI.Lin2Fn.lean ====
import proofs.«404458_j53163105190632_2_alg».proof.KernelIdeal
import Idealize.ShloMosaic.Lib.ValueIdx
import Idealize.ShloMosaic.PureOps.Ideal

noncomputable section
open scoped BigOperators

namespace Cert.KernelIdeal.HandVal

open Cert.KernelIdeal Idealize.ShloMosaic Idealize.ShloMosaic.ValueIdx

def lin2At (Lin : Vec Ideal S100000x128 .f32) (S Sh : Vec Ideal S1x128 .f32) (W : Vec Ideal S128x128 .f32)
    (B : Vec Ideal S1x128 .f32) (n : Fin 100000) (j : Fin 128) : EReal :=
  max ((∑ k : Fin 128, max (Lin (ix2 n k) * S (ix2 0 k) + Sh (ix2 0 k)) 0 * W (ix2 k j)) + B (ix2 0 j)) 0

abbrev lin2Arr (Lin : Vec Ideal S100000x128 .f32) (S Sh : Vec Ideal S1x128 .f32) (W : Vec Ideal S128x128 .f32)
    (B : Vec Ideal S1x128 .f32) : Vec Ideal S100000x128 .f32 := fun i => lin2At Lin S Sh W B (i 0) (i 1)

end Cert.KernelIdeal.HandVal

end
-- ==== Proof.KI.V1.lean ====
import proofs.«404458_j53163105190632_2_alg».proof.Proof.KI.R1
import proofs.«404458_j53163105190632_2_alg».proof.Proof.KI.Pay
import proofs.«404458_j53163105190632_2_alg».proof.Proof.KI.Lin2Fn
import Idealize.ShloMosaic.Lib.Pipeline.Value
import Idealize.ShloMosaic.Lib.ValueIdx

noncomputable section
open scoped BigOperators

namespace Cert.KernelIdeal.HandVal

open Cert.KernelIdeal Cert.KernelIdeal.Gen Cert.KernelIdeal.Hand
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- Block indices at point `t`: the result and the first input sit at row block `t`, the four parameters at their one block. -/
theorem idxFacts1 : ∀ t : Fin cfg1.N,
    (win1_5.index t (0 : Fin 2) = t.val ∧ win1_5.index t (1 : Fin 2) = 0
    ∧ win1_0.index t (0 : Fin 2) = t.val ∧ win1_0.index t (1 : Fin 2) = 0)
    ∧ (∀ a, win1_1.index t a = 0) ∧ (∀ a, win1_2.index t a = 0) ∧ (∀ a, win1_3.index t a = 0) ∧ ∀ a, win1_4.index t a = 0 :=
  (by decide +kernel : ∀ t : Fin grid1.N, _)

/-- On tile `t` the body's payload is the function of the five whole arrays, at the array index `i` the tile's index `(p, q)` sits at. -/
theorem tile1 (c : Dev nD) (t : Fin cfg1.N) (p : Fin 5000) (q : Fin 128) (i : S100000x128.Idx)
    (h0 : (i 0).val = 5000 * t.val + p.val) (h1 : i 1 = q) :
    k1_pay1 (F := Ideal) (iblk1 V c 0 t) (iblk1 V c 1 t) (iblk1 V c 2 t) (iblk1 V c 3 t) (iblk1 V c 4 t) (ix2 p q)
      = lin2At (V c main_v19_0) (V c main_v46) (V c main_v47) (V c main_v43) (V c main_v48) (i 0) (i 1) := by
  obtain ⟨e, e1, e2, e3, e4⟩ := idxFacts1 t
  have p1 : (iblk1 V c 1 t : Vec Ideal S1x128 .f32) = V c main_v46 := funext fun j =>
    congrArg (V c _) (funext fun a => Fin.ext (win1_1.rect_emb_val_of_index_zero t a (e1 a) j))
  have p2 : (iblk1 V c 2 t : Vec Ideal S1x128 .f32) = V c main_v47 := funext fun j =>
    congrArg (V c _) (funext fun a => Fin.ext (win1_2.rect_emb_val_of_index_zero t a (e2 a) j))
  have p3 : (iblk1 V c 3 t : Vec Ideal S128x128 .f32) = V c main_v43 := funext fun j =>
    congrArg (V c _) (funext fun a => Fin.ext (win1_3.rect_emb_val_of_index_zero t a (e3 a) j))
  have p4 : (iblk1 V c 4 t : Vec Ideal S1x128 .f32) = V c main_v48 := funext fun j =>
    congrArg (V c _) (funext fun a => Fin.ext (win1_4.rect_emb_val_of_index_zero t a (e4 a) j))
  have p0 (k : Fin 128) : (iblk1 V c 0 t : Vec Ideal S5000x128 .f32) (ix2 p k)
      = (V c main_v19_0 : Vec Ideal S100000x128 .f32) (ix2 (i 0) k) :=
    congrArg (V c _) (Shape.idx_ext₂
      (by show win1_0.index t (0 : Fin 2) * 5000 + 1 * p.val = (i 0).val; omega)
      (by show win1_0.index t (1 : Fin 2) * 128 + 1 * k.val = k.val; omega))
  rw [k1_pay1_apply, p1, p2, p3, p4, h1]
  unfold lin2At
  exact congrArg (fun s => max (s + _) 0) (Finset.sum_congr rfl fun k _ => by rw [p0])

theorem final1_5 (c : Dev nD) (n : Fin 100000) (j : Fin 128) :
    (dat1 V c).arrAt 5 cfg1.N (ix2 n j)
      = lin2At (V c main_v19_0) (V c main_v46) (V c main_v47) (V c main_v43) (V c main_v48) n j := by
  obtain ⟨u, hu⟩ : ∃ u : Fin cfg1.N, u.val = n.val / 5000 := ⟨⟨n.val / 5000, by show _ < grid1.N; rw [N_1]; omega⟩, rfl⟩
  refine (dat1 V c).arrAt_apply_of_mem 5 (lin2Arr _ _ _ _ _) (fun t _ => ?_) _ u _ u.isLt (flush1_5 u) ?_
  · have e := (idxFacts1 t).1
    unfold Dat.flushed
    rw [after1_5, out1_5_eq]
    exact funext fun y => (congrArg _ (eq_ix2 y)).trans <| tile1 V c t (y 0) (y 1) _
      (by show win1_5.index t (0 : Fin 2) * 5000 + 1 * (y 0).val = 5000 * t.val + (y 0).val; omega)
      (Fin.ext (by show win1_5.index t (1 : Fin 2) * 128 + 1 * (y 1).val = (y 1).val; omega))
  · have e := (idxFacts1 u).1
    have h : ((cfg1.win 5).blk u).view.emb (ix2 ⟨n.val % 5000, Nat.mod_lt _ (by decide)⟩ j) = ix2 n j := Shape.idx_ext₂
      (by show win1_5.index u (0 : Fin 2) * 5000 + 1 * (n.val % 5000) = n.val; omega)
      (by show win1_5.index u (1 : Fin 2) * 128 + 1 * j.val = j.val; omega)
    exact h ▸ View.emb_mem_set _ _

end Cert.KernelIdeal.HandVal

end
-- ==== Proof.KI.Host0.lean ====
import proofs.«404458_j53163105190632_2_alg».proof.Proof.KI.HostLib
namespace Cert.KernelIdeal.HandVal
open Cert.KernelIdeal Cert.KernelIdeal.Gen
open Idealize.ShloMosaic Idealize.ShloMosaic.TcCoe Idealize.ShloMosaic.ValueIdx

variable (m : (ℓ : Loc nD τ sig) → Buf (Elt Ideal) ℓ) (c : Dev nD)

theorem V1_x : V1 m c main_arg0 = m ((c : Thread nD τ).loc main_arg0) := keep1 m c main_arg0 (by decide)

theorem V1_agg : V1 m c main_v13 = aggK (m ((c : Thread nD τ).loc main_arg0)) (m ((c : Thread nD τ).loc main_arg1)) := by
  after_results_simp; rfl

theorem V1_w1 (k j : Fin 128) :
    (V1 m c main_v15 : S128x128.Idx → EReal) (ix2 k j) = m ((c : Thread nD τ).loc main_arg3) (ix3 (0 : Fin 4) k j) := by
  after_results_simp
  exact mat_layer_apply _ 0 (0 : Fin 4) rfl _ _ k j

theorem V1_b1 (j : Fin 128) :
    (V1 m c main_v18 : S1x128.Idx → EReal) (ix2 0 j) = m ((c : Thread nD τ).loc main_arg4) (ix2 (0 : Fin 4) j) := by
  after_results_simp
  exact row_layer_apply _ 0 (0 : Fin 4) rfl _ _ _ 0 j

end Cert.KernelIdeal.HandVal
-- ==== Proof.KI.Host1.lean ====
import proofs.«404458_j53163105190632_2_alg».proof.Proof.KI.HostLib
namespace Cert.KernelIdeal.HandVal
open Cert.KernelIdeal Cert.KernelIdeal.Gen
open Idealize.ShloMosaic Idealize.ShloMosaic.TcCoe Idealize.ShloMosaic.ValueIdx

variable (m : (ℓ : Loc nD τ sig) → Buf (Elt Ideal) ℓ) (outs : Outs (F := Ideal)) (c : Dev nD)

theorem V2_s2 : V2 m outs c main_v19_2 = outs 2 main_v19_2 c := Function.update_self ..
theorem V2_s1 : V2 m outs c main_v19_1 = outs 2 main_v19_1 c :=
  (Function.update_of_ne (StableHlo.devRef_ne_of_ne (by decide)) ..).trans (Function.update_self ..)
theorem V2_lin : V2 m outs c main_v19_0 = outs 2 main_v19_0 c :=
  (Function.update_of_ne (StableHlo.devRef_ne_of_ne (by decide)) ..).trans <|
    (Function.update_of_ne (StableHlo.devRef_ne_of_ne (by decide)) ..).trans (Function.update_self ..)
theorem V3_lin : V3 m outs c main_v19_0 = outs 2 main_v19_0 c :=
  (V3_of m outs c main_v19_0 (by decide)).trans (V2_lin m outs c)

/-- The scale row is the scale vector of the layer's slice of γ and the two statistics arrays, read at a column. -/
theorem V3_scale (j : Fin 128) :
    (V3 m outs c main_v46 : S1x128.Idx → EReal) (ix2 0 j)
      = bnScale (m ((c : Thread nD τ).loc main_arg5) (ix2 (0 : Fin 4) j)) (outs 2 main_v19_1 c) (outs 2 main_v19_2 c) j := by
  after_results_simp
  rw [V2_s1 m outs c, V2_s2 m outs c, keep2 m outs c main_arg5 (by decide)]
  exact (shapeCast_a_1a_apply _ _ 0 j).trans
    ((scaleVec_apply _ _ _ j).trans (congrArg (bnScale · _ _ j) (vec_layer_apply _ 0 (0 : Fin 4) rfl _ _ j)))

theorem V3_shift (j : Fin 128) :
    (V3 m outs c main_v47 : S1x128.Idx → EReal) (ix2 0 j)
      = bnShift (m ((c : Thread nD τ).loc main_arg6) (ix2 (0 : Fin 4) j)) (m ((c : Thread nD τ).loc main_arg5) (ix2 (0 : Fin 4) j))
          (outs 2 main_v19_1 c) (outs 2 main_v19_2 c) j := by
  after_results_simp
  rw [V2_s1 m outs c, V2_s2 m outs c, keep2 m outs c main_arg5 (by decide), keep2 m outs c main_arg6 (by decide)]
  exact (shapeCast_a_1a_apply _ _ 0 j).trans
    ((shiftVec_apply _ _ _ _ j).trans (congrArg₂ (bnShift · · _ _ j) (vec_layer_apply _ 0 (0 : Fin 4) rfl _ _ j)
      (vec_layer_apply _ 0 (0 : Fin 4) rfl _ _ j)))

theorem V3_w2 (k j : Fin 128) :
    (V3 m outs c main_v43 : S128x128.Idx → EReal) (ix2 k j) = m ((c : Thread nD τ).loc main_arg7) (ix3 (0 : Fin 4) k j) := by
  after_results_simp
  rw [keep2 m outs c main_arg7 (by decide)]
  exact mat_layer_apply _ 0 (0 : Fin 4) rfl _ _ k j

theorem V3_b2 (j : Fin 128) :
    (V3 m outs c main_v48 : S1x128.Idx → EReal) (ix2 0 j) = m ((c : Thread nD τ).loc main_arg8) (ix2 (0 : Fin 4) j) := by
  after_results_simp
  rw [keep2 m outs c main_arg8 (by decide)]
  exact row_layer_apply _ 0 (0 : Fin 4) rfl _ _ _ 0 j

end Cert.KernelIdeal.HandVal
-- ==== Proof.KI.Layer0.lean ====
import proofs.«404458_j53163105190632_2_alg».proof.Proof.KI.RunW
import proofs.«404458_j53163105190632_2_alg».proof.Proof.KI.V0
import proofs.«404458_j53163105190632_2_alg».proof.Proof.KI.V1
import proofs.«404458_j53163105190632_2_alg».proof.Proof.KI.Host0
import proofs.«404458_j53163105190632_2_alg».proof.Proof.KI.Host1
import proofs.«404458_j53163105190632_2_alg».proof.Proof.KI.LayerLib

noncomputable section
open scoped BigOperators

namespace Cert.KernelIdeal.HandVal

open Cert.KernelIdeal Cert.KernelIdeal.Gen Cert.KernelIdeal.Hand
open Idealize.ShloMosaic Idealize.ShloMosaic.TcCoe Idealize.ShloMosaic.ValueIdx

variable (m : (ℓ : Loc nD τ sig) → Buf (Elt Ideal) ℓ) (c : Dev nD)

/-- Layer 0: what its second region leaves is the layer function of the node features, their edge sums and layer 0 of the parameters. -/
theorem layer0_value :
    toMat (W4 m c main_v49) = Cert.Spec.layerK (toMat (m ((c : Thread nD τ).loc main_arg0)))
      (toMat (aggK (m ((c : Thread nD τ).loc main_arg0)) (m ((c : Thread nD τ).loc main_arg1))))
      (fun k j => m ((c : Thread nD τ).loc main_arg3) (ix3 (0 : Fin 4) k j)) (fun j => m ((c : Thread nD τ).loc main_arg4) (ix2 (0 : Fin 4) j))
      (fun j => m ((c : Thread nD τ).loc main_arg5) (ix2 (0 : Fin 4) j)) (fun j => m ((c : Thread nD τ).loc main_arg6) (ix2 (0 : Fin 4) j))
      (fun k j => m ((c : Thread nD τ).loc main_arg7) (ix3 (0 : Fin 4) k j)) (fun j => m ((c : Thread nD τ).loc main_arg8) (ix2 (0 : Fin 4) j)) := by
  refine layerK_of_arrays _ _ _ _ _ _ _ _ _ _ _ _ _ _ _ _ _ _ _ _
    (fun n k => congrFun (V1_x m c) (ix2 n k)) (fun n k => congrFun (V1_agg m c) (ix2 n k))
    (V1_w1 m c) (V1_b1 m c)
    (fun n j => (congrFun ((V2_lin m (outs m) c).symm.trans (W2_main_v19_0 m c)) (ix2 n j)).trans (final0_4 (Vr1 m) c n j))
    (fun t j => (congrFun ((V2_s1 m (outs m) c).symm.trans (W2_main_v19_1 m c)) (ix3 t 0 j)).trans (final0_5 (Vr1 m) c t 0 j))
    (fun t j => (congrFun ((V2_s2 m (outs m) c).symm.trans (W2_main_v19_2 m c)) (ix3 t 0 j)).trans (final0_6 (Vr1 m) c t 0 j))
    (V3_scale m (outs m) c) (V3_shift m (outs m) c) (V3_w2 m (outs m) c) (V3_b2 m (outs m) c)
    (fun n j => (congrFun (W4_main_v49 m c) (ix2 n j)).trans ((final1_5 (Vr3 m) c n j).trans ?_))
  rw [show Vr3 m c main_v19_0 = outs m 2 main_v19_0 c from V3_lin m (outs m) c]
  rfl

end Cert.KernelIdeal.HandVal

end
-- ==== Proof.KI.Pay2.lean ====
import proofs.«404458_j53163105190632_2_alg».proof.Proof.KI.PayLib

noncomputable section
open scoped BigOperators
namespace Cert.KernelIdeal.HandVal
open Cert.KernelIdeal Cert.KernelIdeal.Gen Idealize.ShloMosaic Idealize.ShloMosaic.ValueIdx
open Cert.KernelIdeal.HandVal.Pay

theorem k2_pay1_apply (x agg : Vec Ideal S5000x128 .f32) (w : Vec Ideal S128x128 .f32) (b : Vec Ideal S1x128 .f32)
    (p : Fin 5000) (q : Fin 128) :
    (k2_pay1 (F := Ideal) x agg w b) (ix2 p q)
      = (∑ k : Fin 128, (x (ix2 p k) + agg (ix2 p k)) * w (ix2 k q)) + b (ix2 0 q) := by
  unfold k2_pay1
  simp only [shapeCast_self]
  rw [addf_apply, matmul_tile_apply, broadcastTo_1b_ab_apply]
  rfl

theorem k2_pay2_apply (x agg : Vec Ideal S5000x128 .f32) (w : Vec Ideal S128x128 .f32) (b : Vec Ideal S1x128 .f32)
    (r : Fin 8) (q : Fin 128) :
    (k2_pay2 (F := Ideal) x agg w b) (ix3 0 r q) = ∑ p : Fin 5000, (k2_pay1 (F := Ideal) x agg w b) (ix2 p q) := by
  unfold k2_pay2
  exact (keep8_apply _ 0 r q).trans (colsum_apply _ q)

theorem k2_pay3_apply (x agg : Vec Ideal S5000x128 .f32) (w : Vec Ideal S128x128 .f32) (b : Vec Ideal S1x128 .f32)
    (r : Fin 8) (q : Fin 128) :
    (k2_pay3 (F := Ideal) x agg w b) (ix3 0 r q)
      = ∑ p : Fin 5000, (k2_pay1 (F := Ideal) x agg w b) (ix2 p q) * (k2_pay1 (F := Ideal) x agg w b) (ix2 p q) := by
  unfold k2_pay3
  exact (keep8_apply _ 0 r q).trans (colsum_apply _ q)

end Cert.KernelIdeal.HandVal

end
-- ==== Proof.KI.V2.lean ====
import proofs.«404458_j53163105190632_2_alg».proof.Proof.KI.R2
import proofs.«404458_j53163105190632_2_alg».proof.Proof.KI.Pay2
import proofs.«404458_j53163105190632_2_alg».proof.Proof.KI.Lin1Fn
import Idealize.ShloMosaic.Lib.Pipeline.Value
import Idealize.ShloMosaic.Lib.ValueIdx

noncomputable section

namespace Cert.KernelIdeal.HandVal
open Cert.KernelIdeal Cert.KernelIdeal.Gen Cert.KernelIdeal.Hand Idealize.ShloMosaic
open Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

abbrev xarr2 (c : Dev nD) : Vec Ideal S100000x128 .f32 := V c (Pipeline.arrRef spec2 0)
abbrev garr2 (c : Dev nD) : Vec Ideal S100000x128 .f32 := V c (Pipeline.arrRef spec2 1)
abbrev warr2 (c : Dev nD) : Vec Ideal S128x128 .f32 := V c (Pipeline.arrRef spec2 2)
abbrev barr2 (c : Dev nD) : Vec Ideal S1x128 .f32 := V c (Pipeline.arrRef spec2 3)

/-- Block indices at point `t`: the row-tiled windows and the slabs sit at block `t`, the weight and the bias at their one block. -/
theorem idx_facts2 : ∀ t : Fin cfg2.N,
    (win2_0.index t (0 : Fin 2) = t.val ∧ win2_0.index t (1 : Fin 2) = 0
    ∧ win2_1.index t (0 : Fin 2) = t.val ∧ win2_1.index t (1 : Fin 2) = 0
    ∧ win2_4.index t (0 : Fin 2) = t.val ∧ win2_4.index t (1 : Fin 2) = 0
    ∧ win2_5.index t (0 : Fin 3) = t.val ∧ win2_5.index t (1 : Fin 3) = 0 ∧ win2_5.index t (2 : Fin 3) = 0
    ∧ win2_6.index t (0 : Fin 3) = t.val ∧ win2_6.index t (1 : Fin 3) = 0 ∧ win2_6.index t (2 : Fin 3) = 0)
    ∧ (∀ a, win2_2.index t a = 0) ∧ ∀ a, win2_3.index t a = 0 :=
  (by decide +kernel : ∀ t : Fin grid2.N, _)

/-- On tile `t` the body's linear map is the whole arrays' linear map at the tile's rows. -/
theorem lin1_blk2 (c : Dev nD) (t : Fin cfg2.N) (p : Fin 5000) (q : Fin 128) :
    k2_pay1 (F := Ideal) (iblk2 V c 0 t) (iblk2 V c 1 t) (iblk2 V c 2 t) (iblk2 V c 3 t) (ix2 p q)
      = lin1At (xarr2 V c) (garr2 V c) (warr2 V c) (barr2 V c) (tileRow (t.cast N_2) p) q := by
  obtain ⟨e, h2, h3⟩ := idx_facts2 t
  have hw : (iblk2 V c 2 t : Vec Ideal S128x128 .f32) = warr2 V c := funext fun j =>
    congrArg (V c _) (funext fun a => Fin.ext (win2_2.rect_emb_val_of_index_zero t a (h2 a) j))
  have hb : (iblk2 V c 3 t : Vec Ideal S1x128 .f32) = barr2 V c := funext fun j =>
    congrArg (V c _) (funext fun a => Fin.ext (win2_3.rect_emb_val_of_index_zero t a (h3 a) j))
  have hx (k : Fin 128) : (iblk2 V c 0 t : Vec Ideal S5000x128 .f32) (ix2 p k) = xarr2 V c (ix2 (tileRow (t.cast N_2) p) k) :=
    congrArg (V c _) (Shape.idx_ext₂
      (by show win2_0.index t (0 : Fin 2) * 5000 + 1 * p.val = 5000 * t.val + p.val; omega)
      (by show win2_0.index t (1 : Fin 2) * 128 + 1 * k.val = k.val; omega))
  have hg (k : Fin 128) : (iblk2 V c 1 t : Vec Ideal S5000x128 .f32) (ix2 p k) = garr2 V c (ix2 (tileRow (t.cast N_2) p) k) :=
    congrArg (V c _) (Shape.idx_ext₂
      (by show win2_1.index t (0 : Fin 2) * 5000 + 1 * p.val = 5000 * t.val + p.val; omega)
      (by show win2_1.index t (1 : Fin 2) * 128 + 1 * k.val = k.val; omega))
  rw [k2_pay1_apply, hw, hb]
  unfold lin1At
  congr 1
  exact Finset.sum_congr rfl fun k _ => by rw [hx, hg]

theorem final2_4 (c : Dev nD) (n : Fin 100000) (j : Fin 128) :
    (dat2 V c).arrAt 4 cfg2.N (ix2 n j) = lin1At (xarr2 V c) (garr2 V c) (warr2 V c) (barr2 V c) n j := by
  obtain ⟨u, hu⟩ : ∃ u : Fin cfg2.N, u.val = n.val / 5000 := ⟨⟨n.val / 5000, by show _ < grid2.N; rw [N_2]; omega⟩, rfl⟩
  refine (dat2 V c).arrAt_apply_of_mem 4 (lin1Arr _ _ _ _) (fun t _ => ?_) _ u _ u.isLt (flush2_4 u) ?_
  · have e := (idx_facts2 t).1
    unfold Dat.flushed
    rw [after2_4, out2_4_eq]
    exact funext fun y => (congrArg _ (eq_ix2 y)).trans <| (lin1_blk2 V c t (y 0) (y 1)).trans (congrArg₂ _
      (Fin.ext (by show 5000 * t.val + (y 0).val = win2_4.index t (0 : Fin 2) * 5000 + 1 * (y 0).val; omega))
      (Fin.ext (by show (y 1).val = win2_4.index t (1 : Fin 2) * 128 + 1 * (y 1).val; omega)))
  · have e := (idx_facts2 u).1
    have h : ((cfg2.win 4).blk u).view.emb (ix2 ⟨n.val % 5000, Nat.mod_lt _ (by decide)⟩ j) = ix2 n j := Shape.idx_ext₂
      (by show win2_4.index u (0 : Fin 2) * 5000 + 1 * (n.val % 5000) = n.val; omega)
      (by show win2_4.index u (1 : Fin 2) * 128 + 1 * j.val = j.val; omega)
    exact h ▸ View.emb_mem_set _ _

/-- Column sums of `f` of the tile's linear map are the same sums over the whole arrays' rows of tile `t`. -/
theorem slab2 (c : Dev nD) (t : Fin cfg2.N) (f : EReal → EReal) (q : Fin 128) (i : S20x8x128.Idx)
    (h0 : (i 0).val = t.val) (h2 : i 2 = q) :
    ∑ p : Fin 5000, f (k2_pay1 (F := Ideal) (iblk2 V c 0 t) (iblk2 V c 1 t) (iblk2 V c 2 t) (iblk2 V c 3 t) (ix2 p q))
      = ∑ p : Fin 5000, f (lin1At (xarr2 V c) (garr2 V c) (warr2 V c) (barr2 V c) (tileRow (i 0) p) (i 2)) := by
  rw [show i 0 = t.cast N_2 from Fin.ext h0, h2]
  exact Finset.sum_congr rfl fun p _ => congrArg f (lin1_blk2 V c t p q)

theorem final2_5 (c : Dev nD) (t : Fin 20) (r : Fin 8) (j : Fin 128) :
    (dat2 V c).arrAt 5 cfg2.N (ix3 t r j)
      = ∑ p : Fin 5000, lin1At (xarr2 V c) (garr2 V c) (warr2 V c) (barr2 V c) ⟨5000 * t.val + p.val, by omega⟩ j := by
  obtain ⟨u, hu⟩ : ∃ u : Fin cfg2.N, u.val = t.val := ⟨t.cast N_2.symm, rfl⟩
  refine (dat2 V c).arrAt_apply_of_mem 5 (lin1SumArr _ _ _ _) (fun t _ => ?_) _ u _ u.isLt (flush2_5 u) ?_
  · have e := (idx_facts2 t).1
    unfold Dat.flushed
    rw [after2_5, out2_5_eq]
    exact funext fun y => (congrArg _ (eq_ix3_zero y)).trans <| (k2_pay2_apply _ _ _ _ (y 1) (y 2)).trans <|
      slab2 V c t (fun x => x) (y 2) _
        (by show win2_5.index t (0 : Fin 3) * 1 + 1 * (y 0).val = t.val; have : (y 0).val < 1 := (y 0).isLt; omega)
        (Fin.ext (by show win2_5.index t (2 : Fin 3) * 128 + 1 * (y 2).val = (y 2).val; omega))
  · have e := (idx_facts2 u).1
    have h : ((cfg2.win 5).blk u).view.emb (ix3 (0 : Fin 1) r j) = ix3 t r j := funext fun a => Fin.ext <| match a with
      | ⟨0, _⟩ => by show win2_5.index u (0 : Fin 3) * 1 + 1 * 0 = t.val; omega
      | ⟨1, _⟩ => by show win2_5.index u (1 : Fin 3) * 8 + 1 * r.val = r.val; omega
      | ⟨2, _⟩ => by show win2_5.index u (2 : Fin 3) * 128 + 1 * j.val = j.val; omega
    exact h ▸ View.emb_mem_set _ _

theorem final2_6 (c : Dev nD) (t : Fin 20) (r : Fin 8) (j : Fin 128) :
    (dat2 V c).arrAt 6 cfg2.N (ix3 t r j)
      = ∑ p : Fin 5000, lin1At (xarr2 V c) (garr2 V c) (warr2 V c) (barr2 V c) ⟨5000 * t.val + p.val, by omega⟩ j
          * lin1At (xarr2 V c) (garr2 V c) (warr2 V c) (barr2 V c) ⟨5000 * t.val + p.val, by omega⟩ j := by
  obtain ⟨u, hu⟩ : ∃ u : Fin cfg2.N, u.val = t.val := ⟨t.cast N_2.symm, rfl⟩
  refine (dat2 V c).arrAt_apply_of_mem 6 (lin1SqSumArr _ _ _ _) (fun t _ => ?_) _ u _ u.isLt (flush2_6 u) ?_
  · have e := (idx_facts2 t).1
    unfold Dat.flushed
    rw [after2_6, out2_6_eq]
    exact funext fun y => (congrArg _ (eq_ix3_zero y)).trans <| (k2_pay3_apply _ _ _ _ (y 1) (y 2)).trans <|
      slab2 V c t (fun x => x * x) (y 2) _
        (by show win2_6.index t (0 : Fin 3) * 1 + 1 * (y 0).val = t.val; have : (y 0).val < 1 := (y 0).isLt; omega)
        (Fin.ext (by show win2_6.index t (2 : Fin 3) * 128 + 1 * (y 2).val = (y 2).val; omega))
  · have e := (idx_facts2 u).1
    have h : ((cfg2.win 6).blk u).view.emb (ix3 (0 : Fin 1) r j) = ix3 t r j := funext fun a => Fin.ext <| match a with
      | ⟨0, _⟩ => by show win2_6.index u (0 : Fin 3) * 1 + 1 * 0 = t.val; omega
      | ⟨1, _⟩ => by show win2_6.index u (1 : Fin 3) * 8 + 1 * r.val = r.val; omega
      | ⟨2, _⟩ => by show win2_6.index u (2 : Fin 3) * 128 + 1 * j.val = j.val; omega
    exact h ▸ View.emb_mem_set _ _

end Cert.KernelIdeal.HandVal
end
-- ==== Proof.KI.V3.lean ====
import proofs.«404458_j53163105190632_2_alg».proof.Proof.KI.R3
import proofs.«404458_j53163105190632_2_alg».proof.Proof.KI.Pay
import proofs.«404458_j53163105190632_2_alg».proof.Proof.KI.Lin2Fn
import Idealize.ShloMosaic.Lib.Pipeline.Value
import Idealize.ShloMosaic.Lib.ValueIdx

noncomputable section
open scoped BigOperators

namespace Cert.KernelIdeal.HandVal

open Cert.KernelIdeal Cert.KernelIdeal.Gen Cert.KernelIdeal.Hand
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- Block indices at point `t`: the result and the first input sit at row block `t`, the four parameters at their one block. -/
theorem idxFacts3 : ∀ t : Fin cfg3.N,
    (win3_5.index t (0 : Fin 2) = t.val ∧ win3_5.index t (1 : Fin 2) = 0
    ∧ win3_0.index t (0 : Fin 2) = t.val ∧ win3_0.index t (1 : Fin 2) = 0)
    ∧ (∀ a, win3_1.index t a = 0) ∧ (∀ a, win3_2.index t a = 0) ∧ (∀ a, win3_3.index t a = 0) ∧ ∀ a, win3_4.index t a = 0 :=
  (by decide +kernel : ∀ t : Fin grid3.N, _)

/-- On tile `t` the body's payload is the function of the five whole arrays, at the array index `i` the tile's index `(p, q)` sits at. -/
theorem tile3 (c : Dev nD) (t : Fin cfg3.N) (p : Fin 5000) (q : Fin 128) (i : S100000x128.Idx)
    (h0 : (i 0).val = 5000 * t.val + p.val) (h1 : i 1 = q) :
    k1_pay1 (F := Ideal) (iblk3 V c 0 t) (iblk3 V c 1 t) (iblk3 V c 2 t) (iblk3 V c 3 t) (iblk3 V c 4 t) (ix2 p q)
      = lin2At (V c main_v65_0) (V c main_v92) (V c main_v93) (V c main_v89) (V c main_v94) (i 0) (i 1) := by
  obtain ⟨e, e1, e2, e3, e4⟩ := idxFacts3 t
  have p1 : (iblk3 V c 1 t : Vec Ideal S1x128 .f32) = V c main_v92 := funext fun j =>
    congrArg (V c _) (funext fun a => Fin.ext (win3_1.rect_emb_val_of_index_zero t a (e1 a) j))
  have p2 : (iblk3 V c 2 t : Vec Ideal S1x128 .f32) = V c main_v93 := funext fun j =>
    congrArg (V c _) (funext fun a => Fin.ext (win3_2.rect_emb_val_of_index_zero t a (e2 a) j))
  have p3 : (iblk3 V c 3 t : Vec Ideal S128x128 .f32) = V c main_v89 := funext fun j =>
    congrArg (V c _) (funext fun a => Fin.ext (win3_3.rect_emb_val_of_index_zero t a (e3 a) j))
  have p4 : (iblk3 V c 4 t : Vec Ideal S1x128 .f32) = V c main_v94 := funext fun j =>
    congrArg (V c _) (funext fun a => Fin.ext (win3_4.rect_emb_val_of_index_zero t a (e4 a) j))
  have p0 (k : Fin 128) : (iblk3 V c 0 t : Vec Ideal S5000x128 .f32) (ix2 p k)
      = (V c main_v65_0 : Vec Ideal S100000x128 .f32) (ix2 (i 0) k) :=
    congrArg (V c _) (Shape.idx_ext₂
      (by show win3_0.index t (0 : Fin 2) * 5000 + 1 * p.val = (i 0).val; omega)
      (by show win3_0.index t (1 : Fin 2) * 128 + 1 * k.val = k.val; omega))
  rw [k1_pay1_apply, p1, p2, p3, p4, h1]
  unfold lin2At
  exact congrArg (fun s => max (s + _) 0) (Finset.sum_congr rfl fun k _ => by rw [p0])

theorem final3_5 (c : Dev nD) (n : Fin 100000) (j : Fin 128) :
    (dat3 V c).arrAt 5 cfg3.N (ix2 n j)
      = lin2At (V c main_v65_0) (V c main_v92) (V c main_v93) (V c main_v89) (V c main_v94) n j := by
  obtain ⟨u, hu⟩ : ∃ u : Fin cfg3.N, u.val = n.val / 5000 := ⟨⟨n.val / 5000, by show _ < grid3.N; rw [N_3]; omega⟩, rfl⟩
  refine (dat3 V c).arrAt_apply_of_mem 5 (lin2Arr _ _ _ _ _) (fun t _ => ?_) _ u _ u.isLt (flush3_5 u) ?_
  · have e := (idxFacts3 t).1
    unfold Dat.flushed
    rw [after3_5, out1_5_eq]
    exact funext fun y => (congrArg _ (eq_ix2 y)).trans <| tile3 V c t (y 0) (y 1) _
      (by show win3_5.index t (0 : Fin 2) * 5000 + 1 * (y 0).val = 5000 * t.val + (y 0).val; omega)
      (Fin.ext (by show win3_5.index t (1 : Fin 2) * 128 + 1 * (y 1).val = (y 1).val; omega))
  · have e := (idxFacts3 u).1
    have h : ((cfg3.win 5).blk u).view.emb (ix2 ⟨n.val % 5000, Nat.mod_lt _ (by decide)⟩ j) = ix2 n j := Shape.idx_ext₂
      (by show win3_5.index u (0 : Fin 2) * 5000 + 1 * (n.val % 5000) = n.val; omega)
      (by show win3_5.index u (1 : Fin 2) * 128 + 1 * j.val = j.val; omega)
    exact h ▸ View.emb_mem_set _ _

end Cert.KernelIdeal.HandVal

end
-- ==== Proof.KI.Host2.lean ====
import proofs.«404458_j53163105190632_2_alg».proof.Proof.KI.HostLib
namespace Cert.KernelIdeal.HandVal
open Cert.KernelIdeal Cert.KernelIdeal.Gen
open Idealize.ShloMosaic Idealize.ShloMosaic.TcCoe Idealize.ShloMosaic.ValueIdx

variable (m : (ℓ : Loc nD τ sig) → Buf (Elt Ideal) ℓ) (outs : Outs (F := Ideal)) (c : Dev nD)

theorem V4_x : V4 m outs c main_v49 = outs 4 main_v49 c := Function.update_self ..
theorem V5_x : V5 m outs c main_v49 = outs 4 main_v49 c :=
  (V5_of m outs c main_v49 (by decide)).trans (V4_x m outs c)

theorem V5_agg : V5 m outs c main_v59 = aggK (outs 4 main_v49 c) (m ((c : Thread nD τ).loc main_arg1)) := by
  after_results_simp
  rw [V4_x m outs c, V4_src m outs c, V4_dst m outs c]
  rfl

theorem V5_w1 (k j : Fin 128) :
    (V5 m outs c main_v61 : S128x128.Idx → EReal) (ix2 k j) = m ((c : Thread nD τ).loc main_arg3) (ix3 (1 : Fin 4) k j) := by
  after_results_simp
  rw [keep4 m outs c main_arg3 (by decide)]
  exact mat_layer_apply _ 1 (1 : Fin 4) rfl _ _ k j

theorem V5_b1 (j : Fin 128) :
    (V5 m outs c main_v64 : S1x128.Idx → EReal) (ix2 0 j) = m ((c : Thread nD τ).loc main_arg4) (ix2 (1 : Fin 4) j) := by
  after_results_simp
  rw [keep4 m outs c main_arg4 (by decide)]
  exact row_layer_apply _ 1 (1 : Fin 4) rfl _ _ _ 0 j

end Cert.KernelIdeal.HandVal
-- ==== Proof.KI.Host3.lean ====
import proofs.«404458_j53163105190632_2_alg».proof.Proof.KI.HostLib
namespace Cert.KernelIdeal.HandVal
open Cert.KernelIdeal Cert.KernelIdeal.Gen
open Idealize.ShloMosaic Idealize.ShloMosaic.TcCoe Idealize.ShloMosaic.ValueIdx

variable (m : (ℓ : Loc nD τ sig) → Buf (Elt Ideal) ℓ) (outs : Outs (F := Ideal)) (c : Dev nD)

theorem V6_s2 : V6 m outs c main_v65_2 = outs 6 main_v65_2 c := Function.update_self ..
theorem V6_s1 : V6 m outs c main_v65_1 = outs 6 main_v65_1 c :=
  (Function.update_of_ne (StableHlo.devRef_ne_of_ne (by decide)) ..).trans (Function.update_self ..)
theorem V6_lin : V6 m outs c main_v65_0 = outs 6 main_v65_0 c :=
  (Function.update_of_ne (StableHlo.devRef_ne_of_ne (by decide)) ..).trans <|
    (Function.update_of_ne (StableHlo.devRef_ne_of_ne (by decide)) ..).trans (Function.update_self ..)
theorem V7_lin : V7 m outs c main_v65_0 = outs 6 main_v65_0 c :=
  (V7_of m outs c main_v65_0 (by decide)).trans (V6_lin m outs c)

/-- The scale row is the scale vector of the layer's slice of γ and the two statistics arrays, read at a column. -/
theorem V7_scale (j : Fin 128) :
    (V7 m outs c main_v92 : S1x128.Idx → EReal) (ix2 0 j)
      = bnScale (m ((c : Thread nD τ).loc main_arg5) (ix2 (1 : Fin 4) j)) (outs 6 main_v65_1 c) (outs 6 main_v65_2 c) j := by
  after_results_simp
  rw [V6_s1 m outs c, V6_s2 m outs c, keep6 m outs c main_arg5 (by decide)]
  exact (shapeCast_a_1a_apply _ _ 0 j).trans
    ((scaleVec_apply _ _ _ j).trans (congrArg (bnScale · _ _ j) (vec_layer_apply _ 1 (1 : Fin 4) rfl _ _ j)))

theorem V7_shift (j : Fin 128) :
    (V7 m outs c main_v93 : S1x128.Idx → EReal) (ix2 0 j)
      = bnShift (m ((c : Thread nD τ).loc main_arg6) (ix2 (1 : Fin 4) j)) (m ((c : Thread nD τ).loc main_arg5) (ix2 (1 : Fin 4) j))
          (outs 6 main_v65_1 c) (outs 6 main_v65_2 c) j := by
  after_results_simp
  rw [V6_s1 m outs c, V6_s2 m outs c, keep6 m outs c main_arg5 (by decide), keep6 m outs c main_arg6 (by decide)]
  exact (shapeCast_a_1a_apply _ _ 0 j).trans
    ((shiftVec_apply _ _ _ _ j).trans (congrArg₂ (bnShift · · _ _ j) (vec_layer_apply _ 1 (1 : Fin 4) rfl _ _ j)
      (vec_layer_apply _ 1 (1 : Fin 4) rfl _ _ j)))

theorem V7_w2 (k j : Fin 128) :
    (V7 m outs c main_v89 : S128x128.Idx → EReal) (ix2 k j) = m ((c : Thread nD τ).loc main_arg7) (ix3 (1 : Fin 4) k j) := by
  after_results_simp
  rw [keep6 m outs c main_arg7 (by decide)]
  exact mat_layer_apply _ 1 (1 : Fin 4) rfl _ _ k j

theorem V7_b2 (j : Fin 128) :
    (V7 m outs c main_v94 : S1x128.Idx → EReal) (ix2 0 j) = m ((c : Thread nD τ).loc main_arg8) (ix2 (1 : Fin 4) j) := by
  after_results_simp
  rw [keep6 m outs c main_arg8 (by decide)]
  exact row_layer_apply _ 1 (1 : Fin 4) rfl _ _ _ 0 j

end Cert.KernelIdeal.HandVal
-- ==== Proof.KI.Layer1.lean ====
import proofs.«404458_j53163105190632_2_alg».proof.Proof.KI.RunW
import proofs.«404458_j53163105190632_2_alg».proof.Proof.KI.V2
import proofs.«404458_j53163105190632_2_alg».proof.Proof.KI.V3
import proofs.«404458_j53163105190632_2_alg».proof.Proof.KI.Host2
import proofs.«404458_j53163105190632_2_alg».proof.Proof.KI.Host3
import proofs.«404458_j53163105190632_2_alg».proof.Proof.KI.LayerLib

noncomputable section
open scoped BigOperators

namespace Cert.KernelIdeal.HandVal

open Cert.KernelIdeal Cert.KernelIdeal.Gen Cert.KernelIdeal.Hand
open Idealize.ShloMosaic Idealize.ShloMosaic.TcCoe Idealize.ShloMosaic.ValueIdx

variable (m : (ℓ : Loc nD τ sig) → Buf (Elt Ideal) ℓ) (c : Dev nD)

theorem input1 : outs m 4 main_v49 c = W4 m c main_v49 := (V4_x m (outs m) c).symm

theorem lin_kept1 : Vr7 m c main_v65_0 = outs m 6 main_v65_0 c := V7_lin m (outs m) c

theorem lin_left1 : outs m 6 main_v65_0 c = (dat2 (Vr5 m) c).arrAt 4 cfg2.N :=
  (V6_lin m (outs m) c).symm.trans (W6_main_v65_0 m c)
theorem sums_left1 : outs m 6 main_v65_1 c = (dat2 (Vr5 m) c).arrAt 5 cfg2.N :=
  (V6_s1 m (outs m) c).symm.trans (W6_main_v65_1 m c)
theorem sumsq_left1 : outs m 6 main_v65_2 c = (dat2 (Vr5 m) c).arrAt 6 cfg2.N :=
  (V6_s2 m (outs m) c).symm.trans (W6_main_v65_2 m c)

theorem layer1_value :
    toMat (W8 m c main_v95) = Cert.Spec.layerK (toMat (W4 m c main_v49))
      (toMat (aggK (W4 m c main_v49) (m ((c : Thread nD τ).loc main_arg1))))
      (fun k j => m ((c : Thread nD τ).loc main_arg3) (ix3 (1 : Fin 4) k j)) (fun j => m ((c : Thread nD τ).loc main_arg4) (ix2 (1 : Fin 4) j))
      (fun j => m ((c : Thread nD τ).loc main_arg5) (ix2 (1 : Fin 4) j)) (fun j => m ((c : Thread nD τ).loc main_arg6) (ix2 (1 : Fin 4) j))
      (fun k j => m ((c : Thread nD τ).loc main_arg7) (ix3 (1 : Fin 4) k j)) (fun j => m ((c : Thread nD τ).loc main_arg8) (ix2 (1 : Fin 4) j)) := by
  refine layerK_of_arrays
    (Vr5 m c main_v49 : Vec Ideal S100000x128 .f32) (Vr5 m c main_v59 : Vec Ideal S100000x128 .f32)
    (Vr5 m c main_v61 : Vec Ideal S128x128 .f32) (Vr5 m c main_v64 : Vec Ideal S1x128 .f32)
    (outs m 6 main_v65_0 c : Vec Ideal S100000x128 .f32) (outs m 6 main_v65_1 c : Vec Ideal S20x8x128 .f32)
    (outs m 6 main_v65_2 c : Vec Ideal S20x8x128 .f32)
    (Vr7 m c main_v92 : Vec Ideal S1x128 .f32) (Vr7 m c main_v93 : Vec Ideal S1x128 .f32)
    (Vr7 m c main_v89 : Vec Ideal S128x128 .f32) (Vr7 m c main_v94 : Vec Ideal S1x128 .f32)
    (W8 m c main_v95 : Vec Ideal S100000x128 .f32) _ _ _ _ _ _ _ _
    (fun n k => congrFun ((V5_x m (outs m) c).trans (input1 m c)) (ix2 n k))
    (fun n k => congrFun ((V5_agg m (outs m) c).trans
      (congrArg (fun x => aggK x (m ((c : Thread nD τ).loc main_arg1))) (input1 m c))) (ix2 n k))
    (V5_w1 m (outs m) c) (V5_b1 m (outs m) c)
    (fun n j => (congrFun (lin_left1 m c) (ix2 n j)).trans (final2_4 (Vr5 m) c n j))
    (fun t j => (congrFun (sums_left1 m c) (ix3 t 0 j)).trans (final2_5 (Vr5 m) c t 0 j))
    (fun t j => (congrFun (sumsq_left1 m c) (ix3 t 0 j)).trans (final2_6 (Vr5 m) c t 0 j))
    (V7_scale m (outs m) c) (V7_shift m (outs m) c) (V7_w2 m (outs m) c) (V7_b2 m (outs m) c)
    (fun n j => (congrFun (W8_main_v95 m c) (ix2 n j)).trans ((final3_5 (Vr7 m) c n j).trans ?_))
  rw [lin_kept1 m c]
  rfl

end Cert.KernelIdeal.HandVal

end
-- ==== Proof.KI.V4.lean ====
import proofs.«404458_j53163105190632_2_alg».proof.Proof.KI.R4
import proofs.«404458_j53163105190632_2_alg».proof.Proof.KI.Pay2
import proofs.«404458_j53163105190632_2_alg».proof.Proof.KI.Lin1Fn
import Idealize.ShloMosaic.Lib.Pipeline.Value
import Idealize.ShloMosaic.Lib.ValueIdx

noncomputable section

namespace Cert.KernelIdeal.HandVal
open Cert.KernelIdeal Cert.KernelIdeal.Gen Cert.KernelIdeal.Hand Idealize.ShloMosaic
open Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

abbrev xarr4 (c : Dev nD) : Vec Ideal S100000x128 .f32 := V c (Pipeline.arrRef spec4 0)
abbrev garr4 (c : Dev nD) : Vec Ideal S100000x128 .f32 := V c (Pipeline.arrRef spec4 1)
abbrev warr4 (c : Dev nD) : Vec Ideal S128x128 .f32 := V c (Pipeline.arrRef spec4 2)
abbrev barr4 (c : Dev nD) : Vec Ideal S1x128 .f32 := V c (Pipeline.arrRef spec4 3)

/-- Block indices at point `t`: the row-tiled windows and the slabs sit at block `t`, the weight and the bias at their one block. -/
theorem idx_facts4 : ∀ t : Fin cfg4.N,
    (win4_0.index t (0 : Fin 2) = t.val ∧ win4_0.index t (1 : Fin 2) = 0
    ∧ win4_1.index t (0 : Fin 2) = t.val ∧ win4_1.index t (1 : Fin 2) = 0
    ∧ win4_4.index t (0 : Fin 2) = t.val ∧ win4_4.index t (1 : Fin 2) = 0
    ∧ win4_5.index t (0 : Fin 3) = t.val ∧ win4_5.index t (1 : Fin 3) = 0 ∧ win4_5.index t (2 : Fin 3) = 0
    ∧ win4_6.index t (0 : Fin 3) = t.val ∧ win4_6.index t (1 : Fin 3) = 0 ∧ win4_6.index t (2 : Fin 3) = 0)
    ∧ (∀ a, win4_2.index t a = 0) ∧ ∀ a, win4_3.index t a = 0 :=
  (by decide +kernel : ∀ t : Fin grid4.N, _)

/-- On tile `t` the body's linear map is the whole arrays' linear map at the tile's rows. -/
theorem lin1_blk4 (c : Dev nD) (t : Fin cfg4.N) (p : Fin 5000) (q : Fin 128) :
    k2_pay1 (F := Ideal) (iblk4 V c 0 t) (iblk4 V c 1 t) (iblk4 V c 2 t) (iblk4 V c 3 t) (ix2 p q)
      = lin1At (xarr4 V c) (garr4 V c) (warr4 V c) (barr4 V c) (tileRow (t.cast N_4) p) q := by
  obtain ⟨e, h2, h3⟩ := idx_facts4 t
  have hw : (iblk4 V c 2 t : Vec Ideal S128x128 .f32) = warr4 V c := funext fun j =>
    congrArg (V c _) (funext fun a => Fin.ext (win4_2.rect_emb_val_of_index_zero t a (h2 a) j))
  have hb : (iblk4 V c 3 t : Vec Ideal S1x128 .f32) = barr4 V c := funext fun j =>
    congrArg (V c _) (funext fun a => Fin.ext (win4_3.rect_emb_val_of_index_zero t a (h3 a) j))
  have hx (k : Fin 128) : (iblk4 V c 0 t : Vec Ideal S5000x128 .f32) (ix2 p k) = xarr4 V c (ix2 (tileRow (t.cast N_4) p) k) :=
    congrArg (V c _) (Shape.idx_ext₂
      (by show win4_0.index t (0 : Fin 2) * 5000 + 1 * p.val = 5000 * t.val + p.val; omega)
      (by show win4_0.index t (1 : Fin 2) * 128 + 1 * k.val = k.val; omega))
  have hg (k : Fin 128) : (iblk4 V c 1 t : Vec Ideal S5000x128 .f32) (ix2 p k) = garr4 V c (ix2 (tileRow (t.cast N_4) p) k) :=
    congrArg (V c _) (Shape.idx_ext₂
      (by show win4_1.index t (0 : Fin 2) * 5000 + 1 * p.val = 5000 * t.val + p.val; omega)
      (by show win4_1.index t (1 : Fin 2) * 128 + 1 * k.val = k.val; omega))
  rw [k2_pay1_apply, hw, hb]
  unfold lin1At
  congr 1
  exact Finset.sum_congr rfl fun k _ => by rw [hx, hg]

theorem final4_4 (c : Dev nD) (n : Fin 100000) (j : Fin 128) :
    (dat4 V c).arrAt 4 cfg4.N (ix2 n j) = lin1At (xarr4 V c) (garr4 V c) (warr4 V c) (barr4 V c) n j := by
  obtain ⟨u, hu⟩ : ∃ u : Fin cfg4.N, u.val = n.val / 5000 := ⟨⟨n.val / 5000, by show _ < grid4.N; rw [N_4]; omega⟩, rfl⟩
  refine (dat4 V c).arrAt_apply_of_mem 4 (lin1Arr _ _ _ _) (fun t _ => ?_) _ u _ u.isLt (flush4_4 u) ?_
  · have e := (idx_facts4 t).1
    unfold Dat.flushed
    rw [after4_4, out2_4_eq]
    exact funext fun y => (congrArg _ (eq_ix2 y)).trans <| (lin1_blk4 V c t (y 0) (y 1)).trans (congrArg₂ _
      (Fin.ext (by show 5000 * t.val + (y 0).val = win4_4.index t (0 : Fin 2) * 5000 + 1 * (y 0).val; omega))
      (Fin.ext (by show (y 1).val = win4_4.index t (1 : Fin 2) * 128 + 1 * (y 1).val; omega)))
  · have e := (idx_facts4 u).1
    have h : ((cfg4.win 4).blk u).view.emb (ix2 ⟨n.val % 5000, Nat.mod_lt _ (by decide)⟩ j) = ix2 n j := Shape.idx_ext₂
      (by show win4_4.index u (0 : Fin 2) * 5000 + 1 * (n.val % 5000) = n.val; omega)
      (by show win4_4.index u (1 : Fin 2) * 128 + 1 * j.val = j.val; omega)
    exact h ▸ View.emb_mem_set _ _

/-- Column sums of `f` of the tile's linear map are the same sums over the whole arrays' rows of tile `t`. -/
theorem slab4 (c : Dev nD) (t : Fin cfg4.N) (f : EReal → EReal) (q : Fin 128) (i : S20x8x128.Idx)
    (h0 : (i 0).val = t.val) (h2 : i 2 = q) :
    ∑ p : Fin 5000, f (k2_pay1 (F := Ideal) (iblk4 V c 0 t) (iblk4 V c 1 t) (iblk4 V c 2 t) (iblk4 V c 3 t) (ix2 p q))
      = ∑ p : Fin 5000, f (lin1At (xarr4 V c) (garr4 V c) (warr4 V c) (barr4 V c) (tileRow (i 0) p) (i 2)) := by
  rw [show i 0 = t.cast N_4 from Fin.ext h0, h2]
  exact Finset.sum_congr rfl fun p _ => congrArg f (lin1_blk4 V c t p q)

theorem final4_5 (c : Dev nD) (t : Fin 20) (r : Fin 8) (j : Fin 128) :
    (dat4 V c).arrAt 5 cfg4.N (ix3 t r j)
      = ∑ p : Fin 5000, lin1At (xarr4 V c) (garr4 V c) (warr4 V c) (barr4 V c) ⟨5000 * t.val + p.val, by omega⟩ j := by
  obtain ⟨u, hu⟩ : ∃ u : Fin cfg4.N, u.val = t.val := ⟨t.cast N_4.symm, rfl⟩
  refine (dat4 V c).arrAt_apply_of_mem 5 (lin1SumArr _ _ _ _) (fun t _ => ?_) _ u _ u.isLt (flush4_5 u) ?_
  · have e := (idx_facts4 t).1
    unfold Dat.flushed
    rw [after4_5, out2_5_eq]
    exact funext fun y => (congrArg _ (eq_ix3_zero y)).trans <| (k2_pay2_apply _ _ _ _ (y 1) (y 2)).trans <|
      slab4 V c t (fun x => x) (y 2) _
        (by show win4_5.index t (0 : Fin 3) * 1 + 1 * (y 0).val = t.val; have : (y 0).val < 1 := (y 0).isLt; omega)
        (Fin.ext (by show win4_5.index t (2 : Fin 3) * 128 + 1 * (y 2).val = (y 2).val; omega))
  · have e := (idx_facts4 u).1
    have h : ((cfg4.win 5).blk u).view.emb (ix3 (0 : Fin 1) r j) = ix3 t r j := funext fun a => Fin.ext <| match a with
      | ⟨0, _⟩ => by show win4_5.index u (0 : Fin 3) * 1 + 1 * 0 = t.val; omega
      | ⟨1, _⟩ => by show win4_5.index u (1 : Fin 3) * 8 + 1 * r.val = r.val; omega
      | ⟨2, _⟩ => by show win4_5.index u (2 : Fin 3) * 128 + 1 * j.val = j.val; omega
    exact h ▸ View.emb_mem_set _ _

theorem final4_6 (c : Dev nD) (t : Fin 20) (r : Fin 8) (j : Fin 128) :
    (dat4 V c).arrAt 6 cfg4.N (ix3 t r j)
      = ∑ p : Fin 5000, lin1At (xarr4 V c) (garr4 V c) (warr4 V c) (barr4 V c) ⟨5000 * t.val + p.val, by omega⟩ j
          * lin1At (xarr4 V c) (garr4 V c) (warr4 V c) (barr4 V c) ⟨5000 * t.val + p.val, by omega⟩ j := by
  obtain ⟨u, hu⟩ : ∃ u : Fin cfg4.N, u.val = t.val := ⟨t.cast N_4.symm, rfl⟩
  refine (dat4 V c).arrAt_apply_of_mem 6 (lin1SqSumArr _ _ _ _) (fun t _ => ?_) _ u _ u.isLt (flush4_6 u) ?_
  · have e := (idx_facts4 t).1
    unfold Dat.flushed
    rw [after4_6, out2_6_eq]
    exact funext fun y => (congrArg _ (eq_ix3_zero y)).trans <| (k2_pay3_apply _ _ _ _ (y 1) (y 2)).trans <|
      slab4 V c t (fun x => x * x) (y 2) _
        (by show win4_6.index t (0 : Fin 3) * 1 + 1 * (y 0).val = t.val; have : (y 0).val < 1 := (y 0).isLt; omega)
        (Fin.ext (by show win4_6.index t (2 : Fin 3) * 128 + 1 * (y 2).val = (y 2).val; omega))
  · have e := (idx_facts4 u).1
    have h : ((cfg4.win 6).blk u).view.emb (ix3 (0 : Fin 1) r j) = ix3 t r j := funext fun a => Fin.ext <| match a with
      | ⟨0, _⟩ => by show win4_6.index u (0 : Fin 3) * 1 + 1 * 0 = t.val; omega
      | ⟨1, _⟩ => by show win4_6.index u (1 : Fin 3) * 8 + 1 * r.val = r.val; omega
      | ⟨2, _⟩ => by show win4_6.index u (2 : Fin 3) * 128 + 1 * j.val = j.val; omega
    exact h ▸ View.emb_mem_set _ _

end Cert.KernelIdeal.HandVal
end
-- ==== Proof.KI.V5.lean ====
import proofs.«404458_j53163105190632_2_alg».proof.Proof.KI.R5
import proofs.«404458_j53163105190632_2_alg».proof.Proof.KI.Pay
import proofs.«404458_j53163105190632_2_alg».proof.Proof.KI.Lin2Fn
import Idealize.ShloMosaic.Lib.Pipeline.Value
import Idealize.ShloMosaic.Lib.ValueIdx

noncomputable section
open scoped BigOperators

namespace Cert.KernelIdeal.HandVal

open Cert.KernelIdeal Cert.KernelIdeal.Gen Cert.KernelIdeal.Hand
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- Block indices at point `t`: the result and the first input sit at row block `t`, the four parameters at their one block. -/
theorem idxFacts5 : ∀ t : Fin cfg5.N,
    (win5_5.index t (0 : Fin 2) = t.val ∧ win5_5.index t (1 : Fin 2) = 0
    ∧ win5_0.index t (0 : Fin 2) = t.val ∧ win5_0.index t (1 : Fin 2) = 0)
    ∧ (∀ a, win5_1.index t a = 0) ∧ (∀ a, win5_2.index t a = 0) ∧ (∀ a, win5_3.index t a = 0) ∧ ∀ a, win5_4.index t a = 0 :=
  (by decide +kernel : ∀ t : Fin grid5.N, _)

/-- On tile `t` the body's payload is the function of the five whole arrays, at the array index `i` the tile's index `(p, q)` sits at. -/
theorem tile5 (c : Dev nD) (t : Fin cfg5.N) (p : Fin 5000) (q : Fin 128) (i : S100000x128.Idx)
    (h0 : (i 0).val = 5000 * t.val + p.val) (h1 : i 1 = q) :
    k1_pay1 (F := Ideal) (iblk5 V c 0 t) (iblk5 V c 1 t) (iblk5 V c 2 t) (iblk5 V c 3 t) (iblk5 V c 4 t) (ix2 p q)
      = lin2At (V c main_v111_0) (V c main_v138) (V c main_v139) (V c main_v135) (V c main_v140) (i 0) (i 1) := by
  obtain ⟨e, e1, e2, e3, e4⟩ := idxFacts5 t
  have p1 : (iblk5 V c 1 t : Vec Ideal S1x128 .f32) = V c main_v138 := funext fun j =>
    congrArg (V c _) (funext fun a => Fin.ext (win5_1.rect_emb_val_of_index_zero t a (e1 a) j))
  have p2 : (iblk5 V c 2 t : Vec Ideal S1x128 .f32) = V c main_v139 := funext fun j =>
    congrArg (V c _) (funext fun a => Fin.ext (win5_2.rect_emb_val_of_index_zero t a (e2 a) j))
  have p3 : (iblk5 V c 3 t : Vec Ideal S128x128 .f32) = V c main_v135 := funext fun j =>
    congrArg (V c _) (funext fun a => Fin.ext (win5_3.rect_emb_val_of_index_zero t a (e3 a) j))
  have p4 : (iblk5 V c 4 t : Vec Ideal S1x128 .f32) = V c main_v140 := funext fun j =>
    congrArg (V c _) (funext fun a => Fin.ext (win5_4.rect_emb_val_of_index_zero t a (e4 a) j))
  have p0 (k : Fin 128) : (iblk5 V c 0 t : Vec Ideal S5000x128 .f32) (ix2 p k)
      = (V c main_v111_0 : Vec Ideal S100000x128 .f32) (ix2 (i 0) k) :=
    congrArg (V c _) (Shape.idx_ext₂
      (by show win5_0.index t (0 : Fin 2) * 5000 + 1 * p.val = (i 0).val; omega)
      (by show win5_0.index t (1 : Fin 2) * 128 + 1 * k.val = k.val; omega))
  rw [k1_pay1_apply, p1, p2, p3, p4, h1]
  unfold lin2At
  exact congrArg (fun s => max (s + _) 0) (Finset.sum_congr rfl fun k _ => by rw [p0])

theorem final5_5 (c : Dev nD) (n : Fin 100000) (j : Fin 128) :
    (dat5 V c).arrAt 5 cfg5.N (ix2 n j)
      = lin2At (V c main_v111_0) (V c main_v138) (V c main_v139) (V c main_v135) (V c main_v140) n j := by
  obtain ⟨u, hu⟩ : ∃ u : Fin cfg5.N, u.val = n.val / 5000 := ⟨⟨n.val / 5000, by show _ < grid5.N; rw [N_5]; omega⟩, rfl⟩
  refine (dat5 V c).arrAt_apply_of_mem 5 (lin2Arr _ _ _ _ _) (fun t _ => ?_) _ u _ u.isLt (flush5_5 u) ?_
  · have e := (idxFacts5 t).1
    unfold Dat.flushed
    rw [after5_5, out1_5_eq]
    exact funext fun y => (congrArg _ (eq_ix2 y)).trans <| tile5 V c t (y 0) (y 1) _
      (by show win5_5.index t (0 : Fin 2) * 5000 + 1 * (y 0).val = 5000 * t.val + (y 0).val; omega)
      (Fin.ext (by show win5_5.index t (1 : Fin 2) * 128 + 1 * (y 1).val = (y 1).val; omega))
  · have e := (idxFacts5 u).1
    have h : ((cfg5.win 5).blk u).view.emb (ix2 ⟨n.val % 5000, Nat.mod_lt _ (by decide)⟩ j) = ix2 n j := Shape.idx_ext₂
      (by show win5_5.index u (0 : Fin 2) * 5000 + 1 * (n.val % 5000) = n.val; omega)
      (by show win5_5.index u (1 : Fin 2) * 128 + 1 * j.val = j.val; omega)
    exact h ▸ View.emb_mem_set _ _

end Cert.KernelIdeal.HandVal

end
-- ==== Proof.KI.Host4.lean ====
import proofs.«404458_j53163105190632_2_alg».proof.Proof.KI.HostLib
namespace Cert.KernelIdeal.HandVal
open Cert.KernelIdeal Cert.KernelIdeal.Gen
open Idealize.ShloMosaic Idealize.ShloMosaic.TcCoe Idealize.ShloMosaic.ValueIdx

variable (m : (ℓ : Loc nD τ sig) → Buf (Elt Ideal) ℓ) (outs : Outs (F := Ideal)) (c : Dev nD)

theorem V8_x : V8 m outs c main_v95 = outs 8 main_v95 c := Function.update_self ..
theorem V9_x : V9 m outs c main_v95 = outs 8 main_v95 c :=
  (V9_of m outs c main_v95 (by decide)).trans (V8_x m outs c)

theorem V9_agg : V9 m outs c main_v105 = aggK (outs 8 main_v95 c) (m ((c : Thread nD τ).loc main_arg1)) := by
  after_results_simp
  rw [V8_x m outs c, V8_src m outs c, V8_dst m outs c]
  rfl

theorem V9_w1 (k j : Fin 128) :
    (V9 m outs c main_v107 : S128x128.Idx → EReal) (ix2 k j) = m ((c : Thread nD τ).loc main_arg3) (ix3 (2 : Fin 4) k j) := by
  after_results_simp
  rw [keep8 m outs c main_arg3 (by decide)]
  exact mat_layer_apply _ 2 (2 : Fin 4) rfl _ _ k j

theorem V9_b1 (j : Fin 128) :
    (V9 m outs c main_v110 : S1x128.Idx → EReal) (ix2 0 j) = m ((c : Thread nD τ).loc main_arg4) (ix2 (2 : Fin 4) j) := by
  after_results_simp
  rw [keep8 m outs c main_arg4 (by decide)]
  exact row_layer_apply _ 2 (2 : Fin 4) rfl _ _ _ 0 j

end Cert.KernelIdeal.HandVal
-- ==== Proof.KI.Host5.lean ====
import proofs.«404458_j53163105190632_2_alg».proof.Proof.KI.HostLib
namespace Cert.KernelIdeal.HandVal
open Cert.KernelIdeal Cert.KernelIdeal.Gen
open Idealize.ShloMosaic Idealize.ShloMosaic.TcCoe Idealize.ShloMosaic.ValueIdx

variable (m : (ℓ : Loc nD τ sig) → Buf (Elt Ideal) ℓ) (outs : Outs (F := Ideal)) (c : Dev nD)

theorem V10_s2 : V10 m outs c main_v111_2 = outs 10 main_v111_2 c := Function.update_self ..
theorem V10_s1 : V10 m outs c main_v111_1 = outs 10 main_v111_1 c :=
  (Function.update_of_ne (StableHlo.devRef_ne_of_ne (by decide)) ..).trans (Function.update_self ..)
theorem V10_lin : V10 m outs c main_v111_0 = outs 10 main_v111_0 c :=
  (Function.update_of_ne (StableHlo.devRef_ne_of_ne (by decide)) ..).trans <|
    (Function.update_of_ne (StableHlo.devRef_ne_of_ne (by decide)) ..).trans (Function.update_self ..)
theorem V11_lin : V11 m outs c main_v111_0 = outs 10 main_v111_0 c :=
  (V11_of m outs c main_v111_0 (by decide)).trans (V10_lin m outs c)

/-- The scale row is the scale vector of the layer's slice of γ and the two statistics arrays, read at a column. -/
theorem V11_scale (j : Fin 128) :
    (V11 m outs c main_v138 : S1x128.Idx → EReal) (ix2 0 j)
      = bnScale (m ((c : Thread nD τ).loc main_arg5) (ix2 (2 : Fin 4) j)) (outs 10 main_v111_1 c) (outs 10 main_v111_2 c) j := by
  after_results_simp
  rw [V10_s1 m outs c, V10_s2 m outs c, keep10 m outs c main_arg5 (by decide)]
  exact (shapeCast_a_1a_apply _ _ 0 j).trans
    ((scaleVec_apply _ _ _ j).trans (congrArg (bnScale · _ _ j) (vec_layer_apply _ 2 (2 : Fin 4) rfl _ _ j)))

theorem V11_shift (j : Fin 128) :
    (V11 m outs c main_v139 : S1x128.Idx → EReal) (ix2 0 j)
      = bnShift (m ((c : Thread nD τ).loc main_arg6) (ix2 (2 : Fin 4) j)) (m ((c : Thread nD τ).loc main_arg5) (ix2 (2 : Fin 4) j))
          (outs 10 main_v111_1 c) (outs 10 main_v111_2 c) j := by
  after_results_simp
  rw [V10_s1 m outs c, V10_s2 m outs c, keep10 m outs c main_arg5 (by decide), keep10 m outs c main_arg6 (by decide)]
  exact (shapeCast_a_1a_apply _ _ 0 j).trans
    ((shiftVec_apply _ _ _ _ j).trans (congrArg₂ (bnShift · · _ _ j) (vec_layer_apply _ 2 (2 : Fin 4) rfl _ _ j)
      (vec_layer_apply _ 2 (2 : Fin 4) rfl _ _ j)))

theorem V11_w2 (k j : Fin 128) :
    (V11 m outs c main_v135 : S128x128.Idx → EReal) (ix2 k j) = m ((c : Thread nD τ).loc main_arg7) (ix3 (2 : Fin 4) k j) := by
  after_results_simp
  rw [keep10 m outs c main_arg7 (by decide)]
  exact mat_layer_apply _ 2 (2 : Fin 4) rfl _ _ k j

theorem V11_b2 (j : Fin 128) :
    (V11 m outs c main_v140 : S1x128.Idx → EReal) (ix2 0 j) = m ((c : Thread nD τ).loc main_arg8) (ix2 (2 : Fin 4) j) := by
  after_results_simp
  rw [keep10 m outs c main_arg8 (by decide)]
  exact row_layer_apply _ 2 (2 : Fin 4) rfl _ _ _ 0 j

end Cert.KernelIdeal.HandVal
-- ==== Proof.KI.Layer2.lean ====
import proofs.«404458_j53163105190632_2_alg».proof.Proof.KI.RunW
import proofs.«404458_j53163105190632_2_alg».proof.Proof.KI.V4
import proofs.«404458_j53163105190632_2_alg».proof.Proof.KI.V5
import proofs.«404458_j53163105190632_2_alg».proof.Proof.KI.Host4
import proofs.«404458_j53163105190632_2_alg».proof.Proof.KI.Host5
import proofs.«404458_j53163105190632_2_alg».proof.Proof.KI.LayerLib

noncomputable section
open scoped BigOperators

namespace Cert.KernelIdeal.HandVal

open Cert.KernelIdeal Cert.KernelIdeal.Gen Cert.KernelIdeal.Hand
open Idealize.ShloMosaic Idealize.ShloMosaic.TcCoe Idealize.ShloMosaic.ValueIdx

variable (m : (ℓ : Loc nD τ sig) → Buf (Elt Ideal) ℓ) (c : Dev nD)

theorem input2 : outs m 8 main_v95 c = W8 m c main_v95 := (V8_x m (outs m) c).symm

theorem lin_kept2 : Vr11 m c main_v111_0 = outs m 10 main_v111_0 c := V11_lin m (outs m) c

theorem lin_left2 : outs m 10 main_v111_0 c = (dat4 (Vr9 m) c).arrAt 4 cfg4.N :=
  (V10_lin m (outs m) c).symm.trans (W10_main_v111_0 m c)
theorem sums_left2 : outs m 10 main_v111_1 c = (dat4 (Vr9 m) c).arrAt 5 cfg4.N :=
  (V10_s1 m (outs m) c).symm.trans (W10_main_v111_1 m c)
theorem sumsq_left2 : outs m 10 main_v111_2 c = (dat4 (Vr9 m) c).arrAt 6 cfg4.N :=
  (V10_s2 m (outs m) c).symm.trans (W10_main_v111_2 m c)

theorem layer2_value :
    toMat (W12 m c main_v141) = Cert.Spec.layerK (toMat (W8 m c main_v95))
      (toMat (aggK (W8 m c main_v95) (m ((c : Thread nD τ).loc main_arg1))))
      (fun k j => m ((c : Thread nD τ).loc main_arg3) (ix3 (2 : Fin 4) k j)) (fun j => m ((c : Thread nD τ).loc main_arg4) (ix2 (2 : Fin 4) j))
      (fun j => m ((c : Thread nD τ).loc main_arg5) (ix2 (2 : Fin 4) j)) (fun j => m ((c : Thread nD τ).loc main_arg6) (ix2 (2 : Fin 4) j))
      (fun k j => m ((c : Thread nD τ).loc main_arg7) (ix3 (2 : Fin 4) k j)) (fun j => m ((c : Thread nD τ).loc main_arg8) (ix2 (2 : Fin 4) j)) := by
  refine layerK_of_arrays
    (Vr9 m c main_v95 : Vec Ideal S100000x128 .f32) (Vr9 m c main_v105 : Vec Ideal S100000x128 .f32)
    (Vr9 m c main_v107 : Vec Ideal S128x128 .f32) (Vr9 m c main_v110 : Vec Ideal S1x128 .f32)
    (outs m 10 main_v111_0 c : Vec Ideal S100000x128 .f32) (outs m 10 main_v111_1 c : Vec Ideal S20x8x128 .f32)
    (outs m 10 main_v111_2 c : Vec Ideal S20x8x128 .f32)
    (Vr11 m c main_v138 : Vec Ideal S1x128 .f32) (Vr11 m c main_v139 : Vec Ideal S1x128 .f32)
    (Vr11 m c main_v135 : Vec Ideal S128x128 .f32) (Vr11 m c main_v140 : Vec Ideal S1x128 .f32)
    (W12 m c main_v141 : Vec Ideal S100000x128 .f32) _ _ _ _ _ _ _ _
    (fun n k => congrFun ((V9_x m (outs m) c).trans (input2 m c)) (ix2 n k))
    (fun n k => congrFun ((V9_agg m (outs m) c).trans
      (congrArg (fun x => aggK x (m ((c : Thread nD τ).loc main_arg1))) (input2 m c))) (ix2 n k))
    (V9_w1 m (outs m) c) (V9_b1 m (outs m) c)
    (fun n j => (congrFun (lin_left2 m c) (ix2 n j)).trans (final4_4 (Vr9 m) c n j))
    (fun t j => (congrFun (sums_left2 m c) (ix3 t 0 j)).trans (final4_5 (Vr9 m) c t 0 j))
    (fun t j => (congrFun (sumsq_left2 m c) (ix3 t 0 j)).trans (final4_6 (Vr9 m) c t 0 j))
    (V11_scale m (outs m) c) (V11_shift m (outs m) c) (V11_w2 m (outs m) c) (V11_b2 m (outs m) c)
    (fun n j => (congrFun (W12_main_v141 m c) (ix2 n j)).trans ((final5_5 (Vr11 m) c n j).trans ?_))
  rw [lin_kept2 m c]
  rfl

end Cert.KernelIdeal.HandVal

end
-- ==== Proof.KI.V6.lean ====
import proofs.«404458_j53163105190632_2_alg».proof.Proof.KI.R6
import proofs.«404458_j53163105190632_2_alg».proof.Proof.KI.Pay2
import proofs.«404458_j53163105190632_2_alg».proof.Proof.KI.Lin1Fn
import Idealize.ShloMosaic.Lib.Pipeline.Value
import Idealize.ShloMosaic.Lib.ValueIdx

noncomputable section

namespace Cert.KernelIdeal.HandVal
open Cert.KernelIdeal Cert.KernelIdeal.Gen Cert.KernelIdeal.Hand Idealize.ShloMosaic
open Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

abbrev xarr6 (c : Dev nD) : Vec Ideal S100000x128 .f32 := V c (Pipeline.arrRef spec6 0)
abbrev garr6 (c : Dev nD) : Vec Ideal S100000x128 .f32 := V c (Pipeline.arrRef spec6 1)
abbrev warr6 (c : Dev nD) : Vec Ideal S128x128 .f32 := V c (Pipeline.arrRef spec6 2)
abbrev barr6 (c : Dev nD) : Vec Ideal S1x128 .f32 := V c (Pipeline.arrRef spec6 3)

/-- Block indices at point `t`: the row-tiled windows and the slabs sit at block `t`, the weight and the bias at their one block. -/
theorem idx_facts6 : ∀ t : Fin cfg6.N,
    (win6_0.index t (0 : Fin 2) = t.val ∧ win6_0.index t (1 : Fin 2) = 0
    ∧ win6_1.index t (0 : Fin 2) = t.val ∧ win6_1.index t (1 : Fin 2) = 0
    ∧ win6_4.index t (0 : Fin 2) = t.val ∧ win6_4.index t (1 : Fin 2) = 0
    ∧ win6_5.index t (0 : Fin 3) = t.val ∧ win6_5.index t (1 : Fin 3) = 0 ∧ win6_5.index t (2 : Fin 3) = 0
    ∧ win6_6.index t (0 : Fin 3) = t.val ∧ win6_6.index t (1 : Fin 3) = 0 ∧ win6_6.index t (2 : Fin 3) = 0)
    ∧ (∀ a, win6_2.index t a = 0) ∧ ∀ a, win6_3.index t a = 0 :=
  (by decide +kernel : ∀ t : Fin grid6.N, _)

/-- On tile `t` the body's linear map is the whole arrays' linear map at the tile's rows. -/
theorem lin1_blk6 (c : Dev nD) (t : Fin cfg6.N) (p : Fin 5000) (q : Fin 128) :
    k2_pay1 (F := Ideal) (iblk6 V c 0 t) (iblk6 V c 1 t) (iblk6 V c 2 t) (iblk6 V c 3 t) (ix2 p q)
      = lin1At (xarr6 V c) (garr6 V c) (warr6 V c) (barr6 V c) (tileRow (t.cast N_6) p) q := by
  obtain ⟨e, h2, h3⟩ := idx_facts6 t
  have hw : (iblk6 V c 2 t : Vec Ideal S128x128 .f32) = warr6 V c := funext fun j =>
    congrArg (V c _) (funext fun a => Fin.ext (win6_2.rect_emb_val_of_index_zero t a (h2 a) j))
  have hb : (iblk6 V c 3 t : Vec Ideal S1x128 .f32) = barr6 V c := funext fun j =>
    congrArg (V c _) (funext fun a => Fin.ext (win6_3.rect_emb_val_of_index_zero t a (h3 a) j))
  have hx (k : Fin 128) : (iblk6 V c 0 t : Vec Ideal S5000x128 .f32) (ix2 p k) = xarr6 V c (ix2 (tileRow (t.cast N_6) p) k) :=
    congrArg (V c _) (Shape.idx_ext₂
      (by show win6_0.index t (0 : Fin 2) * 5000 + 1 * p.val = 5000 * t.val + p.val; omega)
      (by show win6_0.index t (1 : Fin 2) * 128 + 1 * k.val = k.val; omega))
  have hg (k : Fin 128) : (iblk6 V c 1 t : Vec Ideal S5000x128 .f32) (ix2 p k) = garr6 V c (ix2 (tileRow (t.cast N_6) p) k) :=
    congrArg (V c _) (Shape.idx_ext₂
      (by show win6_1.index t (0 : Fin 2) * 5000 + 1 * p.val = 5000 * t.val + p.val; omega)
      (by show win6_1.index t (1 : Fin 2) * 128 + 1 * k.val = k.val; omega))
  rw [k2_pay1_apply, hw, hb]
  unfold lin1At
  congr 1
  exact Finset.sum_congr rfl fun k _ => by rw [hx, hg]

theorem final6_4 (c : Dev nD) (n : Fin 100000) (j : Fin 128) :
    (dat6 V c).arrAt 4 cfg6.N (ix2 n j) = lin1At (xarr6 V c) (garr6 V c) (warr6 V c) (barr6 V c) n j := by
  obtain ⟨u, hu⟩ : ∃ u : Fin cfg6.N, u.val = n.val / 5000 := ⟨⟨n.val / 5000, by show _ < grid6.N; rw [N_6]; omega⟩, rfl⟩
  refine (dat6 V c).arrAt_apply_of_mem 4 (lin1Arr _ _ _ _) (fun t _ => ?_) _ u _ u.isLt (flush6_4 u) ?_
  · have e := (idx_facts6 t).1
    unfold Dat.flushed
    rw [after6_4, out2_4_eq]
    exact funext fun y => (congrArg _ (eq_ix2 y)).trans <| (lin1_blk6 V c t (y 0) (y 1)).trans (congrArg₂ _
      (Fin.ext (by show 5000 * t.val + (y 0).val = win6_4.index t (0 : Fin 2) * 5000 + 1 * (y 0).val; omega))
      (Fin.ext (by show (y 1).val = win6_4.index t (1 : Fin 2) * 128 + 1 * (y 1).val; omega)))
  · have e := (idx_facts6 u).1
    have h : ((cfg6.win 4).blk u).view.emb (ix2 ⟨n.val % 5000, Nat.mod_lt _ (by decide)⟩ j) = ix2 n j := Shape.idx_ext₂
      (by show win6_4.index u (0 : Fin 2) * 5000 + 1 * (n.val % 5000) = n.val; omega)
      (by show win6_4.index u (1 : Fin 2) * 128 + 1 * j.val = j.val; omega)
    exact h ▸ View.emb_mem_set _ _

/-- Column sums of `f` of the tile's linear map are the same sums over the whole arrays' rows of tile `t`. -/
theorem slab6 (c : Dev nD) (t : Fin cfg6.N) (f : EReal → EReal) (q : Fin 128) (i : S20x8x128.Idx)
    (h0 : (i 0).val = t.val) (h2 : i 2 = q) :
    ∑ p : Fin 5000, f (k2_pay1 (F := Ideal) (iblk6 V c 0 t) (iblk6 V c 1 t) (iblk6 V c 2 t) (iblk6 V c 3 t) (ix2 p q))
      = ∑ p : Fin 5000, f (lin1At (xarr6 V c) (garr6 V c) (warr6 V c) (barr6 V c) (tileRow (i 0) p) (i 2)) := by
  rw [show i 0 = t.cast N_6 from Fin.ext h0, h2]
  exact Finset.sum_congr rfl fun p _ => congrArg f (lin1_blk6 V c t p q)

theorem final6_5 (c : Dev nD) (t : Fin 20) (r : Fin 8) (j : Fin 128) :
    (dat6 V c).arrAt 5 cfg6.N (ix3 t r j)
      = ∑ p : Fin 5000, lin1At (xarr6 V c) (garr6 V c) (warr6 V c) (barr6 V c) ⟨5000 * t.val + p.val, by omega⟩ j := by
  obtain ⟨u, hu⟩ : ∃ u : Fin cfg6.N, u.val = t.val := ⟨t.cast N_6.symm, rfl⟩
  refine (dat6 V c).arrAt_apply_of_mem 5 (lin1SumArr _ _ _ _) (fun t _ => ?_) _ u _ u.isLt (flush6_5 u) ?_
  · have e := (idx_facts6 t).1
    unfold Dat.flushed
    rw [after6_5, out2_5_eq]
    exact funext fun y => (congrArg _ (eq_ix3_zero y)).trans <| (k2_pay2_apply _ _ _ _ (y 1) (y 2)).trans <|
      slab6 V c t (fun x => x) (y 2) _
        (by show win6_5.index t (0 : Fin 3) * 1 + 1 * (y 0).val = t.val; have : (y 0).val < 1 := (y 0).isLt; omega)
        (Fin.ext (by show win6_5.index t (2 : Fin 3) * 128 + 1 * (y 2).val = (y 2).val; omega))
  · have e := (idx_facts6 u).1
    have h : ((cfg6.win 5).blk u).view.emb (ix3 (0 : Fin 1) r j) = ix3 t r j := funext fun a => Fin.ext <| match a with
      | ⟨0, _⟩ => by show win6_5.index u (0 : Fin 3) * 1 + 1 * 0 = t.val; omega
      | ⟨1, _⟩ => by show win6_5.index u (1 : Fin 3) * 8 + 1 * r.val = r.val; omega
      | ⟨2, _⟩ => by show win6_5.index u (2 : Fin 3) * 128 + 1 * j.val = j.val; omega
    exact h ▸ View.emb_mem_set _ _

theorem final6_6 (c : Dev nD) (t : Fin 20) (r : Fin 8) (j : Fin 128) :
    (dat6 V c).arrAt 6 cfg6.N (ix3 t r j)
      = ∑ p : Fin 5000, lin1At (xarr6 V c) (garr6 V c) (warr6 V c) (barr6 V c) ⟨5000 * t.val + p.val, by omega⟩ j
          * lin1At (xarr6 V c) (garr6 V c) (warr6 V c) (barr6 V c) ⟨5000 * t.val + p.val, by omega⟩ j := by
  obtain ⟨u, hu⟩ : ∃ u : Fin cfg6.N, u.val = t.val := ⟨t.cast N_6.symm, rfl⟩
  refine (dat6 V c).arrAt_apply_of_mem 6 (lin1SqSumArr _ _ _ _) (fun t _ => ?_) _ u _ u.isLt (flush6_6 u) ?_
  · have e := (idx_facts6 t).1
    unfold Dat.flushed
    rw [after6_6, out2_6_eq]
    exact funext fun y => (congrArg _ (eq_ix3_zero y)).trans <| (k2_pay3_apply _ _ _ _ (y 1) (y 2)).trans <|
      slab6 V c t (fun x => x * x) (y 2) _
        (by show win6_6.index t (0 : Fin 3) * 1 + 1 * (y 0).val = t.val; have : (y 0).val < 1 := (y 0).isLt; omega)
        (Fin.ext (by show win6_6.index t (2 : Fin 3) * 128 + 1 * (y 2).val = (y 2).val; omega))
  · have e := (idx_facts6 u).1
    have h : ((cfg6.win 6).blk u).view.emb (ix3 (0 : Fin 1) r j) = ix3 t r j := funext fun a => Fin.ext <| match a with
      | ⟨0, _⟩ => by show win6_6.index u (0 : Fin 3) * 1 + 1 * 0 = t.val; omega
      | ⟨1, _⟩ => by show win6_6.index u (1 : Fin 3) * 8 + 1 * r.val = r.val; omega
      | ⟨2, _⟩ => by show win6_6.index u (2 : Fin 3) * 128 + 1 * j.val = j.val; omega
    exact h ▸ View.emb_mem_set _ _

end Cert.KernelIdeal.HandVal
end
-- ==== Proof.KI.V7.lean ====
import proofs.«404458_j53163105190632_2_alg».proof.Proof.KI.R7
import proofs.«404458_j53163105190632_2_alg».proof.Proof.KI.Pay
import proofs.«404458_j53163105190632_2_alg».proof.Proof.KI.Lin2Fn
import Idealize.ShloMosaic.Lib.Pipeline.Value
import Idealize.ShloMosaic.Lib.ValueIdx

noncomputable section
open scoped BigOperators

namespace Cert.KernelIdeal.HandVal

open Cert.KernelIdeal Cert.KernelIdeal.Gen Cert.KernelIdeal.Hand
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- Block indices at point `t`: the result and the first input sit at row block `t`, the four parameters at their one block. -/
theorem idxFacts7 : ∀ t : Fin cfg7.N,
    (win7_5.index t (0 : Fin 2) = t.val ∧ win7_5.index t (1 : Fin 2) = 0
    ∧ win7_0.index t (0 : Fin 2) = t.val ∧ win7_0.index t (1 : Fin 2) = 0)
    ∧ (∀ a, win7_1.index t a = 0) ∧ (∀ a, win7_2.index t a = 0) ∧ (∀ a, win7_3.index t a = 0) ∧ ∀ a, win7_4.index t a = 0 :=
  (by decide +kernel : ∀ t : Fin grid7.N, _)

/-- On tile `t` the body's payload is the function of the five whole arrays, at the array index `i` the tile's index `(p, q)` sits at. -/
theorem tile7 (c : Dev nD) (t : Fin cfg7.N) (p : Fin 5000) (q : Fin 128) (i : S100000x128.Idx)
    (h0 : (i 0).val = 5000 * t.val + p.val) (h1 : i 1 = q) :
    k1_pay1 (F := Ideal) (iblk7 V c 0 t) (iblk7 V c 1 t) (iblk7 V c 2 t) (iblk7 V c 3 t) (iblk7 V c 4 t) (ix2 p q)
      = lin2At (V c main_v157_0) (V c main_v184) (V c main_v185) (V c main_v181) (V c main_v186) (i 0) (i 1) := by
  obtain ⟨e, e1, e2, e3, e4⟩ := idxFacts7 t
  have p1 : (iblk7 V c 1 t : Vec Ideal S1x128 .f32) = V c main_v184 := funext fun j =>
    congrArg (V c _) (funext fun a => Fin.ext (win7_1.rect_emb_val_of_index_zero t a (e1 a) j))
  have p2 : (iblk7 V c 2 t : Vec Ideal S1x128 .f32) = V c main_v185 := funext fun j =>
    congrArg (V c _) (funext fun a => Fin.ext (win7_2.rect_emb_val_of_index_zero t a (e2 a) j))
  have p3 : (iblk7 V c 3 t : Vec Ideal S128x128 .f32) = V c main_v181 := funext fun j =>
    congrArg (V c _) (funext fun a => Fin.ext (win7_3.rect_emb_val_of_index_zero t a (e3 a) j))
  have p4 : (iblk7 V c 4 t : Vec Ideal S1x128 .f32) = V c main_v186 := funext fun j =>
    congrArg (V c _) (funext fun a => Fin.ext (win7_4.rect_emb_val_of_index_zero t a (e4 a) j))
  have p0 (k : Fin 128) : (iblk7 V c 0 t : Vec Ideal S5000x128 .f32) (ix2 p k)
      = (V c main_v157_0 : Vec Ideal S100000x128 .f32) (ix2 (i 0) k) :=
    congrArg (V c _) (Shape.idx_ext₂
      (by show win7_0.index t (0 : Fin 2) * 5000 + 1 * p.val = (i 0).val; omega)
      (by show win7_0.index t (1 : Fin 2) * 128 + 1 * k.val = k.val; omega))
  rw [k1_pay1_apply, p1, p2, p3, p4, h1]
  unfold lin2At
  exact congrArg (fun s => max (s + _) 0) (Finset.sum_congr rfl fun k _ => by rw [p0])

theorem final7_5 (c : Dev nD) (n : Fin 100000) (j : Fin 128) :
    (dat7 V c).arrAt 5 cfg7.N (ix2 n j)
      = lin2At (V c main_v157_0) (V c main_v184) (V c main_v185) (V c main_v181) (V c main_v186) n j := by
  obtain ⟨u, hu⟩ : ∃ u : Fin cfg7.N, u.val = n.val / 5000 := ⟨⟨n.val / 5000, by show _ < grid7.N; rw [N_7]; omega⟩, rfl⟩
  refine (dat7 V c).arrAt_apply_of_mem 5 (lin2Arr _ _ _ _ _) (fun t _ => ?_) _ u _ u.isLt (flush7_5 u) ?_
  · have e := (idxFacts7 t).1
    unfold Dat.flushed
    rw [after7_5, out1_5_eq]
    exact funext fun y => (congrArg _ (eq_ix2 y)).trans <| tile7 V c t (y 0) (y 1) _
      (by show win7_5.index t (0 : Fin 2) * 5000 + 1 * (y 0).val = 5000 * t.val + (y 0).val; omega)
      (Fin.ext (by show win7_5.index t (1 : Fin 2) * 128 + 1 * (y 1).val = (y 1).val; omega))
  · have e := (idxFacts7 u).1
    have h : ((cfg7.win 5).blk u).view.emb (ix2 ⟨n.val % 5000, Nat.mod_lt _ (by decide)⟩ j) = ix2 n j := Shape.idx_ext₂
      (by show win7_5.index u (0 : Fin 2) * 5000 + 1 * (n.val % 5000) = n.val; omega)
      (by show win7_5.index u (1 : Fin 2) * 128 + 1 * j.val = j.val; omega)
    exact h ▸ View.emb_mem_set _ _

end Cert.KernelIdeal.HandVal

end
-- ==== Proof.KI.Host6.lean ====
import proofs.«404458_j53163105190632_2_alg».proof.Proof.KI.HostLib
namespace Cert.KernelIdeal.HandVal
open Cert.KernelIdeal Cert.KernelIdeal.Gen
open Idealize.ShloMosaic Idealize.ShloMosaic.TcCoe Idealize.ShloMosaic.ValueIdx

variable (m : (ℓ : Loc nD τ sig) → Buf (Elt Ideal) ℓ) (outs : Outs (F := Ideal)) (c : Dev nD)

theorem V12_x : V12 m outs c main_v141 = outs 12 main_v141 c := Function.update_self ..
theorem V13_x : V13 m outs c main_v141 = outs 12 main_v141 c :=
  (V13_of m outs c main_v141 (by decide)).trans (V12_x m outs c)

theorem V13_agg : V13 m outs c main_v151 = aggK (outs 12 main_v141 c) (m ((c : Thread nD τ).loc main_arg1)) := by
  after_results_simp
  rw [V12_x m outs c, V12_src m outs c, V12_dst m outs c]
  rfl

theorem V13_w1 (k j : Fin 128) :
    (V13 m outs c main_v153 : S128x128.Idx → EReal) (ix2 k j) = m ((c : Thread nD τ).loc main_arg3) (ix3 (3 : Fin 4) k j) := by
  after_results_simp
  rw [keep12 m outs c main_arg3 (by decide)]
  exact mat_layer_apply _ 3 (3 : Fin 4) rfl _ _ k j

theorem V13_b1 (j : Fin 128) :
    (V13 m outs c main_v156 : S1x128.Idx → EReal) (ix2 0 j) = m ((c : Thread nD τ).loc main_arg4) (ix2 (3 : Fin 4) j) := by
  after_results_simp
  rw [keep12 m outs c main_arg4 (by decide)]
  exact row_layer_apply _ 3 (3 : Fin 4) rfl _ _ _ 0 j

end Cert.KernelIdeal.HandVal
-- ==== Proof.KI.Host7.lean ====
import proofs.«404458_j53163105190632_2_alg».proof.Proof.KI.HostLib
namespace Cert.KernelIdeal.HandVal
open Cert.KernelIdeal Cert.KernelIdeal.Gen
open Idealize.ShloMosaic Idealize.ShloMosaic.TcCoe Idealize.ShloMosaic.ValueIdx

variable (m : (ℓ : Loc nD τ sig) → Buf (Elt Ideal) ℓ) (outs : Outs (F := Ideal)) (c : Dev nD)

theorem V14_s2 : V14 m outs c main_v157_2 = outs 14 main_v157_2 c := Function.update_self ..
theorem V14_s1 : V14 m outs c main_v157_1 = outs 14 main_v157_1 c :=
  (Function.update_of_ne (StableHlo.devRef_ne_of_ne (by decide)) ..).trans (Function.update_self ..)
theorem V14_lin : V14 m outs c main_v157_0 = outs 14 main_v157_0 c :=
  (Function.update_of_ne (StableHlo.devRef_ne_of_ne (by decide)) ..).trans <|
    (Function.update_of_ne (StableHlo.devRef_ne_of_ne (by decide)) ..).trans (Function.update_self ..)
theorem V15_lin : V15 m outs c main_v157_0 = outs 14 main_v157_0 c :=
  (V15_of m outs c main_v157_0 (by decide)).trans (V14_lin m outs c)

/-- The scale row is the scale vector of the layer's slice of γ and the two statistics arrays, read at a column. -/
theorem V15_scale (j : Fin 128) :
    (V15 m outs c main_v184 : S1x128.Idx → EReal) (ix2 0 j)
      = bnScale (m ((c : Thread nD τ).loc main_arg5) (ix2 (3 : Fin 4) j)) (outs 14 main_v157_1 c) (outs 14 main_v157_2 c) j := by
  after_results_simp
  rw [V14_s1 m outs c, V14_s2 m outs c, keep14 m outs c main_arg5 (by decide)]
  exact (shapeCast_a_1a_apply _ _ 0 j).trans
    ((scaleVec_apply _ _ _ j).trans (congrArg (bnScale · _ _ j) (vec_layer_apply _ 3 (3 : Fin 4) rfl _ _ j)))

theorem V15_shift (j : Fin 128) :
    (V15 m outs c main_v185 : S1x128.Idx → EReal) (ix2 0 j)
      = bnShift (m ((c : Thread nD τ).loc main_arg6) (ix2 (3 : Fin 4) j)) (m ((c : Thread nD τ).loc main_arg5) (ix2 (3 : Fin 4) j))
          (outs 14 main_v157_1 c) (outs 14 main_v157_2 c) j := by
  after_results_simp
  rw [V14_s1 m outs c, V14_s2 m outs c, keep14 m outs c main_arg5 (by decide), keep14 m outs c main_arg6 (by decide)]
  exact (shapeCast_a_1a_apply _ _ 0 j).trans
    ((shiftVec_apply _ _ _ _ j).trans (congrArg₂ (bnShift · · _ _ j) (vec_layer_apply _ 3 (3 : Fin 4) rfl _ _ j)
      (vec_layer_apply _ 3 (3 : Fin 4) rfl _ _ j)))

theorem V15_w2 (k j : Fin 128) :
    (V15 m outs c main_v181 : S128x128.Idx → EReal) (ix2 k j) = m ((c : Thread nD τ).loc main_arg7) (ix3 (3 : Fin 4) k j) := by
  after_results_simp
  rw [keep14 m outs c main_arg7 (by decide)]
  exact mat_layer_apply _ 3 (3 : Fin 4) rfl _ _ k j

theorem V15_b2 (j : Fin 128) :
    (V15 m outs c main_v186 : S1x128.Idx → EReal) (ix2 0 j) = m ((c : Thread nD τ).loc main_arg8) (ix2 (3 : Fin 4) j) := by
  after_results_simp
  rw [keep14 m outs c main_arg8 (by decide)]
  exact row_layer_apply _ 3 (3 : Fin 4) rfl _ _ _ 0 j

end Cert.KernelIdeal.HandVal
-- ==== Proof.KI.Layer3.lean ====
import proofs.«404458_j53163105190632_2_alg».proof.Proof.KI.RunW
import proofs.«404458_j53163105190632_2_alg».proof.Proof.KI.V6
import proofs.«404458_j53163105190632_2_alg».proof.Proof.KI.V7
import proofs.«404458_j53163105190632_2_alg».proof.Proof.KI.Host6
import proofs.«404458_j53163105190632_2_alg».proof.Proof.KI.Host7
import proofs.«404458_j53163105190632_2_alg».proof.Proof.KI.LayerLib

noncomputable section
open scoped BigOperators

namespace Cert.KernelIdeal.HandVal

open Cert.KernelIdeal Cert.KernelIdeal.Gen Cert.KernelIdeal.Hand
open Idealize.ShloMosaic Idealize.ShloMosaic.TcCoe Idealize.ShloMosaic.ValueIdx

variable (m : (ℓ : Loc nD τ sig) → Buf (Elt Ideal) ℓ) (c : Dev nD)

theorem input3 : outs m 12 main_v141 c = W12 m c main_v141 := (V12_x m (outs m) c).symm

theorem lin_kept3 : Vr15 m c main_v157_0 = outs m 14 main_v157_0 c := V15_lin m (outs m) c

theorem lin_left3 : outs m 14 main_v157_0 c = (dat6 (Vr13 m) c).arrAt 4 cfg6.N :=
  (V14_lin m (outs m) c).symm.trans (W14_main_v157_0 m c)
theorem sums_left3 : outs m 14 main_v157_1 c = (dat6 (Vr13 m) c).arrAt 5 cfg6.N :=
  (V14_s1 m (outs m) c).symm.trans (W14_main_v157_1 m c)
theorem sumsq_left3 : outs m 14 main_v157_2 c = (dat6 (Vr13 m) c).arrAt 6 cfg6.N :=
  (V14_s2 m (outs m) c).symm.trans (W14_main_v157_2 m c)

theorem layer3_value :
    toMat (W16 m c main_v187) = Cert.Spec.layerK (toMat (W12 m c main_v141))
      (toMat (aggK (W12 m c main_v141) (m ((c : Thread nD τ).loc main_arg1))))
      (fun k j => m ((c : Thread nD τ).loc main_arg3) (ix3 (3 : Fin 4) k j)) (fun j => m ((c : Thread nD τ).loc main_arg4) (ix2 (3 : Fin 4) j))
      (fun j => m ((c : Thread nD τ).loc main_arg5) (ix2 (3 : Fin 4) j)) (fun j => m ((c : Thread nD τ).loc main_arg6) (ix2 (3 : Fin 4) j))
      (fun k j => m ((c : Thread nD τ).loc main_arg7) (ix3 (3 : Fin 4) k j)) (fun j => m ((c : Thread nD τ).loc main_arg8) (ix2 (3 : Fin 4) j)) := by
  refine layerK_of_arrays
    (Vr13 m c main_v141 : Vec Ideal S100000x128 .f32) (Vr13 m c main_v151 : Vec Ideal S100000x128 .f32)
    (Vr13 m c main_v153 : Vec Ideal S128x128 .f32) (Vr13 m c main_v156 : Vec Ideal S1x128 .f32)
    (outs m 14 main_v157_0 c : Vec Ideal S100000x128 .f32) (outs m 14 main_v157_1 c : Vec Ideal S20x8x128 .f32)
    (outs m 14 main_v157_2 c : Vec Ideal S20x8x128 .f32)
    (Vr15 m c main_v184 : Vec Ideal S1x128 .f32) (Vr15 m c main_v185 : Vec Ideal S1x128 .f32)
    (Vr15 m c main_v181 : Vec Ideal S128x128 .f32) (Vr15 m c main_v186 : Vec Ideal S1x128 .f32)
    (W16 m c main_v187 : Vec Ideal S100000x128 .f32) _ _ _ _ _ _ _ _
    (fun n k => congrFun ((V13_x m (outs m) c).trans (input3 m c)) (ix2 n k))
    (fun n k => congrFun ((V13_agg m (outs m) c).trans
      (congrArg (fun x => aggK x (m ((c : Thread nD τ).loc main_arg1))) (input3 m c))) (ix2 n k))
    (V13_w1 m (outs m) c) (V13_b1 m (outs m) c)
    (fun n j => (congrFun (lin_left3 m c) (ix2 n j)).trans (final6_4 (Vr13 m) c n j))
    (fun t j => (congrFun (sums_left3 m c) (ix3 t 0 j)).trans (final6_5 (Vr13 m) c t 0 j))
    (fun t j => (congrFun (sumsq_left3 m c) (ix3 t 0 j)).trans (final6_6 (Vr13 m) c t 0 j))
    (V15_scale m (outs m) c) (V15_shift m (outs m) c) (V15_w2 m (outs m) c) (V15_b2 m (outs m) c)
    (fun n j => (congrFun (W16_main_v187 m c) (ix2 n j)).trans ((final7_5 (Vr15 m) c n j).trans ?_))
  rw [lin_kept3 m c]
  rfl

end Cert.KernelIdeal.HandVal

end
-- ==== Proof.KI.Host8.lean ====
import proofs.«404458_j53163105190632_2_alg».proof.Proof.KI.HostLib
namespace Cert.KernelIdeal.HandVal
open Cert.KernelIdeal Cert.KernelIdeal.Gen
open Idealize.ShloMosaic Idealize.ShloMosaic.TcCoe Idealize.ShloMosaic.ValueIdx

variable (m : (ℓ : Loc nD τ sig) → Buf (Elt Ideal) ℓ) (outs : Outs (F := Ideal)) (c : Dev nD)

private theorem at0 (z : ℕ) : z = 0 + z * (0 + 1) := by omega

/-- A pad that only appends rows reads the operand on the operand's rows and the padding value on the rows appended. -/
theorem pad_rows_apply {α : Type} {a b e t0 : ℕ} (x : (⟨2, ![a, b]⟩ : Shape).Idx → α) {u : Shape} (v : u.Idx → α)
    (h : (⟨2, ![a, b]⟩ : Shape).Pads ![0, 0] ![e, 0] ![0, 0] ⟨2, ![t0, b]⟩) (hu : 0 < u.numel) (n : Fin t0) (d : Fin b) :
    pad ⟨2, ![t0, b]⟩ ![0, 0] ![e, 0] ![0, 0] x v h hu (ix2 n d)
      = if hn : n.val < a then x (ix2 ⟨n.val, hn⟩ d) else v (Shape.Idx.first hu) := by
  by_cases hn : n.val < a
  · rw [dif_pos hn]
    exact pad_apply_of_inside _ _ _ x v h hu _ (ix2 ⟨n.val, hn⟩ d) (fun ax => by
      match ax with
      | ⟨0, _⟩ | ⟨1, _⟩ => exact at0 _)
  · rw [dif_neg hn]
    exact pad_apply_of_not_inside _ _ _ x v h hu _ (0 : Fin 2)
      (fun hin => hn (by simpa using (hin.2.2 : (n.val - 0) / (0 + 1) < a)))

theorem pad_tail_apply {α : Type} {a e t0 : ℕ} (x : (⟨1, ![a]⟩ : Shape).Idx → α) {u : Shape} (v : u.Idx → α)
    (h : (⟨1, ![a]⟩ : Shape).Pads ![0] ![e] ![0] ⟨1, ![t0]⟩) (hu : 0 < u.numel) (n : Fin t0) :
    pad ⟨1, ![t0]⟩ ![0] ![e] ![0] x v h hu (ix1 n)
      = if hn : n.val < a then x (ix1 ⟨n.val, hn⟩) else v (Shape.Idx.first hu) := by
  by_cases hn : n.val < a
  · rw [dif_pos hn]
    exact pad_apply_of_inside _ _ _ x v h hu _ (ix1 ⟨n.val, hn⟩) (fun ax => by
      match ax with
      | ⟨0, _⟩ => exact at0 _)
  · rw [dif_neg hn]
    exact pad_apply_of_not_inside _ _ _ x v h hu _ (0 : Fin 1)
      (fun hin => hn (by simpa using (hin.2.2 : (n.val - 0) / (0 + 1) < a)))

theorem V16_v187 : V16 m outs c main_v187 = outs 16 main_v187 c := Function.update_self ..

/-- The appended rows hold the integer zero converted to a float, which is zero. -/
theorem V21_xpad (n : Fin 102400) (d : Fin 128) :
    (V21 m outs c main_v188 : S102400x128.Idx → EReal) (ix2 n d)
      = if h : n.val < 100000 then (outs 16 main_v187 c : S100000x128.Idx → EReal) (ix2 ⟨n.val, h⟩ d) else (0 : EReal) := by
  after_results_simp
  simp only [StableHlo.TRef.ofBuf, StableHlo.TRef.toBuf, cast_eq]
  rw [V16_v187, pad_rows_apply]
  exact dite_congr rfl (fun _ => rfl) fun _ => by
    show ((((0#32 : BitVec 32).toInt : ℤ) : ℝ) : EReal) = 0
    simp

theorem V21_ids (n : Fin 102400) :
    (V21 m outs c main_v190 : S1x102400.Idx → BitVec 32) (ix2 0 n)
      = if h : n.val < 100000 then (m ((c : Thread nD τ).loc main_arg2) : S100000.Idx → BitVec 32) (ix1 ⟨n.val, h⟩)
        else 4294967295#32 := by
  after_results_simp
  simp only [StableHlo.TRef.ofBuf, StableHlo.TRef.toBuf, cast_eq, id]
  rw [keep16 m outs c main_arg2 (by decide)]
  exact (shapeCast_a_1a_apply _ _ 0 n).trans (pad_tail_apply _ _ _ _ n)

theorem V21_b1 (j : Fin 128) :
    (V21 m outs c main_v191 : S1x128.Idx → EReal) (ix2 0 j) = (m ((c : Thread nD τ).loc main_arg10) : S128.Idx → EReal) (ix1 j) := by
  after_results_simp
  rw [keep16 m outs c main_arg10 (by decide)]
  exact shapeCast_a_1a_apply _ _ 0 j

theorem V21_b2 (o : Fin 32) :
    (V21 m outs c main_v192 : S1x32.Idx → EReal) (ix2 0 o) = (m ((c : Thread nD τ).loc main_arg12) : S32.Idx → EReal) (ix1 o) := by
  after_results_simp
  rw [keep16 m outs c main_arg12 (by decide)]
  exact shapeCast_a_1a_apply _ _ 0 o

theorem V21_w1 : V21 m outs c main_arg9 = m ((c : Thread nD τ).loc main_arg9) := keep21 m outs c main_arg9 (by decide)
theorem V21_w2 : V21 m outs c main_arg11 = m ((c : Thread nD τ).loc main_arg11) := keep21 m outs c main_arg11 (by decide)

end Cert.KernelIdeal.HandVal
-- ==== Proof.KI.TailPool.lean ====
import proofs.«404458_j53163105190632_2_alg».proof.Proof.Gen.KernelIdeal.Points
import proofs.«404458_j53163105190632_2_alg».proof.Proof.Gen.KernelIdeal.Launch
import proofs.«404458_j53163105190632_2_alg».proof.Proof.Spec
import proofs.«404458_j53163105190632_2_alg».proof.Proof.KI.Pay8
import proofs.«404458_j53163105190632_2_alg».proof.Proof.Alg.Sums
import Idealize.ShloMosaic.Lib.Pipeline.Value
import Idealize.ShloMosaic.Lib.ValueIdx

noncomputable section
open scoped BigOperators

namespace Cert.KernelIdeal.HandVal

open Cert.KernelIdeal Cert.KernelIdeal.Gen
open Idealize.ShloMosaic Idealize.ShloMosaic.TcCoe Idealize.ShloMosaic.ValueIdx
open Idealize.ShloMosaic.Pipeline (Dat)

/-- Block indices at point `t`: the padded rows sit at row block `t`, the padded ids at column block `t`, the other five windows at their one block. -/
theorem pool_index_facts : ∀ t : Fin cfg8.N,
    (win8_0.index t (0 : Fin 2) = t.val ∧ win8_0.index t (1 : Fin 2) = 0
    ∧ win8_1.index t (0 : Fin 2) = 0 ∧ win8_1.index t (1 : Fin 2) = t.val)
    ∧ (∀ a, win8_2.index t a = 0) ∧ (∀ a, win8_3.index t a = 0) ∧ (∀ a, win8_4.index t a = 0)
    ∧ (∀ a, win8_5.index t a = 0) ∧ ∀ a, win8_6.index t a = 0 :=
  (by decide +kernel : ∀ t : Fin grid8.N, _)

variable (c : Dev nD)

/-- Row `k` of the block of padded rows at point `t` is row `12800 t + k` of the array. -/
theorem rows_block_apply (X : Buf (Elt Ideal) ((c : Thread nD τ).loc main_v188)) (t : Fin cfg8.N) (k : Fin 12800) (d : Fin 128)
    (n : Fin 102400) (hn : n.val = 12800 * t.val + k.val) :
    (((cfg8.win 0).blk t).view.read (Elt Ideal) X : Vec Ideal S12800x128 .f32) (ix2 k d)
      = (X : Vec Ideal S102400x128 .f32) (ix2 n d) := by
  have e := (pool_index_facts t).1
  exact congrArg X (Shape.idx_ext₂
    (by show win8_0.index t (0 : Fin 2) * 12800 + 1 * k.val = n.val; omega)
    (by show win8_0.index t (1 : Fin 2) * 128 + 1 * d.val = d.val; omega))

/-- Likewise entry `k` of the block of padded ids. -/
theorem ids_block_apply (I : Buf (Elt Ideal) ((c : Thread nD τ).loc main_v190)) (t : Fin cfg8.N) (k : Fin 12800)
    (n : Fin 102400) (hn : n.val = 12800 * t.val + k.val) :
    (((cfg8.win 1).blk t).view.read (Elt Ideal) I : Vec Ideal S1x12800 .i32) (ix2 0 k)
      = (I : Vec Ideal S1x102400 .i32) (ix2 0 n) := by
  have e := (pool_index_facts t).1
  exact congrArg I (Shape.idx_ext₂
    (by show win8_1.index t (0 : Fin 2) * 1 + 1 * 0 = 0; omega)
    (by show win8_1.index t (1 : Fin 2) * 12800 + 1 * k.val = n.val; omega))

/-- Each parameter window's one block is its whole array. -/
theorem w1_block_eq (A : Buf (Elt Ideal) ((c : Thread nD τ).loc main_arg9)) (t : Fin cfg8.N) :
    (((cfg8.win 2).blk t).view.read (Elt Ideal) A : Vec Ideal S128x128 .f32) = (A : Vec Ideal S128x128 .f32) :=
  funext fun y => congrArg A (funext fun a => Fin.ext (win8_2.rect_emb_val_of_index_zero t a ((pool_index_facts t).2.1 a) y))

theorem b1_block_eq (A : Buf (Elt Ideal) ((c : Thread nD τ).loc main_v191)) (t : Fin cfg8.N) :
    (((cfg8.win 3).blk t).view.read (Elt Ideal) A : Vec Ideal S1x128 .f32) = (A : Vec Ideal S1x128 .f32) :=
  funext fun y => congrArg A (funext fun a => Fin.ext (win8_3.rect_emb_val_of_index_zero t a ((pool_index_facts t).2.2.1 a) y))

theorem w2_block_eq (A : Buf (Elt Ideal) ((c : Thread nD τ).loc main_arg11)) (t : Fin cfg8.N) :
    (((cfg8.win 4).blk t).view.read (Elt Ideal) A : Vec Ideal S128x32 .f32) = (A : Vec Ideal S128x32 .f32) :=
  funext fun y => congrArg A (funext fun a => Fin.ext (win8_4.rect_emb_val_of_index_zero t a ((pool_index_facts t).2.2.2.1 a) y))

theorem b2_block_eq (A : Buf (Elt Ideal) ((c : Thread nD τ).loc main_v192)) (t : Fin cfg8.N) :
    (((cfg8.win 5).blk t).view.read (Elt Ideal) A : Vec Ideal S1x32 .f32) = (A : Vec Ideal S1x32 .f32) :=
  funext fun y => congrArg A (funext fun a => Fin.ext (win8_5.rect_emb_val_of_index_zero t a ((pool_index_facts t).2.2.2.2.1 a) y))

/-- An accumulator that starts at zero and adds each point's one-hot sums holds the pooled rows after the 8 points. -/
theorem pool_acc_apply (X : Buf (Elt Ideal) ((c : Thread nD τ).loc main_v188)) (I : Buf (Elt Ideal) ((c : Thread nD τ).loc main_v190))
    (x : Cert.Spec.Mat 100000 128) (ids : Fin 100000 → BitVec 32)
    (hX : ∀ n d, (X : Vec Ideal S102400x128 .f32) (ix2 n d) = Cert.Spec.padRows x n d)
    (hI : ∀ n, (I : Vec Ideal S1x102400 .i32) (ix2 0 n) = Cert.Spec.padIds ids n)
    (acc : ℕ → Vec Ideal S128x128 .f32) (h0 : acc 0 = k8_pay1 (F := Ideal))
    (hs : ∀ n, acc (n + 1) = if h : n < cfg8.N then
        k8_pay2 (F := Ideal) (((cfg8.win 1).blk ⟨n, h⟩).view.read (Elt Ideal) I)
          (((cfg8.win 0).blk ⟨n, h⟩).view.read (Elt Ideal) X) (acc n)
      else acc n)
    (g d : Fin 128) : acc cfg8.N (ix2 g d) = Cert.Spec.poolK x ids g d := by
  have hN : cfg8.N = 8 := N_8
  let a : ℕ → EReal := fun t => if h : t < 8 then
      ∑ k : Fin 12800, (if Cert.Spec.padIds ids (Cert.Spec.blockRow ⟨t, h⟩ k) = BitVec.ofNat 32 g.val then (1 : EReal) else 0)
        * Cert.Spec.padRows x (Cert.Spec.blockRow ⟨t, h⟩ k) d
    else 0
  have hacc : ∀ T, acc T (ix2 g d) = ∑ t ∈ Finset.range T, a t :=
    Cert.Alg.acc_eq_sum (fun n => acc n (ix2 g d)) a (by show acc 0 (ix2 g d) = 0; rw [h0]; exact k8_pay1_apply g d)
      (fun t => by
        show acc (t + 1) (ix2 g d) = acc t (ix2 g d) + a t
        rw [hs t]
        by_cases h : t < cfg8.N
        · have h8 : t < 8 := lt_of_lt_of_eq h hN
          rw [dif_pos h, k8_pay2_apply]
          show _ = acc t (ix2 g d) + (if h : t < 8 then _ else 0)
          rw [dif_pos h8]
          refine congrArg (acc t (ix2 g d) + ·) (Finset.sum_congr rfl fun k _ => ?_)
          rw [ids_block_apply c I ⟨t, h⟩ k (Cert.Spec.blockRow ⟨t, h8⟩ k) rfl,
            rows_block_apply c X ⟨t, h⟩ k d (Cert.Spec.blockRow ⟨t, h8⟩ k) rfl, hI, hX]
        · have h8 : ¬ t < 8 := fun h' => h (lt_of_lt_of_eq h' hN.symm)
          rw [dif_neg h]
          show _ = acc t (ix2 g d) + (if h : t < 8 then _ else 0)
          rw [dif_neg h8, add_zero])
  rw [hacc, show Finset.range cfg8.N = Finset.range 8 from by rw [hN], Finset.sum_range]
  unfold Cert.Spec.poolK
  refine Finset.sum_congr rfl fun t _ => ?_
  show (if h : t.val < 8 then _ else 0) = _
  rw [dif_pos t.isLt]

/-- The head's payload on arrays read as the pooled rows, weights and biases is the two-layer head. -/
theorem head_apply (P W1 : Vec Ideal S128x128 .f32) (B1 : Vec Ideal S1x128 .f32) (W2 : Vec Ideal S128x32 .f32) (B2 : Vec Ideal S1x32 .f32)
    (p w1 : Cert.Spec.Mat 128 128) (b1 : Fin 128 → EReal) (w2 : Cert.Spec.Mat 128 32) (b2 : Fin 32 → EReal)
    (hP : ∀ g k, P (ix2 g k) = p g k) (hW1 : ∀ k j, W1 (ix2 k j) = w1 k j) (hB1 : ∀ j, B1 (ix2 0 j) = b1 j)
    (hW2 : ∀ j o, W2 (ix2 j o) = w2 j o) (hB2 : ∀ o, B2 (ix2 0 o) = b2 o) (g : Fin 128) (o : Fin 32) :
    k8_pay3 (F := Ideal) P W1 B1 W2 B2 (ix2 g o) = Cert.Spec.head p w1 b1 w2 b2 g o := by
  rw [k8_pay3_apply]
  unfold Cert.Spec.head
  simp only [hP, hW1, hB1, hW2, hB2]

abbrev lastPt8 : Fin cfg8.N := ⟨7, by decide⟩

/-- The result array after the 8 points is the last point's result: that point's block is the whole array. -/
theorem final8_of (dat : Dat τ (Elt Ideal) Unit ℕ (UR sig nD τ) ℕ cfg8 c) :
    dat.arrAt 6 cfg8.N = (dat.after 6 lastPt8 : Vec Ideal S128x32 .f32) := by
  have hemb (j : S128x32.Idx) : ((cfg8.win 6).blk lastPt8).view.emb j = j :=
    funext fun a => Fin.ext (win8_6.rect_emb_val_of_index_zero lastPt8 a ((pool_index_facts lastPt8).2.2.2.2.2 a) j)
  refine dat.arrAt_eq_of_cover 6 _ (fun t ht => ?_)
    fun i => ⟨lastPt8, (flush8_6 lastPt8).mpr rfl, hemb i ▸ View.emb_mem_set _ i⟩
  have ht8 : t.val < 8 := lt_of_lt_of_eq t.isLt N_8
  obtain rfl : t = lastPt8 := Fin.ext (by show t.val = 7; have := (flush8_6 t).mp ht; omega)
  exact funext fun j => congrArg (dat.after 6 lastPt8) (hemb j).symm

end Cert.KernelIdeal.HandVal

end
-- ==== Proof.KI.Tail8.lean ====
import proofs.«404458_j53163105190632_2_alg».proof.Proof.KI.R8b
import proofs.«404458_j53163105190632_2_alg».proof.Proof.KI.TailPool

noncomputable section
open scoped BigOperators

namespace Cert.KernelIdeal.HandVal

open Cert.KernelIdeal Cert.KernelIdeal.Gen Cert.KernelIdeal.Hand
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The last point's result is the head's payload on the accumulator after the 8 points and on the whole parameter arrays. -/
theorem last_after8 (c : Dev nD) :
    ((dat8 V c).after 6 lastPt8 : Vec Ideal S128x32 .f32)
      = k8_pay3 (F := Ideal) (acc8 V c 8) (V c main_arg9) (V c main_v191) (V c main_arg11) (V c main_v192) := by
  rw [after8_6, out8_6_eq]
  have e2 : (iblk8 V c 2 lastPt8 : Vec Ideal S128x128 .f32) = V c main_arg9 := w1_block_eq c (V c main_arg9) lastPt8
  have e3 : (iblk8 V c 3 lastPt8 : Vec Ideal S1x128 .f32) = V c main_v191 := b1_block_eq c (V c main_v191) lastPt8
  have e4 : (iblk8 V c 4 lastPt8 : Vec Ideal S128x32 .f32) = V c main_arg11 := w2_block_eq c (V c main_arg11) lastPt8
  have e5 : (iblk8 V c 5 lastPt8 : Vec Ideal S1x32 .f32) = V c main_v192 := b2_block_eq c (V c main_v192) lastPt8
  rw [e2, e3, e4, e5]

/-- The result array after the pooling region is the head of the pooling of the arrays its padded inputs come from. -/
theorem tail8 (c : Dev nD) (x : Cert.Spec.Mat 100000 128) (ids : Fin 100000 → BitVec 32)
    (w1 : Cert.Spec.Mat 128 128) (b1 : Fin 128 → EReal) (w2 : Cert.Spec.Mat 128 32) (b2 : Fin 32 → EReal)
    (hX : ∀ n d, (V c main_v188 : Vec Ideal S102400x128 .f32) (ix2 n d) = Cert.Spec.padRows x n d)
    (hI : ∀ n, (V c main_v190 : Vec Ideal S1x102400 .i32) (ix2 0 n) = Cert.Spec.padIds ids n)
    (hW1 : ∀ k j, (V c main_arg9 : Vec Ideal S128x128 .f32) (ix2 k j) = w1 k j)
    (hB1 : ∀ j, (V c main_v191 : Vec Ideal S1x128 .f32) (ix2 0 j) = b1 j)
    (hW2 : ∀ j o, (V c main_arg11 : Vec Ideal S128x32 .f32) (ix2 j o) = w2 j o)
    (hB2 : ∀ o, (V c main_v192 : Vec Ideal S1x32 .f32) (ix2 0 o) = b2 o) :
    (fun g o => ((dat8 V c).arrAt 6 cfg8.N : Vec Ideal S128x32 .f32) (ix2 g o))
      = Cert.Spec.head (Cert.Spec.poolK x ids) w1 b1 w2 b2 := by
  funext g o
  rw [final8_of c (dat8 V c), last_after8]
  refine head_apply _ _ _ _ _ _ _ _ _ _ (fun g k => ?_) hW1 hB1 hW2 hB2 g o
  have h := pool_acc_apply c (V c main_v188) (V c main_v190) x ids hX hI (acc8 V c) (acc8_zero V c) (fun n => rfl) g k
  rwa [show cfg8.N = 8 from N_8] at h

end Cert.KernelIdeal.HandVal

end
-- ==== Proof.KI.Tail.lean ====
import proofs.«404458_j53163105190632_2_alg».proof.Proof.KI.RunW
import proofs.«404458_j53163105190632_2_alg».proof.Proof.KI.Host8
import proofs.«404458_j53163105190632_2_alg».proof.Proof.KI.Tail8

noncomputable section
open scoped BigOperators

namespace Cert.KernelIdeal.HandVal

open Cert.KernelIdeal Cert.KernelIdeal.Gen Cert.KernelIdeal.Hand
open Idealize.ShloMosaic Idealize.ShloMosaic.TcCoe Idealize.ShloMosaic.ValueIdx
open Idealize.ShloMosaic.Pipeline (Dat)

variable (m : (ℓ : Loc nD τ sig) → Buf (Elt Ideal) ℓ) (c : Dev nD)

/-- The last layer's result at the boundary after it. -/
theorem outs16_v187 : outs m 16 main_v187 c = W16 m c main_v187 :=
  (V16_v187 m (outs m) c).symm.trans (congrFun (V16_eq m c) _)

theorem Vr21_eq (b : Ref sig .tc) : Vr21 m c b = V21 m (outs m) c b := (congrFun (V21_eq m c) _).symm

/-- The program's result array is the head, over its head parameters, of the pooling by its graph ids of the last layer's result. -/
theorem tail_value :
    (fun (g : Fin 128) (o : Fin 32) => (W22 m c main_v193 : Vec Ideal S128x32 .f32) (ix2 g o))
      = Cert.Spec.head
          (Cert.Spec.poolK (fun n d => (W16 m c main_v187 : Vec Ideal S100000x128 .f32) (ix2 n d))
            (fun n => (m ((c : Thread nD τ).loc main_arg2) : S100000.Idx → BitVec 32) (ix1 n)))
          (fun k j => (m ((c : Thread nD τ).loc main_arg9) : Vec Ideal S128x128 .f32) (ix2 k j))
          (fun j => (m ((c : Thread nD τ).loc main_arg10) : Vec Ideal S128 .f32) (ix1 j))
          (fun j o => (m ((c : Thread nD τ).loc main_arg11) : Vec Ideal S128x32 .f32) (ix2 j o))
          (fun o => (m ((c : Thread nD τ).loc main_arg12) : Vec Ideal S32 .f32) (ix1 o)) := by
  rw [W22_main_v193]
  refine tail8 (Vr21 m) c _ _ _ _ _ _ (fun n d => ?_) (fun n => ?_) (fun k j => ?_) (fun j => ?_) (fun j o => ?_) (fun o => ?_)
  · rw [Vr21_eq m c main_v188]
    show (V21 m (outs m) c main_v188 : S102400x128.Idx → EReal) (ix2 n d) = _
    rw [V21_xpad, outs16_v187]
    rfl
  · rw [Vr21_eq m c main_v190]
    show (V21 m (outs m) c main_v190 : S1x102400.Idx → BitVec 32) (ix2 0 n) = _
    rw [V21_ids]
    rfl
  · rw [Vr21_eq m c main_arg9]
    show (V21 m (outs m) c main_arg9 : S128x128.Idx → EReal) (ix2 k j) = _
    rw [V21_w1]
  · rw [Vr21_eq m c main_v191]
    show (V21 m (outs m) c main_v191 : S1x128.Idx → EReal) (ix2 0 j) = _
    rw [V21_b1]
  · rw [Vr21_eq m c main_arg11]
    show (V21 m (outs m) c main_arg11 : S128x32.Idx → EReal) (ix2 j o) = _
    rw [V21_w2]
  · rw [Vr21_eq m c main_v192]
    show (V21 m (outs m) c main_v192 : S1x32.Idx → EReal) (ix2 0 o) = _
    rw [V21_b2]

end Cert.KernelIdeal.HandVal

end
-- ==== Proof.Ref.ReadTail.lean ====
import proofs.«404458_j53163105190632_2_alg».proof.Proof.Ref.Defs
import proofs.«404458_j53163105190632_2_alg».proof.Proof.Spec
import proofs.«404458_j53163105190632_2_alg».proof.Proof.Alg.Ops
import Idealize.ShloMosaic.Lib.ValueIdx
import Idealize.ShloMosaic.Lib.ValueLayout
import Idealize.ShloMosaic.Lib.Pipeline.Value
import Idealize.ShloMosaic.Lib.StackMember
import Idealize.ShloMosaic.PureOps.Ideal.Laws

noncomputable section
namespace Cert.ReferenceIdeal.HandVal
open Cert.ReferenceIdeal Cert.ReferenceIdeal.Gen Cert.ReferenceIdeal.Hand
open Idealize.ShloMosaic Idealize.ShloMosaic.ValueIdx
open scoped BigOperators

theorem bcast_batch_apply (batch : Vec Ideal S100000 .i32) (n : Fin 100000) (z : Fin 1) :
    broadcastInDim S100000x1 ![0] bcast_S100000_S100000x1_0 batch (ix2 n z) = batch (ix1 n) := by
  unfold broadcastInDim
  congr 1
  funext a
  match a with
  | ⟨0, _⟩ => rfl

theorem pool_start0 (idx : IVec S100000x1 32) (n : Fin 100000) (c : Fin 128) :
    scatter_S128x128_S100000x1_S100000x128_1_0_0_1.start (ix2 n c) idx 0 = (idx (ix2 n 0)).toInt := by
  unfold ScatterDims.start
  rw [dif_pos (show (0 : Fin 2) ∈ scatter_S128x128_S100000x1_S100000x128_1_0_0_1.scatterDimsToOperandDims from List.mem_singleton.mpr rfl)]
  congr 2
  funext b
  match b with
  | ⟨0, _⟩ => rfl
  | ⟨1, _⟩ => rfl

theorem pool_start1 (idx : IVec S100000x1 32) (j : S100000x128.Idx) :
    scatter_S128x128_S100000x1_S100000x128_1_0_0_1.start j idx 1 = 0 := by
  unfold ScatterDims.start
  rw [dif_neg (show ¬ (1 : Fin 2) ∈ scatter_S128x128_S100000x1_S100000x128_1_0_0_1.scatterDimsToOperandDims by decide)]

theorem pool_window0 (j : S100000x128.Idx) : scatter_S128x128_S100000x1_S100000x128_1_0_0_1.window j 0 = 0 := by
  unfold ScatterDims.window
  rw [dif_neg (show ¬ (0 : Fin 2) ∈ scatter_S128x128_S100000x1_S100000x128_1_0_0_1.sKept by decide)]

theorem pool_window1 (j : S100000x128.Idx) : scatter_S128x128_S100000x1_S100000x128_1_0_0_1.window j 1 = (j 1).val := by
  unfold ScatterDims.window
  rw [dif_pos (show (1 : Fin 2) ∈ scatter_S128x128_S100000x1_S100000x128_1_0_0_1.sKept by decide)]
  rfl

theorem toInt_eq_iff (w : BitVec 32) (g : ℕ) (hg : g < 128) : w.toInt = (g : Int) ↔ w = BitVec.ofNat 32 g := by
  constructor
  · intro h
    apply BitVec.eq_of_toNat_eq
    rw [BitVec.toNat_ofNat]
    have := w.isLt
    rw [BitVec.toInt_eq_toNat_cond] at h
    split at h <;> omega
  · rintro rfl
    rw [BitVec.toInt_eq_toNat_cond, BitVec.toNat_ofNat]
    have : g % 2 ^ 32 = g := Nat.mod_eq_of_lt (by omega)
    rw [this]; split <;> omega

theorem pool_sum0 (batch : Vec Ideal S100000 .i32) (n : Fin 100000) (c : Fin 128) :
    scatter_S128x128_S100000x1_S100000x128_1_0_0_1.start (ix2 n c) (broadcastInDim S100000x1 ![0] bcast_S100000_S100000x1_0 batch) 0 + (scatter_S128x128_S100000x1_S100000x128_1_0_0_1.window (ix2 n c) 0 : Int)
      = (batch (ix1 n)).toInt := by
  rw [pool_start0, pool_window0, bcast_batch_apply]; simp

theorem pool_sum1 (batch : Vec Ideal S100000 .i32) (n : Fin 100000) (c : Fin 128) :
    scatter_S128x128_S100000x1_S100000x128_1_0_0_1.start (ix2 n c) (broadcastInDim S100000x1 ![0] bcast_S100000_S100000x1_0 batch) 1 + (scatter_S128x128_S100000x1_S100000x128_1_0_0_1.window (ix2 n c) 1 : Int)
      = (c.val : Int) := by
  rw [pool_start1, pool_window1]; simp

/-- An update lands on an operand index exactly when, on every axis, its start plus its window coordinate is that index's. -/
theorem resultIdx?_eq_some {s si su : Shape} (D : ScatterDims s si su) {w : ℕ} (j : su.Idx) (idx : IVec si w) (i : s.Idx) :
    D.resultIdx? j idx = some i ↔ ∀ a, D.start j idx a + (D.window j a : ℤ) = (i a).val := by
  unfold ScatterDims.resultIdx?
  constructor
  · intro h a
    split at h
    · rename_i hall
      have := hall a
      have e : (D.start j idx a + (D.window j a : ℤ)).toNat = (i a).val := congrArg (fun f => (f a).val) (Option.some.inj h)
      omega
    · exact absurd h (by simp)
  · intro h
    rw [dif_pos fun a => by have := (i a).isLt; rw [h a]; omega]
    exact congrArg some (funext fun a => Fin.ext (by
      show (D.start j idx a + (D.window j a : ℤ)).toNat = (i a).val
      rw [h a]; rfl))

theorem pool_lands (batch : Vec Ideal S100000 .i32) (n : Fin 100000) (c g d : Fin 128) :
    scatter_S128x128_S100000x1_S100000x128_1_0_0_1.resultIdx? (ix2 n c) (broadcastInDim S100000x1 ![0] bcast_S100000_S100000x1_0 batch) = some (ix2 g d)
      ↔ (batch (ix1 n) = BitVec.ofNat 32 g.val ∧ c = d) := by
  rw [resultIdx?_eq_some, Fin.forall_fin_two, pool_sum0, pool_sum1, ← toInt_eq_iff _ _ g.isLt, Fin.ext_iff]
  exact and_congr_right' Nat.cast_inj

theorem zeros128_apply (i : S128x128.Idx) :
    broadcastInDim S128x128 ![] bcast_S_S128x128 (constant (F := Ideal) S_ .f32 0x00000000#32) i = 0 :=
  Cert.Alg.ofBits_zero

theorem refPool_apply (x : FVec Ideal S100000x128 .f32) (batch : Vec Ideal S100000 .i32) (g d : Fin 128) :
    refPool x batch (ix2 g d) = Cert.Spec.poolR (fun n k => x (ix2 n k)) (fun n => batch (ix1 n)) g d := by
  unfold refPool Host.scatterAdd
  rw [Ideal.hostScatterAdd_def]
  unfold Ideal.hostScatterAdd Cert.Spec.poolR
  simp only []
  rw [zeros128_apply, zero_add, Finset.sum_filter, sum_idx2]
  refine Finset.sum_congr rfl fun a _ => ?_
  rw [Finset.sum_congr rfl fun b _ => if_congr (pool_lands batch a b g d) rfl rfl]
  show _ = if batch (ix1 a) = BitVec.ofNat 32 g.val then x (ix2 a d) else 0
  by_cases hP : batch (ix1 a) = BitVec.ofNat 32 g.val <;> simp [hP]

theorem rows128_apply (v : FVec Ideal S128 .f32) (g j : Fin 128) :
    broadcastInDim S128x128 ![0, 1] bcast_S1x128_S128x128_0_1 (broadcastInDim S1x128 ![1] bcast_S128_S1x128_1 v) (ix2 g j)
      = v (ix1 j) :=
  (broadcastInDim_apply _ _ _ (ix2 g j) (ix2 (0 : Fin 1) j) (fun a => match a with | ⟨0, _⟩ => rfl | ⟨1, _⟩ => rfl)).trans
    (broadcastInDim_apply _ _ v (ix2 (0 : Fin 1) j) (ix1 j) (fun a => match a with | ⟨0, _⟩ => rfl))

theorem rows32_apply (v : FVec Ideal S32 .f32) (g : Fin 128) (o : Fin 32) :
    broadcastInDim S128x32 ![0, 1] bcast_S1x32_S128x32_0_1 (broadcastInDim S1x32 ![1] bcast_S32_S1x32_1 v) (ix2 g o)
      = v (ix1 o) :=
  (broadcastInDim_apply _ _ _ (ix2 g o) (ix2 (0 : Fin 1) o) (fun a => match a with | ⟨0, _⟩ => rfl | ⟨1, _⟩ => rfl)).trans
    (broadcastInDim_apply _ _ v (ix2 (0 : Fin 1) o) (ix1 o) (fun a => match a with | ⟨0, _⟩ => rfl))

theorem dot128_apply (A B : FVec Ideal S128x128 .f32) (g j : Fin 128) :
    Host.dotGeneral (F := Ideal) dot_S128x128_S128x128_S128x128_1_0_0_1_n_n none A B (ix2 g j)
      = ∑ k : Fin 128, A (ix2 g k) * B (ix2 k j) :=
  StackMember.dotGeneral_plain_apply (m := 128) (n := 128) (k := 128) none A B g j

theorem dot32_apply (A : FVec Ideal S128x128 .f32) (B : FVec Ideal S128x32 .f32) (g : Fin 128) (o : Fin 32) :
    Host.dotGeneral (F := Ideal) dot_S128x128_S128x32_S128x32_1_0_0_1_n_n none A B (ix2 g o)
      = ∑ k : Fin 128, A (ix2 g k) * B (ix2 k o) :=
  StackMember.dotGeneral_plain_apply (m := 128) (n := 32) (k := 128) none A B g o

theorem refHead1_apply (p a9 : FVec Ideal S128x128 .f32) (a10 : FVec Ideal S128 .f32) (g j : Fin 128) :
    refHead1 p a9 a10 (ix2 g j) = max ((∑ k : Fin 128, p (ix2 g k) * a9 (ix2 k j)) + a10 (ix1 j)) 0 := by
  show max (Host.dotGeneral (F := Ideal) dot_S128x128_S128x128_S128x128_1_0_0_1_n_n none p a9 (ix2 g j)
      + broadcastInDim S128x128 ![0, 1] bcast_S1x128_S128x128_0_1 (broadcastInDim S1x128 ![1] bcast_S128_S1x128_1 a10) (ix2 g j))
      (Ideal.ofBits .f32 0x00000000#32) = _
  rw [dot128_apply, rows128_apply, Cert.Alg.ofBits_zero]

theorem refTail_apply (x : FVec Ideal S100000x128 .f32) (batch : Vec Ideal S100000 .i32) (a9 : FVec Ideal S128x128 .f32)
    (a10 : FVec Ideal S128 .f32) (a11 : FVec Ideal S128x32 .f32) (a12 : FVec Ideal S32 .f32) :
    (fun (g : Fin 128) (o : Fin 32) => refTail x batch a9 a10 a11 a12 (ix2 g o))
      = Cert.Spec.head (Cert.Spec.poolR (fun n k => x (ix2 n k)) (fun n => batch (ix1 n)))
          (fun k j => a9 (ix2 k j)) (fun j => a10 (ix1 j)) (fun j o => a11 (ix2 j o)) (fun o => a12 (ix1 o)) := by
  funext g o
  show Host.dotGeneral (F := Ideal) dot_S128x128_S128x32_S128x32_1_0_0_1_n_n none (refHead1 (refPool x batch) a9 a10) a11 (ix2 g o)
      + broadcastInDim S128x32 ![0, 1] bcast_S1x32_S128x32_0_1 (broadcastInDim S1x32 ![1] bcast_S32_S1x32_1 a12) (ix2 g o) = _
  rw [dot32_apply, rows32_apply]
  simp only [refHead1_apply, refPool_apply]
  rfl

end Cert.ReferenceIdeal.HandVal
end
-- ==== Proof.Final.lean ====
import proofs.«404458_j53163105190632_2_alg».proof.Proof.FinalCore
import proofs.«404458_j53163105190632_2_alg».proof.Proof.KI.RunW
import proofs.«404458_j53163105190632_2_alg».proof.Proof.KI.Layer0
import proofs.«404458_j53163105190632_2_alg».proof.Proof.KI.Layer1
import proofs.«404458_j53163105190632_2_alg».proof.Proof.KI.Layer2
import proofs.«404458_j53163105190632_2_alg».proof.Proof.KI.Layer3
import proofs.«404458_j53163105190632_2_alg».proof.Proof.KI.Tail
import proofs.«404458_j53163105190632_2_alg».proof.Proof.Ref.ReadTail

noncomputable section

namespace Cert.Final

open Idealize.ShloMosaic Idealize.ShloMosaic.TcCoe Idealize.ShloMosaic.ValueIdx Idealize.SL.Sem
open Cert.Alg

theorem value_eq (m : (ℓ : Loc Cert.KernelIdeal.nD Cert.KernelIdeal.τ Cert.KernelIdeal.sig) → Buf (Elt Ideal) ℓ)
    (c : Dev Cert.KernelIdeal.nD)
    (a0 : FVec Ideal Cert.ReferenceIdeal.S100000x128 .f32) (a1 : Vec Ideal Cert.ReferenceIdeal.S2x1600000 .i32)
    (a2 : Vec Ideal Cert.ReferenceIdeal.S100000 .i32) (a3 : FVec Ideal Cert.ReferenceIdeal.S4x128x128 .f32)
    (a4 a5 a6 : FVec Ideal Cert.ReferenceIdeal.S4x128 .f32) (a7 : FVec Ideal Cert.ReferenceIdeal.S4x128x128 .f32)
    (a8 : FVec Ideal Cert.ReferenceIdeal.S4x128 .f32) (a9 : FVec Ideal Cert.ReferenceIdeal.S128x128 .f32)
    (a10 : FVec Ideal Cert.ReferenceIdeal.S128 .f32) (a11 : FVec Ideal Cert.ReferenceIdeal.S128x32 .f32)
    (a12 : FVec Ideal Cert.ReferenceIdeal.S32 .f32)
    (h0 : a0 = m ((c.tc : Thread Cert.KernelIdeal.nD Cert.KernelIdeal.τ).loc Cert.KernelIdeal.main_arg0))
    (h1 : a1 = m ((c.tc : Thread Cert.KernelIdeal.nD Cert.KernelIdeal.τ).loc Cert.KernelIdeal.main_arg1))
    (h2 : a2 = m ((c.tc : Thread Cert.KernelIdeal.nD Cert.KernelIdeal.τ).loc Cert.KernelIdeal.main_arg2))
    (h3 : a3 = m ((c.tc : Thread Cert.KernelIdeal.nD Cert.KernelIdeal.τ).loc Cert.KernelIdeal.main_arg3))
    (h4 : a4 = m ((c.tc : Thread Cert.KernelIdeal.nD Cert.KernelIdeal.τ).loc Cert.KernelIdeal.main_arg4))
    (h5 : a5 = m ((c.tc : Thread Cert.KernelIdeal.nD Cert.KernelIdeal.τ).loc Cert.KernelIdeal.main_arg5))
    (h6 : a6 = m ((c.tc : Thread Cert.KernelIdeal.nD Cert.KernelIdeal.τ).loc Cert.KernelIdeal.main_arg6))
    (h7 : a7 = m ((c.tc : Thread Cert.KernelIdeal.nD Cert.KernelIdeal.τ).loc Cert.KernelIdeal.main_arg7))
    (h8 : a8 = m ((c.tc : Thread Cert.KernelIdeal.nD Cert.KernelIdeal.τ).loc Cert.KernelIdeal.main_arg8))
    (h9 : a9 = m ((c.tc : Thread Cert.KernelIdeal.nD Cert.KernelIdeal.τ).loc Cert.KernelIdeal.main_arg9))
    (h10 : a10 = m ((c.tc : Thread Cert.KernelIdeal.nD Cert.KernelIdeal.τ).loc Cert.KernelIdeal.main_arg10))
    (h11 : a11 = m ((c.tc : Thread Cert.KernelIdeal.nD Cert.KernelIdeal.τ).loc Cert.KernelIdeal.main_arg11))
    (h12 : a12 = m ((c.tc : Thread Cert.KernelIdeal.nD Cert.KernelIdeal.τ).loc Cert.KernelIdeal.main_arg12))
    (hre : IsReal a0 ∧ IsReal a3 ∧ IsReal a4 ∧ IsReal a5 ∧ IsReal a6 ∧ IsReal a7 ∧ IsReal a8 ∧ IsReal a9 ∧ IsReal a10
        ∧ IsReal a11 ∧ IsReal a12) :
    (Cert.KernelIdeal.Hand.dat8 (Cert.KernelIdeal.Hand.Vr21 m) c).arrAt 6 Cert.KernelIdeal.cfg8.N
      = Cert.ReferenceIdeal.Hand.refOut a0 a1 a2 a3 a4 a5 a6 a7 a8 a9 a10 a11 a12 := by
  subst h0 h1 h2 h3 h4 h5 h6 h7 h8 h9 h10 h11 h12
  refine (Cert.KernelIdeal.Hand.W22_main_v193 m c).symm.trans ?_
  exact value_eq_of _ (Cert.KernelIdeal.Hand.W4 m c Cert.KernelIdeal.main_v49) (Cert.KernelIdeal.Hand.W8 m c Cert.KernelIdeal.main_v95)
    (Cert.KernelIdeal.Hand.W12 m c Cert.KernelIdeal.main_v141) (Cert.KernelIdeal.Hand.W16 m c Cert.KernelIdeal.main_v187)
    _ _ _ _ _ _ _ _ _ _ _ _ (Cert.KernelIdeal.Hand.W22 m c Cert.KernelIdeal.main_v193)
    (Cert.KernelIdeal.HandVal.layer0_value m c) (Cert.KernelIdeal.HandVal.layer1_value m c)
    (Cert.KernelIdeal.HandVal.layer2_value m c) (Cert.KernelIdeal.HandVal.layer3_value m c)
    (Cert.KernelIdeal.HandVal.tail_value m c)
    (fun x => Cert.ReferenceIdeal.HandVal.refTail_apply x _ _ _ _ _) hre

end Cert.Final

end
-- ==== Proof.PreFin.lean ====
import proofs.«404458_j53163105190632_2_alg».proof.Pre_finite_inputs
import proofs.«404458_j53163105190632_2_alg».proof.Proof.Alg.Coe
import Idealize.ShloMosaic.Lib.ReduceAll
import Idealize.ShloMosaic.Lib.ValueIdx
import Idealize.ShloMosaic.PureOps.Ideal

namespace Cert.PreFin

open Idealize.ShloMosaic Cert.Pre_finite_inputs

instance subsingleton_scalar_idx : Subsingleton S_.Idx := ⟨fun a b => funext fun d => d.elim0⟩

theorem inf_pattern : Ideal.ofBits .f32 0x7F800000#32 = (⊤ : EReal) := by
  simp [Ideal.ofBits, Ideal.ieee]

theorem real_of_abs_lt_top (x : EReal) (h : max x (-x) < ⊤) : ∃ r : ℝ, x = (r : EReal) := by
  induction x using EReal.rec with
  | bot => simp at h
  | coe r => exact ⟨r, rfl⟩
  | top => simp at h

theorem isReal_of_all {s : Shape} {axes : List (Fin s.rank)} (x : FVec Ideal s .f32)
    (bc : S_.BroadcastsInDim s (![] : Fin 0 → Fin s.rank)) (rd : s.ReducesTo axes S_) (hu : 0 < S_.numel)
    (e : Host.reduce IntOp.andi
          (cmpf .olt (Host.absf x) (broadcastInDim s ![] bc (constant S_ .f32 0x7F800000#32)))
          (constantI S_ 1 1#1) rd hu ValueIdx.ix0 = 1#1) :
    Cert.Alg.IsReal x := by
  refine Cert.Alg.IsReal.of_forall fun i => ?_
  have hi := Host.reduce_andi_all _ _ rd hu ValueIdx.ix0 e i
  have hi' : Ideal.cmp .olt (max (x i) (-(x i))) (Ideal.ofBits .f32 0x7F800000#32) = 1#1 := hi
  rw [inf_pattern] at hi'
  refine real_of_abs_lt_top (x i) ?_
  by_contra hn
  simp [Ideal.cmp, hn] at hi'

theorem real_of_pre [Facts]
    (a0 : FVec Ideal S100000x128 .f32) (a1 : IVec S2x1600000 32) (a2 : IVec S100000 32)
    (a3 : FVec Ideal S4x128x128 .f32) (a4 : FVec Ideal S4x128 .f32) (a5 : FVec Ideal S4x128 .f32)
    (a6 : FVec Ideal S4x128 .f32) (a7 : FVec Ideal S4x128x128 .f32) (a8 : FVec Ideal S4x128 .f32)
    (a9 : FVec Ideal S128x128 .f32) (a10 : FVec Ideal S128 .f32) (a11 : FVec Ideal S128x32 .f32)
    (a12 : FVec Ideal S32 .f32)
    (h : fn (F := Ideal) a0 a1 a2 a3 a4 a5 a6 a7 a8 a9 a10 a11 a12 = fun _ => 1#1) :
    Cert.Alg.IsReal a0 ∧ Cert.Alg.IsReal a3 ∧ Cert.Alg.IsReal a4 ∧ Cert.Alg.IsReal a5 ∧ Cert.Alg.IsReal a6 ∧
      Cert.Alg.IsReal a7 ∧ Cert.Alg.IsReal a8 ∧ Cert.Alg.IsReal a9 ∧ Cert.Alg.IsReal a10 ∧ Cert.Alg.IsReal a11 ∧
      Cert.Alg.IsReal a12 := by
  have h0 := congrFun h ValueIdx.ix0
  dsimp only [fn, fn_part1, fn_part2, fn_part3] at h0
  simp only [andi, IntOp.andi_eq_one] at h0
  obtain ⟨⟨⟨⟨⟨⟨⟨⟨⟨⟨e0, e3⟩, e4⟩, e5⟩, e6⟩, e7⟩, e8⟩, e9⟩, e10⟩, e11⟩, e12⟩ := h0
  exact ⟨isReal_of_all a0 _ _ _ e0, isReal_of_all a3 _ _ _ e3, isReal_of_all a4 _ _ _ e4,
    isReal_of_all a5 _ _ _ e5, isReal_of_all a6 _ _ _ e6, isReal_of_all a7 _ _ _ e7,
    isReal_of_all a8 _ _ _ e8, isReal_of_all a9 _ _ _ e9, isReal_of_all a10 _ _ _ e10,
    isReal_of_all a11 _ _ _ e11, isReal_of_all a12 _ _ _ e12⟩

end Cert.PreFin
-- ==== Proof.lean ====
/-
  A four-layer graph network (neighbour sums, a linear map, batch normalisation, a rectifier, a second linear map, a
  rectifier), sum pooling per graph and a two-layer perceptron, against its reference. Over the reals the kernel's
  `E[y²] − (E[y])²` folded into one scale and one shift is the reference's `((y − mean) · rsqrt(var + ε)) · γ + β`, and the
  one-hot pooling product is the segment sum; over the extended reals these laws want every quantity real, which the
  precondition gives for the inputs and each layer keeps.
-/
import proofs.«404458_j53163105190632_2_alg».proof.Defs
import proofs.«404458_j53163105190632_2_alg».proof.Proof.Gen.Kernel
import proofs.«404458_j53163105190632_2_alg».proof.Proof.Gen.KernelIdeal
import proofs.«404458_j53163105190632_2_alg».proof.Proof.Gen.ReferenceIdeal
import proofs.«404458_j53163105190632_2_alg».proof.Proof.Gen.Pre_finite_inputs
import proofs.«404458_j53163105190632_2_alg».proof.Proof.K.Run
import proofs.«404458_j53163105190632_2_alg».proof.Proof.KI.Run
import proofs.«404458_j53163105190632_2_alg».proof.Proof.Ref.Run
import proofs.«404458_j53163105190632_2_alg».proof.Proof.Final
import proofs.«404458_j53163105190632_2_alg».proof.Proof.PreFin

noncomputable section

namespace Cert.Proof

open Idealize.ShloMosaic Idealize.SL.Sem

/-- Each program runs to the end without a fault and leaves its arguments as launched: its run, with the result dropped. -/
theorem frame_p : Cert.frame_Kernel := fun m ρ _ =>
  (θ_run Cert.Kernel.defs _ _).mono (fun _ h c => (h c).2) (Cert.Kernel.Hand.run (F := Bits) m ρ)

theorem frame_pi : Cert.frame_KernelIdeal := fun m ρ _ =>
  (θ_run Cert.KernelIdeal.defs _ _).mono (fun _ h c => (h c).2) (Cert.KernelIdeal.Hand.run (F := Ideal) m ρ)

theorem frame_ri : Cert.frame_ReferenceIdeal := fun m ρ _ =>
  (θ_run Cert.ReferenceIdeal.defs _ _).mono (fun _ h c => (h c).2) (Cert.ReferenceIdeal.Hand.run m ρ)

/-- The idealisation rewrote nothing, so there is nothing to preserve. -/
theorem preserves : Cert.preserves_Kernel_KernelIdeal := trivial

/-- Both runs end at the reference's value of the arguments, the kernel's by `Final.value_eq` from the inputs being real. -/
theorem algebraic : Cert.algebraic_KernelIdeal_ReferenceIdeal := by
  intro m ρ m' ρ' hpre hagree
  refine ⟨fun c => Cert.ReferenceIdeal.Hand.refOut
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11))
      (m' ((c.tc : Thread Cert.ReferenceIdeal.nD Cert.ReferenceIdeal.τ).loc Cert.ReferenceIdeal.main_arg12)),
    ?_, Cert.ReferenceIdeal.Hand.run m' ρ'⟩
  refine (θ_run Cert.KernelIdeal.defs _ _).mono (fun r h c => ?_) (Cert.KernelIdeal.Hand.run (F := Ideal) m ρ)
  obtain ⟨h0, h1, h2, h3, h4, h5, h6, h7, h8, h9, h10, h11, h12⟩ := hagree c
  have hre := Cert.PreFin.real_of_pre _ _ _ _ _ _ _ _ _ _ _ _ _ (hpre c)
  rw [← h0, ← h3, ← h4, ← h5, ← h6, ← h7, ← h8, ← h9, ← h10, ← h11, ← h12] at hre
  exact ⟨(h c).1.trans (Cert.Final.value_eq m c _ _ _ _ _ _ _ _ _ _ _ _ _ h0 h1 h2 h3 h4 h5 h6 h7 h8 h9 h10 h11 h12 hre), (h c).2⟩

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
